-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v94) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128x64 : Shape := ⟨2, ![128, 64]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128x64 .f32) (main_arg6 : FVec F S128 .f32) (main_arg7 : FVec F S128 .f32) (main_arg8 : FVec F S128 .f32) (main_arg9 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128x128 .f32) (main_arg4 : FVec F S128x64 .f32) (main_arg5 : FVec F S128x64 .f32) (main_arg6 : FVec F S128 .f32) (main_arg7 : FVec F S128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128x64 : Shape := ⟨2, ![128, 64]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S800000x128 : Shape := ⟨2, ![800000, 128]⟩
abbrev S1x128 : Shape := ⟨2, ![1, 128]⟩
abbrev S2000x1 : Shape := ⟨2, ![2000, 1]⟩
abbrev S50000x64 : Shape := ⟨2, ![50000, 64]⟩

abbrev nBuf : Space → Nat
  | .hbm => 129
  | .vmem => 63
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128x64, .f32⟩
  | 5 => ⟨S128x64, .f32⟩
  | 6 => ⟨S128, .f32⟩
  | 7 => ⟨S128, .f32⟩
  | 8 => ⟨S128, .f32⟩
  | 9 => ⟨S128, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S50000, .f32⟩
  | 25 => ⟨S50000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S50000x128, .bf16⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .bf16⟩
  | 56 => ⟨S800000x128, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000x128, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S1x128, .f32⟩
  | 76 => ⟨S50000x128, .f32⟩
  | 77 => ⟨S50000x128, .bf16⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .bf16⟩
  | 87 => ⟨S800000x128, .f32⟩
  | 88 => ⟨S800000x128, .f32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S50000x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S1x128, .f32⟩
  | 105 => ⟨S1x128, .f32⟩
  | 106 => ⟨S1x128, .f32⟩
  | 107 => ⟨S50000x128, .f32⟩
  | 108 => ⟨S128x128, .f32⟩
  | 109 => ⟨S50000x128, .bf16⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .bf16⟩
  | 119 => ⟨S800000x128, .f32⟩
  | 120 => ⟨S800000x128, .f32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S50000x128, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2000x128, .bf16⟩
  | .local _ .vmem, ⟨6, _⟩ => ⟨S2000x128, .bf16⟩
  | .local _ .vmem, ⟨7, _⟩ => ⟨S2000x1, .f32⟩
  | .local _ .vmem, ⟨8, _⟩ => ⟨S2000x1, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S128x128, .f32⟩
  | .local _ .vmem, ⟨28, _⟩ => ⟨S2000x128, .bf16⟩
  | .local _ .vmem, ⟨29, _⟩ => ⟨S2000x128, .bf16⟩
  | .local _ .vmem, ⟨30, _⟩ => ⟨S2000x128, .bf16⟩
  | .local _ .vmem, ⟨31, _⟩ => ⟨S2000x128, .bf16⟩
  | .local _ .vmem, ⟨32, _⟩ => ⟨S2000x1, .f32⟩
  | .local _ .vmem, ⟨33, _⟩ => ⟨S2000x1, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S2000x128, .bf16⟩
  | .local _ .vmem, ⟨54, _⟩ => ⟨S2000x128, .bf16⟩
  | .local _ .vmem, ⟨55, _⟩ => ⟨S2000x128, .bf16⟩
  | .local _ .vmem, ⟨56, _⟩ => ⟨S2000x128, .bf16⟩
  | .local _ .vmem, ⟨57, _⟩ => ⟨S2000x1, .f32⟩
  | .local _ .vmem, ⟨58, _⟩ => ⟨S2000x1, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43_0 : Ref sig .tc := ⟨.hbm, 63, rfl⟩
abbrev main_v43_1 : Ref sig .tc := ⟨.hbm, 64, rfl⟩
abbrev main_v43_2 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67_0 : Ref sig .tc := ⟨.hbm, 94, rfl⟩
abbrev main_v67_1 : Ref sig .tc := ⟨.hbm, 95, rfl⟩
abbrev main_v67_2 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_15 : Ref sig .tc := ⟨.hbm, 110, rfl⟩
abbrev main_v79 : Ref sig .tc := ⟨.hbm, 111, rfl⟩
abbrev main_v80 : Ref sig .tc := ⟨.hbm, 112, rfl⟩
abbrev main_c_16 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_scratch0 : Ref sig .tc := ⟨.vmem, 15, rfl⟩
abbrev cc1_scratch1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg5_0 : Ref sig .tc := ⟨.vmem, 39, rfl⟩
abbrev cc4_scratch0 : Ref sig .tc := ⟨.vmem, 40, rfl⟩
abbrev cc4_scratch1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg2_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc7_stg3_0 : Ref sig .tc := ⟨.vmem, 61, rfl⟩
abbrev cc7_stg3_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem5_0 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem2_1 : DmaSem sig := 56
abbrev cc7_sem3_0 : DmaSem sig := 57
abbrev cc7_sem3_1 : DmaSem sig := 58

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v29 : BitVec 1 := Scalar.cmpi .eq arg0 c24_i32
  let v30 : BitVec 32 := Scalar.extui v29
  let c0_i32_17 : BitVec 32 := 0#32
  let v31 : BitVec 1 := Scalar.cmpi .ne v30 c0_i32_17
  v31

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v29 : BitVec 1 := Scalar.cmpi .eq arg0 c24_i32
  let v30 : BitVec 32 := Scalar.extui v29
  let c0_i32_17 : BitVec 32 := 0#32
  let v31 : BitVec 1 := Scalar.cmpi .ne v30 c0_i32_17
  v31

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  reduces_S2000x128_S128 : S2000x128.Reduces [0] S128
  shapeCasts_S128_S1x128 : S128.ShapeCasts S1x128
  bcast_S_S1x128 : S_.BroadcastsInDim S1x128 (![] : Fin 0 → Fin S1x128.rank)
  broadcasts_S1x128_S2000x128 : S1x128.Broadcasts S2000x128
  concatenates_S128x64_S128x64_S128x128_d1 : Shape.Concatenates [S128x64, S128x64] S128x128 1
  shapeCasts_S128x128_S128x128 : S128x128.ShapeCasts S128x128
  slices_S50000x128_S50000x64_0_0 : S50000x128.Slices ![0, 0] S50000x64
  slices_S50000x128_S50000x64_0_64 : S50000x128.Slices ![0, 64] S50000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .bf16 = 32 ∨ (Rect.block (s := S50000x128) S2000x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .bf16 = 32 ∨ (Rect.block (s := S50000x128) S2000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .bf16 = 32 ∨ (Rect.block (s := S50000x128) S2000x128.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .bf16 = 32 ∨ (Rect.block (s := S50000x128) S2000x128.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S50000x1.size a
  hwx7_1 : ∀ i : grid7.Coords, EltTy.bits .f32 = 32 ∨ (Rect.block (s := S50000x1) S2000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S50000x128.size a
  hwx7_2 : ∀ i : grid7.Coords, EltTy.bits .f32 = 32 ∨ (Rect.block (s := S50000x128) S2000x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v43_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v43_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v53) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v67_0) S2000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v67_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond2 i == 1#1) | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v67_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v76) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v76) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v78) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v12) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v91) S2000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v92) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128x64 : Shape := ⟨2, ![128, 64]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩

abbrev nBuf : Space → Nat
  | .hbm => 282
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128x64, .f32⟩
  | 5 => ⟨S128x64, .f32⟩
  | 6 => ⟨S128, .f32⟩
  | 7 => ⟨S128, .f32⟩
  | 8 => ⟨S128, .f32⟩
  | 9 => ⟨S128, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S50000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S800000x1, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S50000, .f32⟩
  | 61 => ⟨S50000x1, .f32⟩
  | 62 => ⟨S50000x128, .f32⟩
  | 63 => ⟨S50000x128, .f32⟩
  | 64 => ⟨S50000x128, .f32⟩
  | 65 => ⟨S_, .f32⟩
  | 66 => ⟨S128, .f32⟩
  | 67 => ⟨S_, .f32⟩
  | 68 => ⟨S128, .f32⟩
  | 69 => ⟨S128, .f32⟩
  | 70 => ⟨S_, .i32⟩
  | 71 => ⟨S_, .f32⟩
  | 72 => ⟨S128, .f32⟩
  | 73 => ⟨S1x128, .f32⟩
  | 74 => ⟨S_, .f32⟩
  | 75 => ⟨S1x128, .f32⟩
  | 76 => ⟨S1x128, .f32⟩
  | 77 => ⟨S50000x128, .f32⟩
  | 78 => ⟨S50000x128, .f32⟩
  | 79 => ⟨S50000x128, .f32⟩
  | 80 => ⟨S_, .f32⟩
  | 81 => ⟨S_, .f32⟩
  | 82 => ⟨S_, .f32⟩
  | 83 => ⟨S_, .f32⟩
  | 84 => ⟨S128, .f32⟩
  | 85 => ⟨S128, .f32⟩
  | 86 => ⟨S128, .f32⟩
  | 87 => ⟨S_, .f32⟩
  | 88 => ⟨S_, .i1⟩
  | 89 => ⟨S_, .f32⟩
  | 90 => ⟨S_, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S_, .f32⟩
  | 97 => ⟨S128, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000, .f32⟩
  | 3 => ⟨S800000, .f32⟩
  | 4 => ⟨S800000x1, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x128, .f32⟩
  | 14 => ⟨S800000x128, .f32⟩
  | 15 => ⟨S800000x128, .f32⟩
  | 16 => ⟨S_, .f32⟩
  | 17 => ⟨S50000x128, .f32⟩
  | 18 => ⟨S800000x1, .i32⟩
  | 19 => ⟨S50000x128, .f32⟩
  | 20 => ⟨S50000, .f32⟩
  | 21 => ⟨S50000x1, .f32⟩
  | 22 => ⟨S50000x128, .f32⟩
  | 23 => ⟨S50000x128, .f32⟩
  | 24 => ⟨S50000x128, .f32⟩
  | 25 => ⟨S_, .f32⟩
  | 26 => ⟨S128, .f32⟩
  | 27 => ⟨S_, .f32⟩
  | 28 => ⟨S128, .f32⟩
  | 29 => ⟨S128, .f32⟩
  | 30 => ⟨S_, .i32⟩
  | 31 => ⟨S_, .f32⟩
  | 32 => ⟨S128, .f32⟩
  | 33 => ⟨S1x128, .f32⟩
  | 34 => ⟨S_, .f32⟩
  | 35 => ⟨S1x128, .f32⟩
  | 36 => ⟨S1x128, .f32⟩
  | 37 => ⟨S50000x128, .f32⟩
  | 38 => ⟨S50000x128, .f32⟩
  | 39 => ⟨S50000x128, .f32⟩
  | 40 => ⟨S_, .f32⟩
  | 41 => ⟨S_, .f32⟩
  | 42 => ⟨S_, .f32⟩
  | 43 => ⟨S_, .f32⟩
  | 44 => ⟨S128, .f32⟩
  | 45 => ⟨S128, .f32⟩
  | 46 => ⟨S128, .f32⟩
  | 47 => ⟨S_, .f32⟩
  | 48 => ⟨S_, .i1⟩
  | 49 => ⟨S_, .f32⟩
  | 50 => ⟨S_, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S_, .f32⟩
  | 57 => ⟨S128, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S800000, .f32⟩
  | 92 => ⟨S800000x1, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x64, .f32⟩
  | 102 => ⟨S800000x64, .f32⟩
  | 103 => ⟨S800000x64, .f32⟩
  | 104 => ⟨S_, .f32⟩
  | 105 => ⟨S50000x64, .f32⟩
  | 106 => ⟨S800000x1, .i32⟩
  | 107 => ⟨S50000x64, .f32⟩
  | 108 => ⟨S50000, .f32⟩
  | 109 => ⟨S50000x1, .f32⟩
  | 110 => ⟨S50000x64, .f32⟩
  | 111 => ⟨S50000x64, .f32⟩
  | 112 => ⟨S50000x64, .f32⟩
  | 113 => ⟨S50000x64, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_2 (i : Nat) : BufTy := match i % 128 with
  | 0 => ⟨S800000, .i32⟩
  | 1 => ⟨S800000, .i32⟩
  | 2 => ⟨S800000x1, .i32⟩
  | 3 => ⟨S800000, .f32⟩
  | 4 => ⟨S800000, .f32⟩
  | 5 => ⟨S800000x1, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S800000x64, .f32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S50000, .f32⟩
  | 22 => ⟨S50000x1, .f32⟩
  | 23 => ⟨S50000x64, .f32⟩
  | 24 => ⟨S50000x64, .f32⟩
  | 25 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_call0_cst : Ref sig .tc := ⟨.hbm, 71, rfl⟩
abbrev main_call0_v0 : Ref sig .tc := ⟨.hbm, 72, rfl⟩
abbrev main_call0_v1 : Ref sig .tc := ⟨.hbm, 73, rfl⟩
abbrev main_call0_cst_0 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_cst_1 : Ref sig .tc := ⟨.hbm, 81, rfl⟩
abbrev main_call0_v8 : Ref sig .tc := ⟨.hbm, 82, rfl⟩
abbrev main_call0_cst_2 : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_cst_3 : Ref sig .tc := ⟨.hbm, 87, rfl⟩
abbrev main_call0_v12 : Ref sig .tc := ⟨.hbm, 88, rfl⟩
abbrev main_call0_cst_4 : Ref sig .tc := ⟨.hbm, 89, rfl⟩
abbrev main_call0_call0_v0 : Ref sig .tc := ⟨.hbm, 90, rfl⟩
abbrev main_call0_call0_v1 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_11 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_call1_cst : Ref sig .tc := ⟨.hbm, 109, rfl⟩
abbrev main_call1_v0 : Ref sig .tc := ⟨.hbm, 110, rfl⟩
abbrev main_v64 : Ref sig .tc := ⟨.hbm, 111, rfl⟩
abbrev main_v65 : Ref sig .tc := ⟨.hbm, 112, rfl⟩
abbrev main_c_12 : Ref sig .tc := ⟨.hbm, 113, rfl⟩
abbrev main_v66 : Ref sig .tc := ⟨.hbm, 114, rfl⟩
abbrev main_v67 : Ref sig .tc := ⟨.hbm, 115, rfl⟩
abbrev main_c_13 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_14 : Ref sig .tc := ⟨.hbm, 122, rfl⟩
abbrev main_v73 : Ref sig .tc := ⟨.hbm, 123, rfl⟩
abbrev main_v74 : Ref sig .tc := ⟨.hbm, 124, rfl⟩
abbrev main_c_15 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_c_16 : Ref sig .tc := ⟨.hbm, 133, rfl⟩
abbrev main_v82 : Ref sig .tc := ⟨.hbm, 134, rfl⟩
abbrev main_v83 : Ref sig .tc := ⟨.hbm, 135, rfl⟩
abbrev main_c_17 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst_18 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_19 : Ref sig .tc := ⟨.hbm, 153, rfl⟩
abbrev main_v99 : Ref sig .tc := ⟨.hbm, 154, rfl⟩
abbrev main_cst_20 : Ref sig .tc := ⟨.hbm, 155, rfl⟩
abbrev main_v100 : Ref sig .tc := ⟨.hbm, 156, rfl⟩
abbrev main_v101 : Ref sig .tc := ⟨.hbm, 157, rfl⟩
abbrev main_c_21 : Ref sig .tc := ⟨.hbm, 158, rfl⟩
abbrev main_call2_cst : Ref sig .tc := ⟨.hbm, 159, rfl⟩
abbrev main_call2_v0 : Ref sig .tc := ⟨.hbm, 160, rfl⟩
abbrev main_call2_v1 : Ref sig .tc := ⟨.hbm, 161, rfl⟩
abbrev main_call2_cst_0 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_call2_v5 : Ref sig .tc := ⟨.hbm, 166, rfl⟩
abbrev main_call2_v6 : Ref sig .tc := ⟨.hbm, 167, rfl⟩
abbrev main_call2_v7 : Ref sig .tc := ⟨.hbm, 168, rfl⟩
abbrev main_call2_cst_1 : Ref sig .tc := ⟨.hbm, 169, rfl⟩
abbrev main_call2_v8 : Ref sig .tc := ⟨.hbm, 170, rfl⟩
abbrev main_call2_cst_2 : Ref sig .tc := ⟨.hbm, 171, rfl⟩
abbrev main_call2_v9 : Ref sig .tc := ⟨.hbm, 172, rfl⟩
abbrev main_call2_v10 : Ref sig .tc := ⟨.hbm, 173, rfl⟩
abbrev main_call2_v11 : Ref sig .tc := ⟨.hbm, 174, rfl⟩
abbrev main_call2_cst_3 : Ref sig .tc := ⟨.hbm, 175, rfl⟩
abbrev main_call2_v12 : Ref sig .tc := ⟨.hbm, 176, rfl⟩
abbrev main_call2_cst_4 : Ref sig .tc := ⟨.hbm, 177, rfl⟩
abbrev main_call2_call0_v0 : Ref sig .tc := ⟨.hbm, 178, rfl⟩
abbrev main_call2_call0_v1 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_cst_22 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_call3_cst : Ref sig .tc := ⟨.hbm, 197, rfl⟩
abbrev main_call3_v0 : Ref sig .tc := ⟨.hbm, 198, rfl⟩
abbrev main_v118 : Ref sig .tc := ⟨.hbm, 199, rfl⟩
abbrev main_v119 : Ref sig .tc := ⟨.hbm, 200, rfl⟩
abbrev main_c_23 : Ref sig .tc := ⟨.hbm, 201, rfl⟩
abbrev main_v120 : Ref sig .tc := ⟨.hbm, 202, rfl⟩
abbrev main_v121 : Ref sig .tc := ⟨.hbm, 203, rfl⟩
abbrev main_c_24 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_c_25 : Ref sig .tc := ⟨.hbm, 210, rfl⟩
abbrev main_v127 : Ref sig .tc := ⟨.hbm, 211, rfl⟩
abbrev main_v128 : Ref sig .tc := ⟨.hbm, 212, rfl⟩
abbrev main_c_26 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_c_27 : Ref sig .tc := ⟨.hbm, 221, rfl⟩
abbrev main_v136 : Ref sig .tc := ⟨.hbm, 222, rfl⟩
abbrev main_v137 : Ref sig .tc := ⟨.hbm, 223, rfl⟩
abbrev main_c_28 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_cst_29 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_c_30 : Ref sig .tc := ⟨.hbm, 242, rfl⟩
abbrev main_v154 : Ref sig .tc := ⟨.hbm, 243, rfl⟩
abbrev main_v155 : Ref sig .tc := ⟨.hbm, 244, rfl⟩
abbrev main_c_31 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_c_32 : Ref sig .tc := ⟨.hbm, 251, rfl⟩
abbrev main_v161 : Ref sig .tc := ⟨.hbm, 252, rfl⟩
abbrev main_v162 : Ref sig .tc := ⟨.hbm, 253, rfl⟩
abbrev main_c_33 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_c_34 : Ref sig .tc := ⟨.hbm, 262, rfl⟩
abbrev main_v170 : Ref sig .tc := ⟨.hbm, 263, rfl⟩
abbrev main_v171 : Ref sig .tc := ⟨.hbm, 264, rfl⟩
abbrev main_c_35 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_cst_36 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KiReg0.lean ====
import proofs.«126291_j72541997629772_2_alg».proof.Proof.Gen.KernelIdeal.Launch
import proofs.«126291_j72541997629772_2_alg».proof.Proof.Gen.KernelIdeal.Skeleton
import proofs.«126291_j72541997629772_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

def out0_2 (x0 : Vec F S2000x128 .f32) (x1 : Vec F S128x128 .f32) : Vec F S2000x128 .bf16 :=
  View.canon [⟨r0_0, k0_pay1 (View.ld x0 r0_0) (View.ld x1 r0_1)⟩]

theorem cover0_2 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y

set_option maxHeartbeats 1000000 in

theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end

end Cert.KernelIdeal.Hand
-- ==== Proof.KiReg1Runs.lean ====
import proofs.«126291_j72541997629772_2_alg».proof.Proof.Gen.KernelIdeal.Launch
import proofs.«126291_j72541997629772_2_alg».proof.Proof.Gen.KernelIdeal.Skeleton
import proofs.«126291_j72541997629772_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1

theorem hcond1_1 : ∀ t : Fin cfg1.N, cond1_1 (grid1.coords t) ↔ t.val = 24 :=
  (by decide +kernel : ∀ t : Fin grid1.N, cond1_1 (grid1.coords t) ↔ t.val = 24)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel

theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

abbrev ms1_0 (t : Fin cfg1.N) : Memref sig .tc .vmem S2000x128 .bf16 := win1_0.stage (cfg1.slots t 0)
abbrev ms1_1 (t : Fin cfg1.N) : Memref sig .tc .vmem S2000x1 .f32 := win1_1.stage (cfg1.slots t 1)
abbrev ms1_2 (t : Fin cfg1.N) : Memref sig .tc .vmem S2000x128 .f32 := win1_2.stage (cfg1.slots t 2)
abbrev ms1_3 (t : Fin cfg1.N) : Memref sig .tc .vmem S2000x128 .f32 := win1_3.stage (cfg1.slots t 3)
abbrev ms1_4 (t : Fin cfg1.N) : Memref sig .tc .vmem S1x128 .f32 := win1_4.stage (cfg1.slots t 4)
abbrev ms1_5 (t : Fin cfg1.N) : Memref sig .tc .vmem S1x128 .f32 := win1_5.stage (cfg1.slots t 5)
abbrev scM1_0 : Memref sig .tc .vmem S1x128 .f32 := Memref.whole cc1_scratch0
abbrev scM1_1 : Memref sig .tc .vmem S1x128 .f32 := Memref.whole cc1_scratch1

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

set_option maxHeartbeats 1000000 in

noncomputable def kernelRun1_A (c : Dev nD) (i : grid1.Coords) (arg1 : Memref sig .tc .vmem S2000x128 .bf16) (harg1 : arg1.IsWhole) (arg2 : Memref sig .tc .vmem S2000x1 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S2000x128 .bf16) (x1 : Vec F S2000x1 .f32) (x2 : Vec F S2000x128 .f32) :
    Σ' (L3 : List (View.Piece (Elt F) S2000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__combine_reduce_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc1__combine_reduce_kernel_eq_skeleton]; unfold cc1__combine_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in

noncomputable def kernelRun1_B (c : Dev nD) (i : grid1.Coords) (arg1 : Memref sig .tc .vmem S2000x128 .bf16) (harg1 : arg1.IsWhole) (arg2 : Memref sig .tc .vmem S2000x1 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S2000x128 .bf16) (x1 : Vec F S2000x1 .f32) (x2 : Vec F S2000x128 .f32) (xs0 : Vec F S1x128 .f32) (xs1 : Vec F S1x128 .f32) :
    Σ' (L3 : List (View.Piece (Elt F) S2000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__combine_reduce_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc1__combine_reduce_kernel_eq_skeleton]; unfold cc1__combine_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in

noncomputable def kernelRun1_C (c : Dev nD) (i : grid1.Coords) (arg1 : Memref sig .tc .vmem S2000x128 .bf16) (harg1 : arg1.IsWhole) (arg2 : Memref sig .tc .vmem S2000x1 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S2000x128 .bf16) (x1 : Vec F S2000x1 .f32) (x2 : Vec F S2000x128 .f32) (xs0 : Vec F S1x128 .f32) (xs1 : Vec F S1x128 .f32) :
    Σ' (L3 : List (View.Piece (Elt F) S2000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__combine_reduce_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc1__combine_reduce_kernel_eq_skeleton]; unfold cc1__combine_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.KiReg1.lean ====
import proofs.«126291_j72541997629772_2_alg».proof.Proof.KiReg1Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

abbrev r1_0 : Rect S2000x128 := Rect.unit (s := S2000x128) ![0, 0] S2000x128.size inb_S2000x128_S2000x128_0_0
abbrev r1_1 : Rect S2000x1 := Rect.unit (s := S2000x1) ![0, 0] S2000x1.size inb_S2000x1_S2000x1_0_0
abbrev r1_2 : Rect S1x128 := Rect.unit (s := S1x128) ![0, 0] S1x128.size inb_S1x128_S1x128_0_0

def out1_3 (x0 : Vec F S2000x128 .bf16) (x1 : Vec F S2000x1 .f32) (x2 : Vec F S2000x128 .f32) : Vec F S2000x128 .f32 :=
  View.canon [⟨r1_0, k1_pay3 (View.ld x0 r1_0) (View.ld x1 r1_1) (View.ld x2 r1_0)⟩]

def out1_4 (s : Vec F S1x128 .f32) : Vec F S1x128 .f32 := View.canon [⟨r1_2, s⟩]

def out1_5 (s : Vec F S1x128 .f32) : Vec F S1x128 .f32 := View.canon [⟨r1_2, s⟩]

section Pieces
variable (c : Dev nD) (i : grid1.Coords) (arg1 : Memref sig .tc .vmem S2000x128 .bf16) (harg1 : arg1.IsWhole) (arg2 : Memref sig .tc .vmem S2000x1 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)

theorem p3_A (hc0 : cond1_0 i) (hc1 : ¬cond1_1 i) (x0 : Vec F S2000x128 .bf16) (x1 : Vec F S2000x1 .f32) (x2 : Vec F S2000x128 .f32) (v : View sig .tc .vmem S2000x128 .f32) (f : v.ty.Contents (Elt F)) :
    v.read (Elt F) (v.writes (Elt F) f (kernelRun1_A c i arg1 harg1 arg2 harg2 arg3 harg3 arg4 harg4 arg5 harg5 arg6 harg6 arg7 harg7 arg8 harg8 hc0 hc1 x0 x1 x2).1) = out1_3 x0 x1 x2 := by
  unfold kernelRun1_A; dsimp only
  refine (View.read_writes_eq_canon _ _ _ ?_).trans ?_
  · exact fun y => ⟨_, List.Mem.head _, View.mem_set_unit_zero (S := S2000x128) hz1 inb_S2000x128_S2000x128_0_0 y⟩
  unfold out1_3
  simp only [View.readAt_eq_ld, Memref.IsWhole.read_unread]
  try rfl

theorem p3_B (hc0 : ¬cond1_0 i) (hc1 : ¬cond1_1 i) (x0 : Vec F S2000x128 .bf16) (x1 : Vec F S2000x1 .f32) (x2 : Vec F S2000x128 .f32) (xs0 : Vec F S1x128 .f32) (xs1 : Vec F S1x128 .f32) (v : View sig .tc .vmem S2000x128 .f32) (f : v.ty.Contents (Elt F)) :
    v.read (Elt F) (v.writes (Elt F) f (kernelRun1_B c i arg1 harg1 arg2 harg2 arg3 harg3 arg4 harg4 arg5 harg5 arg6 harg6 arg7 harg7 arg8 harg8 hc0 hc1 x0 x1 x2 xs0 xs1).1) = out1_3 x0 x1 x2 := by
  unfold kernelRun1_B; dsimp only
  refine (View.read_writes_eq_canon _ _ _ ?_).trans ?_
  · exact fun y => ⟨_, List.Mem.head _, View.mem_set_unit_zero (S := S2000x128) hz1 inb_S2000x128_S2000x128_0_0 y⟩
  unfold out1_3
  simp only [View.readAt_eq_ld, Memref.IsWhole.read_unread]
  try rfl

theorem p3_C (hc0 : ¬cond1_0 i) (hc1 : cond1_1 i) (x0 : Vec F S2000x128 .bf16) (x1 : Vec F S2000x1 .f32) (x2 : Vec F S2000x128 .f32) (xs0 : Vec F S1x128 .f32) (xs1 : Vec F S1x128 .f32) (v : View sig .tc .vmem S2000x128 .f32) (f : v.ty.Contents (Elt F)) :
    v.read (Elt F) (v.writes (Elt F) f (kernelRun1_C c i arg1 harg1 arg2 harg2 arg3 harg3 arg4 harg4 arg5 harg5 arg6 harg6 arg7 harg7 arg8 harg8 hc0 hc1 x0 x1 x2 xs0 xs1).1) = out1_3 x0 x1 x2 := by
  unfold kernelRun1_C; dsimp only
  refine (View.read_writes_eq_canon _ _ _ ?_).trans ?_
  · exact fun y => ⟨_, List.Mem.head _, View.mem_set_unit_zero (S := S2000x128) hz1 inb_S2000x128_S2000x128_0_0 y⟩
  unfold out1_3
  simp only [View.readAt_eq_ld, Memref.IsWhole.read_unread]
  try rfl

theorem pS0_A (hc0 : cond1_0 i) (hc1 : ¬cond1_1 i) (x0 : Vec F S2000x128 .bf16) (x1 : Vec F S2000x1 .f32) (x2 : Vec F S2000x128 .f32) (v : View sig .tc .vmem S1x128 .f32) (f : v.ty.Contents (Elt F)) :
    v.read (Elt F) (v.writes (Elt F) f (kernelRun1_A c i arg1 harg1 arg2 harg2 arg3 harg3 arg4 harg4 arg5 harg5 arg6 harg6 arg7 harg7 arg8 harg8 hc0 hc1 x0 x1 x2).2.1) = k1_pay4 x0 x1 x2 k1_pay1 := by
  unfold kernelRun1_A; dsimp only
  refine (View.read_writes_eq_canon _ _ _ ?_).trans ?_
  · exact fun y => ⟨_, List.Mem.head _, View.mem_set_unit_zero (S := S1x128) hz1 inb_S1x128_S1x128_0_0 y⟩
  sl_unfold_words
  rw [View.canon_cons_unit_zero (S := S1x128) hz1]
  simp only [View.readAt_eq_ld, Memref.IsWhole.read_unread, View.ld_unit_zero (S := S2000x128) hz1, View.ld_unit_zero (S := S2000x1) hz1, View.ld_unit_zero (S := S1x128) hz1, View.readCov_unit_zero (S := S1x128) _ hz1]

theorem pS1_A (hc0 : cond1_0 i) (hc1 : ¬cond1_1 i) (x0 : Vec F S2000x128 .bf16) (x1 : Vec F S2000x1 .f32) (x2 : Vec F S2000x128 .f32) (v : View sig .tc .vmem S1x128 .f32) (f : v.ty.Contents (Elt F)) :
    v.read (Elt F) (v.writes (Elt F) f (kernelRun1_A c i arg1 harg1 arg2 harg2 arg3 harg3 arg4 harg4 arg5 harg5 arg6 harg6 arg7 harg7 arg8 harg8 hc0 hc1 x0 x1 x2).2.2.1) = k1_pay5 x0 x1 x2 k1_pay2 := by
  unfold kernelRun1_A; dsimp only
  refine (View.read_writes_eq_canon _ _ _ ?_).trans ?_
  · exact fun y => ⟨_, List.Mem.head _, View.mem_set_unit_zero (S := S1x128) hz1 inb_S1x128_S1x128_0_0 y⟩
  sl_unfold_words
  rw [View.canon_cons_unit_zero (S := S1x128) hz1]
  simp only [View.readAt_eq_ld, Memref.IsWhole.read_unread, View.ld_unit_zero (S := S2000x128) hz1, View.ld_unit_zero (S := S2000x1) hz1, View.ld_unit_zero (S := S1x128) hz1, View.readCov_unit_zero (S := S1x128) _ hz1]

theorem pS0_B (hc0 : ¬cond1_0 i) (hc1 : ¬cond1_1 i) (x0 : Vec F S2000x128 .bf16) (x1 : Vec F S2000x1 .f32) (x2 : Vec F S2000x128 .f32) (xs0 : Vec F S1x128 .f32) (xs1 : Vec F S1x128 .f32) (v : View sig .tc .vmem S1x128 .f32) (f : v.ty.Contents (Elt F)) :
    v.read (Elt F) (v.writes (Elt F) f (kernelRun1_B c i arg1 harg1 arg2 harg2 arg3 harg3 arg4 harg4 arg5 harg5 arg6 harg6 arg7 harg7 arg8 harg8 hc0 hc1 x0 x1 x2 xs0 xs1).2.1) = k1_pay4 x0 x1 x2 xs0 := by
  unfold kernelRun1_B; dsimp only
  refine (View.read_writes_eq_canon _ _ _ ?_).trans ?_
  · exact fun y => ⟨_, List.Mem.head _, View.mem_set_unit_zero (S := S1x128) hz1 inb_S1x128_S1x128_0_0 y⟩
  rw [View.canon_unit_zero (S := S1x128) hz1]
  simp only [View.readAt_eq_ld, Memref.IsWhole.read_unread, View.ld_unit_zero (S := S2000x128) hz1, View.ld_unit_zero (S := S2000x1) hz1, View.ld_unit_zero (S := S1x128) hz1, View.readCov_unit_zero (S := S1x128) _ hz1]

theorem pS1_B (hc0 : ¬cond1_0 i) (hc1 : ¬cond1_1 i) (x0 : Vec F S2000x128 .bf16) (x1 : Vec F S2000x1 .f32) (x2 : Vec F S2000x128 .f32) (xs0 : Vec F S1x128 .f32) (xs1 : Vec F S1x128 .f32) (v : View sig .tc .vmem S1x128 .f32) (f : v.ty.Contents (Elt F)) :
    v.read (Elt F) (v.writes (Elt F) f (kernelRun1_B c i arg1 harg1 arg2 harg2 arg3 harg3 arg4 harg4 arg5 harg5 arg6 harg6 arg7 harg7 arg8 harg8 hc0 hc1 x0 x1 x2 xs0 xs1).2.2.1) = k1_pay5 x0 x1 x2 xs1 := by
  unfold kernelRun1_B; dsimp only
  refine (View.read_writes_eq_canon _ _ _ ?_).trans ?_
  · exact fun y => ⟨_, List.Mem.head _, View.mem_set_unit_zero (S := S1x128) hz1 inb_S1x128_S1x128_0_0 y⟩
  rw [View.canon_unit_zero (S := S1x128) hz1]
  simp only [View.readAt_eq_ld, Memref.IsWhole.read_unread, View.ld_unit_zero (S := S2000x128) hz1, View.ld_unit_zero (S := S2000x1) hz1, View.ld_unit_zero (S := S1x128) hz1, View.readCov_unit_zero (S := S1x128) _ hz1]

theorem pS0_C (hc0 : ¬cond1_0 i) (hc1 : cond1_1 i) (x0 : Vec F S2000x128 .bf16) (x1 : Vec F S2000x1 .f32) (x2 : Vec F S2000x128 .f32) (xs0 : Vec F S1x128 .f32) (xs1 : Vec F S1x128 .f32) (v : View sig .tc .vmem S1x128 .f32) (f : v.ty.Contents (Elt F)) :
    v.read (Elt F) (v.writes (Elt F) f (kernelRun1_C c i arg1 harg1 arg2 harg2 arg3 harg3 arg4 harg4 arg5 harg5 arg6 harg6 arg7 harg7 arg8 harg8 hc0 hc1 x0 x1 x2 xs0 xs1).2.2.2.1) = k1_pay4 x0 x1 x2 xs0 := by
  unfold kernelRun1_C; dsimp only
  sl_unfold_words
  refine (View.read_writes_eq_canon _ _ _ ?_).trans ?_
  · exact fun y => ⟨_, List.Mem.head _, View.mem_set_unit_zero (S := S1x128) hz1 inb_S1x128_S1x128_0_0 y⟩
  rw [View.canon_unit_zero (S := S1x128) hz1]
  simp only [View.readAt_eq_ld, Memref.IsWhole.read_unread, View.ld_unit_zero (S := S2000x128) hz1, View.ld_unit_zero (S := S2000x1) hz1, View.ld_unit_zero (S := S1x128) hz1, View.readCov_unit_zero (S := S1x128) _ hz1]

theorem pS1_C (hc0 : ¬cond1_0 i) (hc1 : cond1_1 i) (x0 : Vec F S2000x128 .bf16) (x1 : Vec F S2000x1 .f32) (x2 : Vec F S2000x128 .f32) (xs0 : Vec F S1x128 .f32) (xs1 : Vec F S1x128 .f32) (v : View sig .tc .vmem S1x128 .f32) (f : v.ty.Contents (Elt F)) :
    v.read (Elt F) (v.writes (Elt F) f (kernelRun1_C c i arg1 harg1 arg2 harg2 arg3 harg3 arg4 harg4 arg5 harg5 arg6 harg6 arg7 harg7 arg8 harg8 hc0 hc1 x0 x1 x2 xs0 xs1).2.2.2.2.1) = k1_pay5 x0 x1 x2 xs1 := by
  unfold kernelRun1_C; dsimp only
  sl_unfold_words
  refine (View.read_writes_eq_canon _ _ _ ?_).trans ?_
  · exact fun y => ⟨_, List.Mem.head _, View.mem_set_unit_zero (S := S1x128) hz1 inb_S1x128_S1x128_0_0 y⟩
  rw [View.canon_unit_zero (S := S1x128) hz1]
  simp only [View.readAt_eq_ld, Memref.IsWhole.read_unread, View.ld_unit_zero (S := S2000x128) hz1, View.ld_unit_zero (S := S2000x1) hz1, View.ld_unit_zero (S := S1x128) hz1, View.readCov_unit_zero (S := S1x128) _ hz1]

theorem p4_C (hc0 : ¬cond1_0 i) (hc1 : cond1_1 i) (x0 : Vec F S2000x128 .bf16) (x1 : Vec F S2000x1 .f32) (x2 : Vec F S2000x128 .f32) (xs0 : Vec F S1x128 .f32) (xs1 : Vec F S1x128 .f32) (v : View sig .tc .vmem S1x128 .f32) (f : v.ty.Contents (Elt F)) :
    v.read (Elt F) (v.writes (Elt F) f (kernelRun1_C c i arg1 harg1 arg2 harg2 arg3 harg3 arg4 harg4 arg5 harg5 arg6 harg6 arg7 harg7 arg8 harg8 hc0 hc1 x0 x1 x2 xs0 xs1).2.1) = out1_4 (k1_pay4 x0 x1 x2 xs0) := by
  unfold kernelRun1_C; dsimp only
  sl_unfold_words
  refine (View.read_writes_eq_canon _ _ _ ?_).trans ?_
  · exact fun y => ⟨_, List.Mem.head _, View.mem_set_unit_zero (S := S1x128) hz1 inb_S1x128_S1x128_0_0 y⟩
  unfold out1_4
  simp only [View.readAt_eq_ld, Memref.IsWhole.read_unread, View.ld_unit_zero (S := S2000x128) hz1, View.ld_unit_zero (S := S2000x1) hz1, View.ld_unit_zero (S := S1x128) hz1, View.readCov_unit_zero (S := S1x128) _ hz1]
  try rfl

theorem p5_C (hc0 : ¬cond1_0 i) (hc1 : cond1_1 i) (x0 : Vec F S2000x128 .bf16) (x1 : Vec F S2000x1 .f32) (x2 : Vec F S2000x128 .f32) (xs0 : Vec F S1x128 .f32) (xs1 : Vec F S1x128 .f32) (v : View sig .tc .vmem S1x128 .f32) (f : v.ty.Contents (Elt F)) :
    v.read (Elt F) (v.writes (Elt F) f (kernelRun1_C c i arg1 harg1 arg2 harg2 arg3 harg3 arg4 harg4 arg5 harg5 arg6 harg6 arg7 harg7 arg8 harg8 hc0 hc1 x0 x1 x2 xs0 xs1).2.2.1) = out1_5 (k1_pay5 x0 x1 x2 xs1) := by
  unfold kernelRun1_C; dsimp only
  sl_unfold_words
  refine (View.read_writes_eq_canon _ _ _ ?_).trans ?_
  · exact fun y => ⟨_, List.Mem.head _, View.mem_set_unit_zero (S := S1x128) hz1 inb_S1x128_S1x128_0_0 y⟩
  unfold out1_5
  simp only [View.readAt_eq_ld, Memref.IsWhole.read_unread, View.ld_unit_zero (S := S2000x128) hz1, View.ld_unit_zero (S := S2000x1) hz1, View.ld_unit_zero (S := S1x128) hz1, View.readCov_unit_zero (S := S1x128) _ hz1]
  try rfl

end Pieces

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

def scr1 (c : Dev nD) : ℕ → Vec F S1x128 .f32 × Vec F S1x128 .f32
  | 0 => (k1_pay1, k1_pay2)
  | n + 1 =>
    if h : n < cfg1.N then
      (k1_pay4 (iblk1 V c 0 ⟨n, h⟩) (iblk1 V c 1 ⟨n, h⟩) (iblk1 V c 2 ⟨n, h⟩) (scr1 c n).1,
       k1_pay5 (iblk1 V c 0 ⟨n, h⟩) (iblk1 V c 1 ⟨n, h⟩) (iblk1 V c 2 ⟨n, h⟩) (scr1 c n).2)
    else scr1 c n

theorem scr1_of_eq_zero (c : Dev nD) (n : ℕ) (hz : n = 0) : scr1 V c n = (k1_pay1, k1_pay2) := by subst hz; rfl

theorem scr1_succ (c : Dev nD) (t : Fin cfg1.N) :
    scr1 V c (t.val + 1) = (k1_pay4 (iblk1 V c 0 t) (iblk1 V c 1 t) (iblk1 V c 2 t) (scr1 V c t.val).1,
      k1_pay5 (iblk1 V c 0 t) (iblk1 V c 1 t) (iblk1 V c 2 t) (scr1 V c t.val).2) := by
  obtain ⟨n, hn⟩ := t
  exact dif_pos hn

def PhiS1 (c : Dev nD) : ℕ → sProp 𝕄
  | 0 => Pipeline.ΦA spec1 c
  | n + 1 => iprop(iprop(iprop(owns (c : Thread nD τ) scM1_0 fullShare (scr1 V c (n + 1)).1 ∗ owns (c : Thread nD τ) scM1_1 fullShare (scr1 V c (n + 1)).2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (hz : n = 0) : PhiS1 V c n = Pipeline.ΦA spec1 c := by subst hz; rfl

theorem PhiS1_succ (c : Dev nD) (n : ℕ) : PhiS1 V c (n + 1) = iprop(iprop(iprop(owns (c : Thread nD τ) scM1_0 fullShare (scr1 V c (n + 1)).1 ∗ owns (c : Thread nD τ) scM1_1 fullShare (scr1 V c (n + 1)).2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (hz : n ≠ 0) : PhiS1 V c n = iprop(iprop(iprop(owns (c : Thread nD τ) scM1_0 fullShare (scr1 V c n).1 ∗ owns (c : Thread nD τ) scM1_1 fullShare (scr1 V c n).2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (scr1 V c 25).1
    | ⟨5, _⟩ => out1_5 (scr1 V c 25).2
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) : (dat1 V c).after 4 t = out1_4 (scr1 V c 25).1 := by dsimp only [dat1]
theorem after1_5 (c : Dev nD) (t : Fin cfg1.N) : (dat1 V c).after 5 t = out1_5 (scr1 V c 25).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) from rfl, PhiS1_succ, scr1_succ V c t]
  rw [show (dat1 V c).Φ t.castSucc = PhiS1 V c t.val from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 25 := lt_of_lt_of_eq t.isLt (show cfg1.N = 25 from N_1)
  by_cases h0 : t.val = 0
  · have h1 : ¬t.val = 24 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [Dat.leavesExact_idle (dat1 V c) 5 t (idleAt1_5 t hc1) (noFlush1_5 t hc1)]
    rw [PhiS1_zero V c _ h0, PhiA1_eq, scr1_of_eq_zero V c _ h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ _ _ hc0 hc1 (iblk1 V c 0 t) (iblk1 V c 1 t) (iblk1 V c 2 t)).2.2.2 _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact pS0_A c _ _ _ _ _ _ _ _ _ _ _ _ _ _ _ _ _ _ _ _ _ _ _ _
          · unfold owns; iexists _; isplitr
            swap; · iexact HS1
            ipureintro; exact pS1_A c _ _ _ _ _ _ _ _ _ _ _ _ _ _ _ _ _ _ _ _ _ _ _ _
        · iexact HR
      · iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact p3_A c _ _ _ _ _ _ _ _ _ _ _ _ _ _ _ _ _ _ _ _ _ _ _ _
    isplitl [H4]; · iexists _; iexact H4
    iexists _; iexact H5
  · by_cases h1 : t.val = 24
    · have hc0 : ¬cond1_0 (grid1.coords t) := fun h => h0 ((hcond1_0 t).mp h)
      have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [show (dat1 V c).leavesExact 5 t = owns (c : Thread nD τ) (ms1_5 t) fullShare ((dat1 V c).after 5 t) from by
        unfold Dat.leavesExact; rw [liveAt1_5 t hc1], after1_5]
      rw [show scr1 V c 25 = scr1 V c (t.val + 1) from by rw [h1], scr1_succ V c t]
      rw [PhiS1_pos V c _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ hc0 hc1 (iblk1 V c 0 t) (iblk1 V c 1 t) (iblk1 V c 2 t) (scr1 V c t.val).1 (scr1 V c t.val).2).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact pS0_C c _ _ _ _ _ _ _ _ _ _ _ _ _ _ _ _ _ _ _ _ _ _ _ _ _ _
            · unfold owns; iexists _; isplitr
              swap; · iexact HS1
              ipureintro; exact pS1_C c _ _ _ _ _ _ _ _ _ _ _ _ _ _ _ _ _ _ _ _ _ _ _ _ _ _
          · iexact HR
        · iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact p3_C c _ _ _ _ _ _ _ _ _ _ _ _ _ _ _ _ _ _ _ _ _ _ _ _ _ _
      isplitl [H4]
      · unfold owns; iexists _; isplitr
        swap; · iexact H4
        ipureintro; exact p4_C c _ _ _ _ _ _ _ _ _ _ _ _ _ _ _ _ _ _ _ _ _ _ _ _ _ _
      unfold owns; iexists _; isplitr
      swap; · iexact H5
      ipureintro; exact p5_C c _ _ _ _ _ _ _ _ _ _ _ _ _ _ _ _ _ _ _ _ _ _ _ _ _ _
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 4 t (idleAt1_4 t hc1) (noFlush1_4 t hc1)]
      rw [Dat.leavesExact_idle (dat1 V c) 5 t (idleAt1_5 t hc1) (noFlush1_5 t hc1)]
      rw [PhiS1_pos V c _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ hc0 hc1 (iblk1 V c 0 t) (iblk1 V c 1 t) (iblk1 V c 2 t) (scr1 V c t.val).1 (scr1 V c t.val).2).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact pS0_B c _ _ _ _ _ _ _ _ _ _ _ _ _ _ _ _ _ _ _ _ _ _ _ _ _ _
            · unfold owns; iexists _; isplitr
              swap; · iexact HS1
              ipureintro; exact pS1_B c _ _ _ _ _ _ _ _ _ _ _ _ _ _ _ _ _ _ _ _ _ _ _ _ _ _
          · iexact HR
        · iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact p3_B c _ _ _ _ _ _ _ _ _ _ _ _ _ _ _ _ _ _ _ _ _ _ _ _ _ _
      isplitl [H4]; · iexists _; iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 (F := F) V c).Φ 0 := by
  rw [show (dat1 V c).Φ 0 = PhiS1 V c 0 from rfl, PhiS1_zero V c 0 rfl]
  try exact Idealize.SL.BI.Entails.refl _

theorem Phi_out1 (c : Dev nD) (t : Fin (cfg1.N + 1)) (ht : t.val ≠ 0) : (dat1 (F := F) V c).Φ t ⊢ Pipeline.ΦA spec1 c := by
  rw [show (dat1 V c).Φ t = PhiS1 V c t.val from rfl, PhiS1_pos V c _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  · iexact Hg

theorem hout1 (c : Dev nD) : (dat1 (F := F) V c).Φ (Fin.last cfg1.N) ⊢ Pipeline.ΦA spec1 c :=
  Phi_out1 V c _ (by rw [Fin.val_last]; have : cfg1.N = 25 := N_1; omega)

end Region

end Cert.KernelIdeal.Hand

end
-- ==== Proof.KiReg2.lean ====
import proofs.«126291_j72541997629772_2_alg».proof.Proof.Gen.KernelIdeal.Launch
import proofs.«126291_j72541997629772_2_alg».proof.Proof.Gen.KernelIdeal.Skeleton
import proofs.«126291_j72541997629772_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0

def out2_5 (x0 : Vec F S2000x128 .f32) (x1 x2 x3 x4 : Vec F S1x128 .f32) : Vec F S2000x128 .f32 :=
  View.canon [⟨r2_0, k2_pay1 (View.ld x0 r2_0) (View.ld x3 r2_1) (View.ld x4 r2_1) (View.ld x1 r2_1) (View.ld x2 r2_1)⟩]

theorem cover2_5 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in

theorem sound_kernel2 (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KiReg3.lean ====
import proofs.«126291_j72541997629772_2_alg».proof.Proof.Gen.KernelIdeal.Launch
import proofs.«126291_j72541997629772_2_alg».proof.Proof.Gen.KernelIdeal.Skeleton
import proofs.«126291_j72541997629772_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0

def out3_2 (x0 : Vec F S2000x128 .f32) (x1 : Vec F S128x128 .f32) : Vec F S2000x128 .bf16 :=
  View.canon [⟨r3_0, k3_pay1 (View.ld x0 r3_0) (View.ld x1 r3_1)⟩]

theorem cover3_2 (p0 : Vec F S2000x128 .bf16) (y : S2000x128.Idx) :
    ∃ pc ∈ ([⟨r3_0, p0⟩] : List (View.Piece (Elt F) S2000x128 .bf16)), y ∈ pc.1.set :=
  View.cover_of_tiled [⟨r3_0, p0⟩] S2000x128.size (by rfl) y

set_option maxHeartbeats 1000000 in

theorem sound_kernel3 (c : Dev nD) (E : Set ℕ) (i : grid3.Coords)
    (arg1 : Memref sig .tc .vmem S2000x128 .f32) (harg1 : arg1.IsWhole)
    (arg2 : Memref sig .tc .vmem S128x128 .f32) (harg2 : arg2.IsWhole)
    (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end

end Cert.KernelIdeal.Hand
-- ==== Proof.KiReg4Runs.lean ====
import proofs.«126291_j72541997629772_2_alg».proof.Proof.Gen.KernelIdeal.Launch
import proofs.«126291_j72541997629772_2_alg».proof.Proof.Gen.KernelIdeal.Skeleton
import proofs.«126291_j72541997629772_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1

theorem hcond4_1 : ∀ t : Fin cfg4.N, cond4_1 (grid4.coords t) ↔ t.val = 24 :=
  (by decide +kernel : ∀ t : Fin grid4.N, cond4_1 (grid4.coords t) ↔ t.val = 24)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel

theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel

theorem liveAt4_4 : ∀ t : Fin cfg4.N, cond4_1 (grid4.coords t) → cfg4.idle 4 (grid4.coords t) = false := by decide +kernel
theorem liveAt4_5 : ∀ t : Fin cfg4.N, cond4_1 (grid4.coords t) → cfg4.idle 5 (grid4.coords t) = false := by decide +kernel

abbrev ms4_0 (t : Fin cfg4.N) : Memref sig .tc .vmem S2000x128 .bf16 := win4_0.stage (cfg4.slots t 0)
abbrev ms4_1 (t : Fin cfg4.N) : Memref sig .tc .vmem S2000x1 .f32 := win4_1.stage (cfg4.slots t 1)
abbrev ms4_2 (t : Fin cfg4.N) : Memref sig .tc .vmem S2000x128 .f32 := win4_2.stage (cfg4.slots t 2)
abbrev ms4_3 (t : Fin cfg4.N) : Memref sig .tc .vmem S2000x128 .f32 := win4_3.stage (cfg4.slots t 3)
abbrev ms4_4 (t : Fin cfg4.N) : Memref sig .tc .vmem S1x128 .f32 := win4_4.stage (cfg4.slots t 4)
abbrev ms4_5 (t : Fin cfg4.N) : Memref sig .tc .vmem S1x128 .f32 := win4_5.stage (cfg4.slots t 5)
abbrev scM4_0 : Memref sig .tc .vmem S1x128 .f32 := Memref.whole cc4_scratch0
abbrev scM4_1 : Memref sig .tc .vmem S1x128 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

set_option maxHeartbeats 1000000 in

noncomputable def kernelRun4_A (c : Dev nD) (i : grid4.Coords) (arg1 : Memref sig .tc .vmem S2000x128 .bf16) (harg1 : arg1.IsWhole) (arg2 : Memref sig .tc .vmem S2000x1 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S2000x128 .bf16) (x1 : Vec F S2000x1 .f32) (x2 : Vec F S2000x128 .f32) :
    Σ' (L3 : List (View.Piece (Elt F) S2000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__combine_reduce_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc4__combine_reduce_kernel_eq_skeleton]; unfold cc4__combine_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in

noncomputable def kernelRun4_B (c : Dev nD) (i : grid4.Coords) (arg1 : Memref sig .tc .vmem S2000x128 .bf16) (harg1 : arg1.IsWhole) (arg2 : Memref sig .tc .vmem S2000x1 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S2000x128 .bf16) (x1 : Vec F S2000x1 .f32) (x2 : Vec F S2000x128 .f32) (xs0 : Vec F S1x128 .f32) (xs1 : Vec F S1x128 .f32) :
    Σ' (L3 : List (View.Piece (Elt F) S2000x128 .f32)) (LS0 : List (View.Piece (Elt F) S1x128 .f32)), { LS1 : List (View.Piece (Elt F) S1x128 .f32) //
      ∀ (xi4 xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__combine_reduce_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc4__combine_reduce_kernel_eq_skeleton]; unfold cc4__combine_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in

noncomputable def kernelRun4_C (c : Dev nD) (i : grid4.Coords) (arg1 : Memref sig .tc .vmem S2000x128 .bf16) (harg1 : arg1.IsWhole) (arg2 : Memref sig .tc .vmem S2000x1 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S2000x128 .bf16) (x1 : Vec F S2000x1 .f32) (x2 : Vec F S2000x128 .f32) (xs0 : Vec F S1x128 .f32) (xs1 : Vec F S1x128 .f32) :
    Σ' (L3 : List (View.Piece (Elt F) S2000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__combine_reduce_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc4__combine_reduce_kernel_eq_skeleton]; unfold cc4__combine_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.KiReg4.lean ====
import proofs.«126291_j72541997629772_2_alg».proof.Proof.KiReg4Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz4 : (![0, 0] : Fin 2 → Nat) = fun _ => 0 := funext fun a => by fin_cases a <;> rfl

abbrev r4_0 : Rect S2000x128 := Rect.unit (s := S2000x128) ![0, 0] S2000x128.size inb_S2000x128_S2000x128_0_0
abbrev r4_1 : Rect S2000x1 := Rect.unit (s := S2000x1) ![0, 0] S2000x1.size inb_S2000x1_S2000x1_0_0
abbrev r4_2 : Rect S1x128 := Rect.unit (s := S1x128) ![0, 0] S1x128.size inb_S1x128_S1x128_0_0

def out4_3 (x0 : Vec F S2000x128 .bf16) (x1 : Vec F S2000x1 .f32) (x2 : Vec F S2000x128 .f32) : Vec F S2000x128 .f32 :=
  View.canon [⟨r4_0, k4_pay3 (View.ld x0 r4_0) (View.ld x1 r4_1) (View.ld x2 r4_0)⟩]

def out4_4 (s : Vec F S1x128 .f32) : Vec F S1x128 .f32 := View.canon [⟨r4_2, s⟩]

def out4_5 (s : Vec F S1x128 .f32) : Vec F S1x128 .f32 := View.canon [⟨r4_2, s⟩]

section Pieces
variable (c : Dev nD) (i : grid4.Coords) (arg1 : Memref sig .tc .vmem S2000x128 .bf16) (harg1 : arg1.IsWhole) (arg2 : Memref sig .tc .vmem S2000x1 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)

theorem p3_A_r4 (hc0 : cond4_0 i) (hc1 : ¬cond4_1 i) (x0 : Vec F S2000x128 .bf16) (x1 : Vec F S2000x1 .f32) (x2 : Vec F S2000x128 .f32) (v : View sig .tc .vmem S2000x128 .f32) (f : v.ty.Contents (Elt F)) :
    v.read (Elt F) (v.writes (Elt F) f (kernelRun4_A c i arg1 harg1 arg2 harg2 arg3 harg3 arg4 harg4 arg5 harg5 arg6 harg6 arg7 harg7 arg8 harg8 hc0 hc1 x0 x1 x2).1) = out4_3 x0 x1 x2 := by
  unfold kernelRun4_A; dsimp only
  refine (View.read_writes_eq_canon _ _ _ ?_).trans ?_
  · exact fun y => ⟨_, List.Mem.head _, View.mem_set_unit_zero (S := S2000x128) hz4 inb_S2000x128_S2000x128_0_0 y⟩
  unfold out4_3
  simp only [View.readAt_eq_ld, Memref.IsWhole.read_unread]
  try rfl

theorem p3_B_r4 (hc0 : ¬cond4_0 i) (hc1 : ¬cond4_1 i) (x0 : Vec F S2000x128 .bf16) (x1 : Vec F S2000x1 .f32) (x2 : Vec F S2000x128 .f32) (xs0 : Vec F S1x128 .f32) (xs1 : Vec F S1x128 .f32) (v : View sig .tc .vmem S2000x128 .f32) (f : v.ty.Contents (Elt F)) :
    v.read (Elt F) (v.writes (Elt F) f (kernelRun4_B c i arg1 harg1 arg2 harg2 arg3 harg3 arg4 harg4 arg5 harg5 arg6 harg6 arg7 harg7 arg8 harg8 hc0 hc1 x0 x1 x2 xs0 xs1).1) = out4_3 x0 x1 x2 := by
  unfold kernelRun4_B; dsimp only
  refine (View.read_writes_eq_canon _ _ _ ?_).trans ?_
  · exact fun y => ⟨_, List.Mem.head _, View.mem_set_unit_zero (S := S2000x128) hz4 inb_S2000x128_S2000x128_0_0 y⟩
  unfold out4_3
  simp only [View.readAt_eq_ld, Memref.IsWhole.read_unread]
  try rfl

theorem p3_C_r4 (hc0 : ¬cond4_0 i) (hc1 : cond4_1 i) (x0 : Vec F S2000x128 .bf16) (x1 : Vec F S2000x1 .f32) (x2 : Vec F S2000x128 .f32) (xs0 : Vec F S1x128 .f32) (xs1 : Vec F S1x128 .f32) (v : View sig .tc .vmem S2000x128 .f32) (f : v.ty.Contents (Elt F)) :
    v.read (Elt F) (v.writes (Elt F) f (kernelRun4_C c i arg1 harg1 arg2 harg2 arg3 harg3 arg4 harg4 arg5 harg5 arg6 harg6 arg7 harg7 arg8 harg8 hc0 hc1 x0 x1 x2 xs0 xs1).1) = out4_3 x0 x1 x2 := by
  unfold kernelRun4_C; dsimp only
  refine (View.read_writes_eq_canon _ _ _ ?_).trans ?_
  · exact fun y => ⟨_, List.Mem.head _, View.mem_set_unit_zero (S := S2000x128) hz4 inb_S2000x128_S2000x128_0_0 y⟩
  unfold out4_3
  simp only [View.readAt_eq_ld, Memref.IsWhole.read_unread]
  try rfl

theorem pS0_A_r4 (hc0 : cond4_0 i) (hc1 : ¬cond4_1 i) (x0 : Vec F S2000x128 .bf16) (x1 : Vec F S2000x1 .f32) (x2 : Vec F S2000x128 .f32) (v : View sig .tc .vmem S1x128 .f32) (f : v.ty.Contents (Elt F)) :
    v.read (Elt F) (v.writes (Elt F) f (kernelRun4_A c i arg1 harg1 arg2 harg2 arg3 harg3 arg4 harg4 arg5 harg5 arg6 harg6 arg7 harg7 arg8 harg8 hc0 hc1 x0 x1 x2).2.1) = k4_pay4 x0 x1 x2 k4_pay1 := by
  unfold kernelRun4_A; dsimp only
  refine (View.read_writes_eq_canon _ _ _ ?_).trans ?_
  · exact fun y => ⟨_, List.Mem.head _, View.mem_set_unit_zero (S := S1x128) hz4 inb_S1x128_S1x128_0_0 y⟩
  sl_unfold_words
  rw [View.canon_cons_unit_zero (S := S1x128) hz4]
  simp only [View.readAt_eq_ld, Memref.IsWhole.read_unread, View.ld_unit_zero (S := S2000x128) hz4, View.ld_unit_zero (S := S2000x1) hz4, View.ld_unit_zero (S := S1x128) hz4, View.readCov_unit_zero (S := S1x128) _ hz4]

theorem pS1_A_r4 (hc0 : cond4_0 i) (hc1 : ¬cond4_1 i) (x0 : Vec F S2000x128 .bf16) (x1 : Vec F S2000x1 .f32) (x2 : Vec F S2000x128 .f32) (v : View sig .tc .vmem S1x128 .f32) (f : v.ty.Contents (Elt F)) :
    v.read (Elt F) (v.writes (Elt F) f (kernelRun4_A c i arg1 harg1 arg2 harg2 arg3 harg3 arg4 harg4 arg5 harg5 arg6 harg6 arg7 harg7 arg8 harg8 hc0 hc1 x0 x1 x2).2.2.1) = k4_pay5 x0 x1 x2 k4_pay2 := by
  unfold kernelRun4_A; dsimp only
  refine (View.read_writes_eq_canon _ _ _ ?_).trans ?_
  · exact fun y => ⟨_, List.Mem.head _, View.mem_set_unit_zero (S := S1x128) hz4 inb_S1x128_S1x128_0_0 y⟩
  sl_unfold_words
  rw [View.canon_cons_unit_zero (S := S1x128) hz4]
  simp only [View.readAt_eq_ld, Memref.IsWhole.read_unread, View.ld_unit_zero (S := S2000x128) hz4, View.ld_unit_zero (S := S2000x1) hz4, View.ld_unit_zero (S := S1x128) hz4, View.readCov_unit_zero (S := S1x128) _ hz4]

theorem pS0_B_r4 (hc0 : ¬cond4_0 i) (hc1 : ¬cond4_1 i) (x0 : Vec F S2000x128 .bf16) (x1 : Vec F S2000x1 .f32) (x2 : Vec F S2000x128 .f32) (xs0 : Vec F S1x128 .f32) (xs1 : Vec F S1x128 .f32) (v : View sig .tc .vmem S1x128 .f32) (f : v.ty.Contents (Elt F)) :
    v.read (Elt F) (v.writes (Elt F) f (kernelRun4_B c i arg1 harg1 arg2 harg2 arg3 harg3 arg4 harg4 arg5 harg5 arg6 harg6 arg7 harg7 arg8 harg8 hc0 hc1 x0 x1 x2 xs0 xs1).2.1) = k4_pay4 x0 x1 x2 xs0 := by
  unfold kernelRun4_B; dsimp only
  refine (View.read_writes_eq_canon _ _ _ ?_).trans ?_
  · exact fun y => ⟨_, List.Mem.head _, View.mem_set_unit_zero (S := S1x128) hz4 inb_S1x128_S1x128_0_0 y⟩
  rw [View.canon_unit_zero (S := S1x128) hz4]
  simp only [View.readAt_eq_ld, Memref.IsWhole.read_unread, View.ld_unit_zero (S := S2000x128) hz4, View.ld_unit_zero (S := S2000x1) hz4, View.ld_unit_zero (S := S1x128) hz4, View.readCov_unit_zero (S := S1x128) _ hz4]

theorem pS1_B_r4 (hc0 : ¬cond4_0 i) (hc1 : ¬cond4_1 i) (x0 : Vec F S2000x128 .bf16) (x1 : Vec F S2000x1 .f32) (x2 : Vec F S2000x128 .f32) (xs0 : Vec F S1x128 .f32) (xs1 : Vec F S1x128 .f32) (v : View sig .tc .vmem S1x128 .f32) (f : v.ty.Contents (Elt F)) :
    v.read (Elt F) (v.writes (Elt F) f (kernelRun4_B c i arg1 harg1 arg2 harg2 arg3 harg3 arg4 harg4 arg5 harg5 arg6 harg6 arg7 harg7 arg8 harg8 hc0 hc1 x0 x1 x2 xs0 xs1).2.2.1) = k4_pay5 x0 x1 x2 xs1 := by
  unfold kernelRun4_B; dsimp only
  refine (View.read_writes_eq_canon _ _ _ ?_).trans ?_
  · exact fun y => ⟨_, List.Mem.head _, View.mem_set_unit_zero (S := S1x128) hz4 inb_S1x128_S1x128_0_0 y⟩
  rw [View.canon_unit_zero (S := S1x128) hz4]
  simp only [View.readAt_eq_ld, Memref.IsWhole.read_unread, View.ld_unit_zero (S := S2000x128) hz4, View.ld_unit_zero (S := S2000x1) hz4, View.ld_unit_zero (S := S1x128) hz4, View.readCov_unit_zero (S := S1x128) _ hz4]

theorem pS0_C_r4 (hc0 : ¬cond4_0 i) (hc1 : cond4_1 i) (x0 : Vec F S2000x128 .bf16) (x1 : Vec F S2000x1 .f32) (x2 : Vec F S2000x128 .f32) (xs0 : Vec F S1x128 .f32) (xs1 : Vec F S1x128 .f32) (v : View sig .tc .vmem S1x128 .f32) (f : v.ty.Contents (Elt F)) :
    v.read (Elt F) (v.writes (Elt F) f (kernelRun4_C c i arg1 harg1 arg2 harg2 arg3 harg3 arg4 harg4 arg5 harg5 arg6 harg6 arg7 harg7 arg8 harg8 hc0 hc1 x0 x1 x2 xs0 xs1).2.2.2.1) = k4_pay4 x0 x1 x2 xs0 := by
  unfold kernelRun4_C; dsimp only
  sl_unfold_words
  refine (View.read_writes_eq_canon _ _ _ ?_).trans ?_
  · exact fun y => ⟨_, List.Mem.head _, View.mem_set_unit_zero (S := S1x128) hz4 inb_S1x128_S1x128_0_0 y⟩
  rw [View.canon_unit_zero (S := S1x128) hz4]
  simp only [View.readAt_eq_ld, Memref.IsWhole.read_unread, View.ld_unit_zero (S := S2000x128) hz4, View.ld_unit_zero (S := S2000x1) hz4, View.ld_unit_zero (S := S1x128) hz4, View.readCov_unit_zero (S := S1x128) _ hz4]

theorem pS1_C_r4 (hc0 : ¬cond4_0 i) (hc1 : cond4_1 i) (x0 : Vec F S2000x128 .bf16) (x1 : Vec F S2000x1 .f32) (x2 : Vec F S2000x128 .f32) (xs0 : Vec F S1x128 .f32) (xs1 : Vec F S1x128 .f32) (v : View sig .tc .vmem S1x128 .f32) (f : v.ty.Contents (Elt F)) :
    v.read (Elt F) (v.writes (Elt F) f (kernelRun4_C c i arg1 harg1 arg2 harg2 arg3 harg3 arg4 harg4 arg5 harg5 arg6 harg6 arg7 harg7 arg8 harg8 hc0 hc1 x0 x1 x2 xs0 xs1).2.2.2.2.1) = k4_pay5 x0 x1 x2 xs1 := by
  unfold kernelRun4_C; dsimp only
  sl_unfold_words
  refine (View.read_writes_eq_canon _ _ _ ?_).trans ?_
  · exact fun y => ⟨_, List.Mem.head _, View.mem_set_unit_zero (S := S1x128) hz4 inb_S1x128_S1x128_0_0 y⟩
  rw [View.canon_unit_zero (S := S1x128) hz4]
  simp only [View.readAt_eq_ld, Memref.IsWhole.read_unread, View.ld_unit_zero (S := S2000x128) hz4, View.ld_unit_zero (S := S2000x1) hz4, View.ld_unit_zero (S := S1x128) hz4, View.readCov_unit_zero (S := S1x128) _ hz4]

theorem p4_C_r4 (hc0 : ¬cond4_0 i) (hc1 : cond4_1 i) (x0 : Vec F S2000x128 .bf16) (x1 : Vec F S2000x1 .f32) (x2 : Vec F S2000x128 .f32) (xs0 : Vec F S1x128 .f32) (xs1 : Vec F S1x128 .f32) (v : View sig .tc .vmem S1x128 .f32) (f : v.ty.Contents (Elt F)) :
    v.read (Elt F) (v.writes (Elt F) f (kernelRun4_C c i arg1 harg1 arg2 harg2 arg3 harg3 arg4 harg4 arg5 harg5 arg6 harg6 arg7 harg7 arg8 harg8 hc0 hc1 x0 x1 x2 xs0 xs1).2.1) = out4_4 (k4_pay4 x0 x1 x2 xs0) := by
  unfold kernelRun4_C; dsimp only
  sl_unfold_words
  refine (View.read_writes_eq_canon _ _ _ ?_).trans ?_
  · exact fun y => ⟨_, List.Mem.head _, View.mem_set_unit_zero (S := S1x128) hz4 inb_S1x128_S1x128_0_0 y⟩
  unfold out4_4
  simp only [View.readAt_eq_ld, Memref.IsWhole.read_unread, View.ld_unit_zero (S := S2000x128) hz4, View.ld_unit_zero (S := S2000x1) hz4, View.ld_unit_zero (S := S1x128) hz4, View.readCov_unit_zero (S := S1x128) _ hz4]
  try rfl

theorem p5_C_r4 (hc0 : ¬cond4_0 i) (hc1 : cond4_1 i) (x0 : Vec F S2000x128 .bf16) (x1 : Vec F S2000x1 .f32) (x2 : Vec F S2000x128 .f32) (xs0 : Vec F S1x128 .f32) (xs1 : Vec F S1x128 .f32) (v : View sig .tc .vmem S1x128 .f32) (f : v.ty.Contents (Elt F)) :
    v.read (Elt F) (v.writes (Elt F) f (kernelRun4_C c i arg1 harg1 arg2 harg2 arg3 harg3 arg4 harg4 arg5 harg5 arg6 harg6 arg7 harg7 arg8 harg8 hc0 hc1 x0 x1 x2 xs0 xs1).2.2.1) = out4_5 (k4_pay5 x0 x1 x2 xs1) := by
  unfold kernelRun4_C; dsimp only
  sl_unfold_words
  refine (View.read_writes_eq_canon _ _ _ ?_).trans ?_
  · exact fun y => ⟨_, List.Mem.head _, View.mem_set_unit_zero (S := S1x128) hz4 inb_S1x128_S1x128_0_0 y⟩
  unfold out4_5
  simp only [View.readAt_eq_ld, Memref.IsWhole.read_unread, View.ld_unit_zero (S := S2000x128) hz4, View.ld_unit_zero (S := S2000x1) hz4, View.ld_unit_zero (S := S1x128) hz4, View.readCov_unit_zero (S := S1x128) _ hz4]
  try rfl

end Pieces

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

def scr4 (c : Dev nD) : ℕ → Vec F S1x128 .f32 × Vec F S1x128 .f32
  | 0 => (k4_pay1, k4_pay2)
  | n + 1 =>
    if h : n < cfg4.N then
      (k4_pay4 (iblk4 V c 0 ⟨n, h⟩) (iblk4 V c 1 ⟨n, h⟩) (iblk4 V c 2 ⟨n, h⟩) (scr4 c n).1,
       k4_pay5 (iblk4 V c 0 ⟨n, h⟩) (iblk4 V c 1 ⟨n, h⟩) (iblk4 V c 2 ⟨n, h⟩) (scr4 c n).2)
    else scr4 c n

theorem scr4_of_eq_zero (c : Dev nD) (n : ℕ) (hz : n = 0) : scr4 V c n = (k4_pay1, k4_pay2) := by subst hz; rfl

theorem scr4_succ (c : Dev nD) (t : Fin cfg4.N) :
    scr4 V c (t.val + 1) = (k4_pay4 (iblk4 V c 0 t) (iblk4 V c 1 t) (iblk4 V c 2 t) (scr4 V c t.val).1,
      k4_pay5 (iblk4 V c 0 t) (iblk4 V c 1 t) (iblk4 V c 2 t) (scr4 V c t.val).2) := by
  obtain ⟨n, hn⟩ := t
  exact dif_pos hn

def PhiS4 (c : Dev nD) : ℕ → sProp 𝕄
  | 0 => Pipeline.ΦA spec4 c
  | n + 1 => iprop(iprop(iprop(owns (c : Thread nD τ) scM4_0 fullShare (scr4 V c (n + 1)).1 ∗ owns (c : Thread nD τ) scM4_1 fullShare (scr4 V c (n + 1)).2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (hz : n = 0) : PhiS4 V c n = Pipeline.ΦA spec4 c := by subst hz; rfl

theorem PhiS4_succ (c : Dev nD) (n : ℕ) : PhiS4 V c (n + 1) = iprop(iprop(iprop(owns (c : Thread nD τ) scM4_0 fullShare (scr4 V c (n + 1)).1 ∗ owns (c : Thread nD τ) scM4_1 fullShare (scr4 V c (n + 1)).2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (hz : n ≠ 0) : PhiS4 V c n = iprop(iprop(iprop(owns (c : Thread nD τ) scM4_0 fullShare (scr4 V c n).1 ∗ owns (c : Thread nD τ) scM4_1 fullShare (scr4 V c n).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => out4_4 (scr4 V c 25).1
    | ⟨5, _⟩ => out4_5 (scr4 V c 25).2
  Φ t := PhiS4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]
theorem after4_4 (c : Dev nD) (t : Fin cfg4.N) : (dat4 V c).after 4 t = out4_4 (scr4 V c 25).1 := by dsimp only [dat4]
theorem after4_5 (c : Dev nD) (t : Fin cfg4.N) : (dat4 V c).after 5 t = out4_5 (scr4 V c 25).2 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) from rfl, PhiS4_succ, scr4_succ V c t]
  rw [show (dat4 V c).Φ t.castSucc = PhiS4 V c t.val from rfl]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  have hN : t.val < 25 := lt_of_lt_of_eq t.isLt (show cfg4.N = 25 from N_4)
  by_cases h0 : t.val = 0
  · have h1 : ¬t.val = 24 := by omega
    have hc0 : cond4_0 (grid4.coords t) := (hcond4_0 t).mpr h0
    have hc1 : ¬cond4_1 (grid4.coords t) := fun h => h1 ((hcond4_1 t).mp h)
    rw [Dat.leavesExact_idle (dat4 V c) 4 t (idleAt4_4 t hc1) (noFlush4_4 t hc1)]
    rw [Dat.leavesExact_idle (dat4 V c) 5 t (idleAt4_5 t hc1) (noFlush4_5 t hc1)]
    rw [PhiS4_zero V c _ h0, PhiA4_eq, scr4_of_eq_zero V c _ h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
    iapply ((kernelRun4_A c (grid4.coords t) _ _ _ _ _ _ _ _ _ _ _ _ _ _ _ _ hc0 hc1 (iblk4 V c 0 t) (iblk4 V c 1 t) (iblk4 V c 2 t)).2.2.2 _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact pS0_A_r4 c _ _ _ _ _ _ _ _ _ _ _ _ _ _ _ _ _ _ _ _ _ _ _ _
          · unfold owns; iexists _; isplitr
            swap; · iexact HS1
            ipureintro; exact pS1_A_r4 c _ _ _ _ _ _ _ _ _ _ _ _ _ _ _ _ _ _ _ _ _ _ _ _
        · iexact HR
      · iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact p3_A_r4 c _ _ _ _ _ _ _ _ _ _ _ _ _ _ _ _ _ _ _ _ _ _ _ _
    isplitl [H4]; · iexists _; iexact H4
    iexists _; iexact H5
  · by_cases h1 : t.val = 24
    · have hc0 : ¬cond4_0 (grid4.coords t) := fun h => h0 ((hcond4_0 t).mp h)
      have hc1 : cond4_1 (grid4.coords t) := (hcond4_1 t).mpr h1
      rw [show (dat4 V c).leavesExact 4 t = owns (c : Thread nD τ) (ms4_4 t) fullShare ((dat4 V c).after 4 t) from by
        unfold Dat.leavesExact; rw [liveAt4_4 t hc1], after4_4]
      rw [show (dat4 V c).leavesExact 5 t = owns (c : Thread nD τ) (ms4_5 t) fullShare ((dat4 V c).after 5 t) from by
        unfold Dat.leavesExact; rw [liveAt4_5 t hc1], after4_5]
      rw [show scr4 V c 25 = scr4 V c (t.val + 1) from by rw [h1], scr4_succ V c t]
      rw [PhiS4_pos V c _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun4_C c (grid4.coords t) _ _ _ _ _ _ _ _ _ _ _ _ _ _ _ _ hc0 hc1 (iblk4 V c 0 t) (iblk4 V c 1 t) (iblk4 V c 2 t) (scr4 V c t.val).1 (scr4 V c t.val).2).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact pS0_C_r4 c _ _ _ _ _ _ _ _ _ _ _ _ _ _ _ _ _ _ _ _ _ _ _ _ _ _
            · unfold owns; iexists _; isplitr
              swap; · iexact HS1
              ipureintro; exact pS1_C_r4 c _ _ _ _ _ _ _ _ _ _ _ _ _ _ _ _ _ _ _ _ _ _ _ _ _ _
          · iexact HR
        · iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact p3_C_r4 c _ _ _ _ _ _ _ _ _ _ _ _ _ _ _ _ _ _ _ _ _ _ _ _ _ _
      isplitl [H4]
      · unfold owns; iexists _; isplitr
        swap; · iexact H4
        ipureintro; exact p4_C_r4 c _ _ _ _ _ _ _ _ _ _ _ _ _ _ _ _ _ _ _ _ _ _ _ _ _ _
      unfold owns; iexists _; isplitr
      swap; · iexact H5
      ipureintro; exact p5_C_r4 c _ _ _ _ _ _ _ _ _ _ _ _ _ _ _ _ _ _ _ _ _ _ _ _ _ _
    · have hc0 : ¬cond4_0 (grid4.coords t) := fun h => h0 ((hcond4_0 t).mp h)
      have hc1 : ¬cond4_1 (grid4.coords t) := fun h => h1 ((hcond4_1 t).mp h)
      rw [Dat.leavesExact_idle (dat4 V c) 4 t (idleAt4_4 t hc1) (noFlush4_4 t hc1)]
      rw [Dat.leavesExact_idle (dat4 V c) 5 t (idleAt4_5 t hc1) (noFlush4_5 t hc1)]
      rw [PhiS4_pos V c _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun4_B c (grid4.coords t) _ _ _ _ _ _ _ _ _ _ _ _ _ _ _ _ hc0 hc1 (iblk4 V c 0 t) (iblk4 V c 1 t) (iblk4 V c 2 t) (scr4 V c t.val).1 (scr4 V c t.val).2).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact pS0_B_r4 c _ _ _ _ _ _ _ _ _ _ _ _ _ _ _ _ _ _ _ _ _ _ _ _ _ _
            · unfold owns; iexists _; isplitr
              swap; · iexact HS1
              ipureintro; exact pS1_B_r4 c _ _ _ _ _ _ _ _ _ _ _ _ _ _ _ _ _ _ _ _ _ _ _ _ _ _
          · iexact HR
        · iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact p3_B_r4 c _ _ _ _ _ _ _ _ _ _ _ _ _ _ _ _ _ _ _ _ _ _ _ _ _ _
      isplitl [H4]; · iexists _; iexact H4
      iexists _; iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 (F := F) V c).Φ 0 := by
  rw [show (dat4 V c).Φ 0 = PhiS4 V c 0 from rfl, PhiS4_zero V c 0 rfl]
  try exact Idealize.SL.BI.Entails.refl _

theorem Phi_out4 (c : Dev nD) (t : Fin (cfg4.N + 1)) (ht : t.val ≠ 0) : (dat4 (F := F) V c).Φ t ⊢ Pipeline.ΦA spec4 c := by
  rw [show (dat4 V c).Φ t = PhiS4 V c t.val from rfl, PhiS4_pos V c _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  · iexact Hg

theorem hout4 (c : Dev nD) : (dat4 (F := F) V c).Φ (Fin.last cfg4.N) ⊢ Pipeline.ΦA spec4 c :=
  Phi_out4 V c _ (by rw [Fin.val_last]; have : cfg4.N = 25 := N_4; omega)

end Region

end Cert.KernelIdeal.Hand

end
-- ==== Proof.KiReg5.lean ====
import proofs.«126291_j72541997629772_2_alg».proof.Proof.Gen.KernelIdeal.Launch
import proofs.«126291_j72541997629772_2_alg».proof.Proof.Gen.KernelIdeal.Skeleton
import proofs.«126291_j72541997629772_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

def out5_5 (x0 : Vec F S2000x128 .f32) (x1 x2 x3 x4 : Vec F S1x128 .f32) : Vec F S2000x128 .f32 :=
  View.canon [⟨r5_0, k5_pay1 (View.ld x0 r5_0) (View.ld x3 r5_1) (View.ld x4 r5_1) (View.ld x1 r5_1) (View.ld x2 r5_1)⟩]

theorem cover5_5 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

set_option maxHeartbeats 1000000 in

theorem sound_kernel5 (c : Dev nD) (E : Set ℕ) (i : grid5.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end

end Cert.KernelIdeal.Hand

end
-- ==== Proof.KiReg6.lean ====
import proofs.«126291_j72541997629772_2_alg».proof.Proof.Gen.KernelIdeal.Launch
import proofs.«126291_j72541997629772_2_alg».proof.Proof.Gen.KernelIdeal.Skeleton
import proofs.«126291_j72541997629772_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S2000x128 := Rect.unit (s := S2000x128) ![0, 0] S2000x128.size inb_S2000x128_S2000x128_0_0
abbrev r6_1 : Rect S128x128 := Rect.unit (s := S128x128) ![0, 0] S128x128.size inb_S128x128_S128x128_0_0

def out6_2 (x0 : Vec F S2000x128 .f32) (x1 : Vec F S128x128 .f32) : Vec F S2000x128 .bf16 :=
  View.canon [⟨r6_0, k6_pay1 (View.ld x0 r6_0) (View.ld x1 r6_1)⟩]

theorem cover6_2 (p0 : Vec F S2000x128 .bf16) (y : S2000x128.Idx) :
    ∃ pc ∈ ([⟨r6_0, p0⟩] : List (View.Piece (Elt F) S2000x128 .bf16)), y ∈ pc.1.set :=
  View.cover_of_tiled [⟨r6_0, p0⟩] S2000x128.size (by rfl) y

set_option maxHeartbeats 1000000 in

theorem sound_kernel6 (c : Dev nD) (E : Set ℕ) (i : grid6.Coords)
    (arg1 : Memref sig .tc .vmem S2000x128 .f32) (harg1 : arg1.IsWhole)
    (arg2 : Memref sig .tc .vmem S128x128 .f32) (harg2 : arg2.IsWhole)
    (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end

end Cert.KernelIdeal.Hand
-- ==== Proof.KiReg7.lean ====
import proofs.«126291_j72541997629772_2_alg».proof.Proof.Gen.KernelIdeal.Launch
import proofs.«126291_j72541997629772_2_alg».proof.Proof.Gen.KernelIdeal.Skeleton
import proofs.«126291_j72541997629772_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S2000x128 := Rect.unit (s := S2000x128) ![0, 0] S2000x128.size inb_S2000x128_S2000x128_0_0
abbrev r7_1 : Rect S2000x1 := Rect.unit (s := S2000x1) ![0, 0] S2000x1.size inb_S2000x1_S2000x1_0_0

def out7_3 (x0 : Vec F S2000x128 .bf16) (x1 : Vec F S2000x1 .f32) (x2 : Vec F S2000x128 .f32) : Vec F S2000x128 .f32 :=
  View.canon [⟨r7_0, k7_pay1 (View.ld x0 r7_0) (View.ld x1 r7_1) (View.ld x2 r7_0)⟩]

theorem cover7_3 (p0 : Vec F S2000x128 .f32) (y : S2000x128.Idx) :
    ∃ pc ∈ ([⟨r7_0, p0⟩] : List (View.Piece (Elt F) S2000x128 .f32)), y ∈ pc.1.set :=
  View.cover_of_tiled [⟨r7_0, p0⟩] S2000x128.size (by rfl) y

set_option maxHeartbeats 1000000 in

theorem sound_kernel7 (c : Dev nD) (E : Set ℕ) (i : grid7.Coords) (arg1 : Memref sig .tc .vmem S2000x128 .bf16) (harg1 : arg1.IsWhole) (arg2 : Memref sig .tc .vmem S2000x1 .f32) (harg2 : arg2.IsWhole) (arg3 : Memref sig .tc .vmem S2000x128 .f32) (harg3 : arg3.IsWhole) (arg4 : Memref sig .tc .vmem S2000x128 .f32) (harg4 : arg4.IsWhole)
    (x0 : Vec F S2000x128 .bf16) (x1 : Vec F S2000x1 .f32) (x2 : Vec F S2000x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__combine_kernel i arg1 harg1 arg2 harg2 arg3 harg3 arg4 harg4) K := by
  simp only [cc7__combine_kernel_eq_skeleton]; unfold cc7__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation7 (c : Dev nD) : BodyObligation (dat7 (F := F) V c) (defs₀ (F := F)) Variants.none () Set.univ := fun t => by
  rw [bigSep_W7, bigSep_W7]
  exact sound_body7 V c t

end Region7

end Cert.KernelIdeal.Hand

end
-- ==== Proof.KiRun.lean ====
import proofs.«126291_j72541997629772_2_alg».proof.Proof.KiReg0
import proofs.«126291_j72541997629772_2_alg».proof.Proof.KiReg1
import proofs.«126291_j72541997629772_2_alg».proof.Proof.KiReg2
import proofs.«126291_j72541997629772_2_alg».proof.Proof.KiReg3
import proofs.«126291_j72541997629772_2_alg».proof.Proof.KiReg4
import proofs.«126291_j72541997629772_2_alg».proof.Proof.KiReg5
import proofs.«126291_j72541997629772_2_alg».proof.Proof.KiReg6
import proofs.«126291_j72541997629772_2_alg».proof.Proof.KiReg7
import proofs.«126291_j72541997629772_2_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev B0 : Dev nD → Valuation τ sig (Elt F) := fun c b => m (c, b)

abbrev B1 : Dev nD → Valuation τ sig (Elt F) := fun c => StableHlo.after hostOps0 (B0 m c)

abbrev Bv1 : (c : Dev nD) → (b : Ref sig .tc) → Buf (Elt F) ((c : Thread nD τ).loc b) := fun c b => B1 m c b

def B2 (c : Dev nD) : Valuation τ sig (Elt F) :=
  Pipeline.withArrays spec0 c (B1 m c) fun w => (dat0 (Bv1 m) c).arrAt w cfg0.N
theorem B2_arr (c : Dev nD) (w : Fin cfg0.W) :
    B2 m c (Proc.devRef .tc (Pipeline.arrRef spec0 w)) = (dat0 (Bv1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev Bv2 : (c : Dev nD) → (b : Ref sig .tc) → Buf (Elt F) ((c : Thread nD τ).loc b) := fun c b => B2 m c b
theorem hF0 (c : Dev nD) (w : Fin cfg0.W) : (dat0 (Bv1 m) c).arrAt w cfg0.N = Bv2 m c (Pipeline.arrRef spec0 w) :=
  (B2_arr m c w).symm
theorem hrest0 (c : Dev nD) : ∀ b, b ∉ Finset.univ.image (Pipeline.arrRef spec0) → Bv2 m c b = Bv1 m c b :=
  fun b hb => B2_of_ne m c b fun w e => hb (Finset.mem_image.mpr ⟨w, Finset.mem_univ _, e⟩)

theorem keep2 (c : Dev nD) (b : Ref sig .tc) (hb : b ∉ ([main_v29] : List (Ref sig .tc))) :
    B2 m c (Proc.devRef .tc b) = B1 m c (Proc.devRef .tc b) := by
  by_cases h : ∃ w, Pipeline.arrRef spec0 w = b
  · obtain ⟨w, rfl⟩ := h
    have key : ∀ w : Fin 3, Pipeline.arrRef spec0 w ∉ ([main_v29] : List (Ref sig .tc)) →
        B2 m c (Proc.devRef .tc (Pipeline.arrRef spec0 w)) = B1 m c (Proc.devRef .tc (Pipeline.arrRef spec0 w)) := by
      intro w; fin_cases w
      · intro _; exact (B2_arr m c 0).trans (((dat0 (Bv1 m) c).arrAt_in 0 rfl _).trans (A_eq0 (Bv1 m) c 0))
      · intro _; exact (B2_arr m c 1).trans (((dat0 (Bv1 m) c).arrAt_in 1 rfl _).trans (A_eq0 (Bv1 m) c 1))
      · intro hb'; exact absurd (by decide) hb'
    exact key w hb
  · exact B2_of_ne m c b (fun w e => h ⟨w, e⟩)

abbrev B3 : Dev nD → Valuation τ sig (Elt F) := fun c => StableHlo.after hostOps1 (B2 m c)

abbrev Bv3 : (c : Dev nD) → (b : Ref sig .tc) → Buf (Elt F) ((c : Thread nD τ).loc b) := fun c b => B3 m c b

def B4 (c : Dev nD) : Valuation τ sig (Elt F) :=
  Pipeline.withArrays spec1 c (B3 m c) fun w => (dat1 (Bv3 m) c).arrAt w cfg1.N
theorem B4_arr (c : Dev nD) (w : Fin cfg1.W) :
    B4 m c (Proc.devRef .tc (Pipeline.arrRef spec1 w)) = (dat1 (Bv3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev Bv4 : (c : Dev nD) → (b : Ref sig .tc) → Buf (Elt F) ((c : Thread nD τ).loc b) := fun c b => B4 m c b
theorem hF1 (c : Dev nD) (w : Fin cfg1.W) : (dat1 (Bv3 m) c).arrAt w cfg1.N = Bv4 m c (Pipeline.arrRef spec1 w) :=
  (B4_arr m c w).symm
theorem hrest1 (c : Dev nD) : ∀ b, b ∉ Finset.univ.image (Pipeline.arrRef spec1) → Bv4 m c b = Bv3 m c b :=
  fun b hb => B4_of_ne m c b fun w e => hb (Finset.mem_image.mpr ⟨w, Finset.mem_univ _, e⟩)

theorem keep4 (c : Dev nD) (b : Ref sig .tc) (hb : b ∉ ([main_v43_0, main_v43_1, main_v43_2] : List (Ref sig .tc))) :
    B4 m c (Proc.devRef .tc b) = B3 m c (Proc.devRef .tc b) := by
  by_cases h : ∃ w, Pipeline.arrRef spec1 w = b
  · obtain ⟨w, rfl⟩ := h
    have key : ∀ w : Fin 6, Pipeline.arrRef spec1 w ∉ ([main_v43_0, main_v43_1, main_v43_2] : List (Ref sig .tc)) →
        B4 m c (Proc.devRef .tc (Pipeline.arrRef spec1 w)) = B3 m c (Proc.devRef .tc (Pipeline.arrRef spec1 w)) := by
      intro w; fin_cases w
      · intro _; exact (B4_arr m c 0).trans (((dat1 (Bv3 m) c).arrAt_in 0 rfl _).trans (A_eq1 (Bv3 m) c 0))
      · intro _; exact (B4_arr m c 1).trans (((dat1 (Bv3 m) c).arrAt_in 1 rfl _).trans (A_eq1 (Bv3 m) c 1))
      · intro _; exact (B4_arr m c 2).trans (((dat1 (Bv3 m) c).arrAt_in 2 rfl _).trans (A_eq1 (Bv3 m) c 2))
      · intro hb'; exact absurd (by decide) hb'
      · intro hb'; exact absurd (by decide) hb'
      · intro hb'; exact absurd (by decide) hb'
    exact key w hb
  · exact B4_of_ne m c b (fun w e => h ⟨w, e⟩)

abbrev B5 : Dev nD → Valuation τ sig (Elt F) := fun c => StableHlo.after hostOps2 (B4 m c)

abbrev Bv5 : (c : Dev nD) → (b : Ref sig .tc) → Buf (Elt F) ((c : Thread nD τ).loc b) := fun c b => B5 m c b

def B6 (c : Dev nD) : Valuation τ sig (Elt F) :=
  Pipeline.withArrays spec2 c (B5 m c) fun w => (dat2 (Bv5 m) c).arrAt w cfg2.N
theorem B6_arr (c : Dev nD) (w : Fin cfg2.W) :
    B6 m c (Proc.devRef .tc (Pipeline.arrRef spec2 w)) = (dat2 (Bv5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev Bv6 : (c : Dev nD) → (b : Ref sig .tc) → Buf (Elt F) ((c : Thread nD τ).loc b) := fun c b => B6 m c b
theorem hF2 (c : Dev nD) (w : Fin cfg2.W) : (dat2 (Bv5 m) c).arrAt w cfg2.N = Bv6 m c (Pipeline.arrRef spec2 w) :=
  (B6_arr m c w).symm
theorem hrest2 (c : Dev nD) : ∀ b, b ∉ Finset.univ.image (Pipeline.arrRef spec2) → Bv6 m c b = Bv5 m c b :=
  fun b hb => B6_of_ne m c b fun w e => hb (Finset.mem_image.mpr ⟨w, Finset.mem_univ _, e⟩)

theorem keep6 (c : Dev nD) (b : Ref sig .tc) (hb : b ∉ ([main_v52] : List (Ref sig .tc))) :
    B6 m c (Proc.devRef .tc b) = B5 m c (Proc.devRef .tc b) := by
  by_cases h : ∃ w, Pipeline.arrRef spec2 w = b
  · obtain ⟨w, rfl⟩ := h
    have key : ∀ w : Fin 6, Pipeline.arrRef spec2 w ∉ ([main_v52] : List (Ref sig .tc)) →
        B6 m c (Proc.devRef .tc (Pipeline.arrRef spec2 w)) = B5 m c (Proc.devRef .tc (Pipeline.arrRef spec2 w)) := by
      intro w; fin_cases w
      · intro _; exact (B6_arr m c 0).trans (((dat2 (Bv5 m) c).arrAt_in 0 rfl _).trans (A_eq2 (Bv5 m) c 0))
      · intro _; exact (B6_arr m c 1).trans (((dat2 (Bv5 m) c).arrAt_in 1 rfl _).trans (A_eq2 (Bv5 m) c 1))
      · intro _; exact (B6_arr m c 2).trans (((dat2 (Bv5 m) c).arrAt_in 2 rfl _).trans (A_eq2 (Bv5 m) c 2))
      · intro _; exact (B6_arr m c 3).trans (((dat2 (Bv5 m) c).arrAt_in 3 rfl _).trans (A_eq2 (Bv5 m) c 3))
      · intro _; exact (B6_arr m c 4).trans (((dat2 (Bv5 m) c).arrAt_in 4 rfl _).trans (A_eq2 (Bv5 m) c 4))
      · intro hb'; exact absurd (by decide) hb'
    exact key w hb
  · exact B6_of_ne m c b (fun w e => h ⟨w, e⟩)

def B7 (c : Dev nD) : Valuation τ sig (Elt F) :=
  Pipeline.withArrays spec3 c (B6 m c) fun w => (dat3 (Bv6 m) c).arrAt w cfg3.N
theorem B7_arr (c : Dev nD) (w : Fin cfg3.W) :
    B7 m c (Proc.devRef .tc (Pipeline.arrRef spec3 w)) = (dat3 (Bv6 m) c).arrAt w cfg3.N := by
  unfold B7; exact Pipeline.withArrays_arr spec3 launch3.win.arr_inj c _ _ w
theorem B7_of_ne (c : Dev nD) (b : Ref sig .tc) (hb : ∀ w, Pipeline.arrRef spec3 w ≠ b) :
    B7 m c (Proc.devRef .tc b) = B6 m c (Proc.devRef .tc b) := by
  unfold B7; exact Pipeline.withArrays_of_ne spec3 c _ _ b hb
abbrev Bv7 : (c : Dev nD) → (b : Ref sig .tc) → Buf (Elt F) ((c : Thread nD τ).loc b) := fun c b => B7 m c b
theorem hF3 (c : Dev nD) (w : Fin cfg3.W) : (dat3 (Bv6 m) c).arrAt w cfg3.N = Bv7 m c (Pipeline.arrRef spec3 w) :=
  (B7_arr m c w).symm
theorem hrest3 (c : Dev nD) : ∀ b, b ∉ Finset.univ.image (Pipeline.arrRef spec3) → Bv7 m c b = Bv6 m c b :=
  fun b hb => B7_of_ne m c b fun w e => hb (Finset.mem_image.mpr ⟨w, Finset.mem_univ _, e⟩)

theorem keep7 (c : Dev nD) (b : Ref sig .tc) (hb : b ∉ ([main_v53] : List (Ref sig .tc))) :
    B7 m c (Proc.devRef .tc b) = B6 m c (Proc.devRef .tc b) := by
  by_cases h : ∃ w, Pipeline.arrRef spec3 w = b
  · obtain ⟨w, rfl⟩ := h
    have key : ∀ w : Fin 3, Pipeline.arrRef spec3 w ∉ ([main_v53] : List (Ref sig .tc)) →
        B7 m c (Proc.devRef .tc (Pipeline.arrRef spec3 w)) = B6 m c (Proc.devRef .tc (Pipeline.arrRef spec3 w)) := by
      intro w; fin_cases w
      · intro _; exact (B7_arr m c 0).trans (((dat3 (Bv6 m) c).arrAt_in 0 rfl _).trans (A_eq3 (Bv6 m) c 0))
      · intro _; exact (B7_arr m c 1).trans (((dat3 (Bv6 m) c).arrAt_in 1 rfl _).trans (A_eq3 (Bv6 m) c 1))
      · intro hb'; exact absurd (by decide) hb'
    exact key w hb
  · exact B7_of_ne m c b (fun w e => h ⟨w, e⟩)

abbrev B8 : Dev nD → Valuation τ sig (Elt F) := fun c => StableHlo.after hostOps4 (B7 m c)

abbrev Bv8 : (c : Dev nD) → (b : Ref sig .tc) → Buf (Elt F) ((c : Thread nD τ).loc b) := fun c b => B8 m c b

def B9 (c : Dev nD) : Valuation τ sig (Elt F) :=
  Pipeline.withArrays spec4 c (B8 m c) fun w => (dat4 (Bv8 m) c).arrAt w cfg4.N
theorem B9_arr (c : Dev nD) (w : Fin cfg4.W) :
    B9 m c (Proc.devRef .tc (Pipeline.arrRef spec4 w)) = (dat4 (Bv8 m) c).arrAt w cfg4.N := by
  unfold B9; exact Pipeline.withArrays_arr spec4 launch4.win.arr_inj c _ _ w
theorem B9_of_ne (c : Dev nD) (b : Ref sig .tc) (hb : ∀ w, Pipeline.arrRef spec4 w ≠ b) :
    B9 m c (Proc.devRef .tc b) = B8 m c (Proc.devRef .tc b) := by
  unfold B9; exact Pipeline.withArrays_of_ne spec4 c _ _ b hb
abbrev Bv9 : (c : Dev nD) → (b : Ref sig .tc) → Buf (Elt F) ((c : Thread nD τ).loc b) := fun c b => B9 m c b
theorem hF4 (c : Dev nD) (w : Fin cfg4.W) : (dat4 (Bv8 m) c).arrAt w cfg4.N = Bv9 m c (Pipeline.arrRef spec4 w) :=
  (B9_arr m c w).symm
theorem hrest4 (c : Dev nD) : ∀ b, b ∉ Finset.univ.image (Pipeline.arrRef spec4) → Bv9 m c b = Bv8 m c b :=
  fun b hb => B9_of_ne m c b fun w e => hb (Finset.mem_image.mpr ⟨w, Finset.mem_univ _, e⟩)

theorem keep9 (c : Dev nD) (b : Ref sig .tc) (hb : b ∉ ([main_v67_0, main_v67_1, main_v67_2] : List (Ref sig .tc))) :
    B9 m c (Proc.devRef .tc b) = B8 m c (Proc.devRef .tc b) := by
  by_cases h : ∃ w, Pipeline.arrRef spec4 w = b
  · obtain ⟨w, rfl⟩ := h
    have key : ∀ w : Fin 6, Pipeline.arrRef spec4 w ∉ ([main_v67_0, main_v67_1, main_v67_2] : List (Ref sig .tc)) →
        B9 m c (Proc.devRef .tc (Pipeline.arrRef spec4 w)) = B8 m c (Proc.devRef .tc (Pipeline.arrRef spec4 w)) := by
      intro w; fin_cases w
      · intro _; exact (B9_arr m c 0).trans (((dat4 (Bv8 m) c).arrAt_in 0 rfl _).trans (A_eq4 (Bv8 m) c 0))
      · intro _; exact (B9_arr m c 1).trans (((dat4 (Bv8 m) c).arrAt_in 1 rfl _).trans (A_eq4 (Bv8 m) c 1))
      · intro _; exact (B9_arr m c 2).trans (((dat4 (Bv8 m) c).arrAt_in 2 rfl _).trans (A_eq4 (Bv8 m) c 2))
      · intro hb'; exact absurd (by decide) hb'
      · intro hb'; exact absurd (by decide) hb'
      · intro hb'; exact absurd (by decide) hb'
    exact key w hb
  · exact B9_of_ne m c b (fun w e => h ⟨w, e⟩)

abbrev B10 : Dev nD → Valuation τ sig (Elt F) := fun c => StableHlo.after hostOps5 (B9 m c)

abbrev Bv10 : (c : Dev nD) → (b : Ref sig .tc) → Buf (Elt F) ((c : Thread nD τ).loc b) := fun c b => B10 m c b

def B11 (c : Dev nD) : Valuation τ sig (Elt F) :=
  Pipeline.withArrays spec5 c (B10 m c) fun w => (dat5 (Bv10 m) c).arrAt w cfg5.N
theorem B11_arr (c : Dev nD) (w : Fin cfg5.W) :
    B11 m c (Proc.devRef .tc (Pipeline.arrRef spec5 w)) = (dat5 (Bv10 m) c).arrAt w cfg5.N := by
  unfold B11; exact Pipeline.withArrays_arr spec5 launch5.win.arr_inj c _ _ w
theorem B11_of_ne (c : Dev nD) (b : Ref sig .tc) (hb : ∀ w, Pipeline.arrRef spec5 w ≠ b) :
    B11 m c (Proc.devRef .tc b) = B10 m c (Proc.devRef .tc b) := by
  unfold B11; exact Pipeline.withArrays_of_ne spec5 c _ _ b hb
abbrev Bv11 : (c : Dev nD) → (b : Ref sig .tc) → Buf (Elt F) ((c : Thread nD τ).loc b) := fun c b => B11 m c b
theorem hF5 (c : Dev nD) (w : Fin cfg5.W) : (dat5 (Bv10 m) c).arrAt w cfg5.N = Bv11 m c (Pipeline.arrRef spec5 w) :=
  (B11_arr m c w).symm
theorem hrest5 (c : Dev nD) : ∀ b, b ∉ Finset.univ.image (Pipeline.arrRef spec5) → Bv11 m c b = Bv10 m c b :=
  fun b hb => B11_of_ne m c b fun w e => hb (Finset.mem_image.mpr ⟨w, Finset.mem_univ _, e⟩)

theorem keep11 (c : Dev nD) (b : Ref sig .tc) (hb : b ∉ ([main_v76] : List (Ref sig .tc))) :
    B11 m c (Proc.devRef .tc b) = B10 m c (Proc.devRef .tc b) := by
  by_cases h : ∃ w, Pipeline.arrRef spec5 w = b
  · obtain ⟨w, rfl⟩ := h
    have key : ∀ w : Fin 6, Pipeline.arrRef spec5 w ∉ ([main_v76] : List (Ref sig .tc)) →
        B11 m c (Proc.devRef .tc (Pipeline.arrRef spec5 w)) = B10 m c (Proc.devRef .tc (Pipeline.arrRef spec5 w)) := by
      intro w; fin_cases w
      · intro _; exact (B11_arr m c 0).trans (((dat5 (Bv10 m) c).arrAt_in 0 rfl _).trans (A_eq5 (Bv10 m) c 0))
      · intro _; exact (B11_arr m c 1).trans (((dat5 (Bv10 m) c).arrAt_in 1 rfl _).trans (A_eq5 (Bv10 m) c 1))
      · intro _; exact (B11_arr m c 2).trans (((dat5 (Bv10 m) c).arrAt_in 2 rfl _).trans (A_eq5 (Bv10 m) c 2))
      · intro _; exact (B11_arr m c 3).trans (((dat5 (Bv10 m) c).arrAt_in 3 rfl _).trans (A_eq5 (Bv10 m) c 3))
      · intro _; exact (B11_arr m c 4).trans (((dat5 (Bv10 m) c).arrAt_in 4 rfl _).trans (A_eq5 (Bv10 m) c 4))
      · intro hb'; exact absurd (by decide) hb'
    exact key w hb
  · exact B11_of_ne m c b (fun w e => h ⟨w, e⟩)

abbrev B12 : Dev nD → Valuation τ sig (Elt F) := fun c => StableHlo.after hostOps6 (B11 m c)

abbrev Bv12 : (c : Dev nD) → (b : Ref sig .tc) → Buf (Elt F) ((c : Thread nD τ).loc b) := fun c b => B12 m c b

def B13 (c : Dev nD) : Valuation τ sig (Elt F) :=
  Pipeline.withArrays spec6 c (B12 m c) fun w => (dat6 (Bv12 m) c).arrAt w cfg6.N
theorem B13_arr (c : Dev nD) (w : Fin cfg6.W) :
    B13 m c (Proc.devRef .tc (Pipeline.arrRef spec6 w)) = (dat6 (Bv12 m) c).arrAt w cfg6.N := by
  unfold B13; exact Pipeline.withArrays_arr spec6 launch6.win.arr_inj c _ _ w
theorem B13_of_ne (c : Dev nD) (b : Ref sig .tc) (hb : ∀ w, Pipeline.arrRef spec6 w ≠ b) :
    B13 m c (Proc.devRef .tc b) = B12 m c (Proc.devRef .tc b) := by
  unfold B13; exact Pipeline.withArrays_of_ne spec6 c _ _ b hb
abbrev Bv13 : (c : Dev nD) → (b : Ref sig .tc) → Buf (Elt F) ((c : Thread nD τ).loc b) := fun c b => B13 m c b
theorem hF6 (c : Dev nD) (w : Fin cfg6.W) : (dat6 (Bv12 m) c).arrAt w cfg6.N = Bv13 m c (Pipeline.arrRef spec6 w) :=
  (B13_arr m c w).symm
theorem hrest6 (c : Dev nD) : ∀ b, b ∉ Finset.univ.image (Pipeline.arrRef spec6) → Bv13 m c b = Bv12 m c b :=
  fun b hb => B13_of_ne m c b fun w e => hb (Finset.mem_image.mpr ⟨w, Finset.mem_univ _, e⟩)

theorem keep13 (c : Dev nD) (b : Ref sig .tc) (hb : b ∉ ([main_v78] : List (Ref sig .tc))) :
    B13 m c (Proc.devRef .tc b) = B12 m c (Proc.devRef .tc b) := by
  by_cases h : ∃ w, Pipeline.arrRef spec6 w = b
  · obtain ⟨w, rfl⟩ := h
    have key : ∀ w : Fin 3, Pipeline.arrRef spec6 w ∉ ([main_v78] : List (Ref sig .tc)) →
        B13 m c (Proc.devRef .tc (Pipeline.arrRef spec6 w)) = B12 m c (Proc.devRef .tc (Pipeline.arrRef spec6 w)) := by
      intro w; fin_cases w
      · intro _; exact (B13_arr m c 0).trans (((dat6 (Bv12 m) c).arrAt_in 0 rfl _).trans (A_eq6 (Bv12 m) c 0))
      · intro _; exact (B13_arr m c 1).trans (((dat6 (Bv12 m) c).arrAt_in 1 rfl _).trans (A_eq6 (Bv12 m) c 1))
      · intro hb'; exact absurd (by decide) hb'
    exact key w hb
  · exact B13_of_ne m c b (fun w e => h ⟨w, e⟩)

abbrev B14 : Dev nD → Valuation τ sig (Elt F) := fun c => StableHlo.after hostOps7 (B13 m c)

abbrev Bv14 : (c : Dev nD) → (b : Ref sig .tc) → Buf (Elt F) ((c : Thread nD τ).loc b) := fun c b => B14 m c b

def B15 (c : Dev nD) : Valuation τ sig (Elt F) :=
  Pipeline.withArrays spec7 c (B14 m c) fun w => (dat7 (Bv14 m) c).arrAt w cfg7.N
theorem B15_arr (c : Dev nD) (w : Fin cfg7.W) :
    B15 m c (Proc.devRef .tc (Pipeline.arrRef spec7 w)) = (dat7 (Bv14 m) c).arrAt w cfg7.N := by
  unfold B15; exact Pipeline.withArrays_arr spec7 launch7.win.arr_inj c _ _ w
theorem B15_of_ne (c : Dev nD) (b : Ref sig .tc) (hb : ∀ w, Pipeline.arrRef spec7 w ≠ b) :
    B15 m c (Proc.devRef .tc b) = B14 m c (Proc.devRef .tc b) := by
  unfold B15; exact Pipeline.withArrays_of_ne spec7 c _ _ b hb
abbrev Bv15 : (c : Dev nD) → (b : Ref sig .tc) → Buf (Elt F) ((c : Thread nD τ).loc b) := fun c b => B15 m c b
theorem hF7 (c : Dev nD) (w : Fin cfg7.W) : (dat7 (Bv14 m) c).arrAt w cfg7.N = Bv15 m c (Pipeline.arrRef spec7 w) :=
  (B15_arr m c w).symm
theorem hrest7 (c : Dev nD) : ∀ b, b ∉ Finset.univ.image (Pipeline.arrRef spec7) → Bv15 m c b = Bv14 m c b :=
  fun b hb => B15_of_ne m c b fun w e => hb (Finset.mem_image.mpr ⟨w, Finset.mem_univ _, e⟩)

theorem keep15 (c : Dev nD) (b : Ref sig .tc) (hb : b ∉ ([main_v92] : List (Ref sig .tc))) :
    B15 m c (Proc.devRef .tc b) = B14 m c (Proc.devRef .tc b) := by
  by_cases h : ∃ w, Pipeline.arrRef spec7 w = b
  · obtain ⟨w, rfl⟩ := h
    have key : ∀ w : Fin 4, Pipeline.arrRef spec7 w ∉ ([main_v92] : List (Ref sig .tc)) →
        B15 m c (Proc.devRef .tc (Pipeline.arrRef spec7 w)) = B14 m c (Proc.devRef .tc (Pipeline.arrRef spec7 w)) := by
      intro w; fin_cases w
      · intro _; exact (B15_arr m c 0).trans (((dat7 (Bv14 m) c).arrAt_in 0 rfl _).trans (A_eq7 (Bv14 m) c 0))
      · intro _; exact (B15_arr m c 1).trans (((dat7 (Bv14 m) c).arrAt_in 1 rfl _).trans (A_eq7 (Bv14 m) c 1))
      · intro _; exact (B15_arr m c 2).trans (((dat7 (Bv14 m) c).arrAt_in 2 rfl _).trans (A_eq7 (Bv14 m) c 2))
      · intro hb'; exact absurd (by decide) hb'
    exact key w hb
  · exact B15_of_ne m c b (fun w e => h ⟨w, e⟩)

abbrev B16 : Dev nD → Valuation τ sig (Elt F) := fun c => StableHlo.after hostOps8 (B15 m c)

theorem keep1 (c : Dev nD) (b : Ref sig .tc) (hb : b ∉ hostOps0_W) : B1 m c (Proc.devRef .tc b) = B0 m c (Proc.devRef .tc b) :=
  StableHlo.after_of_writes_sub hostOps0 _ hostOps0_writes hb

theorem keep3 (c : Dev nD) (b : Ref sig .tc) (hb : b ∉ hostOps1_W) : B3 m c (Proc.devRef .tc b) = B2 m c (Proc.devRef .tc b) :=
  StableHlo.after_of_writes_sub hostOps1 _ hostOps1_writes hb

theorem keep5 (c : Dev nD) (b : Ref sig .tc) (hb : b ∉ hostOps2_W) : B5 m c (Proc.devRef .tc b) = B4 m c (Proc.devRef .tc b) :=
  StableHlo.after_of_writes_sub hostOps2 _ hostOps2_writes hb

theorem keep8 (c : Dev nD) (b : Ref sig .tc) (hb : b ∉ hostOps4_W) : B8 m c (Proc.devRef .tc b) = B7 m c (Proc.devRef .tc b) :=
  StableHlo.after_of_writes_sub hostOps4 _ hostOps4_writes hb

theorem keep10 (c : Dev nD) (b : Ref sig .tc) (hb : b ∉ hostOps5_W) : B10 m c (Proc.devRef .tc b) = B9 m c (Proc.devRef .tc b) :=
  StableHlo.after_of_writes_sub hostOps5 _ hostOps5_writes hb

theorem keep12 (c : Dev nD) (b : Ref sig .tc) (hb : b ∉ hostOps6_W) : B12 m c (Proc.devRef .tc b) = B11 m c (Proc.devRef .tc b) :=
  StableHlo.after_of_writes_sub hostOps6 _ hostOps6_writes hb

theorem keep14 (c : Dev nD) (b : Ref sig .tc) (hb : b ∉ hostOps7_W) : B14 m c (Proc.devRef .tc b) = B13 m c (Proc.devRef .tc b) :=
  StableHlo.after_of_writes_sub hostOps7 _ hostOps7_writes hb

theorem keep16 (c : Dev nD) (b : Ref sig .tc) (hb : b ∉ hostOps8_W) : B16 m c (Proc.devRef .tc b) = B15 m c (Proc.devRef .tc b) :=
  StableHlo.after_of_writes_sub hostOps8 _ hostOps8_writes hb

abbrev wr15 : List (Ref sig .tc) := hostOps8_W
abbrev wr14 : List (Ref sig .tc) := ([main_v92] : List (Ref sig .tc)) ++ wr15
abbrev wr13 : List (Ref sig .tc) := hostOps7_W ++ wr14
abbrev wr12 : List (Ref sig .tc) := ([main_v78] : List (Ref sig .tc)) ++ wr13
abbrev wr11 : List (Ref sig .tc) := hostOps6_W ++ wr12
abbrev wr10 : List (Ref sig .tc) := ([main_v76] : List (Ref sig .tc)) ++ wr11
abbrev wr9 : List (Ref sig .tc) := hostOps5_W ++ wr10
abbrev wr8 : List (Ref sig .tc) := ([main_v67_0, main_v67_1, main_v67_2] : List (Ref sig .tc)) ++ wr9
abbrev wr7 : List (Ref sig .tc) := hostOps4_W ++ wr8
abbrev wr6 : List (Ref sig .tc) := ([main_v53] : List (Ref sig .tc)) ++ wr7
abbrev wr5 : List (Ref sig .tc) := ([main_v52] : List (Ref sig .tc)) ++ wr6
abbrev wr4 : List (Ref sig .tc) := hostOps2_W ++ wr5
abbrev wr3 : List (Ref sig .tc) := ([main_v43_0, main_v43_1, main_v43_2] : List (Ref sig .tc)) ++ wr4
abbrev wr2 : List (Ref sig .tc) := hostOps1_W ++ wr3
abbrev wr1 : List (Ref sig .tc) := ([main_v29] : List (Ref sig .tc)) ++ wr2
abbrev wr0 : List (Ref sig .tc) := hostOps0_W ++ wr1
theorem toEnd15 (c : Dev nD) (b : Ref sig .tc) (hb : b ∉ wr15 := by decide) : B16 m c (Proc.devRef .tc b) = B15 m c (Proc.devRef .tc b) :=
  keep16 m c b hb

theorem toEnd14 (c : Dev nD) (b : Ref sig .tc) (hb : b ∉ wr14 := by decide) : B16 m c (Proc.devRef .tc b) = B14 m c (Proc.devRef .tc b) :=
  (toEnd15 m c b fun h => hb (List.mem_append_right _ h)).trans (keep15 m c b fun h => hb (List.mem_append_left _ h))

theorem toEnd13 (c : Dev nD) (b : Ref sig .tc) (hb : b ∉ wr13 := by decide) : B16 m c (Proc.devRef .tc b) = B13 m c (Proc.devRef .tc b) :=
  (toEnd14 m c b fun h => hb (List.mem_append_right _ h)).trans (keep14 m c b fun h => hb (List.mem_append_left _ h))

theorem toEnd12 (c : Dev nD) (b : Ref sig .tc) (hb : b ∉ wr12 := by decide) : B16 m c (Proc.devRef .tc b) = B12 m c (Proc.devRef .tc b) :=
  (toEnd13 m c b fun h => hb (List.mem_append_right _ h)).trans (keep13 m c b fun h => hb (List.mem_append_left _ h))

theorem toEnd11 (c : Dev nD) (b : Ref sig .tc) (hb : b ∉ wr11 := by decide) : B16 m c (Proc.devRef .tc b) = B11 m c (Proc.devRef .tc b) :=
  (toEnd12 m c b fun h => hb (List.mem_append_right _ h)).trans (keep12 m c b fun h => hb (List.mem_append_left _ h))

theorem toEnd10 (c : Dev nD) (b : Ref sig .tc) (hb : b ∉ wr10 := by decide) : B16 m c (Proc.devRef .tc b) = B10 m c (Proc.devRef .tc b) :=
  (toEnd11 m c b fun h => hb (List.mem_append_right _ h)).trans (keep11 m c b fun h => hb (List.mem_append_left _ h))

theorem toEnd9 (c : Dev nD) (b : Ref sig .tc) (hb : b ∉ wr9 := by decide) : B16 m c (Proc.devRef .tc b) = B9 m c (Proc.devRef .tc b) :=
  (toEnd10 m c b fun h => hb (List.mem_append_right _ h)).trans (keep10 m c b fun h => hb (List.mem_append_left _ h))

theorem toEnd8 (c : Dev nD) (b : Ref sig .tc) (hb : b ∉ wr8 := by decide) : B16 m c (Proc.devRef .tc b) = B8 m c (Proc.devRef .tc b) :=
  (toEnd9 m c b fun h => hb (List.mem_append_right _ h)).trans (keep9 m c b fun h => hb (List.mem_append_left _ h))

theorem toEnd7 (c : Dev nD) (b : Ref sig .tc) (hb : b ∉ wr7 := by decide) : B16 m c (Proc.devRef .tc b) = B7 m c (Proc.devRef .tc b) :=
  (toEnd8 m c b fun h => hb (List.mem_append_right _ h)).trans (keep8 m c b fun h => hb (List.mem_append_left _ h))

theorem toEnd6 (c : Dev nD) (b : Ref sig .tc) (hb : b ∉ wr6 := by decide) : B16 m c (Proc.devRef .tc b) = B6 m c (Proc.devRef .tc b) :=
  (toEnd7 m c b fun h => hb (List.mem_append_right _ h)).trans (keep7 m c b fun h => hb (List.mem_append_left _ h))

theorem toEnd5 (c : Dev nD) (b : Ref sig .tc) (hb : b ∉ wr5 := by decide) : B16 m c (Proc.devRef .tc b) = B5 m c (Proc.devRef .tc b) :=
  (toEnd6 m c b fun h => hb (List.mem_append_right _ h)).trans (keep6 m c b fun h => hb (List.mem_append_left _ h))

theorem toEnd4 (c : Dev nD) (b : Ref sig .tc) (hb : b ∉ wr4 := by decide) : B16 m c (Proc.devRef .tc b) = B4 m c (Proc.devRef .tc b) :=
  (toEnd5 m c b fun h => hb (List.mem_append_right _ h)).trans (keep5 m c b fun h => hb (List.mem_append_left _ h))

theorem toEnd3 (c : Dev nD) (b : Ref sig .tc) (hb : b ∉ wr3 := by decide) : B16 m c (Proc.devRef .tc b) = B3 m c (Proc.devRef .tc b) :=
  (toEnd4 m c b fun h => hb (List.mem_append_right _ h)).trans (keep4 m c b fun h => hb (List.mem_append_left _ h))

theorem toEnd2 (c : Dev nD) (b : Ref sig .tc) (hb : b ∉ wr2 := by decide) : B16 m c (Proc.devRef .tc b) = B2 m c (Proc.devRef .tc b) :=
  (toEnd3 m c b fun h => hb (List.mem_append_right _ h)).trans (keep3 m c b fun h => hb (List.mem_append_left _ h))

theorem toEnd1 (c : Dev nD) (b : Ref sig .tc) (hb : b ∉ wr1 := by decide) : B16 m c (Proc.devRef .tc b) = B1 m c (Proc.devRef .tc b) :=
  (toEnd2 m c b fun h => hb (List.mem_append_right _ h)).trans (keep2 m c b fun h => hb (List.mem_append_left _ h))

theorem toEnd0 (c : Dev nD) (b : Ref sig .tc) (hb : b ∉ wr0 := by decide) : B16 m c (Proc.devRef .tc b) = B0 m c (Proc.devRef .tc b) :=
  (toEnd1 m c b fun h => hb (List.mem_append_right _ h)).trans (keep1 m c b fun h => hb (List.mem_append_left _ h))

def pdats : (p : Fin 8) → (c : Dev nD) → Dat τ (Elt F) Unit ℕ (UR sig nD τ) ℕ (Pipeline.pin (pcfgs (F := F)) adm p) c
  | ⟨0, _⟩ => fun c => dat0 (Bv1 m) c
  | ⟨1, _⟩ => fun c => dat1 (Bv3 m) c
  | ⟨2, _⟩ => fun c => dat2 (Bv5 m) c
  | ⟨3, _⟩ => fun c => dat3 (Bv6 m) c
  | ⟨4, _⟩ => fun c => dat4 (Bv8 m) c
  | ⟨5, _⟩ => fun c => dat5 (Bv10 m) c
  | ⟨6, _⟩ => fun c => dat6 (Bv12 m) c
  | ⟨7, _⟩ => fun c => dat7 (Bv14 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped := by decide) : Proc.devRef .tc b ∈ Pipeline.ucRefs τ sig :=
  Finset.mem_filter.mpr ⟨StableHlo.devRef_mem_tcRefs b, h⟩

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bv1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (Bv1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Bv1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Bv1 m c) (Bv2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bv3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (Bv3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Bv3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Bv3 m) c).Φ 0 from rfl]
    iintro ⟨Hp, -, Hr⟩
    iapply (hin1 (Bv3 m) c)
    unfold Pipeline.ΦA
    isplitl [Hr]; · iexact Hr
    iexact Hp
  hout c := by
    rw [Pipeline.ownSems0_none, show (pdats m 1 c).Φ (Fin.last _) = (dat1 (Bv3 m) c).Φ (Fin.last cfg1.N) from rfl]
    refine (hout1 (Bv3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Bv3 m c) (Bv4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Bv5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec2 c (Bv5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Bv5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Bv5 m c) (Bv6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Bv6 m) c).loose
  hwaits := Pipeline.hwaits_of_owed_zero _ _ _ _ L lv 3 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec3 c (Bv6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Bv6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Bv6 m c) (Bv7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Bv8 m) c).loose
  hwaits := Pipeline.hwaits_of_owed_zero _ _ _ _ L lv 4 fun _ _ => rfl
  pre c := iprop(StableHlo.held (c : Thread nD τ) (Pipeline.ucRefs τ sig) (B8 m c) ∗ R c)
  post c := iprop(StableHlo.held (c : Thread nD τ) (Pipeline.ucRefs τ sig) (B9 m c) ∗ R c)
  X c := iprop(∃ r, prngReg c r)
  Y c := iprop(∃ r, prngReg c r)
  Z c := Pipeline.unscopedRest (Ix := Unit) (Name := ℕ) (U := UR sig nD τ) (Lvl := ℕ) spec4 c (Bv8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Bv8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (Bv8 m) c).Φ 0 from rfl]
    iintro ⟨Hp, -, Hr⟩
    iapply (hin4 (Bv8 m) c)
    unfold Pipeline.ΦA
    isplitl [Hr]; · iexact Hr
    iexact Hp
  hout c := by
    rw [Pipeline.ownSems0_none, show (pdats m 4 c).Φ (Fin.last _) = (dat4 (Bv8 m) c).Φ (Fin.last cfg4.N) from rfl]
    refine (hout4 (Bv8 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Bv8 m c) (Bv9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Bv10 m) c).loose
  hwaits := Pipeline.hwaits_of_owed_zero _ _ _ _ L lv 5 fun _ _ => rfl
  pre c := iprop(StableHlo.held (c : Thread nD τ) (Pipeline.ucRefs τ sig) (B10 m c) ∗ R c)
  post c := iprop(StableHlo.held (c : Thread nD τ) (Pipeline.ucRefs τ sig) (B11 m c) ∗ R c)
  X c := iprop(∃ r, prngReg c r)
  Y c := iprop(∃ r, prngReg c r)
  Z c := Pipeline.unscopedRest (Ix := Unit) (Name := ℕ) (U := UR sig nD τ) (Lvl := ℕ) spec5 c (Bv10 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Bv10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Bv10 m c) (Bv11 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Bv12 m) c).loose
  hwaits := Pipeline.hwaits_of_owed_zero _ _ _ _ L lv 6 fun _ _ => rfl
  pre c := iprop(StableHlo.held (c : Thread nD τ) (Pipeline.ucRefs τ sig) (B12 m c) ∗ R c)
  post c := iprop(StableHlo.held (c : Thread nD τ) (Pipeline.ucRefs τ sig) (B13 m c) ∗ R c)
  X c := iprop(∃ r, prngReg c r)
  Y c := iprop(∃ r, prngReg c r)
  Z c := Pipeline.unscopedRest (Ix := Unit) (Name := ℕ) (U := UR sig nD τ) (Lvl := ℕ) spec6 c (Bv12 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Bv12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Bv12 m c) (Bv13 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Bv14 m) c).loose
  hwaits := Pipeline.hwaits_of_owed_zero _ _ _ _ L lv 7 fun _ _ => rfl
  pre c := iprop(StableHlo.held (c : Thread nD τ) (Pipeline.ucRefs τ sig) (B14 m c) ∗ R c)
  post c := iprop(StableHlo.held (c : Thread nD τ) (Pipeline.ucRefs τ sig) (B15 m c) ∗ R c)
  X c := iprop(∃ r, prngReg c r)
  Y c := iprop(∃ r, prngReg c r)
  Z c := Pipeline.unscopedRest (Ix := Unit) (Name := ℕ) (U := UR sig nD τ) (Lvl := ℕ) spec7 c (Bv14 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Bv14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Bv14 m c) (Bv15 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m),
    .region (reg3 m),
    .host (hseg hostOps4 hostOps4_sub hostOps4_fresh (B7 m)),
    .region (reg4 m),
    .host (hseg hostOps5 hostOps5_sub hostOps5_fresh (B9 m)),
    .region (reg5 m),
    .host (hseg hostOps6 hostOps6_sub hostOps6_fresh (B11 m)),
    .region (reg6 m),
    .host (hseg hostOps7 hostOps7_sub hostOps7_fresh (B13 m)),
    .region (reg7 m),
    .host (hseg hostOps8 hostOps8_sub hostOps8_fresh (B15 m)) ]

theorem main_run (c : Dev nD) : main (F := F) c = Pipeline.Seg.run (segs m) := (main_chain c).trans (by chain_rfl)

abbrev Tₙ (c : Dev nD) : sProp 𝕄 := iprop(StableHlo.held (c : Thread nD τ) (Pipeline.ucRefs τ sig) (B16 m c) ∗ ∃ r, prngReg c r)

set_option backward.isDefEq.respectTransparency.types false in

theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B16 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B16 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B16 m c b)
    (hfin := fun c s' => by
      iintro ⟨⟨Hh, -⟩, HSI⟩
      unfold StableHlo.held
      imodintro
      iapply (pointsTo_read_all (Pipeline.ucRefs τ sig) (fun b => (((c : Thread nD τ)).1, b)) (B16 m c) s')
      isplitl [Hh] <;> iassumption)
    (hQ := fun s h c => h c)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0)).trans ((toEnd0 m c main_arg0).trans rfl),
    (h c _ (mem_uc main_arg1)).trans ((toEnd0 m c main_arg1).trans rfl),
    (h c _ (mem_uc main_arg2)).trans ((toEnd0 m c main_arg2).trans rfl),
    (h c _ (mem_uc main_arg3)).trans ((toEnd0 m c main_arg3).trans rfl),
    (h c _ (mem_uc main_arg4)).trans ((toEnd0 m c main_arg4).trans rfl),
    (h c _ (mem_uc main_arg5)).trans ((toEnd0 m c main_arg5).trans rfl),
    (h c _ (mem_uc main_arg6)).trans ((toEnd0 m c main_arg6).trans rfl),
    (h c _ (mem_uc main_arg7)).trans ((toEnd0 m c main_arg7).trans rfl),
    (h c _ (mem_uc main_arg8)).trans ((toEnd0 m c main_arg8).trans rfl),
    (h c _ (mem_uc main_arg9)).trans ((toEnd0 m c main_arg9).trans rfl)⟩) (run m ρ)

end Cert.KernelIdeal.Hand

end
-- ==== Proof.RefOps.lean ====
import proofs.«126291_j72541997629772_2_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (addf : (⟨S50000, .f32⟩ : BufTy).Contents (Elt F) → (⟨S50000, .f32⟩ : BufTy).Contents (Elt F) → (⟨S50000, .f32⟩ : BufTy).Contents (Elt F)),
    StableHlo.unary main_v9 main_v10 (Host.rsqrt : (⟨S50000, .f32⟩ : BufTy).Contents (Elt F) → (⟨S50000, .f32⟩ : BufTy).Contents (Elt F)),
    StableHlo.binary main_arg0 main_arg2 main_v11 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c (constantI S_ 32 0#32),
    StableHlo.unary main_c main_v12 (broadcastInDim S800000 ![] bcast_S_S800000 : (⟨S_, .i32⟩ : BufTy).Contents (Elt F) → (⟨S800000, .i32⟩ : BufTy).Contents (Elt F)),
    StableHlo.binary main_v1 main_v12 main_v13 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v14 (broadcastInDim S800000 ![] bcast_S_S800000 : (⟨S_, .i32⟩ : BufTy).Contents (Elt F) → (⟨S800000, .i32⟩ : BufTy).Contents (Elt F)),
    StableHlo.binary main_v1 main_v14 main_v15 (addi : (⟨S800000, .i32⟩ : BufTy).Contents (Elt F) → (⟨S800000, .i32⟩ : BufTy).Contents (Elt F) → (⟨S800000, .i32⟩ : BufTy).Contents (Elt F)),
    StableHlo.ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v16 main_v17 (broadcastInDim S800000x1 ![0] bcast_S800000_S800000x1_0 : (⟨S800000, .i32⟩ : BufTy).Contents (Elt F) → (⟨S800000x1, .i32⟩ : BufTy).Contents (Elt F)),
    StableHlo.binary main_v10 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_3 (constantI S_ 32 0#32),
    StableHlo.unary main_c_3 main_v19 (broadcastInDim S800000 ![] bcast_S_S800000 : (⟨S_, .i32⟩ : BufTy).Contents (Elt F) → (⟨S800000, .i32⟩ : BufTy).Contents (Elt F)),
    StableHlo.binary main_v3 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v21 (broadcastInDim S800000 ![] bcast_S_S800000 : (⟨S_, .i32⟩ : BufTy).Contents (Elt F) → (⟨S800000, .i32⟩ : BufTy).Contents (Elt F)),
    StableHlo.binary main_v3 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v10 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v18 main_v25 main_v26 (mulf : (⟨S800000, .f32⟩ : BufTy).Contents (Elt F) → (⟨S800000, .f32⟩ : BufTy).Contents (Elt F) → (⟨S800000, .f32⟩ : BufTy).Contents (Elt F)),
    StableHlo.unary main_v26 main_v27 (broadcastInDim S800000x1 ![0] bcast_S800000_S800000x1_0 : (⟨S800000, .f32⟩ : BufTy).Contents (Elt F) → (⟨S800000x1, .f32⟩ : BufTy).Contents (Elt F)),
    StableHlo.nullary main_c_5 (constantI S_ 32 0#32),
    StableHlo.unary main_c_5 main_v28 (broadcastInDim S800000 ![] bcast_S_S800000 : (⟨S_, .i32⟩ : BufTy).Contents (Elt F) → (⟨S800000, .i32⟩ : BufTy).Contents (Elt F)),
    StableHlo.binary main_v1 main_v28 main_v29 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v30 (broadcastInDim S800000 ![] bcast_S_S800000 : (⟨S_, .i32⟩ : BufTy).Contents (Elt F) → (⟨S800000, .i32⟩ : BufTy).Contents (Elt F)),
    StableHlo.binary main_v1 main_v30 main_v31 (addi : (⟨S800000, .i32⟩ : BufTy).Contents (Elt F) → (⟨S800000, .i32⟩ : BufTy).Contents (Elt F) → (⟨S800000, .i32⟩ : BufTy).Contents (Elt F)),
    StableHlo.ternary main_v29 main_v31 main_v1 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v32 main_v33 (broadcastInDim S800000x1 ![0] bcast_S800000_S800000x1_0 : (⟨S800000, .i32⟩ : BufTy).Contents (Elt F) → (⟨S800000x1, .i32⟩ : BufTy).Contents (Elt F)),
    StableHlo.binary main_v11 main_v33 main_v34 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v27 main_v35 (broadcastInDim S800000x128 ![0, 1] bcast_S800000x1_S800000x128_0_1 : (⟨S800000x1, .f32⟩ : BufTy).Contents (Elt F) → (⟨S800000x128, .f32⟩ : BufTy).Contents (Elt F)),
    StableHlo.binary main_v34 main_v35 main_v36 (mulf : (⟨S800000x128, .f32⟩ : BufTy).Contents (Elt F) → (⟨S800000x128, .f32⟩ : BufTy).Contents (Elt F) → (⟨S800000x128, .f32⟩ : BufTy).Contents (Elt F)),
    StableHlo.nullary main_cst_7 (constant S_ .f32 0x00000000#32),
    StableHlo.unary main_cst_7 main_v37 (broadcastInDim S50000x128 ![] bcast_S_S50000x128 : (⟨S_, .f32⟩ : BufTy).Contents (Elt F) → (⟨S50000x128, .f32⟩ : BufTy).Contents (Elt F)),
    StableHlo.unary main_v3 main_v38 (broadcastInDim S800000x1 ![0] bcast_S800000_S800000x1_0 : (⟨S800000, .i32⟩ : BufTy).Contents (Elt F) → (⟨S800000x1, .i32⟩ : BufTy).Contents (Elt F)),
    StableHlo.ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v10 main_v10 main_v40 (mulf : (⟨S50000, .f32⟩ : BufTy).Contents (Elt F) → (⟨S50000, .f32⟩ : BufTy).Contents (Elt F) → (⟨S50000, .f32⟩ : BufTy).Contents (Elt F)),
    StableHlo.unary main_v40 main_v41 (broadcastInDim S50000x1 ![0] bcast_S50000_S50000x1_0 : (⟨S50000, .f32⟩ : BufTy).Contents (Elt F) → (⟨S50000x1, .f32⟩ : BufTy).Contents (Elt F)),
    StableHlo.unary main_v41 main_v42 (broadcastInDim S50000x128 ![0, 1] bcast_S50000x1_S50000x128_0_1 : (⟨S50000x1, .f32⟩ : BufTy).Contents (Elt F) → (⟨S50000x128, .f32⟩ : BufTy).Contents (Elt F)),
    StableHlo.binary main_v11 main_v42 main_v43 (mulf : (⟨S50000x128, .f32⟩ : BufTy).Contents (Elt F) → (⟨S50000x128, .f32⟩ : BufTy).Contents (Elt F) → (⟨S50000x128, .f32⟩ : BufTy).Contents (Elt F)),
    StableHlo.binary main_v39 main_v43 main_v44 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.binary main_v44 main_cst_8 main_v45 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v46 (broadcastInDim S128 ![] bcast_S_S128 : (⟨S_, .f32⟩ : BufTy).Contents (Elt F) → (⟨S128, .f32⟩ : BufTy).Contents (Elt F)),
    StableHlo.binary main_v45 main_v46 main_v47 (Host.divf : (⟨S128, .f32⟩ : BufTy).Contents (Elt F) → (⟨S128, .f32⟩ : BufTy).Contents (Elt F) → (⟨S128, .f32⟩ : BufTy).Contents (Elt F)) ]

abbrev W0 : List (Ref sig .tc) :=
  [ main_v0, main_v1, main_v2, main_v3, main_cst, main_v4, main_cst_0, main_v5,
    main_v6, main_v7, main_cst_1, main_v8, main_v9, main_v10, main_v11, main_c,
    main_v12, main_v13, main_c_2, main_v14, main_v15, main_v16, main_v17, main_v18,
    main_c_3, main_v19, main_v20, main_c_4, main_v21, main_v22, main_v23, main_v24,
    main_v25, main_v26, main_v27, main_c_5, main_v28, main_v29, main_c_6, main_v30,
    main_v31, main_v32, main_v33, main_v34, main_v35, main_v36, main_cst_7, main_v37,
    main_v38, main_v39, main_v40, main_v41, main_v42, main_v43, main_v44, main_cst_8,
    main_v45, main_cst_9, main_v46, main_v47 ]

abbrev ops1 : List (HloOp τ sig (Elt F)) :=
  [ StableHlo.nullary main_c_10 (constantI S_ 32 0#32),
    StableHlo.nullary main_call0_cst (constant S_ .f32 0x00000000#32),
    StableHlo.binary main_v44 main_call0_cst main_call0_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call0_v0 main_call0_v1 (broadcastInDim S1x128 ![1] bcast_S128_S1x128_1 : (⟨S128, .f32⟩ : BufTy).Contents (Elt F) → (⟨S1x128, .f32⟩ : BufTy).Contents (Elt F)),
    StableHlo.nullary main_call0_cst_0 (constant S_ .f32 0x47435000#32),
    StableHlo.unary main_call0_cst_0 main_call0_v2 (broadcastInDim S1x128 ![] bcast_S_S1x128 : (⟨S_, .f32⟩ : BufTy).Contents (Elt F) → (⟨S1x128, .f32⟩ : BufTy).Contents (Elt F)),
    StableHlo.binary main_call0_v1 main_call0_v2 main_call0_v3 (Host.divf : (⟨S1x128, .f32⟩ : BufTy).Contents (Elt F) → (⟨S1x128, .f32⟩ : BufTy).Contents (Elt F) → (⟨S1x128, .f32⟩ : BufTy).Contents (Elt F)),
    StableHlo.unary main_call0_v3 main_call0_v4 (broadcastInDim S50000x128 ![0, 1] bcast_S1x128_S50000x128_0_1 : (⟨S1x128, .f32⟩ : BufTy).Contents (Elt F) → (⟨S50000x128, .f32⟩ : BufTy).Contents (Elt F)),
    StableHlo.binary main_v44 main_call0_v4 main_call0_v5 (subf : (⟨S50000x128, .f32⟩ : BufTy).Contents (Elt F) → (⟨S50000x128, .f32⟩ : BufTy).Contents (Elt F) → (⟨S50000x128, .f32⟩ : BufTy).Contents (Elt F)),
    StableHlo.binary main_call0_v5 main_call0_v5 main_call0_v6 (mulf : (⟨S50000x128, .f32⟩ : BufTy).Contents (Elt F) → (⟨S50000x128, .f32⟩ : BufTy).Contents (Elt F) → (⟨S50000x128, .f32⟩ : BufTy).Contents (Elt F)),
    StableHlo.unary main_c_10 main_call0_v7 (sitofp (F := F) .f32 : (⟨S_, .i32⟩ : BufTy).Contents (Elt F) → (⟨S_, .f32⟩ : BufTy).Contents (Elt F)),
    StableHlo.nullary main_call0_cst_1 (constant S_ .f32 0x47435000#32),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call0_v8 main_call0_v10 (broadcastInDim S128 ![] bcast_S_S128 : (⟨S_, .f32⟩ : BufTy).Contents (Elt F) → (⟨S128, .f32⟩ : BufTy).Contents (Elt F)),
    StableHlo.binary main_call0_v9 main_call0_v10 main_call0_v11 (Host.divf : (⟨S128, .f32⟩ : BufTy).Contents (Elt F) → (⟨S128, .f32⟩ : BufTy).Contents (Elt F) → (⟨S128, .f32⟩ : BufTy).Contents (Elt F)),
    StableHlo.nullary main_call0_cst_3 (constant S_ .f32 0x00000000#32),
    StableHlo.binary main_call0_v8 main_call0_cst_3 main_call0_v12 (cmpf (F := F) .ogt : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 (broadcastInDim S128 ![] bcast_S_S128 : (⟨S_, .f32⟩ : BufTy).Contents (Elt F) → (⟨S128, .f32⟩ : BufTy).Contents (Elt F)),
    StableHlo.ternary main_call0_v12 main_call0_v11 main_call0_call0_v1 main_v48 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v47 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v50 main_v51 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v52 (broadcastInDim S128 ![] bcast_S_S128 : (⟨S_, .f32⟩ : BufTy).Contents (Elt F) → (⟨S128, .f32⟩ : BufTy).Contents (Elt F)),
    StableHlo.binary main_v48 main_v52 main_v53 (addf : (⟨S128, .f32⟩ : BufTy).Contents (Elt F) → (⟨S128, .f32⟩ : BufTy).Contents (Elt F) → (⟨S128, .f32⟩ : BufTy).Contents (Elt F)),
    StableHlo.unary main_v53 main_v54 (Host.rsqrt : (⟨S128, .f32⟩ : BufTy).Contents (Elt F) → (⟨S128, .f32⟩ : BufTy).Contents (Elt F)),
    StableHlo.unary main_v54 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v56 main_v57 (mulf : (⟨S50000x128, .f32⟩ : BufTy).Contents (Elt F) → (⟨S50000x128, .f32⟩ : BufTy).Contents (Elt F) → (⟨S50000x128, .f32⟩ : BufTy).Contents (Elt F)),
    StableHlo.unary main_arg6 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S50000x128 ![0, 1] bcast_S1x128_S50000x128_0_1 : (⟨S1x128, .f32⟩ : BufTy).Contents (Elt F) → (⟨S50000x128, .f32⟩ : BufTy).Contents (Elt F)),
    StableHlo.binary main_v57 main_v59 main_v60 (mulf : (⟨S50000x128, .f32⟩ : BufTy).Contents (Elt F) → (⟨S50000x128, .f32⟩ : BufTy).Contents (Elt F) → (⟨S50000x128, .f32⟩ : BufTy).Contents (Elt F)),
    StableHlo.unary main_arg7 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v62 main_v63 (addf : (⟨S50000x128, .f32⟩ : BufTy).Contents (Elt F) → (⟨S50000x128, .f32⟩ : BufTy).Contents (Elt F) → (⟨S50000x128, .f32⟩ : BufTy).Contents (Elt F)),
    StableHlo.nullary main_call1_cst (constant S_ .f32 0x00000000#32),
    StableHlo.unary main_call1_cst main_call1_v0 (broadcastInDim S50000x128 ![] bcast_S_S50000x128 : (⟨S_, .f32⟩ : BufTy).Contents (Elt F) → (⟨S50000x128, .f32⟩ : BufTy).Contents (Elt F)),
    StableHlo.binary main_v63 main_call1_v0 main_v64 (maximumf : (⟨S50000x128, .f32⟩ : BufTy).Contents (Elt F) → (⟨S50000x128, .f32⟩ : BufTy).Contents (Elt F) → (⟨S50000x128, .f32⟩ : BufTy).Contents (Elt F)),
    StableHlo.binary main_v64 main_arg3 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_12 (constantI S_ 32 0#32),
    StableHlo.unary main_c_12 main_v66 (broadcastInDim S800000 ![] bcast_S_S800000 : (⟨S_, .i32⟩ : BufTy).Contents (Elt F) → (⟨S800000, .i32⟩ : BufTy).Contents (Elt F)),
    StableHlo.binary main_v1 main_v66 main_v67 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v68 (broadcastInDim S800000 ![] bcast_S_S800000 : (⟨S_, .i32⟩ : BufTy).Contents (Elt F) → (⟨S800000, .i32⟩ : BufTy).Contents (Elt F)),
    StableHlo.binary main_v1 main_v68 main_v69 (addi : (⟨S800000, .i32⟩ : BufTy).Contents (Elt F) → (⟨S800000, .i32⟩ : BufTy).Contents (Elt F) → (⟨S800000, .i32⟩ : BufTy).Contents (Elt F)),
    StableHlo.ternary main_v67 main_v69 main_v1 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v70 main_v71 (broadcastInDim S800000x1 ![0] bcast_S800000_S800000x1_0 : (⟨S800000, .i32⟩ : BufTy).Contents (Elt F) → (⟨S800000x1, .i32⟩ : BufTy).Contents (Elt F)),
    StableHlo.binary main_v10 main_v71 main_v72 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_14 (constantI S_ 32 0#32),
    StableHlo.unary main_c_14 main_v73 (broadcastInDim S800000 ![] bcast_S_S800000 : (⟨S_, .i32⟩ : BufTy).Contents (Elt F) → (⟨S800000, .i32⟩ : BufTy).Contents (Elt F)),
    StableHlo.binary main_v3 main_v73 main_v74 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v75 (broadcastInDim S800000 ![] bcast_S_S800000 : (⟨S_, .i32⟩ : BufTy).Contents (Elt F) → (⟨S800000, .i32⟩ : BufTy).Contents (Elt F)),
    StableHlo.binary main_v3 main_v75 main_v76 (addi : (⟨S800000, .i32⟩ : BufTy).Contents (Elt F) → (⟨S800000, .i32⟩ : BufTy).Contents (Elt F) → (⟨S800000, .i32⟩ : BufTy).Contents (Elt F)),
    StableHlo.ternary main_v74 main_v76 main_v3 main_v77 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v77 main_v78 (broadcastInDim S800000x1 ![0] bcast_S800000_S800000x1_0 : (⟨S800000, .i32⟩ : BufTy).Contents (Elt F) → (⟨S800000x1, .i32⟩ : BufTy).Contents (Elt F)),
    StableHlo.binary main_v10 main_v78 main_v79 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v72 main_v79 main_v80 (mulf : (⟨S800000, .f32⟩ : BufTy).Contents (Elt F) → (⟨S800000, .f32⟩ : BufTy).Contents (Elt F) → (⟨S800000, .f32⟩ : BufTy).Contents (Elt F)),
    StableHlo.unary main_v80 main_v81 (broadcastInDim S800000x1 ![0] bcast_S800000_S800000x1_0 : (⟨S800000, .f32⟩ : BufTy).Contents (Elt F) → (⟨S800000x1, .f32⟩ : BufTy).Contents (Elt F)),
    StableHlo.nullary main_c_16 (constantI S_ 32 0#32),
    StableHlo.unary main_c_16 main_v82 (broadcastInDim S800000 ![] bcast_S_S800000 : (⟨S_, .i32⟩ : BufTy).Contents (Elt F) → (⟨S800000, .i32⟩ : BufTy).Contents (Elt F)),
    StableHlo.binary main_v1 main_v82 main_v83 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v84 (broadcastInDim S800000 ![] bcast_S_S800000 : (⟨S_, .i32⟩ : BufTy).Contents (Elt F) → (⟨S800000, .i32⟩ : BufTy).Contents (Elt F)),
    StableHlo.binary main_v1 main_v84 main_v85 (addi : (⟨S800000, .i32⟩ : BufTy).Contents (Elt F) → (⟨S800000, .i32⟩ : BufTy).Contents (Elt F) → (⟨S800000, .i32⟩ : BufTy).Contents (Elt F)),
    StableHlo.ternary main_v83 main_v85 main_v1 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v86 main_v87 (broadcastInDim S800000x1 ![0] bcast_S800000_S800000x1_0 : (⟨S800000, .i32⟩ : BufTy).Contents (Elt F) → (⟨S800000x1, .i32⟩ : BufTy).Contents (Elt F)),
    StableHlo.binary main_v65 main_v87 main_v88 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v81 main_v89 (broadcastInDim S800000x128 ![0, 1] bcast_S800000x1_S800000x128_0_1 : (⟨S800000x1, .f32⟩ : BufTy).Contents (Elt F) → (⟨S800000x128, .f32⟩ : BufTy).Contents (Elt F)),
    StableHlo.binary main_v88 main_v89 main_v90 (mulf : (⟨S800000x128, .f32⟩ : BufTy).Contents (Elt F) → (⟨S800000x128, .f32⟩ : BufTy).Contents (Elt F) → (⟨S800000x128, .f32⟩ : BufTy).Contents (Elt F)),
    StableHlo.nullary main_cst_18 (constant S_ .f32 0x00000000#32),
    StableHlo.unary main_cst_18 main_v91 (broadcastInDim S50000x128 ![] bcast_S_S50000x128 : (⟨S_, .f32⟩ : BufTy).Contents (Elt F) → (⟨S50000x128, .f32⟩ : BufTy).Contents (Elt F)),
    StableHlo.unary main_v3 main_v92 (broadcastInDim S800000x1 ![0] bcast_S800000_S800000x1_0 : (⟨S800000, .i32⟩ : BufTy).Contents (Elt F) → (⟨S800000x1, .i32⟩ : BufTy).Contents (Elt F)),
    StableHlo.ternary main_v91 main_v92 main_v90 main_v93 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v10 main_v10 main_v94 (mulf : (⟨S50000, .f32⟩ : BufTy).Contents (Elt F) → (⟨S50000, .f32⟩ : BufTy).Contents (Elt F) → (⟨S50000, .f32⟩ : BufTy).Contents (Elt F)),
    StableHlo.unary main_v94 main_v95 (broadcastInDim S50000x1 ![0] bcast_S50000_S50000x1_0 : (⟨S50000, .f32⟩ : BufTy).Contents (Elt F) → (⟨S50000x1, .f32⟩ : BufTy).Contents (Elt F)),
    StableHlo.unary main_v95 main_v96 (broadcastInDim S50000x128 ![0, 1] bcast_S50000x1_S50000x128_0_1 : (⟨S50000x1, .f32⟩ : BufTy).Contents (Elt F) → (⟨S50000x128, .f32⟩ : BufTy).Contents (Elt F)),
    StableHlo.binary main_v65 main_v96 main_v97 (mulf : (⟨S50000x128, .f32⟩ : BufTy).Contents (Elt F) → (⟨S50000x128, .f32⟩ : BufTy).Contents (Elt F) → (⟨S50000x128, .f32⟩ : BufTy).Contents (Elt F)),
    StableHlo.binary main_v93 main_v97 main_v98 (addf : (⟨S50000x128, .f32⟩ : BufTy).Contents (Elt F) → (⟨S50000x128, .f32⟩ : BufTy).Contents (Elt F) → (⟨S50000x128, .f32⟩ : BufTy).Contents (Elt F)) ]

abbrev W1 : List (Ref sig .tc) :=
  [ main_c_10, main_call0_cst, main_call0_v0, main_call0_v1, main_call0_cst_0, main_call0_v2, main_call0_v3, main_call0_v4,
    main_call0_v5, main_call0_v6, main_call0_v7, main_call0_cst_1, main_call0_v8, main_call0_cst_2, main_call0_v9, main_call0_v10,
    main_call0_v11, main_call0_cst_3, main_call0_v12, main_call0_cst_4, main_call0_call0_v0, main_call0_call0_v1, main_v48, main_v49,
    main_v50, main_v51, main_cst_11, main_v52, main_v53, main_v54, main_v55, main_v56,
    main_v57, main_v58, main_v59, main_v60, main_v61, main_v62, main_v63, main_call1_cst,
    main_call1_v0, main_v64, main_v65, main_c_12, main_v66, main_v67, main_c_13, main_v68,
    main_v69, main_v70, main_v71, main_v72, main_c_14, main_v73, main_v74, main_c_15,
    main_v75, main_v76, main_v77, main_v78, main_v79, main_v80, main_v81, main_c_16,
    main_v82, main_v83, main_c_17, main_v84, main_v85, main_v86, main_v87, main_v88,
    main_v89, main_v90, main_cst_18, main_v91, main_v92, main_v93, main_v94, main_v95,
    main_v96, main_v97, main_v98 ]

abbrev ops2 : List (HloOp τ sig (Elt F)) :=
  [ StableHlo.nullary main_cst_19 (constant S_ .f32 0x00000000#32),
    StableHlo.binary main_v98 main_cst_19 main_v99 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_20 (constant S_ .f32 0x47435000#32),
    StableHlo.unary main_cst_20 main_v100 (broadcastInDim S128 ![] bcast_S_S128 : (⟨S_, .f32⟩ : BufTy).Contents (Elt F) → (⟨S128, .f32⟩ : BufTy).Contents (Elt F)),
    StableHlo.binary main_v99 main_v100 main_v101 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.nullary main_call2_cst (constant S_ .f32 0x00000000#32),
    StableHlo.binary main_v98 main_call2_cst main_call2_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call2_v0 main_call2_v1 (broadcastInDim S1x128 ![1] bcast_S128_S1x128_1 : (⟨S128, .f32⟩ : BufTy).Contents (Elt F) → (⟨S1x128, .f32⟩ : BufTy).Contents (Elt F)),
    StableHlo.nullary main_call2_cst_0 (constant S_ .f32 0x47435000#32),
    StableHlo.unary main_call2_cst_0 main_call2_v2 (broadcastInDim S1x128 ![] bcast_S_S1x128 : (⟨S_, .f32⟩ : BufTy).Contents (Elt F) → (⟨S1x128, .f32⟩ : BufTy).Contents (Elt F)),
    StableHlo.binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    StableHlo.unary main_call2_v3 main_call2_v4 (broadcastInDim S50000x128 ![0, 1] bcast_S1x128_S50000x128_0_1 : (⟨S1x128, .f32⟩ : BufTy).Contents (Elt F) → (⟨S50000x128, .f32⟩ : BufTy).Contents (Elt F)),
    StableHlo.binary main_v98 main_call2_v4 main_call2_v5 (subf : (⟨S50000x128, .f32⟩ : BufTy).Contents (Elt F) → (⟨S50000x128, .f32⟩ : BufTy).Contents (Elt F) → (⟨S50000x128, .f32⟩ : BufTy).Contents (Elt F)),
    StableHlo.binary main_call2_v5 main_call2_v5 main_call2_v6 (mulf : (⟨S50000x128, .f32⟩ : BufTy).Contents (Elt F) → (⟨S50000x128, .f32⟩ : BufTy).Contents (Elt F) → (⟨S50000x128, .f32⟩ : BufTy).Contents (Elt F)),
    StableHlo.unary main_c_21 main_call2_v7 (sitofp (F := F) .f32 : (⟨S_, .i32⟩ : BufTy).Contents (Elt F) → (⟨S_, .f32⟩ : BufTy).Contents (Elt F)),
    StableHlo.nullary main_call2_cst_1 (constant S_ .f32 0x47435000#32),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32),
    StableHlo.binary main_call2_v6 main_call2_cst_2 main_call2_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call2_v8 main_call2_v10 (broadcastInDim S128 ![] bcast_S_S128 : (⟨S_, .f32⟩ : BufTy).Contents (Elt F) → (⟨S128, .f32⟩ : BufTy).Contents (Elt F)),
    StableHlo.binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    StableHlo.nullary main_call2_cst_3 (constant S_ .f32 0x00000000#32),
    StableHlo.binary main_call2_v8 main_call2_cst_3 main_call2_v12 (cmpf (F := F) .ogt : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 (broadcastInDim S128 ![] bcast_S_S128 : (⟨S_, .f32⟩ : BufTy).Contents (Elt F) → (⟨S128, .f32⟩ : BufTy).Contents (Elt F)),
    StableHlo.ternary main_call2_v12 main_call2_v11 main_call2_call0_v1 main_v102 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v101 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S50000x128 ![0, 1] bcast_S1x128_S50000x128_0_1 : (⟨S1x128, .f32⟩ : BufTy).Contents (Elt F) → (⟨S50000x128, .f32⟩ : BufTy).Contents (Elt F)),
    StableHlo.binary main_v98 main_v104 main_v105 (subf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3727C5AC#32),
    StableHlo.unary main_cst_22 main_v106 (broadcastInDim S128 ![] bcast_S_S128 : (⟨S_, .f32⟩ : BufTy).Contents (Elt F) → (⟨S128, .f32⟩ : BufTy).Contents (Elt F)),
    StableHlo.binary main_v102 main_v106 main_v107 (addf : (⟨S128, .f32⟩ : BufTy).Contents (Elt F) → (⟨S128, .f32⟩ : BufTy).Contents (Elt F) → (⟨S128, .f32⟩ : BufTy).Contents (Elt F)),
    StableHlo.unary main_v107 main_v108 (Host.rsqrt : (⟨S128, .f32⟩ : BufTy).Contents (Elt F) → (⟨S128, .f32⟩ : BufTy).Contents (Elt F)),
    StableHlo.unary main_v108 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v110 main_v111 (mulf : (⟨S50000x128, .f32⟩ : BufTy).Contents (Elt F) → (⟨S50000x128, .f32⟩ : BufTy).Contents (Elt F) → (⟨S50000x128, .f32⟩ : BufTy).Contents (Elt F)),
    StableHlo.unary main_arg8 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v113 main_v114 (mulf : (⟨S50000x128, .f32⟩ : BufTy).Contents (Elt F) → (⟨S50000x128, .f32⟩ : BufTy).Contents (Elt F) → (⟨S50000x128, .f32⟩ : BufTy).Contents (Elt F)),
    StableHlo.unary main_arg9 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v116 main_v117 (addf : (⟨S50000x128, .f32⟩ : BufTy).Contents (Elt F) → (⟨S50000x128, .f32⟩ : BufTy).Contents (Elt F) → (⟨S50000x128, .f32⟩ : BufTy).Contents (Elt F)),
    StableHlo.nullary main_call3_cst (constant S_ .f32 0x00000000#32),
    StableHlo.unary main_call3_cst main_call3_v0 (broadcastInDim S50000x128 ![] bcast_S_S50000x128 : (⟨S_, .f32⟩ : BufTy).Contents (Elt F) → (⟨S50000x128, .f32⟩ : BufTy).Contents (Elt F)),
    StableHlo.binary main_v117 main_call3_v0 main_v118 (maximumf : (⟨S50000x128, .f32⟩ : BufTy).Contents (Elt F) → (⟨S50000x128, .f32⟩ : BufTy).Contents (Elt F) → (⟨S50000x128, .f32⟩ : BufTy).Contents (Elt F)),
    StableHlo.binary main_v118 main_arg4 main_v119 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_23 (constantI S_ 32 0#32),
    StableHlo.unary main_c_23 main_v120 (broadcastInDim S800000 ![] bcast_S_S800000 : (⟨S_, .i32⟩ : BufTy).Contents (Elt F) → (⟨S800000, .i32⟩ : BufTy).Contents (Elt F)),
    StableHlo.binary main_v1 main_v120 main_v121 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v122 (broadcastInDim S800000 ![] bcast_S_S800000 : (⟨S_, .i32⟩ : BufTy).Contents (Elt F) → (⟨S800000, .i32⟩ : BufTy).Contents (Elt F)),
    StableHlo.binary main_v1 main_v122 main_v123 (addi : (⟨S800000, .i32⟩ : BufTy).Contents (Elt F) → (⟨S800000, .i32⟩ : BufTy).Contents (Elt F) → (⟨S800000, .i32⟩ : BufTy).Contents (Elt F)),
    StableHlo.ternary main_v121 main_v123 main_v1 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v124 main_v125 (broadcastInDim S800000x1 ![0] bcast_S800000_S800000x1_0 : (⟨S800000, .i32⟩ : BufTy).Contents (Elt F) → (⟨S800000x1, .i32⟩ : BufTy).Contents (Elt F)),
    StableHlo.binary main_v10 main_v125 main_v126 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_25 (constantI S_ 32 0#32),
    StableHlo.unary main_c_25 main_v127 (broadcastInDim S800000 ![] bcast_S_S800000 : (⟨S_, .i32⟩ : BufTy).Contents (Elt F) → (⟨S800000, .i32⟩ : BufTy).Contents (Elt F)),
    StableHlo.binary main_v3 main_v127 main_v128 (cmpi .slt : (⟨S800000, .i32⟩ : BufTy).Contents (Elt F) → (⟨S800000, .i32⟩ : BufTy).Contents (Elt F) → (⟨S800000, .i1⟩ : BufTy).Contents (Elt F)),
    StableHlo.nullary main_c_26 (constantI S_ 32 50000#32),
    StableHlo.unary main_c_26 main_v129 (broadcastInDim S800000 ![] bcast_S_S800000 : (⟨S_, .i32⟩ : BufTy).Contents (Elt F) → (⟨S800000, .i32⟩ : BufTy).Contents (Elt F)),
    StableHlo.binary main_v3 main_v129 main_v130 (addi : (⟨S800000, .i32⟩ : BufTy).Contents (Elt F) → (⟨S800000, .i32⟩ : BufTy).Contents (Elt F) → (⟨S800000, .i32⟩ : BufTy).Contents (Elt F)),
    StableHlo.ternary main_v128 main_v130 main_v3 main_v131 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v131 main_v132 (broadcastInDim S800000x1 ![0] bcast_S800000_S800000x1_0 : (⟨S800000, .i32⟩ : BufTy).Contents (Elt F) → (⟨S800000x1, .i32⟩ : BufTy).Contents (Elt F)),
    StableHlo.binary main_v10 main_v132 main_v133 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v126 main_v133 main_v134 (mulf : (⟨S800000, .f32⟩ : BufTy).Contents (Elt F) → (⟨S800000, .f32⟩ : BufTy).Contents (Elt F) → (⟨S800000, .f32⟩ : BufTy).Contents (Elt F)),
    StableHlo.unary main_v134 main_v135 (broadcastInDim S800000x1 ![0] bcast_S800000_S800000x1_0 : (⟨S800000, .f32⟩ : BufTy).Contents (Elt F) → (⟨S800000x1, .f32⟩ : BufTy).Contents (Elt F)),
    StableHlo.nullary main_c_27 (constantI S_ 32 0#32),
    StableHlo.unary main_c_27 main_v136 (broadcastInDim S800000 ![] bcast_S_S800000 : (⟨S_, .i32⟩ : BufTy).Contents (Elt F) → (⟨S800000, .i32⟩ : BufTy).Contents (Elt F)),
    StableHlo.binary main_v1 main_v136 main_v137 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 50000#32),
    StableHlo.unary main_c_28 main_v138 (broadcastInDim S800000 ![] bcast_S_S800000 : (⟨S_, .i32⟩ : BufTy).Contents (Elt F) → (⟨S800000, .i32⟩ : BufTy).Contents (Elt F)),
    StableHlo.binary main_v1 main_v138 main_v139 (addi : (⟨S800000, .i32⟩ : BufTy).Contents (Elt F) → (⟨S800000, .i32⟩ : BufTy).Contents (Elt F) → (⟨S800000, .i32⟩ : BufTy).Contents (Elt F)),
    StableHlo.ternary main_v137 main_v139 main_v1 main_v140 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v140 main_v141 (broadcastInDim S800000x1 ![0] bcast_S800000_S800000x1_0 : (⟨S800000, .i32⟩ : BufTy).Contents (Elt F) → (⟨S800000x1, .i32⟩ : BufTy).Contents (Elt F)),
    StableHlo.binary main_v119 main_v141 main_v142 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v135 main_v143 (broadcastInDim S800000x64 ![0, 1] bcast_S800000x1_S800000x64_0_1 : (⟨S800000x1, .f32⟩ : BufTy).Contents (Elt F) → (⟨S800000x64, .f32⟩ : BufTy).Contents (Elt F)),
    StableHlo.binary main_v142 main_v143 main_v144 (mulf : (⟨S800000x64, .f32⟩ : BufTy).Contents (Elt F) → (⟨S800000x64, .f32⟩ : BufTy).Contents (Elt F) → (⟨S800000x64, .f32⟩ : BufTy).Contents (Elt F)),
    StableHlo.nullary main_cst_29 (constant S_ .f32 0x00000000#32),
    StableHlo.unary main_cst_29 main_v145 (broadcastInDim S50000x64 ![] bcast_S_S50000x64 : (⟨S_, .f32⟩ : BufTy).Contents (Elt F) → (⟨S50000x64, .f32⟩ : BufTy).Contents (Elt F)),
    StableHlo.unary main_v3 main_v146 (broadcastInDim S800000x1 ![0] bcast_S800000_S800000x1_0 : (⟨S800000, .i32⟩ : BufTy).Contents (Elt F) → (⟨S800000x1, .i32⟩ : BufTy).Contents (Elt F)),
    StableHlo.ternary main_v145 main_v146 main_v144 main_v147 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

abbrev W2 : List (Ref sig .tc) :=
  [ main_cst_19, main_v99, main_cst_20, main_v100, main_v101, main_c_21, main_call2_cst, main_call2_v0,
    main_call2_v1, main_call2_cst_0, main_call2_v2, main_call2_v3, main_call2_v4, main_call2_v5, main_call2_v6, main_call2_v7,
    main_call2_cst_1, main_call2_v8, main_call2_cst_2, main_call2_v9, main_call2_v10, main_call2_v11, main_call2_cst_3, main_call2_v12,
    main_call2_cst_4, main_call2_call0_v0, main_call2_call0_v1, main_v102, main_v103, main_v104, main_v105, main_cst_22,
    main_v106, main_v107, main_v108, main_v109, main_v110, main_v111, main_v112, main_v113,
    main_v114, main_v115, main_v116, main_v117, main_call3_cst, main_call3_v0, main_v118, main_v119,
    main_c_23, main_v120, main_v121, main_c_24, main_v122, main_v123, main_v124, main_v125,
    main_v126, main_c_25, main_v127, main_v128, main_c_26, main_v129, main_v130, main_v131,
    main_v132, main_v133, main_v134, main_v135, main_c_27, main_v136, main_v137, main_c_28,
    main_v138, main_v139, main_v140, main_v141, main_v142, main_v143, main_v144, main_cst_29,
    main_v145, main_v146, main_v147 ]

abbrev ops3 : List (HloOp τ sig (Elt F)) :=
  [ StableHlo.binary main_v10 main_v10 main_v148 (mulf : (⟨S50000, .f32⟩ : BufTy).Contents (Elt F) → (⟨S50000, .f32⟩ : BufTy).Contents (Elt F) → (⟨S50000, .f32⟩ : BufTy).Contents (Elt F)),
    StableHlo.unary main_v148 main_v149 (broadcastInDim S50000x1 ![0] bcast_S50000_S50000x1_0 : (⟨S50000, .f32⟩ : BufTy).Contents (Elt F) → (⟨S50000x1, .f32⟩ : BufTy).Contents (Elt F)),
    StableHlo.unary main_v149 main_v150 (broadcastInDim S50000x64 ![0, 1] bcast_S50000x1_S50000x64_0_1 : (⟨S50000x1, .f32⟩ : BufTy).Contents (Elt F) → (⟨S50000x64, .f32⟩ : BufTy).Contents (Elt F)),
    StableHlo.binary main_v119 main_v150 main_v151 (mulf : (⟨S50000x64, .f32⟩ : BufTy).Contents (Elt F) → (⟨S50000x64, .f32⟩ : BufTy).Contents (Elt F) → (⟨S50000x64, .f32⟩ : BufTy).Contents (Elt F)),
    StableHlo.binary main_v147 main_v151 main_v152 (addf : (⟨S50000x64, .f32⟩ : BufTy).Contents (Elt F) → (⟨S50000x64, .f32⟩ : BufTy).Contents (Elt F) → (⟨S50000x64, .f32⟩ : BufTy).Contents (Elt F)),
    StableHlo.binary main_v118 main_arg5 main_v153 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_30 (constantI S_ 32 0#32),
    StableHlo.unary main_c_30 main_v154 (broadcastInDim S800000 ![] bcast_S_S800000 : (⟨S_, .i32⟩ : BufTy).Contents (Elt F) → (⟨S800000, .i32⟩ : BufTy).Contents (Elt F)),
    StableHlo.binary main_v1 main_v154 main_v155 (cmpi .slt : (⟨S800000, .i32⟩ : BufTy).Contents (Elt F) → (⟨S800000, .i32⟩ : BufTy).Contents (Elt F) → (⟨S800000, .i1⟩ : BufTy).Contents (Elt F)),
    StableHlo.nullary main_c_31 (constantI S_ 32 50000#32),
    StableHlo.unary main_c_31 main_v156 (broadcastInDim S800000 ![] bcast_S_S800000 : (⟨S_, .i32⟩ : BufTy).Contents (Elt F) → (⟨S800000, .i32⟩ : BufTy).Contents (Elt F)),
    StableHlo.binary main_v1 main_v156 main_v157 (addi : (⟨S800000, .i32⟩ : BufTy).Contents (Elt F) → (⟨S800000, .i32⟩ : BufTy).Contents (Elt F) → (⟨S800000, .i32⟩ : BufTy).Contents (Elt F)),
    StableHlo.ternary main_v155 main_v157 main_v1 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v158 main_v159 (broadcastInDim S800000x1 ![0] bcast_S800000_S800000x1_0 : (⟨S800000, .i32⟩ : BufTy).Contents (Elt F) → (⟨S800000x1, .i32⟩ : BufTy).Contents (Elt F)),
    StableHlo.binary main_v10 main_v159 main_v160 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_32 (constantI S_ 32 0#32),
    StableHlo.unary main_c_32 main_v161 (broadcastInDim S800000 ![] bcast_S_S800000 : (⟨S_, .i32⟩ : BufTy).Contents (Elt F) → (⟨S800000, .i32⟩ : BufTy).Contents (Elt F)),
    StableHlo.binary main_v3 main_v161 main_v162 (cmpi .slt : (⟨S800000, .i32⟩ : BufTy).Contents (Elt F) → (⟨S800000, .i32⟩ : BufTy).Contents (Elt F) → (⟨S800000, .i1⟩ : BufTy).Contents (Elt F)),
    StableHlo.nullary main_c_33 (constantI S_ 32 50000#32),
    StableHlo.unary main_c_33 main_v163 (broadcastInDim S800000 ![] bcast_S_S800000 : (⟨S_, .i32⟩ : BufTy).Contents (Elt F) → (⟨S800000, .i32⟩ : BufTy).Contents (Elt F)),
    StableHlo.binary main_v3 main_v163 main_v164 (addi : (⟨S800000, .i32⟩ : BufTy).Contents (Elt F) → (⟨S800000, .i32⟩ : BufTy).Contents (Elt F) → (⟨S800000, .i32⟩ : BufTy).Contents (Elt F)),
    StableHlo.ternary main_v162 main_v164 main_v3 main_v165 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v165 main_v166 (broadcastInDim S800000x1 ![0] bcast_S800000_S800000x1_0 : (⟨S800000, .i32⟩ : BufTy).Contents (Elt F) → (⟨S800000x1, .i32⟩ : BufTy).Contents (Elt F)),
    StableHlo.binary main_v10 main_v166 main_v167 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v160 main_v167 main_v168 (mulf : (⟨S800000, .f32⟩ : BufTy).Contents (Elt F) → (⟨S800000, .f32⟩ : BufTy).Contents (Elt F) → (⟨S800000, .f32⟩ : BufTy).Contents (Elt F)),
    StableHlo.unary main_v168 main_v169 (broadcastInDim S800000x1 ![0] bcast_S800000_S800000x1_0 : (⟨S800000, .f32⟩ : BufTy).Contents (Elt F) → (⟨S800000x1, .f32⟩ : BufTy).Contents (Elt F)),
    StableHlo.nullary main_c_34 (constantI S_ 32 0#32),
    StableHlo.unary main_c_34 main_v170 (broadcastInDim S800000 ![] bcast_S_S800000 : (⟨S_, .i32⟩ : BufTy).Contents (Elt F) → (⟨S800000, .i32⟩ : BufTy).Contents (Elt F)),
    StableHlo.binary main_v1 main_v170 main_v171 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v172 (broadcastInDim S800000 ![] bcast_S_S800000 : (⟨S_, .i32⟩ : BufTy).Contents (Elt F) → (⟨S800000, .i32⟩ : BufTy).Contents (Elt F)),
    StableHlo.binary main_v1 main_v172 main_v173 (addi : (⟨S800000, .i32⟩ : BufTy).Contents (Elt F) → (⟨S800000, .i32⟩ : BufTy).Contents (Elt F) → (⟨S800000, .i32⟩ : BufTy).Contents (Elt F)),
    StableHlo.ternary main_v171 main_v173 main_v1 main_v174 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v174 main_v175 (broadcastInDim S800000x1 ![0] bcast_S800000_S800000x1_0 : (⟨S800000, .i32⟩ : BufTy).Contents (Elt F) → (⟨S800000x1, .i32⟩ : BufTy).Contents (Elt F)),
    StableHlo.binary main_v153 main_v175 main_v176 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v169 main_v177 (broadcastInDim S800000x64 ![0, 1] bcast_S800000x1_S800000x64_0_1 : (⟨S800000x1, .f32⟩ : BufTy).Contents (Elt F) → (⟨S800000x64, .f32⟩ : BufTy).Contents (Elt F)),
    StableHlo.binary main_v176 main_v177 main_v178 (mulf : (⟨S800000x64, .f32⟩ : BufTy).Contents (Elt F) → (⟨S800000x64, .f32⟩ : BufTy).Contents (Elt F) → (⟨S800000x64, .f32⟩ : BufTy).Contents (Elt F)),
    StableHlo.nullary main_cst_36 (constant S_ .f32 0x00000000#32),
    StableHlo.unary main_cst_36 main_v179 (broadcastInDim S50000x64 ![] bcast_S_S50000x64 : (⟨S_, .f32⟩ : BufTy).Contents (Elt F) → (⟨S50000x64, .f32⟩ : BufTy).Contents (Elt F)),
    StableHlo.unary main_v3 main_v180 (broadcastInDim S800000x1 ![0] bcast_S800000_S800000x1_0 : (⟨S800000, .i32⟩ : BufTy).Contents (Elt F) → (⟨S800000x1, .i32⟩ : BufTy).Contents (Elt F)),
    StableHlo.ternary main_v179 main_v180 main_v178 main_v181 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v10 main_v10 main_v182 (mulf : (⟨S50000, .f32⟩ : BufTy).Contents (Elt F) → (⟨S50000, .f32⟩ : BufTy).Contents (Elt F) → (⟨S50000, .f32⟩ : BufTy).Contents (Elt F)),
    StableHlo.unary main_v182 main_v183 (broadcastInDim S50000x1 ![0] bcast_S50000_S50000x1_0 : (⟨S50000, .f32⟩ : BufTy).Contents (Elt F) → (⟨S50000x1, .f32⟩ : BufTy).Contents (Elt F)),
    StableHlo.unary main_v183 main_v184 (broadcastInDim S50000x64 ![0, 1] bcast_S50000x1_S50000x64_0_1 : (⟨S50000x1, .f32⟩ : BufTy).Contents (Elt F) → (⟨S50000x64, .f32⟩ : BufTy).Contents (Elt F)),
    StableHlo.binary main_v153 main_v184 main_v185 (mulf : (⟨S50000x64, .f32⟩ : BufTy).Contents (Elt F) → (⟨S50000x64, .f32⟩ : BufTy).Contents (Elt F) → (⟨S50000x64, .f32⟩ : BufTy).Contents (Elt F)),
    StableHlo.binary main_v181 main_v185 main_v186 (addf : (⟨S50000x64, .f32⟩ : BufTy).Contents (Elt F) → (⟨S50000x64, .f32⟩ : BufTy).Contents (Elt F) → (⟨S50000x64, .f32⟩ : BufTy).Contents (Elt F)) ]

abbrev W3 : List (Ref sig .tc) :=
  [ main_v148, main_v149, main_v150, main_v151, main_v152, main_v153, main_c_30, main_v154,
    main_v155, main_c_31, main_v156, main_v157, main_v158, main_v159, main_v160, main_c_32,
    main_v161, main_v162, main_c_33, main_v163, main_v164, main_v165, main_v166, main_v167,
    main_v168, main_v169, main_c_34, main_v170, main_v171, main_c_35, main_v172, main_v173,
    main_v174, main_v175, main_v176, main_v177, main_v178, main_cst_36, main_v179, main_v180,
    main_v181, main_v182, main_v183, main_v184, main_v185, main_v186 ]

abbrev ops : List (HloOp τ sig (Elt F)) := ops0 ++ (ops1 ++ (ops2 ++ ops3))

abbrev W : List (Ref sig .tc) := W0 ++ (W1 ++ (W2 ++ W3))

end Cert.ReferenceIdeal.Hand

end
-- ==== Proof.LibSsa.lean ====
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1) := by decide) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1) := by decide) (hx' : x ∉ W.drop k := by decide) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1) := by decide)
    (ha' : a ∉ W.drop k := by decide) (hb' : b ∉ W.drop k := by decide) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1) := by decide)
    (hc' : c ∉ W.drop k := by decide) (ha' : a ∉ W.drop k := by decide) (hb' : b ∉ W.drop k := by decide) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1) := by decide)
    (hx' : x ∉ W.drop k := by decide) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

end Idealize.ShloMosaic.StableHlo.Ssa

end
-- ==== Proof.RefRun.lean ====
import proofs.«126291_j72541997629772_2_alg».proof.Proof.RefOps
import proofs.«126291_j72541997629772_2_alg».proof.Proof.LibSsa

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

open Idealize.ShloMosaic.StableHlo.Ssa (WritesOnly)

theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem writesOnly_append {Val : EltTy → Type} :
    ∀ (l₁ : List (HloOp τ sig Val)) (W₁ : List (Ref sig .tc)) (l₂ : List (HloOp τ sig Val)) (W₂ : List (Ref sig .tc)),
      WritesOnly l₁ W₁ → WritesOnly l₂ W₂ → WritesOnly (l₁ ++ l₂) (W₁ ++ W₂)
  | [], [], _, _, _, h => h
  | _ :: l, _ :: W, l₂, W₂, h₁, h₂ => ⟨h₁.1, writesOnly_append l W l₂ W₂ h₁.2 h₂⟩
  | [], _ :: _, _, _, h, _ => h.elim
  | _ :: _, [], _, _, h, _ => h.elim

macro "each_bufs_sub" : tactic =>
  `(tactic| repeat' (first | (with_reducible exact nullary_bufs_sub ..) | (with_reducible exact unary_bufs_sub ..) | (with_reducible exact binary_bufs_sub ..) | (with_reducible exact ternary_bufs_sub ..) | (with_reducible exact reshape_bufs_sub ..) | apply And.intro | unfold List.Forall))

macro "each_rfl" : tactic => `(tactic| repeat' (first | apply And.intro | rfl | trivial))

set_option maxRecDepth 8192 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl
set_option maxRecDepth 8192 in
theorem main_part3_eq (c : Dev nD) : main_part3 (F := F) c = seq ops3 := rfl

theorem main_eq (c : Dev nD) : main (F := F) c = seq ops := by
  show (main_part0 c >>= fun _ => main_part1 c >>= fun _ => main_part2 c >>= fun _ => main_part3 c)
    = seq (ops0 ++ (ops1 ++ (ops2 ++ ops3)))
  rw [seq_append, seq_append, seq_append, main_part0_eq, main_part1_eq, main_part2_eq, main_part3_eq]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig := by each_bufs_sub
theorem ops1_sub : (ops1 : List (HloOp τ sig (Elt F))).Forall fun op => op.bufs ⊆ tcRefs τ sig := by each_bufs_sub
theorem ops2_sub : (ops2 : List (HloOp τ sig (Elt F))).Forall fun op => op.bufs ⊆ tcRefs τ sig := by each_bufs_sub
theorem ops3_sub : (ops3 : List (HloOp τ sig (Elt F))).Forall fun op => op.bufs ⊆ tcRefs τ sig := by each_bufs_sub

theorem ops_sub : (ops : List (HloOp τ sig (Elt F))).Forall fun op => op.bufs ⊆ tcRefs τ sig :=
  forall_append ops0_sub (forall_append ops1_sub (forall_append ops2_sub ops3_sub))

theorem ops0_fresh : (ops0 : List (HloOp τ sig (Elt F))).Forall fun op => op.fresh = ∅ := by each_rfl
theorem ops1_fresh : (ops1 : List (HloOp τ sig (Elt F))).Forall fun op => op.fresh = ∅ := by each_rfl
theorem ops2_fresh : (ops2 : List (HloOp τ sig (Elt F))).Forall fun op => op.fresh = ∅ := by each_rfl
theorem ops3_fresh : (ops3 : List (HloOp τ sig (Elt F))).Forall fun op => op.fresh = ∅ := by each_rfl

theorem ops_fresh : ∀ op ∈ (ops : List (HloOp τ sig (Elt F))), op.fresh = ∅ :=
  List.forall_iff_forall_mem.mp (forall_append ops0_fresh (forall_append ops1_fresh (forall_append ops2_fresh ops3_fresh)))

theorem ops0_writes : WritesOnly (ops0 (F := F)) W0 := by each_rfl
theorem ops1_writes : WritesOnly (ops1 (F := F)) W1 := by each_rfl
theorem ops2_writes : WritesOnly (ops2 (F := F)) W2 := by each_rfl
theorem ops3_writes : WritesOnly (ops3 (F := F)) W3 := by each_rfl

theorem ops_writes : WritesOnly (ops (F := F)) W :=
  writesOnly_append _ _ _ _ ops0_writes (writesOnly_append _ _ _ _ ops1_writes (writesOnly_append _ _ _ _ ops2_writes ops3_writes))

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD, ∀ b : Ref sig .tc,
      r.2.mem ((c.tc : Thread nD τ).loc b) = StableHlo.after ops (fun b => m (c, b)) (Proc.devRef .tc b)) :=
  run_seq scopedRefs_eq scopedSems_eq defs main (fun _ => ops) main_eq (fun _ => ops_sub) m ρ (fun _ => ops_fresh)

end Cert.ReferenceIdeal.Hand

end
-- ==== Proof.BrDefs.lean ====
import proofs.«126291_j72541997629772_2_alg».proof.Proof.KiRun
import proofs.«126291_j72541997629772_2_alg».proof.Proof.RefRun
import Idealize.ShloMosaic.PureOps.Ideal

noncomputable section

namespace Cert.Bridge

open Idealize.ShloMosaic Idealize.ShloMosaic.TcCoe Idealize.SL.Sem

abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

abbrev K (m : KMem) (c : Dev Cert.KernelIdeal.nD) (b : Ref Cert.KernelIdeal.sig .tc) :=
  Cert.KernelIdeal.Hand.B16 (F := Ideal) m c (Proc.devRef .tc b)

abbrev R (m' : RMem) (c : Dev Cert.ReferenceIdeal.nD) (b : Ref Cert.ReferenceIdeal.sig .tc) :=
  StableHlo.after (Cert.ReferenceIdeal.Hand.ops (F := Ideal)) (fun b => m' (c, b)) (Proc.devRef .tc b)

variable (m : KMem) (m' : RMem) (c : Dev Cert.KernelIdeal.nD)

theorem K_arg0 : K m c Cert.KernelIdeal.main_arg0 = m ((c.tc : Thread Cert.KernelIdeal.nD Cert.KernelIdeal.τ).loc Cert.KernelIdeal.main_arg0) :=
  (Cert.KernelIdeal.Hand.toEnd0 m c Cert.KernelIdeal.main_arg0).trans rfl

theorem R_arg0 : R m' c Cert.ReferenceIdeal.main_arg0 = m' ((c.tc : Thread Cert.ReferenceIdeal.nD Cert.ReferenceIdeal.τ).loc Cert.ReferenceIdeal.main_arg0) :=
  (StableHlo.Ssa.after_arg _ _ (Cert.ReferenceIdeal.Hand.ops_writes (F := Ideal)) _ Cert.ReferenceIdeal.main_arg0 (by decide)).trans rfl

theorem K_arg1 : K m c Cert.KernelIdeal.main_arg1 = m ((c.tc : Thread Cert.KernelIdeal.nD Cert.KernelIdeal.τ).loc Cert.KernelIdeal.main_arg1) :=
  (Cert.KernelIdeal.Hand.toEnd0 m c Cert.KernelIdeal.main_arg1).trans rfl

theorem R_arg1 : R m' c Cert.ReferenceIdeal.main_arg1 = m' ((c.tc : Thread Cert.ReferenceIdeal.nD Cert.ReferenceIdeal.τ).loc Cert.ReferenceIdeal.main_arg1) :=
  (StableHlo.Ssa.after_arg _ _ (Cert.ReferenceIdeal.Hand.ops_writes (F := Ideal)) _ Cert.ReferenceIdeal.main_arg1 (by decide)).trans rfl

theorem K_arg2 : K m c Cert.KernelIdeal.main_arg2 = m ((c.tc : Thread Cert.KernelIdeal.nD Cert.KernelIdeal.τ).loc Cert.KernelIdeal.main_arg2) :=
  (Cert.KernelIdeal.Hand.toEnd0 m c Cert.KernelIdeal.main_arg2).trans rfl

theorem R_arg2 : R m' c Cert.ReferenceIdeal.main_arg2 = m' ((c.tc : Thread Cert.ReferenceIdeal.nD Cert.ReferenceIdeal.τ).loc Cert.ReferenceIdeal.main_arg2) :=
  (StableHlo.Ssa.after_arg _ _ (Cert.ReferenceIdeal.Hand.ops_writes (F := Ideal)) _ Cert.ReferenceIdeal.main_arg2 (by decide)).trans rfl

theorem K_arg3 : K m c Cert.KernelIdeal.main_arg3 = m ((c.tc : Thread Cert.KernelIdeal.nD Cert.KernelIdeal.τ).loc Cert.KernelIdeal.main_arg3) :=
  (Cert.KernelIdeal.Hand.toEnd0 m c Cert.KernelIdeal.main_arg3).trans rfl

theorem R_arg3 : R m' c Cert.ReferenceIdeal.main_arg3 = m' ((c.tc : Thread Cert.ReferenceIdeal.nD Cert.ReferenceIdeal.τ).loc Cert.ReferenceIdeal.main_arg3) :=
  (StableHlo.Ssa.after_arg _ _ (Cert.ReferenceIdeal.Hand.ops_writes (F := Ideal)) _ Cert.ReferenceIdeal.main_arg3 (by decide)).trans rfl

theorem K_arg4 : K m c Cert.KernelIdeal.main_arg4 = m ((c.tc : Thread Cert.KernelIdeal.nD Cert.KernelIdeal.τ).loc Cert.KernelIdeal.main_arg4) :=
  (Cert.KernelIdeal.Hand.toEnd0 m c Cert.KernelIdeal.main_arg4).trans rfl

theorem R_arg4 : R m' c Cert.ReferenceIdeal.main_arg4 = m' ((c.tc : Thread Cert.ReferenceIdeal.nD Cert.ReferenceIdeal.τ).loc Cert.ReferenceIdeal.main_arg4) :=
  (StableHlo.Ssa.after_arg _ _ (Cert.ReferenceIdeal.Hand.ops_writes (F := Ideal)) _ Cert.ReferenceIdeal.main_arg4 (by decide)).trans rfl

theorem K_arg5 : K m c Cert.KernelIdeal.main_arg5 = m ((c.tc : Thread Cert.KernelIdeal.nD Cert.KernelIdeal.τ).loc Cert.KernelIdeal.main_arg5) :=
  (Cert.KernelIdeal.Hand.toEnd0 m c Cert.KernelIdeal.main_arg5).trans rfl

theorem R_arg5 : R m' c Cert.ReferenceIdeal.main_arg5 = m' ((c.tc : Thread Cert.ReferenceIdeal.nD Cert.ReferenceIdeal.τ).loc Cert.ReferenceIdeal.main_arg5) :=
  (StableHlo.Ssa.after_arg _ _ (Cert.ReferenceIdeal.Hand.ops_writes (F := Ideal)) _ Cert.ReferenceIdeal.main_arg5 (by decide)).trans rfl

theorem K_arg6 : K m c Cert.KernelIdeal.main_arg6 = m ((c.tc : Thread Cert.KernelIdeal.nD Cert.KernelIdeal.τ).loc Cert.KernelIdeal.main_arg6) :=
  (Cert.KernelIdeal.Hand.toEnd0 m c Cert.KernelIdeal.main_arg6).trans rfl

theorem R_arg6 : R m' c Cert.ReferenceIdeal.main_arg6 = m' ((c.tc : Thread Cert.ReferenceIdeal.nD Cert.ReferenceIdeal.τ).loc Cert.ReferenceIdeal.main_arg6) :=
  (StableHlo.Ssa.after_arg _ _ (Cert.ReferenceIdeal.Hand.ops_writes (F := Ideal)) _ Cert.ReferenceIdeal.main_arg6 (by decide)).trans rfl

theorem K_arg7 : K m c Cert.KernelIdeal.main_arg7 = m ((c.tc : Thread Cert.KernelIdeal.nD Cert.KernelIdeal.τ).loc Cert.KernelIdeal.main_arg7) :=
  (Cert.KernelIdeal.Hand.toEnd0 m c Cert.KernelIdeal.main_arg7).trans rfl

theorem R_arg7 : R m' c Cert.ReferenceIdeal.main_arg7 = m' ((c.tc : Thread Cert.ReferenceIdeal.nD Cert.ReferenceIdeal.τ).loc Cert.ReferenceIdeal.main_arg7) :=
  (StableHlo.Ssa.after_arg _ _ (Cert.ReferenceIdeal.Hand.ops_writes (F := Ideal)) _ Cert.ReferenceIdeal.main_arg7 (by decide)).trans rfl

theorem K_arg8 : K m c Cert.KernelIdeal.main_arg8 = m ((c.tc : Thread Cert.KernelIdeal.nD Cert.KernelIdeal.τ).loc Cert.KernelIdeal.main_arg8) :=
  (Cert.KernelIdeal.Hand.toEnd0 m c Cert.KernelIdeal.main_arg8).trans rfl

theorem R_arg8 : R m' c Cert.ReferenceIdeal.main_arg8 = m' ((c.tc : Thread Cert.ReferenceIdeal.nD Cert.ReferenceIdeal.τ).loc Cert.ReferenceIdeal.main_arg8) :=
  (StableHlo.Ssa.after_arg _ _ (Cert.ReferenceIdeal.Hand.ops_writes (F := Ideal)) _ Cert.ReferenceIdeal.main_arg8 (by decide)).trans rfl

theorem K_arg9 : K m c Cert.KernelIdeal.main_arg9 = m ((c.tc : Thread Cert.KernelIdeal.nD Cert.KernelIdeal.τ).loc Cert.KernelIdeal.main_arg9) :=
  (Cert.KernelIdeal.Hand.toEnd0 m c Cert.KernelIdeal.main_arg9).trans rfl

theorem R_arg9 : R m' c Cert.ReferenceIdeal.main_arg9 = m' ((c.tc : Thread Cert.ReferenceIdeal.nD Cert.ReferenceIdeal.τ).loc Cert.ReferenceIdeal.main_arg9) :=
  (StableHlo.Ssa.after_arg _ _ (Cert.ReferenceIdeal.Hand.ops_writes (F := Ideal)) _ Cert.ReferenceIdeal.main_arg9 (by decide)).trans rfl

end Cert.Bridge

end
-- ==== Proof.KiSsa.lean ====
import proofs.«126291_j72541997629772_2_alg».proof.Proof.Gen.KernelIdeal.Regions
import proofs.«126291_j72541997629772_2_alg».proof.Proof.LibSsa

noncomputable section

namespace Cert.KernelIdeal.Hand

open Cert.KernelIdeal Cert.KernelIdeal.Gen
open Idealize.ShloMosaic Idealize.ShloMosaic.TcCoe Idealize.SL.Sem

variable {F : FTy → Type} [FloatOps F]

theorem hostOps0_wo : StableHlo.Ssa.WritesOnly (hostOps0 (F := F)) hostOps0_W :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

theorem hostOps1_wo : StableHlo.Ssa.WritesOnly (hostOps1 (F := F)) hostOps1_W :=
  ⟨rfl, rfl, rfl, rfl, rfl, rfl, rfl, rfl, rfl, rfl, rfl, rfl, rfl, rfl, rfl, rfl, trivial⟩

theorem hostOps2_wo : StableHlo.Ssa.WritesOnly (hostOps2 (F := F)) hostOps2_W :=
  ⟨rfl, rfl, rfl, rfl, rfl, rfl, rfl, rfl, rfl, rfl, trivial⟩

theorem hostOps4_wo : StableHlo.Ssa.WritesOnly (hostOps4 (F := F)) hostOps4_W :=
  ⟨rfl, rfl, rfl, rfl, rfl, rfl, rfl, rfl, rfl, rfl, rfl, rfl, rfl, rfl, rfl, rfl, trivial⟩

theorem hostOps5_wo : StableHlo.Ssa.WritesOnly (hostOps5 (F := F)) hostOps5_W :=
  ⟨rfl, rfl, rfl, rfl, rfl, rfl, rfl, rfl, rfl, rfl, trivial⟩

theorem hostOps6_wo : StableHlo.Ssa.WritesOnly (hostOps6 (F := F)) hostOps6_W :=
  ⟨rfl, trivial⟩

theorem hostOps7_wo : StableHlo.Ssa.WritesOnly (hostOps7 (F := F)) hostOps7_W :=
  ⟨rfl, rfl, rfl, rfl, rfl, rfl, rfl, rfl, rfl, rfl, rfl, rfl, rfl, rfl, rfl, rfl, trivial⟩

theorem hostOps8_wo : StableHlo.Ssa.WritesOnly (hostOps8 (F := F)) hostOps8_W :=
  ⟨rfl, rfl, trivial⟩

end Cert.KernelIdeal.Hand

end
-- ==== Proof.KiFinal.lean ====
import proofs.«126291_j72541997629772_2_alg».proof.Proof.KiRun
import proofs.«126291_j72541997629772_2_alg».proof.Proof.KiSsa

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem fin_main_v0 (c : Dev nD) :
    B16 m c (Proc.devRef .tc main_v0) = ((extractStridedSlice S1x800000 ![0, 0] · slices_S2x800000_S1x800000_0_0) : (⟨S2x800000, .i32⟩ : BufTy).Contents (Elt F) → (⟨S1x800000, .i32⟩ : BufTy).Contents (Elt F)) (B16 m c (Proc.devRef .tc main_arg1)) := by
  rw [toEnd1 m c main_v0, toEnd1 m c main_arg1]; exact StableHlo.Ssa.ssa_unary hostOps0 hostOps0_W hostOps0_wo (B0 m c) 0 main_arg1 main_v0 _ _ _ rfl
theorem fin_main_v1 (c : Dev nD) :
    B16 m c (Proc.devRef .tc main_v1) = fun i => (rfl : main_v0.ty.elt = main_v1.ty.elt) ▸ shapeCast main_v1.ty.shape (B16 m c (Proc.devRef .tc main_v0)) shapeCasts_S1x800000_S800000 i := by
  rw [toEnd1 m c main_v1, toEnd1 m c main_v0]; exact StableHlo.Ssa.ssa_reshape hostOps0 hostOps0_W hostOps0_wo (B0 m c) 1 main_v0 main_v1 rfl shapeCasts_S1x800000_S800000 _ _ rfl
theorem fin_main_v2 (c : Dev nD) :
    B16 m c (Proc.devRef .tc main_v2) = ((extractStridedSlice S1x800000 ![1, 0] · slices_S2x800000_S1x800000_1_0) : (⟨S2x800000, .i32⟩ : BufTy).Contents (Elt F) → (⟨S1x800000, .i32⟩ : BufTy).Contents (Elt F)) (B16 m c (Proc.devRef .tc main_arg1)) := by
  rw [toEnd1 m c main_v2, toEnd1 m c main_arg1]; exact StableHlo.Ssa.ssa_unary hostOps0 hostOps0_W hostOps0_wo (B0 m c) 2 main_arg1 main_v2 _ _ _ rfl
theorem fin_main_v3 (c : Dev nD) :
    B16 m c (Proc.devRef .tc main_v3) = fun i => (rfl : main_v2.ty.elt = main_v3.ty.elt) ▸ shapeCast main_v3.ty.shape (B16 m c (Proc.devRef .tc main_v2)) shapeCasts_S1x800000_S800000 i := by
  rw [toEnd1 m c main_v3, toEnd1 m c main_v2]; exact StableHlo.Ssa.ssa_reshape hostOps0 hostOps0_W hostOps0_wo (B0 m c) 3 main_v2 main_v3 rfl shapeCasts_S1x800000_S800000 _ _ rfl
theorem fin_main_cst (c : Dev nD) :
    B16 m c (Proc.devRef .tc main_cst) = (constant S_ .f32 0x3F800000#32) := by
  rw [toEnd1 m c main_cst]; exact StableHlo.Ssa.ssa_nullary hostOps0 hostOps0_W hostOps0_wo (B0 m c) 4 main_cst _ _ rfl
theorem fin_main_v4 (c : Dev nD) :
    B16 m c (Proc.devRef .tc main_v4) = (broadcastInDim S800000 ![] bcast_S_S800000 : (⟨S_, .f32⟩ : BufTy).Contents (Elt F) → (⟨S800000, .f32⟩ : BufTy).Contents (Elt F)) (B16 m c (Proc.devRef .tc main_cst)) := by
  rw [toEnd1 m c main_v4, toEnd1 m c main_cst]; exact StableHlo.Ssa.ssa_unary hostOps0 hostOps0_W hostOps0_wo (B0 m c) 5 main_cst main_v4 _ _ _ rfl
theorem fin_main_cst_0 (c : Dev nD) :
    B16 m c (Proc.devRef .tc main_cst_0) = (constant S_ .f32 0x00000000#32) := by
  rw [toEnd1 m c main_cst_0]; exact StableHlo.Ssa.ssa_nullary hostOps0 hostOps0_W hostOps0_wo (B0 m c) 6 main_cst_0 _ _ rfl
theorem fin_main_v5 (c : Dev nD) :
    B16 m c (Proc.devRef .tc main_v5) = (broadcastInDim S50000 ![] bcast_S_S50000 : (⟨S_, .f32⟩ : BufTy).Contents (Elt F) → (⟨S50000, .f32⟩ : BufTy).Contents (Elt F)) (B16 m c (Proc.devRef .tc main_cst_0)) := by
  rw [toEnd1 m c main_v5, toEnd1 m c main_cst_0]; exact StableHlo.Ssa.ssa_unary hostOps0 hostOps0_W hostOps0_wo (B0 m c) 7 main_cst_0 main_v5 _ _ _ rfl
theorem fin_main_v6 (c : Dev nD) :
    B16 m c (Proc.devRef .tc main_v6) = (broadcastInDim S800000x1 ![0] bcast_S800000_S800000x1_0 : (⟨S800000, .i32⟩ : BufTy).Contents (Elt F) → (⟨S800000x1, .i32⟩ : BufTy).Contents (Elt F)) (B16 m c (Proc.devRef .tc main_v3)) := by
  rw [toEnd1 m c main_v6, toEnd1 m c main_v3]; exact StableHlo.Ssa.ssa_unary hostOps0 hostOps0_W hostOps0_wo (B0 m c) 8 main_v3 main_v6 _ _ _ rfl
theorem fin_main_v7 (c : Dev nD) :
    B16 m c (Proc.devRef .tc main_v7) = ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) (B16 m c (Proc.devRef .tc main_v5)) (B16 m c (Proc.devRef .tc main_v6)) (B16 m c (Proc.devRef .tc main_v4)) := by
  rw [toEnd1 m c main_v7, toEnd1 m c main_v5, toEnd1 m c main_v6, toEnd1 m c main_v4]; exact StableHlo.Ssa.ssa_ternary hostOps0 hostOps0_W hostOps0_wo (B0 m c) 9 main_v5 main_v6 main_v4 main_v7 _ _ _ _ _ rfl
theorem fin_main_cst_1 (c : Dev nD) :
    B16 m c (Proc.devRef .tc main_cst_1) = (constant S_ .f32 0x3F800000#32) := by
  rw [toEnd1 m c main_cst_1]; exact StableHlo.Ssa.ssa_nullary hostOps0 hostOps0_W hostOps0_wo (B0 m c) 10 main_cst_1 _ _ rfl
theorem fin_main_v8 (c : Dev nD) :
    B16 m c (Proc.devRef .tc main_v8) = (broadcastInDim S50000 ![] bcast_S_S50000 : (⟨S_, .f32⟩ : BufTy).Contents (Elt F) → (⟨S50000, .f32⟩ : BufTy).Contents (Elt F)) (B16 m c (Proc.devRef .tc main_cst_1)) := by
  rw [toEnd1 m c main_v8, toEnd1 m c main_cst_1]; exact StableHlo.Ssa.ssa_unary hostOps0 hostOps0_W hostOps0_wo (B0 m c) 11 main_cst_1 main_v8 _ _ _ rfl
theorem fin_main_v9 (c : Dev nD) :
    B16 m c (Proc.devRef .tc main_v9) = (addf : (⟨S50000, .f32⟩ : BufTy).Contents (Elt F) → (⟨S50000, .f32⟩ : BufTy).Contents (Elt F) → (⟨S50000, .f32⟩ : BufTy).Contents (Elt F)) (B16 m c (Proc.devRef .tc main_v7)) (B16 m c (Proc.devRef .tc main_v8)) := by
  rw [toEnd1 m c main_v9, toEnd1 m c main_v7, toEnd1 m c main_v8]; exact StableHlo.Ssa.ssa_binary hostOps0 hostOps0_W hostOps0_wo (B0 m c) 12 main_v7 main_v8 main_v9 _ _ _ _ rfl
theorem fin_main_v10 (c : Dev nD) :
    B16 m c (Proc.devRef .tc main_v10) = (Host.rsqrt : (⟨S50000, .f32⟩ : BufTy).Contents (Elt F) → (⟨S50000, .f32⟩ : BufTy).Contents (Elt F)) (B16 m c (Proc.devRef .tc main_v9)) := by
  rw [toEnd1 m c main_v10, toEnd1 m c main_v9]; exact StableHlo.Ssa.ssa_unary hostOps0 hostOps0_W hostOps0_wo (B0 m c) 13 main_v9 main_v10 _ _ _ rfl
theorem fin_main_v11 (c : Dev nD) :
    B16 m c (Proc.devRef .tc main_v11) = (mulf : (⟨S50000, .f32⟩ : BufTy).Contents (Elt F) → (⟨S50000, .f32⟩ : BufTy).Contents (Elt F) → (⟨S50000, .f32⟩ : BufTy).Contents (Elt F)) (B16 m c (Proc.devRef .tc main_v10)) (B16 m c (Proc.devRef .tc main_v10)) := by
  rw [toEnd1 m c main_v11, toEnd1 m c main_v10]; exact StableHlo.Ssa.ssa_binary hostOps0 hostOps0_W hostOps0_wo (B0 m c) 14 main_v10 main_v10 main_v11 _ _ _ _ rfl
theorem fin_main_v12 (c : Dev nD) :
    B16 m c (Proc.devRef .tc main_v12) = fun i => (rfl : main_v11.ty.elt = main_v12.ty.elt) ▸ shapeCast main_v12.ty.shape (B16 m c (Proc.devRef .tc main_v11)) shapeCasts_S50000_S50000x1 i := by
  rw [toEnd1 m c main_v12, toEnd1 m c main_v11]; exact StableHlo.Ssa.ssa_reshape hostOps0 hostOps0_W hostOps0_wo (B0 m c) 15 main_v11 main_v12 rfl shapeCasts_S50000_S50000x1 _ _ rfl
theorem fin_main_c (c : Dev nD) :
    B16 m c (Proc.devRef .tc main_c) = (constantI S_ 32 0#32) := by
  rw [toEnd1 m c main_c]; exact StableHlo.Ssa.ssa_nullary hostOps0 hostOps0_W hostOps0_wo (B0 m c) 16 main_c _ _ rfl
theorem fin_main_v13 (c : Dev nD) :
    B16 m c (Proc.devRef .tc main_v13) = (broadcastInDim S800000 ![] bcast_S_S800000 : (⟨S_, .i32⟩ : BufTy).Contents (Elt F) → (⟨S800000, .i32⟩ : BufTy).Contents (Elt F)) (B16 m c (Proc.devRef .tc main_c)) := by
  rw [toEnd1 m c main_v13, toEnd1 m c main_c]; exact StableHlo.Ssa.ssa_unary hostOps0 hostOps0_W hostOps0_wo (B0 m c) 17 main_c main_v13 _ _ _ rfl
theorem fin_main_v14 (c : Dev nD) :
    B16 m c (Proc.devRef .tc main_v14) = (cmpi .slt : (⟨S800000, .i32⟩ : BufTy).Contents (Elt F) → (⟨S800000, .i32⟩ : BufTy).Contents (Elt F) → (⟨S800000, .i1⟩ : BufTy).Contents (Elt F)) (B16 m c (Proc.devRef .tc main_v1)) (B16 m c (Proc.devRef .tc main_v13)) := by
  rw [toEnd1 m c main_v14, toEnd1 m c main_v1, toEnd1 m c main_v13]; exact StableHlo.Ssa.ssa_binary hostOps0 hostOps0_W hostOps0_wo (B0 m c) 18 main_v1 main_v13 main_v14 _ _ _ _ rfl
theorem fin_main_c_2 (c : Dev nD) :
    B16 m c (Proc.devRef .tc main_c_2) = (constantI S_ 32 50000#32) := by
  rw [toEnd1 m c main_c_2]; exact StableHlo.Ssa.ssa_nullary hostOps0 hostOps0_W hostOps0_wo (B0 m c) 19 main_c_2 _ _ rfl
theorem fin_main_v15 (c : Dev nD) :
    B16 m c (Proc.devRef .tc main_v15) = (broadcastInDim S800000 ![] bcast_S_S800000 : (⟨S_, .i32⟩ : BufTy).Contents (Elt F) → (⟨S800000, .i32⟩ : BufTy).Contents (Elt F)) (B16 m c (Proc.devRef .tc main_c_2)) := by
  rw [toEnd1 m c main_v15, toEnd1 m c main_c_2]; exact StableHlo.Ssa.ssa_unary hostOps0 hostOps0_W hostOps0_wo (B0 m c) 20 main_c_2 main_v15 _ _ _ rfl
theorem fin_main_v16 (c : Dev nD) :
    B16 m c (Proc.devRef .tc main_v16) = (addi : (⟨S800000, .i32⟩ : BufTy).Contents (Elt F) → (⟨S800000, .i32⟩ : BufTy).Contents (Elt F) → (⟨S800000, .i32⟩ : BufTy).Contents (Elt F)) (B16 m c (Proc.devRef .tc main_v1)) (B16 m c (Proc.devRef .tc main_v15)) := by
  rw [toEnd1 m c main_v16, toEnd1 m c main_v1, toEnd1 m c main_v15]; exact StableHlo.Ssa.ssa_binary hostOps0 hostOps0_W hostOps0_wo (B0 m c) 21 main_v1 main_v15 main_v16 _ _ _ _ rfl
theorem fin_main_v17 (c : Dev nD) :
    B16 m c (Proc.devRef .tc main_v17) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (B16 m c (Proc.devRef .tc main_v14)) (B16 m c (Proc.devRef .tc main_v16)) (B16 m c (Proc.devRef .tc main_v1)) := by
  rw [toEnd1 m c main_v17, toEnd1 m c main_v14, toEnd1 m c main_v16, toEnd1 m c main_v1]; exact StableHlo.Ssa.ssa_ternary hostOps0 hostOps0_W hostOps0_wo (B0 m c) 22 main_v14 main_v16 main_v1 main_v17 _ _ _ _ _ rfl
theorem fin_main_v18 (c : Dev nD) :
    B16 m c (Proc.devRef .tc main_v18) = (broadcastInDim S800000x1 ![0] bcast_S800000_S800000x1_0 : (⟨S800000, .i32⟩ : BufTy).Contents (Elt F) → (⟨S800000x1, .i32⟩ : BufTy).Contents (Elt F)) (B16 m c (Proc.devRef .tc main_v17)) := by
  rw [toEnd1 m c main_v18, toEnd1 m c main_v17]; exact StableHlo.Ssa.ssa_unary hostOps0 hostOps0_W hostOps0_wo (B0 m c) 23 main_v17 main_v18 _ _ _ rfl
theorem fin_main_v19 (c : Dev nD) :
    B16 m c (Proc.devRef .tc main_v19) = ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) (B16 m c (Proc.devRef .tc main_v10)) (B16 m c (Proc.devRef .tc main_v18)) := by
  rw [toEnd1 m c main_v19, toEnd1 m c main_v10, toEnd1 m c main_v18]; exact StableHlo.Ssa.ssa_binary hostOps0 hostOps0_W hostOps0_wo (B0 m c) 24 main_v10 main_v18 main_v19 _ _ _ _ rfl
theorem fin_main_c_3 (c : Dev nD) :
    B16 m c (Proc.devRef .tc main_c_3) = (constantI S_ 32 0#32) := by
  rw [toEnd1 m c main_c_3]; exact StableHlo.Ssa.ssa_nullary hostOps0 hostOps0_W hostOps0_wo (B0 m c) 25 main_c_3 _ _ rfl
theorem fin_main_v20 (c : Dev nD) :
    B16 m c (Proc.devRef .tc main_v20) = (broadcastInDim S800000 ![] bcast_S_S800000 : (⟨S_, .i32⟩ : BufTy).Contents (Elt F) → (⟨S800000, .i32⟩ : BufTy).Contents (Elt F)) (B16 m c (Proc.devRef .tc main_c_3)) := by
  rw [toEnd1 m c main_v20, toEnd1 m c main_c_3]; exact StableHlo.Ssa.ssa_unary hostOps0 hostOps0_W hostOps0_wo (B0 m c) 26 main_c_3 main_v20 _ _ _ rfl
theorem fin_main_v21 (c : Dev nD) :
    B16 m c (Proc.devRef .tc main_v21) = (cmpi .slt : (⟨S800000, .i32⟩ : BufTy).Contents (Elt F) → (⟨S800000, .i32⟩ : BufTy).Contents (Elt F) → (⟨S800000, .i1⟩ : BufTy).Contents (Elt F)) (B16 m c (Proc.devRef .tc main_v3)) (B16 m c (Proc.devRef .tc main_v20)) := by
  rw [toEnd1 m c main_v21, toEnd1 m c main_v3, toEnd1 m c main_v20]; exact StableHlo.Ssa.ssa_binary hostOps0 hostOps0_W hostOps0_wo (B0 m c) 27 main_v3 main_v20 main_v21 _ _ _ _ rfl
theorem fin_main_c_4 (c : Dev nD) :
    B16 m c (Proc.devRef .tc main_c_4) = (constantI S_ 32 50000#32) := by
  rw [toEnd1 m c main_c_4]; exact StableHlo.Ssa.ssa_nullary hostOps0 hostOps0_W hostOps0_wo (B0 m c) 28 main_c_4 _ _ rfl
theorem fin_main_v22 (c : Dev nD) :
    B16 m c (Proc.devRef .tc main_v22) = (broadcastInDim S800000 ![] bcast_S_S800000 : (⟨S_, .i32⟩ : BufTy).Contents (Elt F) → (⟨S800000, .i32⟩ : BufTy).Contents (Elt F)) (B16 m c (Proc.devRef .tc main_c_4)) := by
  rw [toEnd1 m c main_v22, toEnd1 m c main_c_4]; exact StableHlo.Ssa.ssa_unary hostOps0 hostOps0_W hostOps0_wo (B0 m c) 29 main_c_4 main_v22 _ _ _ rfl
theorem fin_main_v23 (c : Dev nD) :
    B16 m c (Proc.devRef .tc main_v23) = (addi : (⟨S800000, .i32⟩ : BufTy).Contents (Elt F) → (⟨S800000, .i32⟩ : BufTy).Contents (Elt F) → (⟨S800000, .i32⟩ : BufTy).Contents (Elt F)) (B16 m c (Proc.devRef .tc main_v3)) (B16 m c (Proc.devRef .tc main_v22)) := by
  rw [toEnd1 m c main_v23, toEnd1 m c main_v3, toEnd1 m c main_v22]; exact StableHlo.Ssa.ssa_binary hostOps0 hostOps0_W hostOps0_wo (B0 m c) 30 main_v3 main_v22 main_v23 _ _ _ _ rfl
theorem fin_main_v24 (c : Dev nD) :
    B16 m c (Proc.devRef .tc main_v24) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (B16 m c (Proc.devRef .tc main_v21)) (B16 m c (Proc.devRef .tc main_v23)) (B16 m c (Proc.devRef .tc main_v3)) := by
  rw [toEnd1 m c main_v24, toEnd1 m c main_v21, toEnd1 m c main_v23, toEnd1 m c main_v3]; exact StableHlo.Ssa.ssa_ternary hostOps0 hostOps0_W hostOps0_wo (B0 m c) 31 main_v21 main_v23 main_v3 main_v24 _ _ _ _ _ rfl
theorem fin_main_v25 (c : Dev nD) :
    B16 m c (Proc.devRef .tc main_v25) = (broadcastInDim S800000x1 ![0] bcast_S800000_S800000x1_0 : (⟨S800000, .i32⟩ : BufTy).Contents (Elt F) → (⟨S800000x1, .i32⟩ : BufTy).Contents (Elt F)) (B16 m c (Proc.devRef .tc main_v24)) := by
  rw [toEnd1 m c main_v25, toEnd1 m c main_v24]; exact StableHlo.Ssa.ssa_unary hostOps0 hostOps0_W hostOps0_wo (B0 m c) 32 main_v24 main_v25 _ _ _ rfl
theorem fin_main_v26 (c : Dev nD) :
    B16 m c (Proc.devRef .tc main_v26) = ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) (B16 m c (Proc.devRef .tc main_v10)) (B16 m c (Proc.devRef .tc main_v25)) := by
  rw [toEnd1 m c main_v26, toEnd1 m c main_v10, toEnd1 m c main_v25]; exact StableHlo.Ssa.ssa_binary hostOps0 hostOps0_W hostOps0_wo (B0 m c) 33 main_v10 main_v25 main_v26 _ _ _ _ rfl
theorem fin_main_v27 (c : Dev nD) :
    B16 m c (Proc.devRef .tc main_v27) = (mulf : (⟨S800000, .f32⟩ : BufTy).Contents (Elt F) → (⟨S800000, .f32⟩ : BufTy).Contents (Elt F) → (⟨S800000, .f32⟩ : BufTy).Contents (Elt F)) (B16 m c (Proc.devRef .tc main_v19)) (B16 m c (Proc.devRef .tc main_v26)) := by
  rw [toEnd1 m c main_v27, toEnd1 m c main_v19, toEnd1 m c main_v26]; exact StableHlo.Ssa.ssa_binary hostOps0 hostOps0_W hostOps0_wo (B0 m c) 34 main_v19 main_v26 main_v27 _ _ _ _ rfl
theorem fin_main_v28 (c : Dev nD) :
    B16 m c (Proc.devRef .tc main_v28) = fun i => (rfl : main_v27.ty.elt = main_v28.ty.elt) ▸ shapeCast main_v28.ty.shape (B16 m c (Proc.devRef .tc main_v27)) shapeCasts_S800000_S800000x1 i := by
  rw [toEnd1 m c main_v28, toEnd1 m c main_v27]; exact StableHlo.Ssa.ssa_reshape hostOps0 hostOps0_W hostOps0_wo (B0 m c) 35 main_v27 main_v28 rfl shapeCasts_S800000_S800000x1 _ _ rfl

theorem fin_main_c_5 (c : Dev nD) :
    B16 m c (Proc.devRef .tc main_c_5) = (constantI S_ 32 0#32) := by
  rw [toEnd3 m c main_c_5]; exact StableHlo.Ssa.ssa_nullary hostOps1 hostOps1_W hostOps1_wo (B2 m c) 0 main_c_5 _ _ rfl
theorem fin_main_v30 (c : Dev nD) :
    B16 m c (Proc.devRef .tc main_v30) = (broadcastInDim S800000 ![] bcast_S_S800000 : (⟨S_, .i32⟩ : BufTy).Contents (Elt F) → (⟨S800000, .i32⟩ : BufTy).Contents (Elt F)) (B16 m c (Proc.devRef .tc main_c_5)) := by
  rw [toEnd3 m c main_v30, toEnd3 m c main_c_5]; exact StableHlo.Ssa.ssa_unary hostOps1 hostOps1_W hostOps1_wo (B2 m c) 1 main_c_5 main_v30 _ _ _ rfl
theorem fin_main_v31 (c : Dev nD) :
    B16 m c (Proc.devRef .tc main_v31) = (cmpi .slt : (⟨S800000, .i32⟩ : BufTy).Contents (Elt F) → (⟨S800000, .i32⟩ : BufTy).Contents (Elt F) → (⟨S800000, .i1⟩ : BufTy).Contents (Elt F)) (B16 m c (Proc.devRef .tc main_v1)) (B16 m c (Proc.devRef .tc main_v30)) := by
  rw [toEnd3 m c main_v31, toEnd3 m c main_v1, toEnd3 m c main_v30]; exact StableHlo.Ssa.ssa_binary hostOps1 hostOps1_W hostOps1_wo (B2 m c) 2 main_v1 main_v30 main_v31 _ _ _ _ rfl
theorem fin_main_c_6 (c : Dev nD) :
    B16 m c (Proc.devRef .tc main_c_6) = (constantI S_ 32 50000#32) := by
  rw [toEnd3 m c main_c_6]; exact StableHlo.Ssa.ssa_nullary hostOps1 hostOps1_W hostOps1_wo (B2 m c) 3 main_c_6 _ _ rfl
theorem fin_main_v32 (c : Dev nD) :
    B16 m c (Proc.devRef .tc main_v32) = (broadcastInDim S800000 ![] bcast_S_S800000 : (⟨S_, .i32⟩ : BufTy).Contents (Elt F) → (⟨S800000, .i32⟩ : BufTy).Contents (Elt F)) (B16 m c (Proc.devRef .tc main_c_6)) := by
  rw [toEnd3 m c main_v32, toEnd3 m c main_c_6]; exact StableHlo.Ssa.ssa_unary hostOps1 hostOps1_W hostOps1_wo (B2 m c) 4 main_c_6 main_v32 _ _ _ rfl
theorem fin_main_v33 (c : Dev nD) :
    B16 m c (Proc.devRef .tc main_v33) = (addi : (⟨S800000, .i32⟩ : BufTy).Contents (Elt F) → (⟨S800000, .i32⟩ : BufTy).Contents (Elt F) → (⟨S800000, .i32⟩ : BufTy).Contents (Elt F)) (B16 m c (Proc.devRef .tc main_v1)) (B16 m c (Proc.devRef .tc main_v32)) := by
  rw [toEnd3 m c main_v33, toEnd3 m c main_v1, toEnd3 m c main_v32]; exact StableHlo.Ssa.ssa_binary hostOps1 hostOps1_W hostOps1_wo (B2 m c) 5 main_v1 main_v32 main_v33 _ _ _ _ rfl
theorem fin_main_v34 (c : Dev nD) :
    B16 m c (Proc.devRef .tc main_v34) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (B16 m c (Proc.devRef .tc main_v31)) (B16 m c (Proc.devRef .tc main_v33)) (B16 m c (Proc.devRef .tc main_v1)) := by
  rw [toEnd3 m c main_v34, toEnd3 m c main_v31, toEnd3 m c main_v33, toEnd3 m c main_v1]; exact StableHlo.Ssa.ssa_ternary hostOps1 hostOps1_W hostOps1_wo (B2 m c) 6 main_v31 main_v33 main_v1 main_v34 _ _ _ _ _ rfl
theorem fin_main_v35 (c : Dev nD) :
    B16 m c (Proc.devRef .tc main_v35) = (broadcastInDim S800000x1 ![0] bcast_S800000_S800000x1_0 : (⟨S800000, .i32⟩ : BufTy).Contents (Elt F) → (⟨S800000x1, .i32⟩ : BufTy).Contents (Elt F)) (B16 m c (Proc.devRef .tc main_v34)) := by
  rw [toEnd3 m c main_v35, toEnd3 m c main_v34]; exact StableHlo.Ssa.ssa_unary hostOps1 hostOps1_W hostOps1_wo (B2 m c) 7 main_v34 main_v35 _ _ _ rfl
theorem fin_main_v36 (c : Dev nD) :
    B16 m c (Proc.devRef .tc main_v36) = ((fun x i => Host.gather gather_S50000x128_S800000x1_S800000x128_1_0_n_n_0_1_1128 x i) : (⟨S50000x128, .bf16⟩ : BufTy).Contents (Elt F) → (⟨S800000x1, .i32⟩ : BufTy).Contents (Elt F) → (⟨S800000x128, .bf16⟩ : BufTy).Contents (Elt F)) (B16 m c (Proc.devRef .tc main_v29)) (B16 m c (Proc.devRef .tc main_v35)) := by
  rw [toEnd3 m c main_v36, toEnd3 m c main_v29, toEnd3 m c main_v35]; exact StableHlo.Ssa.ssa_binary hostOps1 hostOps1_W hostOps1_wo (B2 m c) 8 main_v29 main_v35 main_v36 _ _ _ _ rfl
theorem fin_main_v37 (c : Dev nD) :
    B16 m c (Proc.devRef .tc main_v37) = ((extf .f32 · bitsLt_bf16_f32) : (⟨S800000x128, .bf16⟩ : BufTy).Contents (Elt F) → (⟨S800000x128, .f32⟩ : BufTy).Contents (Elt F)) (B16 m c (Proc.devRef .tc main_v36)) := by
  rw [toEnd3 m c main_v37, toEnd3 m c main_v36]; exact StableHlo.Ssa.ssa_unary hostOps1 hostOps1_W hostOps1_wo (B2 m c) 9 main_v36 main_v37 _ _ _ rfl
theorem fin_main_v38 (c : Dev nD) :
    B16 m c (Proc.devRef .tc main_v38) = (broadcastInDim S800000x128 ![0, 1] bcast_S800000x1_S800000x128_0_1 : (⟨S800000x1, .f32⟩ : BufTy).Contents (Elt F) → (⟨S800000x128, .f32⟩ : BufTy).Contents (Elt F)) (B16 m c (Proc.devRef .tc main_v28)) := by
  rw [toEnd3 m c main_v38, toEnd3 m c main_v28]; exact StableHlo.Ssa.ssa_unary hostOps1 hostOps1_W hostOps1_wo (B2 m c) 10 main_v28 main_v38 _ _ _ rfl
theorem fin_main_v39 (c : Dev nD) :
    B16 m c (Proc.devRef .tc main_v39) = (mulf : (⟨S800000x128, .f32⟩ : BufTy).Contents (Elt F) → (⟨S800000x128, .f32⟩ : BufTy).Contents (Elt F) → (⟨S800000x128, .f32⟩ : BufTy).Contents (Elt F)) (B16 m c (Proc.devRef .tc main_v37)) (B16 m c (Proc.devRef .tc main_v38)) := by
  rw [toEnd3 m c main_v39, toEnd3 m c main_v37, toEnd3 m c main_v38]; exact StableHlo.Ssa.ssa_binary hostOps1 hostOps1_W hostOps1_wo (B2 m c) 11 main_v37 main_v38 main_v39 _ _ _ _ rfl
theorem fin_main_cst_7 (c : Dev nD) :
    B16 m c (Proc.devRef .tc main_cst_7) = (constant S_ .f32 0x00000000#32) := by
  rw [toEnd3 m c main_cst_7]; exact StableHlo.Ssa.ssa_nullary hostOps1 hostOps1_W hostOps1_wo (B2 m c) 12 main_cst_7 _ _ rfl
theorem fin_main_v40 (c : Dev nD) :
    B16 m c (Proc.devRef .tc main_v40) = (broadcastInDim S50000x128 ![] bcast_S_S50000x128 : (⟨S_, .f32⟩ : BufTy).Contents (Elt F) → (⟨S50000x128, .f32⟩ : BufTy).Contents (Elt F)) (B16 m c (Proc.devRef .tc main_cst_7)) := by
  rw [toEnd3 m c main_v40, toEnd3 m c main_cst_7]; exact StableHlo.Ssa.ssa_unary hostOps1 hostOps1_W hostOps1_wo (B2 m c) 13 main_cst_7 main_v40 _ _ _ rfl
theorem fin_main_v41 (c : Dev nD) :
    B16 m c (Proc.devRef .tc main_v41) = (broadcastInDim S800000x1 ![0] bcast_S800000_S800000x1_0 : (⟨S800000, .i32⟩ : BufTy).Contents (Elt F) → (⟨S800000x1, .i32⟩ : BufTy).Contents (Elt F)) (B16 m c (Proc.devRef .tc main_v3)) := by
  rw [toEnd3 m c main_v41, toEnd3 m c main_v3]; exact StableHlo.Ssa.ssa_unary hostOps1 hostOps1_W hostOps1_wo (B2 m c) 14 main_v3 main_v41 _ _ _ rfl
theorem fin_main_v42 (c : Dev nD) :
    B16 m c (Proc.devRef .tc main_v42) = ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) (B16 m c (Proc.devRef .tc main_v40)) (B16 m c (Proc.devRef .tc main_v41)) (B16 m c (Proc.devRef .tc main_v39)) := by
  rw [toEnd3 m c main_v42, toEnd3 m c main_v40, toEnd3 m c main_v41, toEnd3 m c main_v39]; exact StableHlo.Ssa.ssa_ternary hostOps1 hostOps1_W hostOps1_wo (B2 m c) 15 main_v40 main_v41 main_v39 main_v42 _ _ _ _ _ rfl

theorem fin_main_cst_8 (c : Dev nD) :
    B16 m c (Proc.devRef .tc main_cst_8) = (constant S_ .f32 0x47435000#32) := by
  rw [toEnd5 m c main_cst_8]; exact StableHlo.Ssa.ssa_nullary hostOps2 hostOps2_W hostOps2_wo (B4 m c) 0 main_cst_8 _ _ rfl
theorem fin_main_v44 (c : Dev nD) :
    B16 m c (Proc.devRef .tc main_v44) = (broadcastInDim S1x128 ![] bcast_S_S1x128 : (⟨S_, .f32⟩ : BufTy).Contents (Elt F) → (⟨S1x128, .f32⟩ : BufTy).Contents (Elt F)) (B16 m c (Proc.devRef .tc main_cst_8)) := by
  rw [toEnd5 m c main_v44, toEnd5 m c main_cst_8]; exact StableHlo.Ssa.ssa_unary hostOps2 hostOps2_W hostOps2_wo (B4 m c) 1 main_cst_8 main_v44 _ _ _ rfl
theorem fin_main_v45 (c : Dev nD) :
    B16 m c (Proc.devRef .tc main_v45) = (Host.divf : (⟨S1x128, .f32⟩ : BufTy).Contents (Elt F) → (⟨S1x128, .f32⟩ : BufTy).Contents (Elt F) → (⟨S1x128, .f32⟩ : BufTy).Contents (Elt F)) (B16 m c (Proc.devRef .tc main_v43_1)) (B16 m c (Proc.devRef .tc main_v44)) := by
  rw [toEnd5 m c main_v45, toEnd5 m c main_v43_1, toEnd5 m c main_v44]; exact StableHlo.Ssa.ssa_binary hostOps2 hostOps2_W hostOps2_wo (B4 m c) 2 main_v43_1 main_v44 main_v45 _ _ _ _ rfl
theorem fin_main_cst_9 (c : Dev nD) :
    B16 m c (Proc.devRef .tc main_cst_9) = (constant S_ .f32 0x47435000#32) := by
  rw [toEnd5 m c main_cst_9]; exact StableHlo.Ssa.ssa_nullary hostOps2 hostOps2_W hostOps2_wo (B4 m c) 3 main_cst_9 _ _ rfl
theorem fin_main_v46 (c : Dev nD) :
    B16 m c (Proc.devRef .tc main_v46) = (broadcastInDim S1x128 ![] bcast_S_S1x128 : (⟨S_, .f32⟩ : BufTy).Contents (Elt F) → (⟨S1x128, .f32⟩ : BufTy).Contents (Elt F)) (B16 m c (Proc.devRef .tc main_cst_9)) := by
  rw [toEnd5 m c main_v46, toEnd5 m c main_cst_9]; exact StableHlo.Ssa.ssa_unary hostOps2 hostOps2_W hostOps2_wo (B4 m c) 4 main_cst_9 main_v46 _ _ _ rfl
theorem fin_main_v47 (c : Dev nD) :
    B16 m c (Proc.devRef .tc main_v47) = (Host.divf : (⟨S1x128, .f32⟩ : BufTy).Contents (Elt F) → (⟨S1x128, .f32⟩ : BufTy).Contents (Elt F) → (⟨S1x128, .f32⟩ : BufTy).Contents (Elt F)) (B16 m c (Proc.devRef .tc main_v43_2)) (B16 m c (Proc.devRef .tc main_v46)) := by
  rw [toEnd5 m c main_v47, toEnd5 m c main_v43_2, toEnd5 m c main_v46]; exact StableHlo.Ssa.ssa_binary hostOps2 hostOps2_W hostOps2_wo (B4 m c) 5 main_v43_2 main_v46 main_v47 _ _ _ _ rfl
theorem fin_main_v48 (c : Dev nD) :
    B16 m c (Proc.devRef .tc main_v48) = (mulf : (⟨S1x128, .f32⟩ : BufTy).Contents (Elt F) → (⟨S1x128, .f32⟩ : BufTy).Contents (Elt F) → (⟨S1x128, .f32⟩ : BufTy).Contents (Elt F)) (B16 m c (Proc.devRef .tc main_v45)) (B16 m c (Proc.devRef .tc main_v45)) := by
  rw [toEnd5 m c main_v48, toEnd5 m c main_v45]; exact StableHlo.Ssa.ssa_binary hostOps2 hostOps2_W hostOps2_wo (B4 m c) 6 main_v45 main_v45 main_v48 _ _ _ _ rfl
theorem fin_main_v49 (c : Dev nD) :
    B16 m c (Proc.devRef .tc main_v49) = (subf : (⟨S1x128, .f32⟩ : BufTy).Contents (Elt F) → (⟨S1x128, .f32⟩ : BufTy).Contents (Elt F) → (⟨S1x128, .f32⟩ : BufTy).Contents (Elt F)) (B16 m c (Proc.devRef .tc main_v47)) (B16 m c (Proc.devRef .tc main_v48)) := by
  rw [toEnd5 m c main_v49, toEnd5 m c main_v47, toEnd5 m c main_v48]; exact StableHlo.Ssa.ssa_binary hostOps2 hostOps2_W hostOps2_wo (B4 m c) 7 main_v47 main_v48 main_v49 _ _ _ _ rfl
theorem fin_main_v50 (c : Dev nD) :
    B16 m c (Proc.devRef .tc main_v50) = fun i => (rfl : main_arg6.ty.elt = main_v50.ty.elt) ▸ shapeCast main_v50.ty.shape (B16 m c (Proc.devRef .tc main_arg6)) shapeCasts_S128_S1x128 i := by
  rw [toEnd5 m c main_v50, toEnd5 m c main_arg6]; exact StableHlo.Ssa.ssa_reshape hostOps2 hostOps2_W hostOps2_wo (B4 m c) 8 main_arg6 main_v50 rfl shapeCasts_S128_S1x128 _ _ rfl
theorem fin_main_v51 (c : Dev nD) :
    B16 m c (Proc.devRef .tc main_v51) = fun i => (rfl : main_arg7.ty.elt = main_v51.ty.elt) ▸ shapeCast main_v51.ty.shape (B16 m c (Proc.devRef .tc main_arg7)) shapeCasts_S128_S1x128 i := by
  rw [toEnd5 m c main_v51, toEnd5 m c main_arg7]; exact StableHlo.Ssa.ssa_reshape hostOps2 hostOps2_W hostOps2_wo (B4 m c) 9 main_arg7 main_v51 rfl shapeCasts_S128_S1x128 _ _ rfl

theorem fin_main_c_10 (c : Dev nD) :
    B16 m c (Proc.devRef .tc main_c_10) = (constantI S_ 32 0#32) := by
  rw [toEnd8 m c main_c_10]; exact StableHlo.Ssa.ssa_nullary hostOps4 hostOps4_W hostOps4_wo (B7 m c) 0 main_c_10 _ _ rfl
theorem fin_main_v54 (c : Dev nD) :
    B16 m c (Proc.devRef .tc main_v54) = (broadcastInDim S800000 ![] bcast_S_S800000 : (⟨S_, .i32⟩ : BufTy).Contents (Elt F) → (⟨S800000, .i32⟩ : BufTy).Contents (Elt F)) (B16 m c (Proc.devRef .tc main_c_10)) := by
  rw [toEnd8 m c main_v54, toEnd8 m c main_c_10]; exact StableHlo.Ssa.ssa_unary hostOps4 hostOps4_W hostOps4_wo (B7 m c) 1 main_c_10 main_v54 _ _ _ rfl
theorem fin_main_v55 (c : Dev nD) :
    B16 m c (Proc.devRef .tc main_v55) = (cmpi .slt : (⟨S800000, .i32⟩ : BufTy).Contents (Elt F) → (⟨S800000, .i32⟩ : BufTy).Contents (Elt F) → (⟨S800000, .i1⟩ : BufTy).Contents (Elt F)) (B16 m c (Proc.devRef .tc main_v1)) (B16 m c (Proc.devRef .tc main_v54)) := by
  rw [toEnd8 m c main_v55, toEnd8 m c main_v1, toEnd8 m c main_v54]; exact StableHlo.Ssa.ssa_binary hostOps4 hostOps4_W hostOps4_wo (B7 m c) 2 main_v1 main_v54 main_v55 _ _ _ _ rfl
theorem fin_main_c_11 (c : Dev nD) :
    B16 m c (Proc.devRef .tc main_c_11) = (constantI S_ 32 50000#32) := by
  rw [toEnd8 m c main_c_11]; exact StableHlo.Ssa.ssa_nullary hostOps4 hostOps4_W hostOps4_wo (B7 m c) 3 main_c_11 _ _ rfl
theorem fin_main_v56 (c : Dev nD) :
    B16 m c (Proc.devRef .tc main_v56) = (broadcastInDim S800000 ![] bcast_S_S800000 : (⟨S_, .i32⟩ : BufTy).Contents (Elt F) → (⟨S800000, .i32⟩ : BufTy).Contents (Elt F)) (B16 m c (Proc.devRef .tc main_c_11)) := by
  rw [toEnd8 m c main_v56, toEnd8 m c main_c_11]; exact StableHlo.Ssa.ssa_unary hostOps4 hostOps4_W hostOps4_wo (B7 m c) 4 main_c_11 main_v56 _ _ _ rfl
theorem fin_main_v57 (c : Dev nD) :
    B16 m c (Proc.devRef .tc main_v57) = (addi : (⟨S800000, .i32⟩ : BufTy).Contents (Elt F) → (⟨S800000, .i32⟩ : BufTy).Contents (Elt F) → (⟨S800000, .i32⟩ : BufTy).Contents (Elt F)) (B16 m c (Proc.devRef .tc main_v1)) (B16 m c (Proc.devRef .tc main_v56)) := by
  rw [toEnd8 m c main_v57, toEnd8 m c main_v1, toEnd8 m c main_v56]; exact StableHlo.Ssa.ssa_binary hostOps4 hostOps4_W hostOps4_wo (B7 m c) 5 main_v1 main_v56 main_v57 _ _ _ _ rfl
theorem fin_main_v58 (c : Dev nD) :
    B16 m c (Proc.devRef .tc main_v58) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (B16 m c (Proc.devRef .tc main_v55)) (B16 m c (Proc.devRef .tc main_v57)) (B16 m c (Proc.devRef .tc main_v1)) := by
  rw [toEnd8 m c main_v58, toEnd8 m c main_v55, toEnd8 m c main_v57, toEnd8 m c main_v1]; exact StableHlo.Ssa.ssa_ternary hostOps4 hostOps4_W hostOps4_wo (B7 m c) 6 main_v55 main_v57 main_v1 main_v58 _ _ _ _ _ rfl
theorem fin_main_v59 (c : Dev nD) :
    B16 m c (Proc.devRef .tc main_v59) = (broadcastInDim S800000x1 ![0] bcast_S800000_S800000x1_0 : (⟨S800000, .i32⟩ : BufTy).Contents (Elt F) → (⟨S800000x1, .i32⟩ : BufTy).Contents (Elt F)) (B16 m c (Proc.devRef .tc main_v58)) := by
  rw [toEnd8 m c main_v59, toEnd8 m c main_v58]; exact StableHlo.Ssa.ssa_unary hostOps4 hostOps4_W hostOps4_wo (B7 m c) 7 main_v58 main_v59 _ _ _ rfl
theorem fin_main_v60 (c : Dev nD) :
    B16 m c (Proc.devRef .tc main_v60) = ((fun x i => Host.gather gather_S50000x128_S800000x1_S800000x128_1_0_n_n_0_1_1128 x i) : (⟨S50000x128, .bf16⟩ : BufTy).Contents (Elt F) → (⟨S800000x1, .i32⟩ : BufTy).Contents (Elt F) → (⟨S800000x128, .bf16⟩ : BufTy).Contents (Elt F)) (B16 m c (Proc.devRef .tc main_v53)) (B16 m c (Proc.devRef .tc main_v59)) := by
  rw [toEnd8 m c main_v60, toEnd8 m c main_v53, toEnd8 m c main_v59]; exact StableHlo.Ssa.ssa_binary hostOps4 hostOps4_W hostOps4_wo (B7 m c) 8 main_v53 main_v59 main_v60 _ _ _ _ rfl
theorem fin_main_v61 (c : Dev nD) :
    B16 m c (Proc.devRef .tc main_v61) = ((extf .f32 · bitsLt_bf16_f32) : (⟨S800000x128, .bf16⟩ : BufTy).Contents (Elt F) → (⟨S800000x128, .f32⟩ : BufTy).Contents (Elt F)) (B16 m c (Proc.devRef .tc main_v60)) := by
  rw [toEnd8 m c main_v61, toEnd8 m c main_v60]; exact StableHlo.Ssa.ssa_unary hostOps4 hostOps4_W hostOps4_wo (B7 m c) 9 main_v60 main_v61 _ _ _ rfl
theorem fin_main_v62 (c : Dev nD) :
    B16 m c (Proc.devRef .tc main_v62) = (broadcastInDim S800000x128 ![0, 1] bcast_S800000x1_S800000x128_0_1 : (⟨S800000x1, .f32⟩ : BufTy).Contents (Elt F) → (⟨S800000x128, .f32⟩ : BufTy).Contents (Elt F)) (B16 m c (Proc.devRef .tc main_v28)) := by
  rw [toEnd8 m c main_v62, toEnd8 m c main_v28]; exact StableHlo.Ssa.ssa_unary hostOps4 hostOps4_W hostOps4_wo (B7 m c) 10 main_v28 main_v62 _ _ _ rfl
theorem fin_main_v63 (c : Dev nD) :
    B16 m c (Proc.devRef .tc main_v63) = (mulf : (⟨S800000x128, .f32⟩ : BufTy).Contents (Elt F) → (⟨S800000x128, .f32⟩ : BufTy).Contents (Elt F) → (⟨S800000x128, .f32⟩ : BufTy).Contents (Elt F)) (B16 m c (Proc.devRef .tc main_v61)) (B16 m c (Proc.devRef .tc main_v62)) := by
  rw [toEnd8 m c main_v63, toEnd8 m c main_v61, toEnd8 m c main_v62]; exact StableHlo.Ssa.ssa_binary hostOps4 hostOps4_W hostOps4_wo (B7 m c) 11 main_v61 main_v62 main_v63 _ _ _ _ rfl
theorem fin_main_cst_12 (c : Dev nD) :
    B16 m c (Proc.devRef .tc main_cst_12) = (constant S_ .f32 0x00000000#32) := by
  rw [toEnd8 m c main_cst_12]; exact StableHlo.Ssa.ssa_nullary hostOps4 hostOps4_W hostOps4_wo (B7 m c) 12 main_cst_12 _ _ rfl
theorem fin_main_v64 (c : Dev nD) :
    B16 m c (Proc.devRef .tc main_v64) = (broadcastInDim S50000x128 ![] bcast_S_S50000x128 : (⟨S_, .f32⟩ : BufTy).Contents (Elt F) → (⟨S50000x128, .f32⟩ : BufTy).Contents (Elt F)) (B16 m c (Proc.devRef .tc main_cst_12)) := by
  rw [toEnd8 m c main_v64, toEnd8 m c main_cst_12]; exact StableHlo.Ssa.ssa_unary hostOps4 hostOps4_W hostOps4_wo (B7 m c) 13 main_cst_12 main_v64 _ _ _ rfl
theorem fin_main_v65 (c : Dev nD) :
    B16 m c (Proc.devRef .tc main_v65) = (broadcastInDim S800000x1 ![0] bcast_S800000_S800000x1_0 : (⟨S800000, .i32⟩ : BufTy).Contents (Elt F) → (⟨S800000x1, .i32⟩ : BufTy).Contents (Elt F)) (B16 m c (Proc.devRef .tc main_v3)) := by
  rw [toEnd8 m c main_v65, toEnd8 m c main_v3]; exact StableHlo.Ssa.ssa_unary hostOps4 hostOps4_W hostOps4_wo (B7 m c) 14 main_v3 main_v65 _ _ _ rfl
theorem fin_main_v66 (c : Dev nD) :
    B16 m c (Proc.devRef .tc main_v66) = ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) (B16 m c (Proc.devRef .tc main_v64)) (B16 m c (Proc.devRef .tc main_v65)) (B16 m c (Proc.devRef .tc main_v63)) := by
  rw [toEnd8 m c main_v66, toEnd8 m c main_v64, toEnd8 m c main_v65, toEnd8 m c main_v63]; exact StableHlo.Ssa.ssa_ternary hostOps4 hostOps4_W hostOps4_wo (B7 m c) 15 main_v64 main_v65 main_v63 main_v66 _ _ _ _ _ rfl

theorem fin_main_cst_13 (c : Dev nD) :
    B16 m c (Proc.devRef .tc main_cst_13) = (constant S_ .f32 0x47435000#32) := by
  rw [toEnd10 m c main_cst_13]; exact StableHlo.Ssa.ssa_nullary hostOps5 hostOps5_W hostOps5_wo (B9 m c) 0 main_cst_13 _ _ rfl
theorem fin_main_v68 (c : Dev nD) :
    B16 m c (Proc.devRef .tc main_v68) = (broadcastInDim S1x128 ![] bcast_S_S1x128 : (⟨S_, .f32⟩ : BufTy).Contents (Elt F) → (⟨S1x128, .f32⟩ : BufTy).Contents (Elt F)) (B16 m c (Proc.devRef .tc main_cst_13)) := by
  rw [toEnd10 m c main_v68, toEnd10 m c main_cst_13]; exact StableHlo.Ssa.ssa_unary hostOps5 hostOps5_W hostOps5_wo (B9 m c) 1 main_cst_13 main_v68 _ _ _ rfl
theorem fin_main_v69 (c : Dev nD) :
    B16 m c (Proc.devRef .tc main_v69) = (Host.divf : (⟨S1x128, .f32⟩ : BufTy).Contents (Elt F) → (⟨S1x128, .f32⟩ : BufTy).Contents (Elt F) → (⟨S1x128, .f32⟩ : BufTy).Contents (Elt F)) (B16 m c (Proc.devRef .tc main_v67_1)) (B16 m c (Proc.devRef .tc main_v68)) := by
  rw [toEnd10 m c main_v69, toEnd10 m c main_v67_1, toEnd10 m c main_v68]; exact StableHlo.Ssa.ssa_binary hostOps5 hostOps5_W hostOps5_wo (B9 m c) 2 main_v67_1 main_v68 main_v69 _ _ _ _ rfl
theorem fin_main_cst_14 (c : Dev nD) :
    B16 m c (Proc.devRef .tc main_cst_14) = (constant S_ .f32 0x47435000#32) := by
  rw [toEnd10 m c main_cst_14]; exact StableHlo.Ssa.ssa_nullary hostOps5 hostOps5_W hostOps5_wo (B9 m c) 3 main_cst_14 _ _ rfl
theorem fin_main_v70 (c : Dev nD) :
    B16 m c (Proc.devRef .tc main_v70) = (broadcastInDim S1x128 ![] bcast_S_S1x128 : (⟨S_, .f32⟩ : BufTy).Contents (Elt F) → (⟨S1x128, .f32⟩ : BufTy).Contents (Elt F)) (B16 m c (Proc.devRef .tc main_cst_14)) := by
  rw [toEnd10 m c main_v70, toEnd10 m c main_cst_14]; exact StableHlo.Ssa.ssa_unary hostOps5 hostOps5_W hostOps5_wo (B9 m c) 4 main_cst_14 main_v70 _ _ _ rfl
theorem fin_main_v71 (c : Dev nD) :
    B16 m c (Proc.devRef .tc main_v71) = (Host.divf : (⟨S1x128, .f32⟩ : BufTy).Contents (Elt F) → (⟨S1x128, .f32⟩ : BufTy).Contents (Elt F) → (⟨S1x128, .f32⟩ : BufTy).Contents (Elt F)) (B16 m c (Proc.devRef .tc main_v67_2)) (B16 m c (Proc.devRef .tc main_v70)) := by
  rw [toEnd10 m c main_v71, toEnd10 m c main_v67_2, toEnd10 m c main_v70]; exact StableHlo.Ssa.ssa_binary hostOps5 hostOps5_W hostOps5_wo (B9 m c) 5 main_v67_2 main_v70 main_v71 _ _ _ _ rfl
theorem fin_main_v72 (c : Dev nD) :
    B16 m c (Proc.devRef .tc main_v72) = (mulf : (⟨S1x128, .f32⟩ : BufTy).Contents (Elt F) → (⟨S1x128, .f32⟩ : BufTy).Contents (Elt F) → (⟨S1x128, .f32⟩ : BufTy).Contents (Elt F)) (B16 m c (Proc.devRef .tc main_v69)) (B16 m c (Proc.devRef .tc main_v69)) := by
  rw [toEnd10 m c main_v72, toEnd10 m c main_v69]; exact StableHlo.Ssa.ssa_binary hostOps5 hostOps5_W hostOps5_wo (B9 m c) 6 main_v69 main_v69 main_v72 _ _ _ _ rfl
theorem fin_main_v73 (c : Dev nD) :
    B16 m c (Proc.devRef .tc main_v73) = (subf : (⟨S1x128, .f32⟩ : BufTy).Contents (Elt F) → (⟨S1x128, .f32⟩ : BufTy).Contents (Elt F) → (⟨S1x128, .f32⟩ : BufTy).Contents (Elt F)) (B16 m c (Proc.devRef .tc main_v71)) (B16 m c (Proc.devRef .tc main_v72)) := by
  rw [toEnd10 m c main_v73, toEnd10 m c main_v71, toEnd10 m c main_v72]; exact StableHlo.Ssa.ssa_binary hostOps5 hostOps5_W hostOps5_wo (B9 m c) 7 main_v71 main_v72 main_v73 _ _ _ _ rfl
theorem fin_main_v74 (c : Dev nD) :
    B16 m c (Proc.devRef .tc main_v74) = fun i => (rfl : main_arg8.ty.elt = main_v74.ty.elt) ▸ shapeCast main_v74.ty.shape (B16 m c (Proc.devRef .tc main_arg8)) shapeCasts_S128_S1x128 i := by
  rw [toEnd10 m c main_v74, toEnd10 m c main_arg8]; exact StableHlo.Ssa.ssa_reshape hostOps5 hostOps5_W hostOps5_wo (B9 m c) 8 main_arg8 main_v74 rfl shapeCasts_S128_S1x128 _ _ rfl
theorem fin_main_v75 (c : Dev nD) :
    B16 m c (Proc.devRef .tc main_v75) = fun i => (rfl : main_arg9.ty.elt = main_v75.ty.elt) ▸ shapeCast main_v75.ty.shape (B16 m c (Proc.devRef .tc main_arg9)) shapeCasts_S128_S1x128 i := by
  rw [toEnd10 m c main_v75, toEnd10 m c main_arg9]; exact StableHlo.Ssa.ssa_reshape hostOps5 hostOps5_W hostOps5_wo (B9 m c) 9 main_arg9 main_v75 rfl shapeCasts_S128_S1x128 _ _ rfl

theorem fin_main_v77 (c : Dev nD) :
    B16 m c (Proc.devRef .tc main_v77) = ((fun a b => concatenate S128x128 1 [⟨S128x64, a⟩, ⟨S128x64, b⟩] concatenates_S128x64_S128x64_S128x128_d1) : (⟨S128x64, .f32⟩ : BufTy).Contents (Elt F) → (⟨S128x64, .f32⟩ : BufTy).Contents (Elt F) → (⟨S128x128, .f32⟩ : BufTy).Contents (Elt F)) (B16 m c (Proc.devRef .tc main_arg4)) (B16 m c (Proc.devRef .tc main_arg5)) := by
  rw [toEnd12 m c main_v77, toEnd12 m c main_arg4, toEnd12 m c main_arg5]; exact StableHlo.Ssa.ssa_binary hostOps6 hostOps6_W hostOps6_wo (B11 m c) 0 main_arg4 main_arg5 main_v77 _ _ _ _ rfl

theorem fin_main_c_15 (c : Dev nD) :
    B16 m c (Proc.devRef .tc main_c_15) = (constantI S_ 32 0#32) := by
  rw [toEnd14 m c main_c_15]; exact StableHlo.Ssa.ssa_nullary hostOps7 hostOps7_W hostOps7_wo (B13 m c) 0 main_c_15 _ _ rfl
theorem fin_main_v79 (c : Dev nD) :
    B16 m c (Proc.devRef .tc main_v79) = (broadcastInDim S800000 ![] bcast_S_S800000 : (⟨S_, .i32⟩ : BufTy).Contents (Elt F) → (⟨S800000, .i32⟩ : BufTy).Contents (Elt F)) (B16 m c (Proc.devRef .tc main_c_15)) := by
  rw [toEnd14 m c main_v79, toEnd14 m c main_c_15]; exact StableHlo.Ssa.ssa_unary hostOps7 hostOps7_W hostOps7_wo (B13 m c) 1 main_c_15 main_v79 _ _ _ rfl
theorem fin_main_v80 (c : Dev nD) :
    B16 m c (Proc.devRef .tc main_v80) = (cmpi .slt : (⟨S800000, .i32⟩ : BufTy).Contents (Elt F) → (⟨S800000, .i32⟩ : BufTy).Contents (Elt F) → (⟨S800000, .i1⟩ : BufTy).Contents (Elt F)) (B16 m c (Proc.devRef .tc main_v1)) (B16 m c (Proc.devRef .tc main_v79)) := by
  rw [toEnd14 m c main_v80, toEnd14 m c main_v1, toEnd14 m c main_v79]; exact StableHlo.Ssa.ssa_binary hostOps7 hostOps7_W hostOps7_wo (B13 m c) 2 main_v1 main_v79 main_v80 _ _ _ _ rfl
theorem fin_main_c_16 (c : Dev nD) :
    B16 m c (Proc.devRef .tc main_c_16) = (constantI S_ 32 50000#32) := by
  rw [toEnd14 m c main_c_16]; exact StableHlo.Ssa.ssa_nullary hostOps7 hostOps7_W hostOps7_wo (B13 m c) 3 main_c_16 _ _ rfl
theorem fin_main_v81 (c : Dev nD) :
    B16 m c (Proc.devRef .tc main_v81) = (broadcastInDim S800000 ![] bcast_S_S800000 : (⟨S_, .i32⟩ : BufTy).Contents (Elt F) → (⟨S800000, .i32⟩ : BufTy).Contents (Elt F)) (B16 m c (Proc.devRef .tc main_c_16)) := by
  rw [toEnd14 m c main_v81, toEnd14 m c main_c_16]; exact StableHlo.Ssa.ssa_unary hostOps7 hostOps7_W hostOps7_wo (B13 m c) 4 main_c_16 main_v81 _ _ _ rfl
theorem fin_main_v82 (c : Dev nD) :
    B16 m c (Proc.devRef .tc main_v82) = (addi : (⟨S800000, .i32⟩ : BufTy).Contents (Elt F) → (⟨S800000, .i32⟩ : BufTy).Contents (Elt F) → (⟨S800000, .i32⟩ : BufTy).Contents (Elt F)) (B16 m c (Proc.devRef .tc main_v1)) (B16 m c (Proc.devRef .tc main_v81)) := by
  rw [toEnd14 m c main_v82, toEnd14 m c main_v1, toEnd14 m c main_v81]; exact StableHlo.Ssa.ssa_binary hostOps7 hostOps7_W hostOps7_wo (B13 m c) 5 main_v1 main_v81 main_v82 _ _ _ _ rfl
theorem fin_main_v83 (c : Dev nD) :
    B16 m c (Proc.devRef .tc main_v83) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (B16 m c (Proc.devRef .tc main_v80)) (B16 m c (Proc.devRef .tc main_v82)) (B16 m c (Proc.devRef .tc main_v1)) := by
  rw [toEnd14 m c main_v83, toEnd14 m c main_v80, toEnd14 m c main_v82, toEnd14 m c main_v1]; exact StableHlo.Ssa.ssa_ternary hostOps7 hostOps7_W hostOps7_wo (B13 m c) 6 main_v80 main_v82 main_v1 main_v83 _ _ _ _ _ rfl
theorem fin_main_v84 (c : Dev nD) :
    B16 m c (Proc.devRef .tc main_v84) = (broadcastInDim S800000x1 ![0] bcast_S800000_S800000x1_0 : (⟨S800000, .i32⟩ : BufTy).Contents (Elt F) → (⟨S800000x1, .i32⟩ : BufTy).Contents (Elt F)) (B16 m c (Proc.devRef .tc main_v83)) := by
  rw [toEnd14 m c main_v84, toEnd14 m c main_v83]; exact StableHlo.Ssa.ssa_unary hostOps7 hostOps7_W hostOps7_wo (B13 m c) 7 main_v83 main_v84 _ _ _ rfl
theorem fin_main_v85 (c : Dev nD) :
    B16 m c (Proc.devRef .tc main_v85) = ((fun x i => Host.gather gather_S50000x128_S800000x1_S800000x128_1_0_n_n_0_1_1128 x i) : (⟨S50000x128, .bf16⟩ : BufTy).Contents (Elt F) → (⟨S800000x1, .i32⟩ : BufTy).Contents (Elt F) → (⟨S800000x128, .bf16⟩ : BufTy).Contents (Elt F)) (B16 m c (Proc.devRef .tc main_v78)) (B16 m c (Proc.devRef .tc main_v84)) := by
  rw [toEnd14 m c main_v85, toEnd14 m c main_v78, toEnd14 m c main_v84]; exact StableHlo.Ssa.ssa_binary hostOps7 hostOps7_W hostOps7_wo (B13 m c) 8 main_v78 main_v84 main_v85 _ _ _ _ rfl
theorem fin_main_v86 (c : Dev nD) :
    B16 m c (Proc.devRef .tc main_v86) = ((extf .f32 · bitsLt_bf16_f32) : (⟨S800000x128, .bf16⟩ : BufTy).Contents (Elt F) → (⟨S800000x128, .f32⟩ : BufTy).Contents (Elt F)) (B16 m c (Proc.devRef .tc main_v85)) := by
  rw [toEnd14 m c main_v86, toEnd14 m c main_v85]; exact StableHlo.Ssa.ssa_unary hostOps7 hostOps7_W hostOps7_wo (B13 m c) 9 main_v85 main_v86 _ _ _ rfl
theorem fin_main_v87 (c : Dev nD) :
    B16 m c (Proc.devRef .tc main_v87) = (broadcastInDim S800000x128 ![0, 1] bcast_S800000x1_S800000x128_0_1 : (⟨S800000x1, .f32⟩ : BufTy).Contents (Elt F) → (⟨S800000x128, .f32⟩ : BufTy).Contents (Elt F)) (B16 m c (Proc.devRef .tc main_v28)) := by
  rw [toEnd14 m c main_v87, toEnd14 m c main_v28]; exact StableHlo.Ssa.ssa_unary hostOps7 hostOps7_W hostOps7_wo (B13 m c) 10 main_v28 main_v87 _ _ _ rfl
theorem fin_main_v88 (c : Dev nD) :
    B16 m c (Proc.devRef .tc main_v88) = (mulf : (⟨S800000x128, .f32⟩ : BufTy).Contents (Elt F) → (⟨S800000x128, .f32⟩ : BufTy).Contents (Elt F) → (⟨S800000x128, .f32⟩ : BufTy).Contents (Elt F)) (B16 m c (Proc.devRef .tc main_v86)) (B16 m c (Proc.devRef .tc main_v87)) := by
  rw [toEnd14 m c main_v88, toEnd14 m c main_v86, toEnd14 m c main_v87]; exact StableHlo.Ssa.ssa_binary hostOps7 hostOps7_W hostOps7_wo (B13 m c) 11 main_v86 main_v87 main_v88 _ _ _ _ rfl
theorem fin_main_cst_17 (c : Dev nD) :
    B16 m c (Proc.devRef .tc main_cst_17) = (constant S_ .f32 0x00000000#32) := by
  rw [toEnd14 m c main_cst_17]; exact StableHlo.Ssa.ssa_nullary hostOps7 hostOps7_W hostOps7_wo (B13 m c) 12 main_cst_17 _ _ rfl
theorem fin_main_v89 (c : Dev nD) :
    B16 m c (Proc.devRef .tc main_v89) = (broadcastInDim S50000x128 ![] bcast_S_S50000x128 : (⟨S_, .f32⟩ : BufTy).Contents (Elt F) → (⟨S50000x128, .f32⟩ : BufTy).Contents (Elt F)) (B16 m c (Proc.devRef .tc main_cst_17)) := by
  rw [toEnd14 m c main_v89, toEnd14 m c main_cst_17]; exact StableHlo.Ssa.ssa_unary hostOps7 hostOps7_W hostOps7_wo (B13 m c) 13 main_cst_17 main_v89 _ _ _ rfl
theorem fin_main_v90 (c : Dev nD) :
    B16 m c (Proc.devRef .tc main_v90) = (broadcastInDim S800000x1 ![0] bcast_S800000_S800000x1_0 : (⟨S800000, .i32⟩ : BufTy).Contents (Elt F) → (⟨S800000x1, .i32⟩ : BufTy).Contents (Elt F)) (B16 m c (Proc.devRef .tc main_v3)) := by
  rw [toEnd14 m c main_v90, toEnd14 m c main_v3]; exact StableHlo.Ssa.ssa_unary hostOps7 hostOps7_W hostOps7_wo (B13 m c) 14 main_v3 main_v90 _ _ _ rfl
theorem fin_main_v91 (c : Dev nD) :
    B16 m c (Proc.devRef .tc main_v91) = ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) (B16 m c (Proc.devRef .tc main_v89)) (B16 m c (Proc.devRef .tc main_v90)) (B16 m c (Proc.devRef .tc main_v88)) := by
  rw [toEnd14 m c main_v91, toEnd14 m c main_v89, toEnd14 m c main_v90, toEnd14 m c main_v88]; exact StableHlo.Ssa.ssa_ternary hostOps7 hostOps7_W hostOps7_wo (B13 m c) 15 main_v89 main_v90 main_v88 main_v91 _ _ _ _ _ rfl

theorem fin_main_v93 (c : Dev nD) :
    B16 m c (Proc.devRef .tc main_v93) = ((extractStridedSlice S50000x64 ![0, 0] · slices_S50000x128_S50000x64_0_0) : (⟨S50000x128, .f32⟩ : BufTy).Contents (Elt F) → (⟨S50000x64, .f32⟩ : BufTy).Contents (Elt F)) (B16 m c (Proc.devRef .tc main_v92)) := by
  exact StableHlo.Ssa.ssa_unary hostOps8 hostOps8_W hostOps8_wo (B15 m c) 0 main_v92 main_v93 _ _ _ rfl
theorem fin_main_v94 (c : Dev nD) :
    B16 m c (Proc.devRef .tc main_v94) = ((extractStridedSlice S50000x64 ![0, 64] · slices_S50000x128_S50000x64_0_64) : (⟨S50000x128, .f32⟩ : BufTy).Contents (Elt F) → (⟨S50000x64, .f32⟩ : BufTy).Contents (Elt F)) (B16 m c (Proc.devRef .tc main_v92)) := by
  exact StableHlo.Ssa.ssa_unary hostOps8 hostOps8_W hostOps8_wo (B15 m c) 1 main_v92 main_v94 _ _ _ rfl

end Cert.KernelIdeal.Hand

end
-- ==== Proof.RefSsa.lean ====
import proofs.«126291_j72541997629772_2_alg».proof.Proof.RefRun

noncomputable section

namespace Cert.ReferenceIdeal.Hand

open Cert.ReferenceIdeal Cert.ReferenceIdeal.Facts₀ Idealize.ShloMosaic Idealize.ShloMosaic.TcCoe Idealize.SL.Sem Idealize.ShloMosaic.StableHlo
open Idealize.ShloMosaic.StableHlo.Ssa

variable {F : FTy → Type} [FloatOps F]

theorem e_main_v0 (V : Valuation τ sig (Elt F)) :
    after ops V (Proc.devRef .tc main_v0) = (extractStridedSlice S1x800000 ![0, 0] (after ops V (Proc.devRef .tc main_arg1)) slices_S2x800000_S1x800000_0_0 : (⟨S1x800000, .i32⟩ : BufTy).Contents (Elt F)) :=
  ssa_unary ops W ops_writes V 0 main_arg1 main_v0 _ _ _ rfl

theorem e_main_v1 (V : Valuation τ sig (Elt F)) :
    after ops V (Proc.devRef .tc main_v1) = (shapeCast S800000 (after ops V (Proc.devRef .tc main_v0)) shapeCasts_S1x800000_S800000 : (⟨S800000, .i32⟩ : BufTy).Contents (Elt F)) :=
  ssa_reshape ops W ops_writes V 1 main_v0 main_v1 rfl shapeCasts_S1x800000_S800000 _ _ rfl

theorem e_main_v2 (V : Valuation τ sig (Elt F)) :
    after ops V (Proc.devRef .tc main_v2) = (extractStridedSlice S1x800000 ![1, 0] (after ops V (Proc.devRef .tc main_arg1)) slices_S2x800000_S1x800000_1_0 : (⟨S1x800000, .i32⟩ : BufTy).Contents (Elt F)) :=
  ssa_unary ops W ops_writes V 2 main_arg1 main_v2 _ _ _ rfl

theorem e_main_v3 (V : Valuation τ sig (Elt F)) :
    after ops V (Proc.devRef .tc main_v3) = (shapeCast S800000 (after ops V (Proc.devRef .tc main_v2)) shapeCasts_S1x800000_S800000 : (⟨S800000, .i32⟩ : BufTy).Contents (Elt F)) :=
  ssa_reshape ops W ops_writes V 3 main_v2 main_v3 rfl shapeCasts_S1x800000_S800000 _ _ rfl

theorem e_main_cst (V : Valuation τ sig (Elt F)) :
    after ops V (Proc.devRef .tc main_cst) = (constant S_ .f32 0x3F800000#32) :=
  ssa_nullary ops W ops_writes V 4 main_cst _ _ rfl

theorem e_main_v4 (V : Valuation τ sig (Elt F)) :
    after ops V (Proc.devRef .tc main_v4) = (broadcastInDim S800000 ![] bcast_S_S800000 : (⟨S_, .f32⟩ : BufTy).Contents (Elt F) → (⟨S800000, .f32⟩ : BufTy).Contents (Elt F)) (after ops V (Proc.devRef .tc main_cst)) :=
  ssa_unary ops W ops_writes V 5 main_cst main_v4 _ _ _ rfl

theorem e_main_cst_0 (V : Valuation τ sig (Elt F)) :
    after ops V (Proc.devRef .tc main_cst_0) = (constant S_ .f32 0x00000000#32) :=
  ssa_nullary ops W ops_writes V 6 main_cst_0 _ _ rfl

theorem e_main_v5 (V : Valuation τ sig (Elt F)) :
    after ops V (Proc.devRef .tc main_v5) = (broadcastInDim S50000 ![] bcast_S_S50000 : (⟨S_, .f32⟩ : BufTy).Contents (Elt F) → (⟨S50000, .f32⟩ : BufTy).Contents (Elt F)) (after ops V (Proc.devRef .tc main_cst_0)) :=
  ssa_unary ops W ops_writes V 7 main_cst_0 main_v5 _ _ _ rfl

theorem e_main_v6 (V : Valuation τ sig (Elt F)) :
    after ops V (Proc.devRef .tc main_v6) = (broadcastInDim S800000x1 ![0] bcast_S800000_S800000x1_0 : (⟨S800000, .i32⟩ : BufTy).Contents (Elt F) → (⟨S800000x1, .i32⟩ : BufTy).Contents (Elt F)) (after ops V (Proc.devRef .tc main_v3)) :=
  ssa_unary ops W ops_writes V 8 main_v3 main_v6 _ _ _ rfl

theorem e_main_v7 (V : Valuation τ sig (Elt F)) :
    after ops V (Proc.devRef .tc main_v7) = (Host.scatterAdd scatter_S50000_S800000x1_S800000_n_0_0_1 (after ops V (Proc.devRef .tc main_v5)) (after ops V (Proc.devRef .tc main_v6)) (after ops V (Proc.devRef .tc main_v4)) : (⟨S50000, .f32⟩ : BufTy).Contents (Elt F)) :=
  ssa_ternary ops W ops_writes V 9 main_v5 main_v6 main_v4 main_v7 _ _ _ _ _ rfl

theorem e_main_cst_1 (V : Valuation τ sig (Elt F)) :
    after ops V (Proc.devRef .tc main_cst_1) = (constant S_ .f32 0x3F800000#32) :=
  ssa_nullary ops W ops_writes V 10 main_cst_1 _ _ rfl

theorem e_main_v8 (V : Valuation τ sig (Elt F)) :
    after ops V (Proc.devRef .tc main_v8) = (broadcastInDim S50000 ![] bcast_S_S50000 : (⟨S_, .f32⟩ : BufTy).Contents (Elt F) → (⟨S50000, .f32⟩ : BufTy).Contents (Elt F)) (after ops V (Proc.devRef .tc main_cst_1)) :=
  ssa_unary ops W ops_writes V 11 main_cst_1 main_v8 _ _ _ rfl

theorem e_main_v9 (V : Valuation τ sig (Elt F)) :
    after ops V (Proc.devRef .tc main_v9) = (addf : (⟨S50000, .f32⟩ : BufTy).Contents (Elt F) → (⟨S50000, .f32⟩ : BufTy).Contents (Elt F) → (⟨S50000, .f32⟩ : BufTy).Contents (Elt F)) (after ops V (Proc.devRef .tc main_v7)) (after ops V (Proc.devRef .tc main_v8)) :=
  ssa_binary ops W ops_writes V 12 main_v7 main_v8 main_v9 _ _ _ _ rfl

theorem e_main_v10 (V : Valuation τ sig (Elt F)) :
    after ops V (Proc.devRef .tc main_v10) = (Host.rsqrt : (⟨S50000, .f32⟩ : BufTy).Contents (Elt F) → (⟨S50000, .f32⟩ : BufTy).Contents (Elt F)) (after ops V (Proc.devRef .tc main_v9)) :=
  ssa_unary ops W ops_writes V 13 main_v9 main_v10 _ _ _ rfl

theorem e_main_v11 (V : Valuation τ sig (Elt F)) :
    after ops V (Proc.devRef .tc main_v11) = (Host.dotGeneral dot_S50000x128_S128x128_S50000x128_1_0_0_1_n_n none (after ops V (Proc.devRef .tc main_arg0)) (after ops V (Proc.devRef .tc main_arg2)) : (⟨S50000x128, .f32⟩ : BufTy).Contents (Elt F)) :=
  ssa_binary ops W ops_writes V 14 main_arg0 main_arg2 main_v11 _ _ _ _ rfl

theorem e_main_c (V : Valuation τ sig (Elt F)) :
    after ops V (Proc.devRef .tc main_c) = (constantI S_ 32 0#32) :=
  ssa_nullary ops W ops_writes V 15 main_c _ _ rfl

theorem e_main_v12 (V : Valuation τ sig (Elt F)) :
    after ops V (Proc.devRef .tc main_v12) = (broadcastInDim S800000 ![] bcast_S_S800000 : (⟨S_, .i32⟩ : BufTy).Contents (Elt F) → (⟨S800000, .i32⟩ : BufTy).Contents (Elt F)) (after ops V (Proc.devRef .tc main_c)) :=
  ssa_unary ops W ops_writes V 16 main_c main_v12 _ _ _ rfl

theorem e_main_v13 (V : Valuation τ sig (Elt F)) :
    after ops V (Proc.devRef .tc main_v13) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v12)) :=
  ssa_binary ops W ops_writes V 17 main_v1 main_v12 main_v13 _ _ _ _ rfl

theorem e_main_c_2 (V : Valuation τ sig (Elt F)) :
    after ops V (Proc.devRef .tc main_c_2) = (constantI S_ 32 50000#32) :=
  ssa_nullary ops W ops_writes V 18 main_c_2 _ _ rfl

theorem e_main_v14 (V : Valuation τ sig (Elt F)) :
    after ops V (Proc.devRef .tc main_v14) = (broadcastInDim S800000 ![] bcast_S_S800000 : (⟨S_, .i32⟩ : BufTy).Contents (Elt F) → (⟨S800000, .i32⟩ : BufTy).Contents (Elt F)) (after ops V (Proc.devRef .tc main_c_2)) :=
  ssa_unary ops W ops_writes V 19 main_c_2 main_v14 _ _ _ rfl

theorem e_main_v15 (V : Valuation τ sig (Elt F)) :
    after ops V (Proc.devRef .tc main_v15) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v14)) :=
  ssa_binary ops W ops_writes V 20 main_v1 main_v14 main_v15 _ _ _ _ rfl

theorem e_main_v16 (V : Valuation τ sig (Elt F)) :
    after ops V (Proc.devRef .tc main_v16) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v13)) (after ops V (Proc.devRef .tc main_v15)) (after ops V (Proc.devRef .tc main_v1)) :=
  ssa_ternary ops W ops_writes V 21 main_v13 main_v15 main_v1 main_v16 _ _ _ _ _ rfl

theorem e_main_v17 (V : Valuation τ sig (Elt F)) :
    after ops V (Proc.devRef .tc main_v17) = (broadcastInDim S800000x1 ![0] bcast_S800000_S800000x1_0 : (⟨S800000, .i32⟩ : BufTy).Contents (Elt F) → (⟨S800000x1, .i32⟩ : BufTy).Contents (Elt F)) (after ops V (Proc.devRef .tc main_v16)) :=
  ssa_unary ops W ops_writes V 22 main_v16 main_v17 _ _ _ rfl

theorem e_main_v18 (V : Valuation τ sig (Elt F)) :
    after ops V (Proc.devRef .tc main_v18) = (Host.gather gather_S50000_S800000x1_S800000_n_0_n_n_0_1_1 (after ops V (Proc.devRef .tc main_v10)) (after ops V (Proc.devRef .tc main_v17)) : (⟨S800000, .f32⟩ : BufTy).Contents (Elt F)) :=
  ssa_binary ops W ops_writes V 23 main_v10 main_v17 main_v18 _ _ _ _ rfl

theorem e_main_c_3 (V : Valuation τ sig (Elt F)) :
    after ops V (Proc.devRef .tc main_c_3) = (constantI S_ 32 0#32) :=
  ssa_nullary ops W ops_writes V 24 main_c_3 _ _ rfl

theorem e_main_v19 (V : Valuation τ sig (Elt F)) :
    after ops V (Proc.devRef .tc main_v19) = (broadcastInDim S800000 ![] bcast_S_S800000 : (⟨S_, .i32⟩ : BufTy).Contents (Elt F) → (⟨S800000, .i32⟩ : BufTy).Contents (Elt F)) (after ops V (Proc.devRef .tc main_c_3)) :=
  ssa_unary ops W ops_writes V 25 main_c_3 main_v19 _ _ _ rfl

theorem e_main_v20 (V : Valuation τ sig (Elt F)) :
    after ops V (Proc.devRef .tc main_v20) = (cmpi .slt : (⟨S800000, .i32⟩ : BufTy).Contents (Elt F) → (⟨S800000, .i32⟩ : BufTy).Contents (Elt F) → (⟨S800000, .i1⟩ : BufTy).Contents (Elt F)) (after ops V (Proc.devRef .tc main_v3)) (after ops V (Proc.devRef .tc main_v19)) :=
  ssa_binary ops W ops_writes V 26 main_v3 main_v19 main_v20 _ _ _ _ rfl

theorem e_main_c_4 (V : Valuation τ sig (Elt F)) :
    after ops V (Proc.devRef .tc main_c_4) = (constantI S_ 32 50000#32) :=
  ssa_nullary ops W ops_writes V 27 main_c_4 _ _ rfl

theorem e_main_v21 (V : Valuation τ sig (Elt F)) :
    after ops V (Proc.devRef .tc main_v21) = (broadcastInDim S800000 ![] bcast_S_S800000 : (⟨S_, .i32⟩ : BufTy).Contents (Elt F) → (⟨S800000, .i32⟩ : BufTy).Contents (Elt F)) (after ops V (Proc.devRef .tc main_c_4)) :=
  ssa_unary ops W ops_writes V 28 main_c_4 main_v21 _ _ _ rfl

theorem e_main_v22 (V : Valuation τ sig (Elt F)) :
    after ops V (Proc.devRef .tc main_v22) = (addi : (⟨S800000, .i32⟩ : BufTy).Contents (Elt F) → (⟨S800000, .i32⟩ : BufTy).Contents (Elt F) → (⟨S800000, .i32⟩ : BufTy).Contents (Elt F)) (after ops V (Proc.devRef .tc main_v3)) (after ops V (Proc.devRef .tc main_v21)) :=
  ssa_binary ops W ops_writes V 29 main_v3 main_v21 main_v22 _ _ _ _ rfl

theorem e_main_v23 (V : Valuation τ sig (Elt F)) :
    after ops V (Proc.devRef .tc main_v23) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v20)) (after ops V (Proc.devRef .tc main_v22)) (after ops V (Proc.devRef .tc main_v3)) :=
  ssa_ternary ops W ops_writes V 30 main_v20 main_v22 main_v3 main_v23 _ _ _ _ _ rfl

theorem e_main_v24 (V : Valuation τ sig (Elt F)) :
    after ops V (Proc.devRef .tc main_v24) = (broadcastInDim S800000x1 ![0] bcast_S800000_S800000x1_0 : (⟨S800000, .i32⟩ : BufTy).Contents (Elt F) → (⟨S800000x1, .i32⟩ : BufTy).Contents (Elt F)) (after ops V (Proc.devRef .tc main_v23)) :=
  ssa_unary ops W ops_writes V 31 main_v23 main_v24 _ _ _ rfl

theorem e_main_v25 (V : Valuation τ sig (Elt F)) :
    after ops V (Proc.devRef .tc main_v25) = (Host.gather gather_S50000_S800000x1_S800000_n_0_n_n_0_1_1 (after ops V (Proc.devRef .tc main_v10)) (after ops V (Proc.devRef .tc main_v24)) : (⟨S800000, .f32⟩ : BufTy).Contents (Elt F)) :=
  ssa_binary ops W ops_writes V 32 main_v10 main_v24 main_v25 _ _ _ _ rfl

theorem e_main_v26 (V : Valuation τ sig (Elt F)) :
    after ops V (Proc.devRef .tc main_v26) = (mulf : (⟨S800000, .f32⟩ : BufTy).Contents (Elt F) → (⟨S800000, .f32⟩ : BufTy).Contents (Elt F) → (⟨S800000, .f32⟩ : BufTy).Contents (Elt F)) (after ops V (Proc.devRef .tc main_v18)) (after ops V (Proc.devRef .tc main_v25)) :=
  ssa_binary ops W ops_writes V 33 main_v18 main_v25 main_v26 _ _ _ _ rfl

theorem e_main_v27 (V : Valuation τ sig (Elt F)) :
    after ops V (Proc.devRef .tc main_v27) = (broadcastInDim S800000x1 ![0] bcast_S800000_S800000x1_0 : (⟨S800000, .f32⟩ : BufTy).Contents (Elt F) → (⟨S800000x1, .f32⟩ : BufTy).Contents (Elt F)) (after ops V (Proc.devRef .tc main_v26)) :=
  ssa_unary ops W ops_writes V 34 main_v26 main_v27 _ _ _ rfl

theorem e_main_c_5 (V : Valuation τ sig (Elt F)) :
    after ops V (Proc.devRef .tc main_c_5) = (constantI S_ 32 0#32) :=
  ssa_nullary ops W ops_writes V 35 main_c_5 _ _ rfl

theorem e_main_v28 (V : Valuation τ sig (Elt F)) :
    after ops V (Proc.devRef .tc main_v28) = (broadcastInDim S800000 ![] bcast_S_S800000 : (⟨S_, .i32⟩ : BufTy).Contents (Elt F) → (⟨S800000, .i32⟩ : BufTy).Contents (Elt F)) (after ops V (Proc.devRef .tc main_c_5)) :=
  ssa_unary ops W ops_writes V 36 main_c_5 main_v28 _ _ _ rfl

theorem e_main_v29 (V : Valuation τ sig (Elt F)) :
    after ops V (Proc.devRef .tc main_v29) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v28)) :=
  ssa_binary ops W ops_writes V 37 main_v1 main_v28 main_v29 _ _ _ _ rfl

theorem e_main_c_6 (V : Valuation τ sig (Elt F)) :
    after ops V (Proc.devRef .tc main_c_6) = (constantI S_ 32 50000#32) :=
  ssa_nullary ops W ops_writes V 38 main_c_6 _ _ rfl

theorem e_main_v30 (V : Valuation τ sig (Elt F)) :
    after ops V (Proc.devRef .tc main_v30) = (broadcastInDim S800000 ![] bcast_S_S800000 : (⟨S_, .i32⟩ : BufTy).Contents (Elt F) → (⟨S800000, .i32⟩ : BufTy).Contents (Elt F)) (after ops V (Proc.devRef .tc main_c_6)) :=
  ssa_unary ops W ops_writes V 39 main_c_6 main_v30 _ _ _ rfl

theorem e_main_v31 (V : Valuation τ sig (Elt F)) :
    after ops V (Proc.devRef .tc main_v31) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v30)) :=
  ssa_binary ops W ops_writes V 40 main_v1 main_v30 main_v31 _ _ _ _ rfl

theorem e_main_v32 (V : Valuation τ sig (Elt F)) :
    after ops V (Proc.devRef .tc main_v32) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v29)) (after ops V (Proc.devRef .tc main_v31)) (after ops V (Proc.devRef .tc main_v1)) :=
  ssa_ternary ops W ops_writes V 41 main_v29 main_v31 main_v1 main_v32 _ _ _ _ _ rfl

theorem e_main_v33 (V : Valuation τ sig (Elt F)) :
    after ops V (Proc.devRef .tc main_v33) = (broadcastInDim S800000x1 ![0] bcast_S800000_S800000x1_0 : (⟨S800000, .i32⟩ : BufTy).Contents (Elt F) → (⟨S800000x1, .i32⟩ : BufTy).Contents (Elt F)) (after ops V (Proc.devRef .tc main_v32)) :=
  ssa_unary ops W ops_writes V 42 main_v32 main_v33 _ _ _ rfl

theorem e_main_v34 (V : Valuation τ sig (Elt F)) :
    after ops V (Proc.devRef .tc main_v34) = (Host.gather gather_S50000x128_S800000x1_S800000x128_1_0_n_n_0_1_1128 (after ops V (Proc.devRef .tc main_v11)) (after ops V (Proc.devRef .tc main_v33)) : (⟨S800000x128, .f32⟩ : BufTy).Contents (Elt F)) :=
  ssa_binary ops W ops_writes V 43 main_v11 main_v33 main_v34 _ _ _ _ rfl

theorem e_main_v35 (V : Valuation τ sig (Elt F)) :
    after ops V (Proc.devRef .tc main_v35) = (broadcastInDim S800000x128 ![0, 1] bcast_S800000x1_S800000x128_0_1 : (⟨S800000x1, .f32⟩ : BufTy).Contents (Elt F) → (⟨S800000x128, .f32⟩ : BufTy).Contents (Elt F)) (after ops V (Proc.devRef .tc main_v27)) :=
  ssa_unary ops W ops_writes V 44 main_v27 main_v35 _ _ _ rfl

theorem e_main_v36 (V : Valuation τ sig (Elt F)) :
    after ops V (Proc.devRef .tc main_v36) = (mulf : (⟨S800000x128, .f32⟩ : BufTy).Contents (Elt F) → (⟨S800000x128, .f32⟩ : BufTy).Contents (Elt F) → (⟨S800000x128, .f32⟩ : BufTy).Contents (Elt F)) (after ops V (Proc.devRef .tc main_v34)) (after ops V (Proc.devRef .tc main_v35)) :=
  ssa_binary ops W ops_writes V 45 main_v34 main_v35 main_v36 _ _ _ _ rfl

theorem e_main_cst_7 (V : Valuation τ sig (Elt F)) :
    after ops V (Proc.devRef .tc main_cst_7) = (constant S_ .f32 0x00000000#32) :=
  ssa_nullary ops W ops_writes V 46 main_cst_7 _ _ rfl

theorem e_main_v37 (V : Valuation τ sig (Elt F)) :
    after ops V (Proc.devRef .tc main_v37) = (broadcastInDim S50000x128 ![] bcast_S_S50000x128 : (⟨S_, .f32⟩ : BufTy).Contents (Elt F) → (⟨S50000x128, .f32⟩ : BufTy).Contents (Elt F)) (after ops V (Proc.devRef .tc main_cst_7)) :=
  ssa_unary ops W ops_writes V 47 main_cst_7 main_v37 _ _ _ rfl

theorem e_main_v38 (V : Valuation τ sig (Elt F)) :
    after ops V (Proc.devRef .tc main_v38) = (broadcastInDim S800000x1 ![0] bcast_S800000_S800000x1_0 : (⟨S800000, .i32⟩ : BufTy).Contents (Elt F) → (⟨S800000x1, .i32⟩ : BufTy).Contents (Elt F)) (after ops V (Proc.devRef .tc main_v3)) :=
  ssa_unary ops W ops_writes V 48 main_v3 main_v38 _ _ _ rfl

theorem e_main_v39 (V : Valuation τ sig (Elt F)) :
    after ops V (Proc.devRef .tc main_v39) = (Host.scatterAdd scatter_S50000x128_S800000x1_S800000x128_1_0_0_1 (after ops V (Proc.devRef .tc main_v37)) (after ops V (Proc.devRef .tc main_v38)) (after ops V (Proc.devRef .tc main_v36)) : (⟨S50000x128, .f32⟩ : BufTy).Contents (Elt F)) :=
  ssa_ternary ops W ops_writes V 49 main_v37 main_v38 main_v36 main_v39 _ _ _ _ _ rfl

theorem e_main_v40 (V : Valuation τ sig (Elt F)) :
    after ops V (Proc.devRef .tc main_v40) = (mulf : (⟨S50000, .f32⟩ : BufTy).Contents (Elt F) → (⟨S50000, .f32⟩ : BufTy).Contents (Elt F) → (⟨S50000, .f32⟩ : BufTy).Contents (Elt F)) (after ops V (Proc.devRef .tc main_v10)) (after ops V (Proc.devRef .tc main_v10)) :=
  ssa_binary ops W ops_writes V 50 main_v10 main_v10 main_v40 _ _ _ _ rfl

theorem e_main_v41 (V : Valuation τ sig (Elt F)) :
    after ops V (Proc.devRef .tc main_v41) = (broadcastInDim S50000x1 ![0] bcast_S50000_S50000x1_0 : (⟨S50000, .f32⟩ : BufTy).Contents (Elt F) → (⟨S50000x1, .f32⟩ : BufTy).Contents (Elt F)) (after ops V (Proc.devRef .tc main_v40)) :=
  ssa_unary ops W ops_writes V 51 main_v40 main_v41 _ _ _ rfl

theorem e_main_v42 (V : Valuation τ sig (Elt F)) :
    after ops V (Proc.devRef .tc main_v42) = (broadcastInDim S50000x128 ![0, 1] bcast_S50000x1_S50000x128_0_1 : (⟨S50000x1, .f32⟩ : BufTy).Contents (Elt F) → (⟨S50000x128, .f32⟩ : BufTy).Contents (Elt F)) (after ops V (Proc.devRef .tc main_v41)) :=
  ssa_unary ops W ops_writes V 52 main_v41 main_v42 _ _ _ rfl

theorem e_main_v43 (V : Valuation τ sig (Elt F)) :
    after ops V (Proc.devRef .tc main_v43) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v11)) (after ops V (Proc.devRef .tc main_v42)) :=
  ssa_binary ops W ops_writes V 53 main_v11 main_v42 main_v43 _ _ _ _ rfl

theorem e_main_v44 (V : Valuation τ sig (Elt F)) :
    after ops V (Proc.devRef .tc main_v44) = (addf : (⟨S50000x128, .f32⟩ : BufTy).Contents (Elt F) → (⟨S50000x128, .f32⟩ : BufTy).Contents (Elt F) → (⟨S50000x128, .f32⟩ : BufTy).Contents (Elt F)) (after ops V (Proc.devRef .tc main_v39)) (after ops V (Proc.devRef .tc main_v43)) :=
  ssa_binary ops W ops_writes V 54 main_v39 main_v43 main_v44 _ _ _ _ rfl

theorem e_main_cst_8 (V : Valuation τ sig (Elt F)) :
    after ops V (Proc.devRef .tc main_cst_8) = (constant S_ .f32 0x00000000#32) :=
  ssa_nullary ops W ops_writes V 55 main_cst_8 _ _ rfl

theorem e_main_v45 (V : Valuation τ sig (Elt F)) :
    after ops V (Proc.devRef .tc main_v45) = (Host.reduceAdd (after ops V (Proc.devRef .tc main_v44)) (after ops V (Proc.devRef .tc main_cst_8)) reducesTo_S50000x128_S128_d0 h_S_ : (⟨S128, .f32⟩ : BufTy).Contents (Elt F)) :=
  ssa_binary ops W ops_writes V 56 main_v44 main_cst_8 main_v45 _ _ _ _ rfl

theorem e_main_cst_9 (V : Valuation τ sig (Elt F)) :
    after ops V (Proc.devRef .tc main_cst_9) = (constant S_ .f32 0x47435000#32) :=
  ssa_nullary ops W ops_writes V 57 main_cst_9 _ _ rfl

theorem e_main_v46 (V : Valuation τ sig (Elt F)) :
    after ops V (Proc.devRef .tc main_v46) = (broadcastInDim S128 ![] bcast_S_S128 : (⟨S_, .f32⟩ : BufTy).Contents (Elt F) → (⟨S128, .f32⟩ : BufTy).Contents (Elt F)) (after ops V (Proc.devRef .tc main_cst_9)) :=
  ssa_unary ops W ops_writes V 58 main_cst_9 main_v46 _ _ _ rfl

theorem e_main_v47 (V : Valuation τ sig (Elt F)) :
    after ops V (Proc.devRef .tc main_v47) = (Host.divf : (⟨S128, .f32⟩ : BufTy).Contents (Elt F) → (⟨S128, .f32⟩ : BufTy).Contents (Elt F) → (⟨S128, .f32⟩ : BufTy).Contents (Elt F)) (after ops V (Proc.devRef .tc main_v45)) (after ops V (Proc.devRef .tc main_v46)) :=
  ssa_binary ops W ops_writes V 59 main_v45 main_v46 main_v47 _ _ _ _ rfl

theorem e_main_c_10 (V : Valuation τ sig (Elt F)) :
    after ops V (Proc.devRef .tc main_c_10) = (constantI S_ 32 0#32) :=
  ssa_nullary ops W ops_writes V 60 main_c_10 _ _ rfl

theorem e_main_call0_cst (V : Valuation τ sig (Elt F)) :
    after ops V (Proc.devRef .tc main_call0_cst) = (constant S_ .f32 0x00000000#32) :=
  ssa_nullary ops W ops_writes V 61 main_call0_cst _ _ rfl

theorem e_main_call0_v0 (V : Valuation τ sig (Elt F)) :
    after ops V (Proc.devRef .tc main_call0_v0) = (Host.reduceAdd (after ops V (Proc.devRef .tc main_v44)) (after ops V (Proc.devRef .tc main_call0_cst)) reducesTo_S50000x128_S128_d0 h_S_ : (⟨S128, .f32⟩ : BufTy).Contents (Elt F)) :=
  ssa_binary ops W ops_writes V 62 main_v44 main_call0_cst main_call0_v0 _ _ _ _ rfl

theorem e_main_call0_v1 (V : Valuation τ sig (Elt F)) :
    after ops V (Proc.devRef .tc main_call0_v1) = (broadcastInDim S1x128 ![1] bcast_S128_S1x128_1 : (⟨S128, .f32⟩ : BufTy).Contents (Elt F) → (⟨S1x128, .f32⟩ : BufTy).Contents (Elt F)) (after ops V (Proc.devRef .tc main_call0_v0)) :=
  ssa_unary ops W ops_writes V 63 main_call0_v0 main_call0_v1 _ _ _ rfl

theorem e_main_call0_cst_0 (V : Valuation τ sig (Elt F)) :
    after ops V (Proc.devRef .tc main_call0_cst_0) = (constant S_ .f32 0x47435000#32) :=
  ssa_nullary ops W ops_writes V 64 main_call0_cst_0 _ _ rfl

theorem e_main_call0_v2 (V : Valuation τ sig (Elt F)) :
    after ops V (Proc.devRef .tc main_call0_v2) = (broadcastInDim S1x128 ![] bcast_S_S1x128 : (⟨S_, .f32⟩ : BufTy).Contents (Elt F) → (⟨S1x128, .f32⟩ : BufTy).Contents (Elt F)) (after ops V (Proc.devRef .tc main_call0_cst_0)) :=
  ssa_unary ops W ops_writes V 65 main_call0_cst_0 main_call0_v2 _ _ _ rfl

theorem e_main_call0_v3 (V : Valuation τ sig (Elt F)) :
    after ops V (Proc.devRef .tc main_call0_v3) = (Host.divf : (⟨S1x128, .f32⟩ : BufTy).Contents (Elt F) → (⟨S1x128, .f32⟩ : BufTy).Contents (Elt F) → (⟨S1x128, .f32⟩ : BufTy).Contents (Elt F)) (after ops V (Proc.devRef .tc main_call0_v1)) (after ops V (Proc.devRef .tc main_call0_v2)) :=
  ssa_binary ops W ops_writes V 66 main_call0_v1 main_call0_v2 main_call0_v3 _ _ _ _ rfl

theorem e_main_call0_v4 (V : Valuation τ sig (Elt F)) :
    after ops V (Proc.devRef .tc main_call0_v4) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_call0_v3)) :=
  ssa_unary ops W ops_writes V 67 main_call0_v3 main_call0_v4 _ _ _ rfl

theorem e_main_call0_v5 (V : Valuation τ sig (Elt F)) :
    after ops V (Proc.devRef .tc main_call0_v5) = (subf : (⟨S50000x128, .f32⟩ : BufTy).Contents (Elt F) → (⟨S50000x128, .f32⟩ : BufTy).Contents (Elt F) → (⟨S50000x128, .f32⟩ : BufTy).Contents (Elt F)) (after ops V (Proc.devRef .tc main_v44)) (after ops V (Proc.devRef .tc main_call0_v4)) :=
  ssa_binary ops W ops_writes V 68 main_v44 main_call0_v4 main_call0_v5 _ _ _ _ rfl

theorem e_main_call0_v6 (V : Valuation τ sig (Elt F)) :
    after ops V (Proc.devRef .tc main_call0_v6) = (mulf : (⟨S50000x128, .f32⟩ : BufTy).Contents (Elt F) → (⟨S50000x128, .f32⟩ : BufTy).Contents (Elt F) → (⟨S50000x128, .f32⟩ : BufTy).Contents (Elt F)) (after ops V (Proc.devRef .tc main_call0_v5)) (after ops V (Proc.devRef .tc main_call0_v5)) :=
  ssa_binary ops W ops_writes V 69 main_call0_v5 main_call0_v5 main_call0_v6 _ _ _ _ rfl

theorem e_main_call0_v7 (V : Valuation τ sig (Elt F)) :
    after ops V (Proc.devRef .tc main_call0_v7) = (sitofp (F := F) .f32 : (⟨S_, .i32⟩ : BufTy).Contents (Elt F) → (⟨S_, .f32⟩ : BufTy).Contents (Elt F)) (after ops V (Proc.devRef .tc main_c_10)) :=
  ssa_unary ops W ops_writes V 70 main_c_10 main_call0_v7 _ _ _ rfl

theorem e_main_call0_cst_1 (V : Valuation τ sig (Elt F)) :
    after ops V (Proc.devRef .tc main_call0_cst_1) = (constant S_ .f32 0x47435000#32) :=
  ssa_nullary ops W ops_writes V 71 main_call0_cst_1 _ _ rfl

theorem e_main_call0_v8 (V : Valuation τ sig (Elt F)) :
    after ops V (Proc.devRef .tc main_call0_v8) = (subf : (⟨S_, .f32⟩ : BufTy).Contents (Elt F) → (⟨S_, .f32⟩ : BufTy).Contents (Elt F) → (⟨S_, .f32⟩ : BufTy).Contents (Elt F)) (after ops V (Proc.devRef .tc main_call0_cst_1)) (after ops V (Proc.devRef .tc main_call0_v7)) :=
  ssa_binary ops W ops_writes V 72 main_call0_cst_1 main_call0_v7 main_call0_v8 _ _ _ _ rfl

theorem e_main_call0_cst_2 (V : Valuation τ sig (Elt F)) :
    after ops V (Proc.devRef .tc main_call0_cst_2) = (constant S_ .f32 0x00000000#32) :=
  ssa_nullary ops W ops_writes V 73 main_call0_cst_2 _ _ rfl

theorem e_main_call0_v9 (V : Valuation τ sig (Elt F)) :
    after ops V (Proc.devRef .tc main_call0_v9) = (Host.reduceAdd (after ops V (Proc.devRef .tc main_call0_v6)) (after ops V (Proc.devRef .tc main_call0_cst_2)) reducesTo_S50000x128_S128_d0 h_S_ : (⟨S128, .f32⟩ : BufTy).Contents (Elt F)) :=
  ssa_binary ops W ops_writes V 74 main_call0_v6 main_call0_cst_2 main_call0_v9 _ _ _ _ rfl

theorem e_main_call0_v10 (V : Valuation τ sig (Elt F)) :
    after ops V (Proc.devRef .tc main_call0_v10) = (broadcastInDim S128 ![] bcast_S_S128 : (⟨S_, .f32⟩ : BufTy).Contents (Elt F) → (⟨S128, .f32⟩ : BufTy).Contents (Elt F)) (after ops V (Proc.devRef .tc main_call0_v8)) :=
  ssa_unary ops W ops_writes V 75 main_call0_v8 main_call0_v10 _ _ _ rfl

theorem e_main_call0_v11 (V : Valuation τ sig (Elt F)) :
    after ops V (Proc.devRef .tc main_call0_v11) = (Host.divf : (⟨S128, .f32⟩ : BufTy).Contents (Elt F) → (⟨S128, .f32⟩ : BufTy).Contents (Elt F) → (⟨S128, .f32⟩ : BufTy).Contents (Elt F)) (after ops V (Proc.devRef .tc main_call0_v9)) (after ops V (Proc.devRef .tc main_call0_v10)) :=
  ssa_binary ops W ops_writes V 76 main_call0_v9 main_call0_v10 main_call0_v11 _ _ _ _ rfl

theorem e_main_call0_cst_3 (V : Valuation τ sig (Elt F)) :
    after ops V (Proc.devRef .tc main_call0_cst_3) = (constant S_ .f32 0x00000000#32) :=
  ssa_nullary ops W ops_writes V 77 main_call0_cst_3 _ _ rfl

theorem e_main_call0_v12 (V : Valuation τ sig (Elt F)) :
    after ops V (Proc.devRef .tc main_call0_v12) = (cmpf (F := F) .ogt : (⟨S_, .f32⟩ : BufTy).Contents (Elt F) → (⟨S_, .f32⟩ : BufTy).Contents (Elt F) → (⟨S_, .i1⟩ : BufTy).Contents (Elt F)) (after ops V (Proc.devRef .tc main_call0_v8)) (after ops V (Proc.devRef .tc main_call0_cst_3)) :=
  ssa_binary ops W ops_writes V 78 main_call0_v8 main_call0_cst_3 main_call0_v12 _ _ _ _ rfl

theorem e_main_call0_cst_4 (V : Valuation τ sig (Elt F)) :
    after ops V (Proc.devRef .tc main_call0_cst_4) = (constant S_ .f32 0x7FC00000#32) :=
  ssa_nullary ops W ops_writes V 79 main_call0_cst_4 _ _ rfl

theorem e_main_call0_call0_v0 (V : Valuation τ sig (Elt F)) :
    after ops V (Proc.devRef .tc main_call0_call0_v0) = (id : (⟨S_, .f32⟩ : BufTy).Contents (Elt F) → (⟨S_, .f32⟩ : BufTy).Contents (Elt F)) (after ops V (Proc.devRef .tc main_call0_cst_4)) :=
  ssa_unary ops W ops_writes V 80 main_call0_cst_4 main_call0_call0_v0 _ _ _ rfl

theorem e_main_call0_call0_v1 (V : Valuation τ sig (Elt F)) :
    after ops V (Proc.devRef .tc main_call0_call0_v1) = (broadcastInDim S128 ![] bcast_S_S128 : (⟨S_, .f32⟩ : BufTy).Contents (Elt F) → (⟨S128, .f32⟩ : BufTy).Contents (Elt F)) (after ops V (Proc.devRef .tc main_call0_call0_v0)) :=
  ssa_unary ops W ops_writes V 81 main_call0_call0_v0 main_call0_call0_v1 _ _ _ rfl

theorem e_main_v48 (V : Valuation τ sig (Elt F)) :
    after ops V (Proc.devRef .tc main_v48) = (select (broadcastInDim S128 ![] bcast_S_S128 (after ops V (Proc.devRef .tc main_call0_v12))) (after ops V (Proc.devRef .tc main_call0_v11)) (after ops V (Proc.devRef .tc main_call0_call0_v1)) : (⟨S128, .f32⟩ : BufTy).Contents (Elt F)) :=
  ssa_ternary ops W ops_writes V 82 main_call0_v12 main_call0_v11 main_call0_call0_v1 main_v48 _ _ _ _ _ rfl

theorem e_main_v49 (V : Valuation τ sig (Elt F)) :
    after ops V (Proc.devRef .tc main_v49) = (broadcastInDim S1x128 ![1] bcast_S128_S1x128_1 : (⟨S128, .f32⟩ : BufTy).Contents (Elt F) → (⟨S1x128, .f32⟩ : BufTy).Contents (Elt F)) (after ops V (Proc.devRef .tc main_v47)) :=
  ssa_unary ops W ops_writes V 83 main_v47 main_v49 _ _ _ rfl

theorem e_main_v50 (V : Valuation τ sig (Elt F)) :
    after ops V (Proc.devRef .tc main_v50) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v49)) :=
  ssa_unary ops W ops_writes V 84 main_v49 main_v50 _ _ _ rfl

theorem e_main_v51 (V : Valuation τ sig (Elt F)) :
    after ops V (Proc.devRef .tc main_v51) = (subf : (⟨S50000x128, .f32⟩ : BufTy).Contents (Elt F) → (⟨S50000x128, .f32⟩ : BufTy).Contents (Elt F) → (⟨S50000x128, .f32⟩ : BufTy).Contents (Elt F)) (after ops V (Proc.devRef .tc main_v44)) (after ops V (Proc.devRef .tc main_v50)) :=
  ssa_binary ops W ops_writes V 85 main_v44 main_v50 main_v51 _ _ _ _ rfl

theorem e_main_cst_11 (V : Valuation τ sig (Elt F)) :
    after ops V (Proc.devRef .tc main_cst_11) = (constant S_ .f32 0x3727C5AC#32) :=
  ssa_nullary ops W ops_writes V 86 main_cst_11 _ _ rfl

theorem e_main_v52 (V : Valuation τ sig (Elt F)) :
    after ops V (Proc.devRef .tc main_v52) = (broadcastInDim S128 ![] bcast_S_S128 : (⟨S_, .f32⟩ : BufTy).Contents (Elt F) → (⟨S128, .f32⟩ : BufTy).Contents (Elt F)) (after ops V (Proc.devRef .tc main_cst_11)) :=
  ssa_unary ops W ops_writes V 87 main_cst_11 main_v52 _ _ _ rfl

theorem e_main_v53 (V : Valuation τ sig (Elt F)) :
    after ops V (Proc.devRef .tc main_v53) = (addf : (⟨S128, .f32⟩ : BufTy).Contents (Elt F) → (⟨S128, .f32⟩ : BufTy).Contents (Elt F) → (⟨S128, .f32⟩ : BufTy).Contents (Elt F)) (after ops V (Proc.devRef .tc main_v48)) (after ops V (Proc.devRef .tc main_v52)) :=
  ssa_binary ops W ops_writes V 88 main_v48 main_v52 main_v53 _ _ _ _ rfl

theorem e_main_v54 (V : Valuation τ sig (Elt F)) :
    after ops V (Proc.devRef .tc main_v54) = (Host.rsqrt : (⟨S128, .f32⟩ : BufTy).Contents (Elt F) → (⟨S128, .f32⟩ : BufTy).Contents (Elt F)) (after ops V (Proc.devRef .tc main_v53)) :=
  ssa_unary ops W ops_writes V 89 main_v53 main_v54 _ _ _ rfl

theorem e_main_v55 (V : Valuation τ sig (Elt F)) :
    after ops V (Proc.devRef .tc main_v55) = (broadcastInDim S1x128 ![1] bcast_S128_S1x128_1 : (⟨S128, .f32⟩ : BufTy).Contents (Elt F) → (⟨S1x128, .f32⟩ : BufTy).Contents (Elt F)) (after ops V (Proc.devRef .tc main_v54)) :=
  ssa_unary ops W ops_writes V 90 main_v54 main_v55 _ _ _ rfl

theorem e_main_v56 (V : Valuation τ sig (Elt F)) :
    after ops V (Proc.devRef .tc main_v56) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v55)) :=
  ssa_unary ops W ops_writes V 91 main_v55 main_v56 _ _ _ rfl

theorem e_main_v57 (V : Valuation τ sig (Elt F)) :
    after ops V (Proc.devRef .tc main_v57) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v51)) (after ops V (Proc.devRef .tc main_v56)) :=
  ssa_binary ops W ops_writes V 92 main_v51 main_v56 main_v57 _ _ _ _ rfl

theorem e_main_v58 (V : Valuation τ sig (Elt F)) :
    after ops V (Proc.devRef .tc main_v58) = (broadcastInDim S1x128 ![1] bcast_S128_S1x128_1 : (⟨S128, .f32⟩ : BufTy).Contents (Elt F) → (⟨S1x128, .f32⟩ : BufTy).Contents (Elt F)) (after ops V (Proc.devRef .tc main_arg6)) :=
  ssa_unary ops W ops_writes V 93 main_arg6 main_v58 _ _ _ rfl

theorem e_main_v59 (V : Valuation τ sig (Elt F)) :
    after ops V (Proc.devRef .tc main_v59) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v58)) :=
  ssa_unary ops W ops_writes V 94 main_v58 main_v59 _ _ _ rfl

theorem e_main_v60 (V : Valuation τ sig (Elt F)) :
    after ops V (Proc.devRef .tc main_v60) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v57)) (after ops V (Proc.devRef .tc main_v59)) :=
  ssa_binary ops W ops_writes V 95 main_v57 main_v59 main_v60 _ _ _ _ rfl

theorem e_main_v61 (V : Valuation τ sig (Elt F)) :
    after ops V (Proc.devRef .tc main_v61) = (broadcastInDim S1x128 ![1] bcast_S128_S1x128_1 : (⟨S128, .f32⟩ : BufTy).Contents (Elt F) → (⟨S1x128, .f32⟩ : BufTy).Contents (Elt F)) (after ops V (Proc.devRef .tc main_arg7)) :=
  ssa_unary ops W ops_writes V 96 main_arg7 main_v61 _ _ _ rfl

theorem e_main_v62 (V : Valuation τ sig (Elt F)) :
    after ops V (Proc.devRef .tc main_v62) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v61)) :=
  ssa_unary ops W ops_writes V 97 main_v61 main_v62 _ _ _ rfl

theorem e_main_v63 (V : Valuation τ sig (Elt F)) :
    after ops V (Proc.devRef .tc main_v63) = (addf : (⟨S50000x128, .f32⟩ : BufTy).Contents (Elt F) → (⟨S50000x128, .f32⟩ : BufTy).Contents (Elt F) → (⟨S50000x128, .f32⟩ : BufTy).Contents (Elt F)) (after ops V (Proc.devRef .tc main_v60)) (after ops V (Proc.devRef .tc main_v62)) :=
  ssa_binary ops W ops_writes V 98 main_v60 main_v62 main_v63 _ _ _ _ rfl

theorem e_main_call1_cst (V : Valuation τ sig (Elt F)) :
    after ops V (Proc.devRef .tc main_call1_cst) = (constant S_ .f32 0x00000000#32) :=
  ssa_nullary ops W ops_writes V 99 main_call1_cst _ _ rfl

theorem e_main_call1_v0 (V : Valuation τ sig (Elt F)) :
    after ops V (Proc.devRef .tc main_call1_v0) = (broadcastInDim S50000x128 ![] bcast_S_S50000x128 : (⟨S_, .f32⟩ : BufTy).Contents (Elt F) → (⟨S50000x128, .f32⟩ : BufTy).Contents (Elt F)) (after ops V (Proc.devRef .tc main_call1_cst)) :=
  ssa_unary ops W ops_writes V 100 main_call1_cst main_call1_v0 _ _ _ rfl

theorem e_main_v64 (V : Valuation τ sig (Elt F)) :
    after ops V (Proc.devRef .tc main_v64) = (maximumf : (⟨S50000x128, .f32⟩ : BufTy).Contents (Elt F) → (⟨S50000x128, .f32⟩ : BufTy).Contents (Elt F) → (⟨S50000x128, .f32⟩ : BufTy).Contents (Elt F)) (after ops V (Proc.devRef .tc main_v63)) (after ops V (Proc.devRef .tc main_call1_v0)) :=
  ssa_binary ops W ops_writes V 101 main_v63 main_call1_v0 main_v64 _ _ _ _ rfl

theorem e_main_v65 (V : Valuation τ sig (Elt F)) :
    after ops V (Proc.devRef .tc main_v65) = (Host.dotGeneral dot_S50000x128_S128x128_S50000x128_1_0_0_1_n_n none (after ops V (Proc.devRef .tc main_v64)) (after ops V (Proc.devRef .tc main_arg3)) : (⟨S50000x128, .f32⟩ : BufTy).Contents (Elt F)) :=
  ssa_binary ops W ops_writes V 102 main_v64 main_arg3 main_v65 _ _ _ _ rfl

theorem e_main_c_12 (V : Valuation τ sig (Elt F)) :
    after ops V (Proc.devRef .tc main_c_12) = (constantI S_ 32 0#32) :=
  ssa_nullary ops W ops_writes V 103 main_c_12 _ _ rfl

theorem e_main_v66 (V : Valuation τ sig (Elt F)) :
    after ops V (Proc.devRef .tc main_v66) = (broadcastInDim S800000 ![] bcast_S_S800000 : (⟨S_, .i32⟩ : BufTy).Contents (Elt F) → (⟨S800000, .i32⟩ : BufTy).Contents (Elt F)) (after ops V (Proc.devRef .tc main_c_12)) :=
  ssa_unary ops W ops_writes V 104 main_c_12 main_v66 _ _ _ rfl

theorem e_main_v67 (V : Valuation τ sig (Elt F)) :
    after ops V (Proc.devRef .tc main_v67) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v66)) :=
  ssa_binary ops W ops_writes V 105 main_v1 main_v66 main_v67 _ _ _ _ rfl

theorem e_main_c_13 (V : Valuation τ sig (Elt F)) :
    after ops V (Proc.devRef .tc main_c_13) = (constantI S_ 32 50000#32) :=
  ssa_nullary ops W ops_writes V 106 main_c_13 _ _ rfl

theorem e_main_v68 (V : Valuation τ sig (Elt F)) :
    after ops V (Proc.devRef .tc main_v68) = (broadcastInDim S800000 ![] bcast_S_S800000 : (⟨S_, .i32⟩ : BufTy).Contents (Elt F) → (⟨S800000, .i32⟩ : BufTy).Contents (Elt F)) (after ops V (Proc.devRef .tc main_c_13)) :=
  ssa_unary ops W ops_writes V 107 main_c_13 main_v68 _ _ _ rfl

theorem e_main_v69 (V : Valuation τ sig (Elt F)) :
    after ops V (Proc.devRef .tc main_v69) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v68)) :=
  ssa_binary ops W ops_writes V 108 main_v1 main_v68 main_v69 _ _ _ _ rfl

theorem e_main_v70 (V : Valuation τ sig (Elt F)) :
    after ops V (Proc.devRef .tc main_v70) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v67)) (after ops V (Proc.devRef .tc main_v69)) (after ops V (Proc.devRef .tc main_v1)) :=
  ssa_ternary ops W ops_writes V 109 main_v67 main_v69 main_v1 main_v70 _ _ _ _ _ rfl

theorem e_main_v71 (V : Valuation τ sig (Elt F)) :
    after ops V (Proc.devRef .tc main_v71) = (broadcastInDim S800000x1 ![0] bcast_S800000_S800000x1_0 : (⟨S800000, .i32⟩ : BufTy).Contents (Elt F) → (⟨S800000x1, .i32⟩ : BufTy).Contents (Elt F)) (after ops V (Proc.devRef .tc main_v70)) :=
  ssa_unary ops W ops_writes V 110 main_v70 main_v71 _ _ _ rfl

theorem e_main_v72 (V : Valuation τ sig (Elt F)) :
    after ops V (Proc.devRef .tc main_v72) = (Host.gather gather_S50000_S800000x1_S800000_n_0_n_n_0_1_1 (after ops V (Proc.devRef .tc main_v10)) (after ops V (Proc.devRef .tc main_v71)) : (⟨S800000, .f32⟩ : BufTy).Contents (Elt F)) :=
  ssa_binary ops W ops_writes V 111 main_v10 main_v71 main_v72 _ _ _ _ rfl

theorem e_main_c_14 (V : Valuation τ sig (Elt F)) :
    after ops V (Proc.devRef .tc main_c_14) = (constantI S_ 32 0#32) :=
  ssa_nullary ops W ops_writes V 112 main_c_14 _ _ rfl

theorem e_main_v73 (V : Valuation τ sig (Elt F)) :
    after ops V (Proc.devRef .tc main_v73) = (broadcastInDim S800000 ![] bcast_S_S800000 : (⟨S_, .i32⟩ : BufTy).Contents (Elt F) → (⟨S800000, .i32⟩ : BufTy).Contents (Elt F)) (after ops V (Proc.devRef .tc main_c_14)) :=
  ssa_unary ops W ops_writes V 113 main_c_14 main_v73 _ _ _ rfl

theorem e_main_v74 (V : Valuation τ sig (Elt F)) :
    after ops V (Proc.devRef .tc main_v74) = (cmpi .slt : (⟨S800000, .i32⟩ : BufTy).Contents (Elt F) → (⟨S800000, .i32⟩ : BufTy).Contents (Elt F) → (⟨S800000, .i1⟩ : BufTy).Contents (Elt F)) (after ops V (Proc.devRef .tc main_v3)) (after ops V (Proc.devRef .tc main_v73)) :=
  ssa_binary ops W ops_writes V 114 main_v3 main_v73 main_v74 _ _ _ _ rfl

theorem e_main_c_15 (V : Valuation τ sig (Elt F)) :
    after ops V (Proc.devRef .tc main_c_15) = (constantI S_ 32 50000#32) :=
  ssa_nullary ops W ops_writes V 115 main_c_15 _ _ rfl

theorem e_main_v75 (V : Valuation τ sig (Elt F)) :
    after ops V (Proc.devRef .tc main_v75) = (broadcastInDim S800000 ![] bcast_S_S800000 : (⟨S_, .i32⟩ : BufTy).Contents (Elt F) → (⟨S800000, .i32⟩ : BufTy).Contents (Elt F)) (after ops V (Proc.devRef .tc main_c_15)) :=
  ssa_unary ops W ops_writes V 116 main_c_15 main_v75 _ _ _ rfl

theorem e_main_v76 (V : Valuation τ sig (Elt F)) :
    after ops V (Proc.devRef .tc main_v76) = (addi : (⟨S800000, .i32⟩ : BufTy).Contents (Elt F) → (⟨S800000, .i32⟩ : BufTy).Contents (Elt F) → (⟨S800000, .i32⟩ : BufTy).Contents (Elt F)) (after ops V (Proc.devRef .tc main_v3)) (after ops V (Proc.devRef .tc main_v75)) :=
  ssa_binary ops W ops_writes V 117 main_v3 main_v75 main_v76 _ _ _ _ rfl

theorem e_main_v77 (V : Valuation τ sig (Elt F)) :
    after ops V (Proc.devRef .tc main_v77) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v74)) (after ops V (Proc.devRef .tc main_v76)) (after ops V (Proc.devRef .tc main_v3)) :=
  ssa_ternary ops W ops_writes V 118 main_v74 main_v76 main_v3 main_v77 _ _ _ _ _ rfl

theorem e_main_v78 (V : Valuation τ sig (Elt F)) :
    after ops V (Proc.devRef .tc main_v78) = (broadcastInDim S800000x1 ![0] bcast_S800000_S800000x1_0 : (⟨S800000, .i32⟩ : BufTy).Contents (Elt F) → (⟨S800000x1, .i32⟩ : BufTy).Contents (Elt F)) (after ops V (Proc.devRef .tc main_v77)) :=
  ssa_unary ops W ops_writes V 119 main_v77 main_v78 _ _ _ rfl

theorem e_main_v79 (V : Valuation τ sig (Elt F)) :
    after ops V (Proc.devRef .tc main_v79) = (Host.gather gather_S50000_S800000x1_S800000_n_0_n_n_0_1_1 (after ops V (Proc.devRef .tc main_v10)) (after ops V (Proc.devRef .tc main_v78)) : (⟨S800000, .f32⟩ : BufTy).Contents (Elt F)) :=
  ssa_binary ops W ops_writes V 120 main_v10 main_v78 main_v79 _ _ _ _ rfl

theorem e_main_v80 (V : Valuation τ sig (Elt F)) :
    after ops V (Proc.devRef .tc main_v80) = (mulf : (⟨S800000, .f32⟩ : BufTy).Contents (Elt F) → (⟨S800000, .f32⟩ : BufTy).Contents (Elt F) → (⟨S800000, .f32⟩ : BufTy).Contents (Elt F)) (after ops V (Proc.devRef .tc main_v72)) (after ops V (Proc.devRef .tc main_v79)) :=
  ssa_binary ops W ops_writes V 121 main_v72 main_v79 main_v80 _ _ _ _ rfl

theorem e_main_v81 (V : Valuation τ sig (Elt F)) :
    after ops V (Proc.devRef .tc main_v81) = (broadcastInDim S800000x1 ![0] bcast_S800000_S800000x1_0 : (⟨S800000, .f32⟩ : BufTy).Contents (Elt F) → (⟨S800000x1, .f32⟩ : BufTy).Contents (Elt F)) (after ops V (Proc.devRef .tc main_v80)) :=
  ssa_unary ops W ops_writes V 122 main_v80 main_v81 _ _ _ rfl

theorem e_main_c_16 (V : Valuation τ sig (Elt F)) :
    after ops V (Proc.devRef .tc main_c_16) = (constantI S_ 32 0#32) :=
  ssa_nullary ops W ops_writes V 123 main_c_16 _ _ rfl

theorem e_main_v82 (V : Valuation τ sig (Elt F)) :
    after ops V (Proc.devRef .tc main_v82) = (broadcastInDim S800000 ![] bcast_S_S800000 : (⟨S_, .i32⟩ : BufTy).Contents (Elt F) → (⟨S800000, .i32⟩ : BufTy).Contents (Elt F)) (after ops V (Proc.devRef .tc main_c_16)) :=
  ssa_unary ops W ops_writes V 124 main_c_16 main_v82 _ _ _ rfl

theorem e_main_v83 (V : Valuation τ sig (Elt F)) :
    after ops V (Proc.devRef .tc main_v83) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v82)) :=
  ssa_binary ops W ops_writes V 125 main_v1 main_v82 main_v83 _ _ _ _ rfl

theorem e_main_c_17 (V : Valuation τ sig (Elt F)) :
    after ops V (Proc.devRef .tc main_c_17) = (constantI S_ 32 50000#32) :=
  ssa_nullary ops W ops_writes V 126 main_c_17 _ _ rfl

theorem e_main_v84 (V : Valuation τ sig (Elt F)) :
    after ops V (Proc.devRef .tc main_v84) = (broadcastInDim S800000 ![] bcast_S_S800000 : (⟨S_, .i32⟩ : BufTy).Contents (Elt F) → (⟨S800000, .i32⟩ : BufTy).Contents (Elt F)) (after ops V (Proc.devRef .tc main_c_17)) :=
  ssa_unary ops W ops_writes V 127 main_c_17 main_v84 _ _ _ rfl

theorem e_main_v85 (V : Valuation τ sig (Elt F)) :
    after ops V (Proc.devRef .tc main_v85) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v84)) :=
  ssa_binary ops W ops_writes V 128 main_v1 main_v84 main_v85 _ _ _ _ rfl

theorem e_main_v86 (V : Valuation τ sig (Elt F)) :
    after ops V (Proc.devRef .tc main_v86) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v83)) (after ops V (Proc.devRef .tc main_v85)) (after ops V (Proc.devRef .tc main_v1)) :=
  ssa_ternary ops W ops_writes V 129 main_v83 main_v85 main_v1 main_v86 _ _ _ _ _ rfl

theorem e_main_v87 (V : Valuation τ sig (Elt F)) :
    after ops V (Proc.devRef .tc main_v87) = (broadcastInDim S800000x1 ![0] bcast_S800000_S800000x1_0 : (⟨S800000, .i32⟩ : BufTy).Contents (Elt F) → (⟨S800000x1, .i32⟩ : BufTy).Contents (Elt F)) (after ops V (Proc.devRef .tc main_v86)) :=
  ssa_unary ops W ops_writes V 130 main_v86 main_v87 _ _ _ rfl

theorem e_main_v88 (V : Valuation τ sig (Elt F)) :
    after ops V (Proc.devRef .tc main_v88) = (Host.gather gather_S50000x128_S800000x1_S800000x128_1_0_n_n_0_1_1128 (after ops V (Proc.devRef .tc main_v65)) (after ops V (Proc.devRef .tc main_v87)) : (⟨S800000x128, .f32⟩ : BufTy).Contents (Elt F)) :=
  ssa_binary ops W ops_writes V 131 main_v65 main_v87 main_v88 _ _ _ _ rfl

theorem e_main_v89 (V : Valuation τ sig (Elt F)) :
    after ops V (Proc.devRef .tc main_v89) = (broadcastInDim S800000x128 ![0, 1] bcast_S800000x1_S800000x128_0_1 : (⟨S800000x1, .f32⟩ : BufTy).Contents (Elt F) → (⟨S800000x128, .f32⟩ : BufTy).Contents (Elt F)) (after ops V (Proc.devRef .tc main_v81)) :=
  ssa_unary ops W ops_writes V 132 main_v81 main_v89 _ _ _ rfl

theorem e_main_v90 (V : Valuation τ sig (Elt F)) :
    after ops V (Proc.devRef .tc main_v90) = (mulf : (⟨S800000x128, .f32⟩ : BufTy).Contents (Elt F) → (⟨S800000x128, .f32⟩ : BufTy).Contents (Elt F) → (⟨S800000x128, .f32⟩ : BufTy).Contents (Elt F)) (after ops V (Proc.devRef .tc main_v88)) (after ops V (Proc.devRef .tc main_v89)) :=
  ssa_binary ops W ops_writes V 133 main_v88 main_v89 main_v90 _ _ _ _ rfl

theorem e_main_cst_18 (V : Valuation τ sig (Elt F)) :
    after ops V (Proc.devRef .tc main_cst_18) = (constant S_ .f32 0x00000000#32) :=
  ssa_nullary ops W ops_writes V 134 main_cst_18 _ _ rfl

theorem e_main_v91 (V : Valuation τ sig (Elt F)) :
    after ops V (Proc.devRef .tc main_v91) = (broadcastInDim S50000x128 ![] bcast_S_S50000x128 : (⟨S_, .f32⟩ : BufTy).Contents (Elt F) → (⟨S50000x128, .f32⟩ : BufTy).Contents (Elt F)) (after ops V (Proc.devRef .tc main_cst_18)) :=
  ssa_unary ops W ops_writes V 135 main_cst_18 main_v91 _ _ _ rfl

theorem e_main_v92 (V : Valuation τ sig (Elt F)) :
    after ops V (Proc.devRef .tc main_v92) = (broadcastInDim S800000x1 ![0] bcast_S800000_S800000x1_0 : (⟨S800000, .i32⟩ : BufTy).Contents (Elt F) → (⟨S800000x1, .i32⟩ : BufTy).Contents (Elt F)) (after ops V (Proc.devRef .tc main_v3)) :=
  ssa_unary ops W ops_writes V 136 main_v3 main_v92 _ _ _ rfl

theorem e_main_v93 (V : Valuation τ sig (Elt F)) :
    after ops V (Proc.devRef .tc main_v93) = (Host.scatterAdd scatter_S50000x128_S800000x1_S800000x128_1_0_0_1 (after ops V (Proc.devRef .tc main_v91)) (after ops V (Proc.devRef .tc main_v92)) (after ops V (Proc.devRef .tc main_v90)) : (⟨S50000x128, .f32⟩ : BufTy).Contents (Elt F)) :=
  ssa_ternary ops W ops_writes V 137 main_v91 main_v92 main_v90 main_v93 _ _ _ _ _ rfl

theorem e_main_v94 (V : Valuation τ sig (Elt F)) :
    after ops V (Proc.devRef .tc main_v94) = (mulf : (⟨S50000, .f32⟩ : BufTy).Contents (Elt F) → (⟨S50000, .f32⟩ : BufTy).Contents (Elt F) → (⟨S50000, .f32⟩ : BufTy).Contents (Elt F)) (after ops V (Proc.devRef .tc main_v10)) (after ops V (Proc.devRef .tc main_v10)) :=
  ssa_binary ops W ops_writes V 138 main_v10 main_v10 main_v94 _ _ _ _ rfl

theorem e_main_v95 (V : Valuation τ sig (Elt F)) :
    after ops V (Proc.devRef .tc main_v95) = (broadcastInDim S50000x1 ![0] bcast_S50000_S50000x1_0 : (⟨S50000, .f32⟩ : BufTy).Contents (Elt F) → (⟨S50000x1, .f32⟩ : BufTy).Contents (Elt F)) (after ops V (Proc.devRef .tc main_v94)) :=
  ssa_unary ops W ops_writes V 139 main_v94 main_v95 _ _ _ rfl

theorem e_main_v96 (V : Valuation τ sig (Elt F)) :
    after ops V (Proc.devRef .tc main_v96) = (broadcastInDim S50000x128 ![0, 1] bcast_S50000x1_S50000x128_0_1 : (⟨S50000x1, .f32⟩ : BufTy).Contents (Elt F) → (⟨S50000x128, .f32⟩ : BufTy).Contents (Elt F)) (after ops V (Proc.devRef .tc main_v95)) :=
  ssa_unary ops W ops_writes V 140 main_v95 main_v96 _ _ _ rfl

theorem e_main_v97 (V : Valuation τ sig (Elt F)) :
    after ops V (Proc.devRef .tc main_v97) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v65)) (after ops V (Proc.devRef .tc main_v96)) :=
  ssa_binary ops W ops_writes V 141 main_v65 main_v96 main_v97 _ _ _ _ rfl

theorem e_main_v98 (V : Valuation τ sig (Elt F)) :
    after ops V (Proc.devRef .tc main_v98) = (addf : (⟨S50000x128, .f32⟩ : BufTy).Contents (Elt F) → (⟨S50000x128, .f32⟩ : BufTy).Contents (Elt F) → (⟨S50000x128, .f32⟩ : BufTy).Contents (Elt F)) (after ops V (Proc.devRef .tc main_v93)) (after ops V (Proc.devRef .tc main_v97)) :=
  ssa_binary ops W ops_writes V 142 main_v93 main_v97 main_v98 _ _ _ _ rfl

theorem e_main_cst_19 (V : Valuation τ sig (Elt F)) :
    after ops V (Proc.devRef .tc main_cst_19) = (constant S_ .f32 0x00000000#32) :=
  ssa_nullary ops W ops_writes V 143 main_cst_19 _ _ rfl

theorem e_main_v99 (V : Valuation τ sig (Elt F)) :
    after ops V (Proc.devRef .tc main_v99) = (Host.reduceAdd (after ops V (Proc.devRef .tc main_v98)) (after ops V (Proc.devRef .tc main_cst_19)) reducesTo_S50000x128_S128_d0 h_S_ : (⟨S128, .f32⟩ : BufTy).Contents (Elt F)) :=
  ssa_binary ops W ops_writes V 144 main_v98 main_cst_19 main_v99 _ _ _ _ rfl

theorem e_main_cst_20 (V : Valuation τ sig (Elt F)) :
    after ops V (Proc.devRef .tc main_cst_20) = (constant S_ .f32 0x47435000#32) :=
  ssa_nullary ops W ops_writes V 145 main_cst_20 _ _ rfl

theorem e_main_v100 (V : Valuation τ sig (Elt F)) :
    after ops V (Proc.devRef .tc main_v100) = (broadcastInDim S128 ![] bcast_S_S128 : (⟨S_, .f32⟩ : BufTy).Contents (Elt F) → (⟨S128, .f32⟩ : BufTy).Contents (Elt F)) (after ops V (Proc.devRef .tc main_cst_20)) :=
  ssa_unary ops W ops_writes V 146 main_cst_20 main_v100 _ _ _ rfl

theorem e_main_v101 (V : Valuation τ sig (Elt F)) :
    after ops V (Proc.devRef .tc main_v101) = (Host.divf : (⟨S128, .f32⟩ : BufTy).Contents (Elt F) → (⟨S128, .f32⟩ : BufTy).Contents (Elt F) → (⟨S128, .f32⟩ : BufTy).Contents (Elt F)) (after ops V (Proc.devRef .tc main_v99)) (after ops V (Proc.devRef .tc main_v100)) :=
  ssa_binary ops W ops_writes V 147 main_v99 main_v100 main_v101 _ _ _ _ rfl

theorem e_main_c_21 (V : Valuation τ sig (Elt F)) :
    after ops V (Proc.devRef .tc main_c_21) = (constantI S_ 32 0#32) :=
  ssa_nullary ops W ops_writes V 148 main_c_21 _ _ rfl

theorem e_main_call2_cst (V : Valuation τ sig (Elt F)) :
    after ops V (Proc.devRef .tc main_call2_cst) = (constant S_ .f32 0x00000000#32) :=
  ssa_nullary ops W ops_writes V 149 main_call2_cst _ _ rfl

theorem e_main_call2_v0 (V : Valuation τ sig (Elt F)) :
    after ops V (Proc.devRef .tc main_call2_v0) = (Host.reduceAdd (after ops V (Proc.devRef .tc main_v98)) (after ops V (Proc.devRef .tc main_call2_cst)) reducesTo_S50000x128_S128_d0 h_S_ : (⟨S128, .f32⟩ : BufTy).Contents (Elt F)) :=
  ssa_binary ops W ops_writes V 150 main_v98 main_call2_cst main_call2_v0 _ _ _ _ rfl

theorem e_main_call2_v1 (V : Valuation τ sig (Elt F)) :
    after ops V (Proc.devRef .tc main_call2_v1) = (broadcastInDim S1x128 ![1] bcast_S128_S1x128_1 : (⟨S128, .f32⟩ : BufTy).Contents (Elt F) → (⟨S1x128, .f32⟩ : BufTy).Contents (Elt F)) (after ops V (Proc.devRef .tc main_call2_v0)) :=
  ssa_unary ops W ops_writes V 151 main_call2_v0 main_call2_v1 _ _ _ rfl

theorem e_main_call2_cst_0 (V : Valuation τ sig (Elt F)) :
    after ops V (Proc.devRef .tc main_call2_cst_0) = (constant S_ .f32 0x47435000#32) :=
  ssa_nullary ops W ops_writes V 152 main_call2_cst_0 _ _ rfl

theorem e_main_call2_v2 (V : Valuation τ sig (Elt F)) :
    after ops V (Proc.devRef .tc main_call2_v2) = (broadcastInDim S1x128 ![] bcast_S_S1x128 : (⟨S_, .f32⟩ : BufTy).Contents (Elt F) → (⟨S1x128, .f32⟩ : BufTy).Contents (Elt F)) (after ops V (Proc.devRef .tc main_call2_cst_0)) :=
  ssa_unary ops W ops_writes V 153 main_call2_cst_0 main_call2_v2 _ _ _ rfl

theorem e_main_call2_v3 (V : Valuation τ sig (Elt F)) :
    after ops V (Proc.devRef .tc main_call2_v3) = (Host.divf : (⟨S1x128, .f32⟩ : BufTy).Contents (Elt F) → (⟨S1x128, .f32⟩ : BufTy).Contents (Elt F) → (⟨S1x128, .f32⟩ : BufTy).Contents (Elt F)) (after ops V (Proc.devRef .tc main_call2_v1)) (after ops V (Proc.devRef .tc main_call2_v2)) :=
  ssa_binary ops W ops_writes V 154 main_call2_v1 main_call2_v2 main_call2_v3 _ _ _ _ rfl

theorem e_main_call2_v4 (V : Valuation τ sig (Elt F)) :
    after ops V (Proc.devRef .tc main_call2_v4) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_call2_v3)) :=
  ssa_unary ops W ops_writes V 155 main_call2_v3 main_call2_v4 _ _ _ rfl

theorem e_main_call2_v5 (V : Valuation τ sig (Elt F)) :
    after ops V (Proc.devRef .tc main_call2_v5) = (subf : (⟨S50000x128, .f32⟩ : BufTy).Contents (Elt F) → (⟨S50000x128, .f32⟩ : BufTy).Contents (Elt F) → (⟨S50000x128, .f32⟩ : BufTy).Contents (Elt F)) (after ops V (Proc.devRef .tc main_v98)) (after ops V (Proc.devRef .tc main_call2_v4)) :=
  ssa_binary ops W ops_writes V 156 main_v98 main_call2_v4 main_call2_v5 _ _ _ _ rfl

theorem e_main_call2_v6 (V : Valuation τ sig (Elt F)) :
    after ops V (Proc.devRef .tc main_call2_v6) = (mulf : (⟨S50000x128, .f32⟩ : BufTy).Contents (Elt F) → (⟨S50000x128, .f32⟩ : BufTy).Contents (Elt F) → (⟨S50000x128, .f32⟩ : BufTy).Contents (Elt F)) (after ops V (Proc.devRef .tc main_call2_v5)) (after ops V (Proc.devRef .tc main_call2_v5)) :=
  ssa_binary ops W ops_writes V 157 main_call2_v5 main_call2_v5 main_call2_v6 _ _ _ _ rfl

theorem e_main_call2_v7 (V : Valuation τ sig (Elt F)) :
    after ops V (Proc.devRef .tc main_call2_v7) = (sitofp (F := F) .f32 : (⟨S_, .i32⟩ : BufTy).Contents (Elt F) → (⟨S_, .f32⟩ : BufTy).Contents (Elt F)) (after ops V (Proc.devRef .tc main_c_21)) :=
  ssa_unary ops W ops_writes V 158 main_c_21 main_call2_v7 _ _ _ rfl

theorem e_main_call2_cst_1 (V : Valuation τ sig (Elt F)) :
    after ops V (Proc.devRef .tc main_call2_cst_1) = (constant S_ .f32 0x47435000#32) :=
  ssa_nullary ops W ops_writes V 159 main_call2_cst_1 _ _ rfl

theorem e_main_call2_v8 (V : Valuation τ sig (Elt F)) :
    after ops V (Proc.devRef .tc main_call2_v8) = (subf : (⟨S_, .f32⟩ : BufTy).Contents (Elt F) → (⟨S_, .f32⟩ : BufTy).Contents (Elt F) → (⟨S_, .f32⟩ : BufTy).Contents (Elt F)) (after ops V (Proc.devRef .tc main_call2_cst_1)) (after ops V (Proc.devRef .tc main_call2_v7)) :=
  ssa_binary ops W ops_writes V 160 main_call2_cst_1 main_call2_v7 main_call2_v8 _ _ _ _ rfl

theorem e_main_call2_cst_2 (V : Valuation τ sig (Elt F)) :
    after ops V (Proc.devRef .tc main_call2_cst_2) = (constant S_ .f32 0x00000000#32) :=
  ssa_nullary ops W ops_writes V 161 main_call2_cst_2 _ _ rfl

theorem e_main_call2_v9 (V : Valuation τ sig (Elt F)) :
    after ops V (Proc.devRef .tc main_call2_v9) = (Host.reduceAdd (after ops V (Proc.devRef .tc main_call2_v6)) (after ops V (Proc.devRef .tc main_call2_cst_2)) reducesTo_S50000x128_S128_d0 h_S_ : (⟨S128, .f32⟩ : BufTy).Contents (Elt F)) :=
  ssa_binary ops W ops_writes V 162 main_call2_v6 main_call2_cst_2 main_call2_v9 _ _ _ _ rfl

theorem e_main_call2_v10 (V : Valuation τ sig (Elt F)) :
    after ops V (Proc.devRef .tc main_call2_v10) = (broadcastInDim S128 ![] bcast_S_S128 : (⟨S_, .f32⟩ : BufTy).Contents (Elt F) → (⟨S128, .f32⟩ : BufTy).Contents (Elt F)) (after ops V (Proc.devRef .tc main_call2_v8)) :=
  ssa_unary ops W ops_writes V 163 main_call2_v8 main_call2_v10 _ _ _ rfl

theorem e_main_call2_v11 (V : Valuation τ sig (Elt F)) :
    after ops V (Proc.devRef .tc main_call2_v11) = (Host.divf : (⟨S128, .f32⟩ : BufTy).Contents (Elt F) → (⟨S128, .f32⟩ : BufTy).Contents (Elt F) → (⟨S128, .f32⟩ : BufTy).Contents (Elt F)) (after ops V (Proc.devRef .tc main_call2_v9)) (after ops V (Proc.devRef .tc main_call2_v10)) :=
  ssa_binary ops W ops_writes V 164 main_call2_v9 main_call2_v10 main_call2_v11 _ _ _ _ rfl

theorem e_main_call2_cst_3 (V : Valuation τ sig (Elt F)) :
    after ops V (Proc.devRef .tc main_call2_cst_3) = (constant S_ .f32 0x00000000#32) :=
  ssa_nullary ops W ops_writes V 165 main_call2_cst_3 _ _ rfl

theorem e_main_call2_v12 (V : Valuation τ sig (Elt F)) :
    after ops V (Proc.devRef .tc main_call2_v12) = (cmpf (F := F) .ogt : (⟨S_, .f32⟩ : BufTy).Contents (Elt F) → (⟨S_, .f32⟩ : BufTy).Contents (Elt F) → (⟨S_, .i1⟩ : BufTy).Contents (Elt F)) (after ops V (Proc.devRef .tc main_call2_v8)) (after ops V (Proc.devRef .tc main_call2_cst_3)) :=
  ssa_binary ops W ops_writes V 166 main_call2_v8 main_call2_cst_3 main_call2_v12 _ _ _ _ rfl

theorem e_main_call2_cst_4 (V : Valuation τ sig (Elt F)) :
    after ops V (Proc.devRef .tc main_call2_cst_4) = (constant S_ .f32 0x7FC00000#32) :=
  ssa_nullary ops W ops_writes V 167 main_call2_cst_4 _ _ rfl

theorem e_main_call2_call0_v0 (V : Valuation τ sig (Elt F)) :
    after ops V (Proc.devRef .tc main_call2_call0_v0) = (id : (⟨S_, .f32⟩ : BufTy).Contents (Elt F) → (⟨S_, .f32⟩ : BufTy).Contents (Elt F)) (after ops V (Proc.devRef .tc main_call2_cst_4)) :=
  ssa_unary ops W ops_writes V 168 main_call2_cst_4 main_call2_call0_v0 _ _ _ rfl

theorem e_main_call2_call0_v1 (V : Valuation τ sig (Elt F)) :
    after ops V (Proc.devRef .tc main_call2_call0_v1) = (broadcastInDim S128 ![] bcast_S_S128 : (⟨S_, .f32⟩ : BufTy).Contents (Elt F) → (⟨S128, .f32⟩ : BufTy).Contents (Elt F)) (after ops V (Proc.devRef .tc main_call2_call0_v0)) :=
  ssa_unary ops W ops_writes V 169 main_call2_call0_v0 main_call2_call0_v1 _ _ _ rfl

theorem e_main_v102 (V : Valuation τ sig (Elt F)) :
    after ops V (Proc.devRef .tc main_v102) = (select (broadcastInDim S128 ![] bcast_S_S128 (after ops V (Proc.devRef .tc main_call2_v12))) (after ops V (Proc.devRef .tc main_call2_v11)) (after ops V (Proc.devRef .tc main_call2_call0_v1)) : (⟨S128, .f32⟩ : BufTy).Contents (Elt F)) :=
  ssa_ternary ops W ops_writes V 170 main_call2_v12 main_call2_v11 main_call2_call0_v1 main_v102 _ _ _ _ _ rfl

theorem e_main_v103 (V : Valuation τ sig (Elt F)) :
    after ops V (Proc.devRef .tc main_v103) = (broadcastInDim S1x128 ![1] bcast_S128_S1x128_1 : (⟨S128, .f32⟩ : BufTy).Contents (Elt F) → (⟨S1x128, .f32⟩ : BufTy).Contents (Elt F)) (after ops V (Proc.devRef .tc main_v101)) :=
  ssa_unary ops W ops_writes V 171 main_v101 main_v103 _ _ _ rfl

theorem e_main_v104 (V : Valuation τ sig (Elt F)) :
    after ops V (Proc.devRef .tc main_v104) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v103)) :=
  ssa_unary ops W ops_writes V 172 main_v103 main_v104 _ _ _ rfl

theorem e_main_v105 (V : Valuation τ sig (Elt F)) :
    after ops V (Proc.devRef .tc main_v105) = (subf : (⟨S50000x128, .f32⟩ : BufTy).Contents (Elt F) → (⟨S50000x128, .f32⟩ : BufTy).Contents (Elt F) → (⟨S50000x128, .f32⟩ : BufTy).Contents (Elt F)) (after ops V (Proc.devRef .tc main_v98)) (after ops V (Proc.devRef .tc main_v104)) :=
  ssa_binary ops W ops_writes V 173 main_v98 main_v104 main_v105 _ _ _ _ rfl

theorem e_main_cst_22 (V : Valuation τ sig (Elt F)) :
    after ops V (Proc.devRef .tc main_cst_22) = (constant S_ .f32 0x3727C5AC#32) :=
  ssa_nullary ops W ops_writes V 174 main_cst_22 _ _ rfl

theorem e_main_v106 (V : Valuation τ sig (Elt F)) :
    after ops V (Proc.devRef .tc main_v106) = (broadcastInDim S128 ![] bcast_S_S128 : (⟨S_, .f32⟩ : BufTy).Contents (Elt F) → (⟨S128, .f32⟩ : BufTy).Contents (Elt F)) (after ops V (Proc.devRef .tc main_cst_22)) :=
  ssa_unary ops W ops_writes V 175 main_cst_22 main_v106 _ _ _ rfl

theorem e_main_v107 (V : Valuation τ sig (Elt F)) :
    after ops V (Proc.devRef .tc main_v107) = (addf : (⟨S128, .f32⟩ : BufTy).Contents (Elt F) → (⟨S128, .f32⟩ : BufTy).Contents (Elt F) → (⟨S128, .f32⟩ : BufTy).Contents (Elt F)) (after ops V (Proc.devRef .tc main_v102)) (after ops V (Proc.devRef .tc main_v106)) :=
  ssa_binary ops W ops_writes V 176 main_v102 main_v106 main_v107 _ _ _ _ rfl

theorem e_main_v108 (V : Valuation τ sig (Elt F)) :
    after ops V (Proc.devRef .tc main_v108) = (Host.rsqrt : (⟨S128, .f32⟩ : BufTy).Contents (Elt F) → (⟨S128, .f32⟩ : BufTy).Contents (Elt F)) (after ops V (Proc.devRef .tc main_v107)) :=
  ssa_unary ops W ops_writes V 177 main_v107 main_v108 _ _ _ rfl

theorem e_main_v109 (V : Valuation τ sig (Elt F)) :
    after ops V (Proc.devRef .tc main_v109) = (broadcastInDim S1x128 ![1] bcast_S128_S1x128_1 : (⟨S128, .f32⟩ : BufTy).Contents (Elt F) → (⟨S1x128, .f32⟩ : BufTy).Contents (Elt F)) (after ops V (Proc.devRef .tc main_v108)) :=
  ssa_unary ops W ops_writes V 178 main_v108 main_v109 _ _ _ rfl

theorem e_main_v110 (V : Valuation τ sig (Elt F)) :
    after ops V (Proc.devRef .tc main_v110) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v109)) :=
  ssa_unary ops W ops_writes V 179 main_v109 main_v110 _ _ _ rfl

theorem e_main_v111 (V : Valuation τ sig (Elt F)) :
    after ops V (Proc.devRef .tc main_v111) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v105)) (after ops V (Proc.devRef .tc main_v110)) :=
  ssa_binary ops W ops_writes V 180 main_v105 main_v110 main_v111 _ _ _ _ rfl

theorem e_main_v112 (V : Valuation τ sig (Elt F)) :
    after ops V (Proc.devRef .tc main_v112) = (broadcastInDim S1x128 ![1] bcast_S128_S1x128_1 : (⟨S128, .f32⟩ : BufTy).Contents (Elt F) → (⟨S1x128, .f32⟩ : BufTy).Contents (Elt F)) (after ops V (Proc.devRef .tc main_arg8)) :=
  ssa_unary ops W ops_writes V 181 main_arg8 main_v112 _ _ _ rfl

theorem e_main_v113 (V : Valuation τ sig (Elt F)) :
    after ops V (Proc.devRef .tc main_v113) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v112)) :=
  ssa_unary ops W ops_writes V 182 main_v112 main_v113 _ _ _ rfl

theorem e_main_v114 (V : Valuation τ sig (Elt F)) :
    after ops V (Proc.devRef .tc main_v114) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v111)) (after ops V (Proc.devRef .tc main_v113)) :=
  ssa_binary ops W ops_writes V 183 main_v111 main_v113 main_v114 _ _ _ _ rfl

theorem e_main_v115 (V : Valuation τ sig (Elt F)) :
    after ops V (Proc.devRef .tc main_v115) = (broadcastInDim S1x128 ![1] bcast_S128_S1x128_1 : (⟨S128, .f32⟩ : BufTy).Contents (Elt F) → (⟨S1x128, .f32⟩ : BufTy).Contents (Elt F)) (after ops V (Proc.devRef .tc main_arg9)) :=
  ssa_unary ops W ops_writes V 184 main_arg9 main_v115 _ _ _ rfl

theorem e_main_v116 (V : Valuation τ sig (Elt F)) :
    after ops V (Proc.devRef .tc main_v116) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v115)) :=
  ssa_unary ops W ops_writes V 185 main_v115 main_v116 _ _ _ rfl

theorem e_main_v117 (V : Valuation τ sig (Elt F)) :
    after ops V (Proc.devRef .tc main_v117) = (addf : (⟨S50000x128, .f32⟩ : BufTy).Contents (Elt F) → (⟨S50000x128, .f32⟩ : BufTy).Contents (Elt F) → (⟨S50000x128, .f32⟩ : BufTy).Contents (Elt F)) (after ops V (Proc.devRef .tc main_v114)) (after ops V (Proc.devRef .tc main_v116)) :=
  ssa_binary ops W ops_writes V 186 main_v114 main_v116 main_v117 _ _ _ _ rfl

theorem e_main_call3_cst (V : Valuation τ sig (Elt F)) :
    after ops V (Proc.devRef .tc main_call3_cst) = (constant S_ .f32 0x00000000#32) :=
  ssa_nullary ops W ops_writes V 187 main_call3_cst _ _ rfl

theorem e_main_call3_v0 (V : Valuation τ sig (Elt F)) :
    after ops V (Proc.devRef .tc main_call3_v0) = (broadcastInDim S50000x128 ![] bcast_S_S50000x128 : (⟨S_, .f32⟩ : BufTy).Contents (Elt F) → (⟨S50000x128, .f32⟩ : BufTy).Contents (Elt F)) (after ops V (Proc.devRef .tc main_call3_cst)) :=
  ssa_unary ops W ops_writes V 188 main_call3_cst main_call3_v0 _ _ _ rfl

theorem e_main_v118 (V : Valuation τ sig (Elt F)) :
    after ops V (Proc.devRef .tc main_v118) = (maximumf : (⟨S50000x128, .f32⟩ : BufTy).Contents (Elt F) → (⟨S50000x128, .f32⟩ : BufTy).Contents (Elt F) → (⟨S50000x128, .f32⟩ : BufTy).Contents (Elt F)) (after ops V (Proc.devRef .tc main_v117)) (after ops V (Proc.devRef .tc main_call3_v0)) :=
  ssa_binary ops W ops_writes V 189 main_v117 main_call3_v0 main_v118 _ _ _ _ rfl

theorem e_main_v119 (V : Valuation τ sig (Elt F)) :
    after ops V (Proc.devRef .tc main_v119) = (Host.dotGeneral dot_S50000x128_S128x64_S50000x64_1_0_0_1_n_n none (after ops V (Proc.devRef .tc main_v118)) (after ops V (Proc.devRef .tc main_arg4)) : (⟨S50000x64, .f32⟩ : BufTy).Contents (Elt F)) :=
  ssa_binary ops W ops_writes V 190 main_v118 main_arg4 main_v119 _ _ _ _ rfl

theorem e_main_c_23 (V : Valuation τ sig (Elt F)) :
    after ops V (Proc.devRef .tc main_c_23) = (constantI S_ 32 0#32) :=
  ssa_nullary ops W ops_writes V 191 main_c_23 _ _ rfl

theorem e_main_v120 (V : Valuation τ sig (Elt F)) :
    after ops V (Proc.devRef .tc main_v120) = (broadcastInDim S800000 ![] bcast_S_S800000 : (⟨S_, .i32⟩ : BufTy).Contents (Elt F) → (⟨S800000, .i32⟩ : BufTy).Contents (Elt F)) (after ops V (Proc.devRef .tc main_c_23)) :=
  ssa_unary ops W ops_writes V 192 main_c_23 main_v120 _ _ _ rfl

theorem e_main_v121 (V : Valuation τ sig (Elt F)) :
    after ops V (Proc.devRef .tc main_v121) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v120)) :=
  ssa_binary ops W ops_writes V 193 main_v1 main_v120 main_v121 _ _ _ _ rfl

theorem e_main_c_24 (V : Valuation τ sig (Elt F)) :
    after ops V (Proc.devRef .tc main_c_24) = (constantI S_ 32 50000#32) :=
  ssa_nullary ops W ops_writes V 194 main_c_24 _ _ rfl

theorem e_main_v122 (V : Valuation τ sig (Elt F)) :
    after ops V (Proc.devRef .tc main_v122) = (broadcastInDim S800000 ![] bcast_S_S800000 : (⟨S_, .i32⟩ : BufTy).Contents (Elt F) → (⟨S800000, .i32⟩ : BufTy).Contents (Elt F)) (after ops V (Proc.devRef .tc main_c_24)) :=
  ssa_unary ops W ops_writes V 195 main_c_24 main_v122 _ _ _ rfl

theorem e_main_v123 (V : Valuation τ sig (Elt F)) :
    after ops V (Proc.devRef .tc main_v123) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v122)) :=
  ssa_binary ops W ops_writes V 196 main_v1 main_v122 main_v123 _ _ _ _ rfl

theorem e_main_v124 (V : Valuation τ sig (Elt F)) :
    after ops V (Proc.devRef .tc main_v124) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v121)) (after ops V (Proc.devRef .tc main_v123)) (after ops V (Proc.devRef .tc main_v1)) :=
  ssa_ternary ops W ops_writes V 197 main_v121 main_v123 main_v1 main_v124 _ _ _ _ _ rfl

theorem e_main_v125 (V : Valuation τ sig (Elt F)) :
    after ops V (Proc.devRef .tc main_v125) = (broadcastInDim S800000x1 ![0] bcast_S800000_S800000x1_0 : (⟨S800000, .i32⟩ : BufTy).Contents (Elt F) → (⟨S800000x1, .i32⟩ : BufTy).Contents (Elt F)) (after ops V (Proc.devRef .tc main_v124)) :=
  ssa_unary ops W ops_writes V 198 main_v124 main_v125 _ _ _ rfl

theorem e_main_v126 (V : Valuation τ sig (Elt F)) :
    after ops V (Proc.devRef .tc main_v126) = (Host.gather gather_S50000_S800000x1_S800000_n_0_n_n_0_1_1 (after ops V (Proc.devRef .tc main_v10)) (after ops V (Proc.devRef .tc main_v125)) : (⟨S800000, .f32⟩ : BufTy).Contents (Elt F)) :=
  ssa_binary ops W ops_writes V 199 main_v10 main_v125 main_v126 _ _ _ _ rfl

theorem e_main_c_25 (V : Valuation τ sig (Elt F)) :
    after ops V (Proc.devRef .tc main_c_25) = (constantI S_ 32 0#32) :=
  ssa_nullary ops W ops_writes V 200 main_c_25 _ _ rfl

theorem e_main_v127 (V : Valuation τ sig (Elt F)) :
    after ops V (Proc.devRef .tc main_v127) = (broadcastInDim S800000 ![] bcast_S_S800000 : (⟨S_, .i32⟩ : BufTy).Contents (Elt F) → (⟨S800000, .i32⟩ : BufTy).Contents (Elt F)) (after ops V (Proc.devRef .tc main_c_25)) :=
  ssa_unary ops W ops_writes V 201 main_c_25 main_v127 _ _ _ rfl

theorem e_main_v128 (V : Valuation τ sig (Elt F)) :
    after ops V (Proc.devRef .tc main_v128) = (cmpi .slt : (⟨S800000, .i32⟩ : BufTy).Contents (Elt F) → (⟨S800000, .i32⟩ : BufTy).Contents (Elt F) → (⟨S800000, .i1⟩ : BufTy).Contents (Elt F)) (after ops V (Proc.devRef .tc main_v3)) (after ops V (Proc.devRef .tc main_v127)) :=
  ssa_binary ops W ops_writes V 202 main_v3 main_v127 main_v128 _ _ _ _ rfl

theorem e_main_c_26 (V : Valuation τ sig (Elt F)) :
    after ops V (Proc.devRef .tc main_c_26) = (constantI S_ 32 50000#32) :=
  ssa_nullary ops W ops_writes V 203 main_c_26 _ _ rfl

theorem e_main_v129 (V : Valuation τ sig (Elt F)) :
    after ops V (Proc.devRef .tc main_v129) = (broadcastInDim S800000 ![] bcast_S_S800000 : (⟨S_, .i32⟩ : BufTy).Contents (Elt F) → (⟨S800000, .i32⟩ : BufTy).Contents (Elt F)) (after ops V (Proc.devRef .tc main_c_26)) :=
  ssa_unary ops W ops_writes V 204 main_c_26 main_v129 _ _ _ rfl

theorem e_main_v130 (V : Valuation τ sig (Elt F)) :
    after ops V (Proc.devRef .tc main_v130) = (addi : (⟨S800000, .i32⟩ : BufTy).Contents (Elt F) → (⟨S800000, .i32⟩ : BufTy).Contents (Elt F) → (⟨S800000, .i32⟩ : BufTy).Contents (Elt F)) (after ops V (Proc.devRef .tc main_v3)) (after ops V (Proc.devRef .tc main_v129)) :=
  ssa_binary ops W ops_writes V 205 main_v3 main_v129 main_v130 _ _ _ _ rfl

theorem e_main_v131 (V : Valuation τ sig (Elt F)) :
    after ops V (Proc.devRef .tc main_v131) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v128)) (after ops V (Proc.devRef .tc main_v130)) (after ops V (Proc.devRef .tc main_v3)) :=
  ssa_ternary ops W ops_writes V 206 main_v128 main_v130 main_v3 main_v131 _ _ _ _ _ rfl

theorem e_main_v132 (V : Valuation τ sig (Elt F)) :
    after ops V (Proc.devRef .tc main_v132) = (broadcastInDim S800000x1 ![0] bcast_S800000_S800000x1_0 : (⟨S800000, .i32⟩ : BufTy).Contents (Elt F) → (⟨S800000x1, .i32⟩ : BufTy).Contents (Elt F)) (after ops V (Proc.devRef .tc main_v131)) :=
  ssa_unary ops W ops_writes V 207 main_v131 main_v132 _ _ _ rfl

theorem e_main_v133 (V : Valuation τ sig (Elt F)) :
    after ops V (Proc.devRef .tc main_v133) = (Host.gather gather_S50000_S800000x1_S800000_n_0_n_n_0_1_1 (after ops V (Proc.devRef .tc main_v10)) (after ops V (Proc.devRef .tc main_v132)) : (⟨S800000, .f32⟩ : BufTy).Contents (Elt F)) :=
  ssa_binary ops W ops_writes V 208 main_v10 main_v132 main_v133 _ _ _ _ rfl

theorem e_main_v134 (V : Valuation τ sig (Elt F)) :
    after ops V (Proc.devRef .tc main_v134) = (mulf : (⟨S800000, .f32⟩ : BufTy).Contents (Elt F) → (⟨S800000, .f32⟩ : BufTy).Contents (Elt F) → (⟨S800000, .f32⟩ : BufTy).Contents (Elt F)) (after ops V (Proc.devRef .tc main_v126)) (after ops V (Proc.devRef .tc main_v133)) :=
  ssa_binary ops W ops_writes V 209 main_v126 main_v133 main_v134 _ _ _ _ rfl

theorem e_main_v135 (V : Valuation τ sig (Elt F)) :
    after ops V (Proc.devRef .tc main_v135) = (broadcastInDim S800000x1 ![0] bcast_S800000_S800000x1_0 : (⟨S800000, .f32⟩ : BufTy).Contents (Elt F) → (⟨S800000x1, .f32⟩ : BufTy).Contents (Elt F)) (after ops V (Proc.devRef .tc main_v134)) :=
  ssa_unary ops W ops_writes V 210 main_v134 main_v135 _ _ _ rfl

theorem e_main_c_27 (V : Valuation τ sig (Elt F)) :
    after ops V (Proc.devRef .tc main_c_27) = (constantI S_ 32 0#32) :=
  ssa_nullary ops W ops_writes V 211 main_c_27 _ _ rfl

theorem e_main_v136 (V : Valuation τ sig (Elt F)) :
    after ops V (Proc.devRef .tc main_v136) = (broadcastInDim S800000 ![] bcast_S_S800000 : (⟨S_, .i32⟩ : BufTy).Contents (Elt F) → (⟨S800000, .i32⟩ : BufTy).Contents (Elt F)) (after ops V (Proc.devRef .tc main_c_27)) :=
  ssa_unary ops W ops_writes V 212 main_c_27 main_v136 _ _ _ rfl

theorem e_main_v137 (V : Valuation τ sig (Elt F)) :
    after ops V (Proc.devRef .tc main_v137) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v136)) :=
  ssa_binary ops W ops_writes V 213 main_v1 main_v136 main_v137 _ _ _ _ rfl

theorem e_main_c_28 (V : Valuation τ sig (Elt F)) :
    after ops V (Proc.devRef .tc main_c_28) = (constantI S_ 32 50000#32) :=
  ssa_nullary ops W ops_writes V 214 main_c_28 _ _ rfl

theorem e_main_v138 (V : Valuation τ sig (Elt F)) :
    after ops V (Proc.devRef .tc main_v138) = (broadcastInDim S800000 ![] bcast_S_S800000 : (⟨S_, .i32⟩ : BufTy).Contents (Elt F) → (⟨S800000, .i32⟩ : BufTy).Contents (Elt F)) (after ops V (Proc.devRef .tc main_c_28)) :=
  ssa_unary ops W ops_writes V 215 main_c_28 main_v138 _ _ _ rfl

theorem e_main_v139 (V : Valuation τ sig (Elt F)) :
    after ops V (Proc.devRef .tc main_v139) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v138)) :=
  ssa_binary ops W ops_writes V 216 main_v1 main_v138 main_v139 _ _ _ _ rfl

theorem e_main_v140 (V : Valuation τ sig (Elt F)) :
    after ops V (Proc.devRef .tc main_v140) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v137)) (after ops V (Proc.devRef .tc main_v139)) (after ops V (Proc.devRef .tc main_v1)) :=
  ssa_ternary ops W ops_writes V 217 main_v137 main_v139 main_v1 main_v140 _ _ _ _ _ rfl

theorem e_main_v141 (V : Valuation τ sig (Elt F)) :
    after ops V (Proc.devRef .tc main_v141) = (broadcastInDim S800000x1 ![0] bcast_S800000_S800000x1_0 : (⟨S800000, .i32⟩ : BufTy).Contents (Elt F) → (⟨S800000x1, .i32⟩ : BufTy).Contents (Elt F)) (after ops V (Proc.devRef .tc main_v140)) :=
  ssa_unary ops W ops_writes V 218 main_v140 main_v141 _ _ _ rfl

theorem e_main_v142 (V : Valuation τ sig (Elt F)) :
    after ops V (Proc.devRef .tc main_v142) = (Host.gather gather_S50000x64_S800000x1_S800000x64_1_0_n_n_0_1_164 (after ops V (Proc.devRef .tc main_v119)) (after ops V (Proc.devRef .tc main_v141)) : (⟨S800000x64, .f32⟩ : BufTy).Contents (Elt F)) :=
  ssa_binary ops W ops_writes V 219 main_v119 main_v141 main_v142 _ _ _ _ rfl

theorem e_main_v143 (V : Valuation τ sig (Elt F)) :
    after ops V (Proc.devRef .tc main_v143) = (broadcastInDim S800000x64 ![0, 1] bcast_S800000x1_S800000x64_0_1 : (⟨S800000x1, .f32⟩ : BufTy).Contents (Elt F) → (⟨S800000x64, .f32⟩ : BufTy).Contents (Elt F)) (after ops V (Proc.devRef .tc main_v135)) :=
  ssa_unary ops W ops_writes V 220 main_v135 main_v143 _ _ _ rfl

theorem e_main_v144 (V : Valuation τ sig (Elt F)) :
    after ops V (Proc.devRef .tc main_v144) = (mulf : (⟨S800000x64, .f32⟩ : BufTy).Contents (Elt F) → (⟨S800000x64, .f32⟩ : BufTy).Contents (Elt F) → (⟨S800000x64, .f32⟩ : BufTy).Contents (Elt F)) (after ops V (Proc.devRef .tc main_v142)) (after ops V (Proc.devRef .tc main_v143)) :=
  ssa_binary ops W ops_writes V 221 main_v142 main_v143 main_v144 _ _ _ _ rfl

theorem e_main_cst_29 (V : Valuation τ sig (Elt F)) :
    after ops V (Proc.devRef .tc main_cst_29) = (constant S_ .f32 0x00000000#32) :=
  ssa_nullary ops W ops_writes V 222 main_cst_29 _ _ rfl

theorem e_main_v145 (V : Valuation τ sig (Elt F)) :
    after ops V (Proc.devRef .tc main_v145) = (broadcastInDim S50000x64 ![] bcast_S_S50000x64 : (⟨S_, .f32⟩ : BufTy).Contents (Elt F) → (⟨S50000x64, .f32⟩ : BufTy).Contents (Elt F)) (after ops V (Proc.devRef .tc main_cst_29)) :=
  ssa_unary ops W ops_writes V 223 main_cst_29 main_v145 _ _ _ rfl

theorem e_main_v146 (V : Valuation τ sig (Elt F)) :
    after ops V (Proc.devRef .tc main_v146) = (broadcastInDim S800000x1 ![0] bcast_S800000_S800000x1_0 : (⟨S800000, .i32⟩ : BufTy).Contents (Elt F) → (⟨S800000x1, .i32⟩ : BufTy).Contents (Elt F)) (after ops V (Proc.devRef .tc main_v3)) :=
  ssa_unary ops W ops_writes V 224 main_v3 main_v146 _ _ _ rfl

theorem e_main_v147 (V : Valuation τ sig (Elt F)) :
    after ops V (Proc.devRef .tc main_v147) = (Host.scatterAdd scatter_S50000x64_S800000x1_S800000x64_1_0_0_1 (after ops V (Proc.devRef .tc main_v145)) (after ops V (Proc.devRef .tc main_v146)) (after ops V (Proc.devRef .tc main_v144)) : (⟨S50000x64, .f32⟩ : BufTy).Contents (Elt F)) :=
  ssa_ternary ops W ops_writes V 225 main_v145 main_v146 main_v144 main_v147 _ _ _ _ _ rfl

theorem e_main_v148 (V : Valuation τ sig (Elt F)) :
    after ops V (Proc.devRef .tc main_v148) = (mulf : (⟨S50000, .f32⟩ : BufTy).Contents (Elt F) → (⟨S50000, .f32⟩ : BufTy).Contents (Elt F) → (⟨S50000, .f32⟩ : BufTy).Contents (Elt F)) (after ops V (Proc.devRef .tc main_v10)) (after ops V (Proc.devRef .tc main_v10)) :=
  ssa_binary ops W ops_writes V 226 main_v10 main_v10 main_v148 _ _ _ _ rfl

theorem e_main_v149 (V : Valuation τ sig (Elt F)) :
    after ops V (Proc.devRef .tc main_v149) = (broadcastInDim S50000x1 ![0] bcast_S50000_S50000x1_0 : (⟨S50000, .f32⟩ : BufTy).Contents (Elt F) → (⟨S50000x1, .f32⟩ : BufTy).Contents (Elt F)) (after ops V (Proc.devRef .tc main_v148)) :=
  ssa_unary ops W ops_writes V 227 main_v148 main_v149 _ _ _ rfl

theorem e_main_v150 (V : Valuation τ sig (Elt F)) :
    after ops V (Proc.devRef .tc main_v150) = (broadcastInDim S50000x64 ![0, 1] bcast_S50000x1_S50000x64_0_1 : (⟨S50000x1, .f32⟩ : BufTy).Contents (Elt F) → (⟨S50000x64, .f32⟩ : BufTy).Contents (Elt F)) (after ops V (Proc.devRef .tc main_v149)) :=
  ssa_unary ops W ops_writes V 228 main_v149 main_v150 _ _ _ rfl

theorem e_main_v151 (V : Valuation τ sig (Elt F)) :
    after ops V (Proc.devRef .tc main_v151) = (mulf : (⟨S50000x64, .f32⟩ : BufTy).Contents (Elt F) → (⟨S50000x64, .f32⟩ : BufTy).Contents (Elt F) → (⟨S50000x64, .f32⟩ : BufTy).Contents (Elt F)) (after ops V (Proc.devRef .tc main_v119)) (after ops V (Proc.devRef .tc main_v150)) :=
  ssa_binary ops W ops_writes V 229 main_v119 main_v150 main_v151 _ _ _ _ rfl

theorem e_main_v152 (V : Valuation τ sig (Elt F)) :
    after ops V (Proc.devRef .tc main_v152) = (addf : (⟨S50000x64, .f32⟩ : BufTy).Contents (Elt F) → (⟨S50000x64, .f32⟩ : BufTy).Contents (Elt F) → (⟨S50000x64, .f32⟩ : BufTy).Contents (Elt F)) (after ops V (Proc.devRef .tc main_v147)) (after ops V (Proc.devRef .tc main_v151)) :=
  ssa_binary ops W ops_writes V 230 main_v147 main_v151 main_v152 _ _ _ _ rfl

theorem e_main_v153 (V : Valuation τ sig (Elt F)) :
    after ops V (Proc.devRef .tc main_v153) = (Host.dotGeneral dot_S50000x128_S128x64_S50000x64_1_0_0_1_n_n none (after ops V (Proc.devRef .tc main_v118)) (after ops V (Proc.devRef .tc main_arg5)) : (⟨S50000x64, .f32⟩ : BufTy).Contents (Elt F)) :=
  ssa_binary ops W ops_writes V 231 main_v118 main_arg5 main_v153 _ _ _ _ rfl

theorem e_main_c_30 (V : Valuation τ sig (Elt F)) :
    after ops V (Proc.devRef .tc main_c_30) = (constantI S_ 32 0#32) :=
  ssa_nullary ops W ops_writes V 232 main_c_30 _ _ rfl

theorem e_main_v154 (V : Valuation τ sig (Elt F)) :
    after ops V (Proc.devRef .tc main_v154) = (broadcastInDim S800000 ![] bcast_S_S800000 : (⟨S_, .i32⟩ : BufTy).Contents (Elt F) → (⟨S800000, .i32⟩ : BufTy).Contents (Elt F)) (after ops V (Proc.devRef .tc main_c_30)) :=
  ssa_unary ops W ops_writes V 233 main_c_30 main_v154 _ _ _ rfl

theorem e_main_v155 (V : Valuation τ sig (Elt F)) :
    after ops V (Proc.devRef .tc main_v155) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v154)) :=
  ssa_binary ops W ops_writes V 234 main_v1 main_v154 main_v155 _ _ _ _ rfl

theorem e_main_c_31 (V : Valuation τ sig (Elt F)) :
    after ops V (Proc.devRef .tc main_c_31) = (constantI S_ 32 50000#32) :=
  ssa_nullary ops W ops_writes V 235 main_c_31 _ _ rfl

theorem e_main_v156 (V : Valuation τ sig (Elt F)) :
    after ops V (Proc.devRef .tc main_v156) = (broadcastInDim S800000 ![] bcast_S_S800000 : (⟨S_, .i32⟩ : BufTy).Contents (Elt F) → (⟨S800000, .i32⟩ : BufTy).Contents (Elt F)) (after ops V (Proc.devRef .tc main_c_31)) :=
  ssa_unary ops W ops_writes V 236 main_c_31 main_v156 _ _ _ rfl

theorem e_main_v157 (V : Valuation τ sig (Elt F)) :
    after ops V (Proc.devRef .tc main_v157) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v156)) :=
  ssa_binary ops W ops_writes V 237 main_v1 main_v156 main_v157 _ _ _ _ rfl

theorem e_main_v158 (V : Valuation τ sig (Elt F)) :
    after ops V (Proc.devRef .tc main_v158) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v155)) (after ops V (Proc.devRef .tc main_v157)) (after ops V (Proc.devRef .tc main_v1)) :=
  ssa_ternary ops W ops_writes V 238 main_v155 main_v157 main_v1 main_v158 _ _ _ _ _ rfl

theorem e_main_v159 (V : Valuation τ sig (Elt F)) :
    after ops V (Proc.devRef .tc main_v159) = (broadcastInDim S800000x1 ![0] bcast_S800000_S800000x1_0 : (⟨S800000, .i32⟩ : BufTy).Contents (Elt F) → (⟨S800000x1, .i32⟩ : BufTy).Contents (Elt F)) (after ops V (Proc.devRef .tc main_v158)) :=
  ssa_unary ops W ops_writes V 239 main_v158 main_v159 _ _ _ rfl

theorem e_main_v160 (V : Valuation τ sig (Elt F)) :
    after ops V (Proc.devRef .tc main_v160) = (Host.gather gather_S50000_S800000x1_S800000_n_0_n_n_0_1_1 (after ops V (Proc.devRef .tc main_v10)) (after ops V (Proc.devRef .tc main_v159)) : (⟨S800000, .f32⟩ : BufTy).Contents (Elt F)) :=
  ssa_binary ops W ops_writes V 240 main_v10 main_v159 main_v160 _ _ _ _ rfl

theorem e_main_c_32 (V : Valuation τ sig (Elt F)) :
    after ops V (Proc.devRef .tc main_c_32) = (constantI S_ 32 0#32) :=
  ssa_nullary ops W ops_writes V 241 main_c_32 _ _ rfl

theorem e_main_v161 (V : Valuation τ sig (Elt F)) :
    after ops V (Proc.devRef .tc main_v161) = (broadcastInDim S800000 ![] bcast_S_S800000 : (⟨S_, .i32⟩ : BufTy).Contents (Elt F) → (⟨S800000, .i32⟩ : BufTy).Contents (Elt F)) (after ops V (Proc.devRef .tc main_c_32)) :=
  ssa_unary ops W ops_writes V 242 main_c_32 main_v161 _ _ _ rfl

theorem e_main_v162 (V : Valuation τ sig (Elt F)) :
    after ops V (Proc.devRef .tc main_v162) = (cmpi .slt : (⟨S800000, .i32⟩ : BufTy).Contents (Elt F) → (⟨S800000, .i32⟩ : BufTy).Contents (Elt F) → (⟨S800000, .i1⟩ : BufTy).Contents (Elt F)) (after ops V (Proc.devRef .tc main_v3)) (after ops V (Proc.devRef .tc main_v161)) :=
  ssa_binary ops W ops_writes V 243 main_v3 main_v161 main_v162 _ _ _ _ rfl

theorem e_main_c_33 (V : Valuation τ sig (Elt F)) :
    after ops V (Proc.devRef .tc main_c_33) = (constantI S_ 32 50000#32) :=
  ssa_nullary ops W ops_writes V 244 main_c_33 _ _ rfl

theorem e_main_v163 (V : Valuation τ sig (Elt F)) :
    after ops V (Proc.devRef .tc main_v163) = (broadcastInDim S800000 ![] bcast_S_S800000 : (⟨S_, .i32⟩ : BufTy).Contents (Elt F) → (⟨S800000, .i32⟩ : BufTy).Contents (Elt F)) (after ops V (Proc.devRef .tc main_c_33)) :=
  ssa_unary ops W ops_writes V 245 main_c_33 main_v163 _ _ _ rfl

theorem e_main_v164 (V : Valuation τ sig (Elt F)) :
    after ops V (Proc.devRef .tc main_v164) = (addi : (⟨S800000, .i32⟩ : BufTy).Contents (Elt F) → (⟨S800000, .i32⟩ : BufTy).Contents (Elt F) → (⟨S800000, .i32⟩ : BufTy).Contents (Elt F)) (after ops V (Proc.devRef .tc main_v3)) (after ops V (Proc.devRef .tc main_v163)) :=
  ssa_binary ops W ops_writes V 246 main_v3 main_v163 main_v164 _ _ _ _ rfl

theorem e_main_v165 (V : Valuation τ sig (Elt F)) :
    after ops V (Proc.devRef .tc main_v165) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v162)) (after ops V (Proc.devRef .tc main_v164)) (after ops V (Proc.devRef .tc main_v3)) :=
  ssa_ternary ops W ops_writes V 247 main_v162 main_v164 main_v3 main_v165 _ _ _ _ _ rfl

theorem e_main_v166 (V : Valuation τ sig (Elt F)) :
    after ops V (Proc.devRef .tc main_v166) = (broadcastInDim S800000x1 ![0] bcast_S800000_S800000x1_0 : (⟨S800000, .i32⟩ : BufTy).Contents (Elt F) → (⟨S800000x1, .i32⟩ : BufTy).Contents (Elt F)) (after ops V (Proc.devRef .tc main_v165)) :=
  ssa_unary ops W ops_writes V 248 main_v165 main_v166 _ _ _ rfl

theorem e_main_v167 (V : Valuation τ sig (Elt F)) :
    after ops V (Proc.devRef .tc main_v167) = (Host.gather gather_S50000_S800000x1_S800000_n_0_n_n_0_1_1 (after ops V (Proc.devRef .tc main_v10)) (after ops V (Proc.devRef .tc main_v166)) : (⟨S800000, .f32⟩ : BufTy).Contents (Elt F)) :=
  ssa_binary ops W ops_writes V 249 main_v10 main_v166 main_v167 _ _ _ _ rfl

theorem e_main_v168 (V : Valuation τ sig (Elt F)) :
    after ops V (Proc.devRef .tc main_v168) = (mulf : (⟨S800000, .f32⟩ : BufTy).Contents (Elt F) → (⟨S800000, .f32⟩ : BufTy).Contents (Elt F) → (⟨S800000, .f32⟩ : BufTy).Contents (Elt F)) (after ops V (Proc.devRef .tc main_v160)) (after ops V (Proc.devRef .tc main_v167)) :=
  ssa_binary ops W ops_writes V 250 main_v160 main_v167 main_v168 _ _ _ _ rfl

theorem e_main_v169 (V : Valuation τ sig (Elt F)) :
    after ops V (Proc.devRef .tc main_v169) = (broadcastInDim S800000x1 ![0] bcast_S800000_S800000x1_0 : (⟨S800000, .f32⟩ : BufTy).Contents (Elt F) → (⟨S800000x1, .f32⟩ : BufTy).Contents (Elt F)) (after ops V (Proc.devRef .tc main_v168)) :=
  ssa_unary ops W ops_writes V 251 main_v168 main_v169 _ _ _ rfl

theorem e_main_c_34 (V : Valuation τ sig (Elt F)) :
    after ops V (Proc.devRef .tc main_c_34) = (constantI S_ 32 0#32) :=
  ssa_nullary ops W ops_writes V 252 main_c_34 _ _ rfl

theorem e_main_v170 (V : Valuation τ sig (Elt F)) :
    after ops V (Proc.devRef .tc main_v170) = (broadcastInDim S800000 ![] bcast_S_S800000 : (⟨S_, .i32⟩ : BufTy).Contents (Elt F) → (⟨S800000, .i32⟩ : BufTy).Contents (Elt F)) (after ops V (Proc.devRef .tc main_c_34)) :=
  ssa_unary ops W ops_writes V 253 main_c_34 main_v170 _ _ _ rfl

theorem e_main_v171 (V : Valuation τ sig (Elt F)) :
    after ops V (Proc.devRef .tc main_v171) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v170)) :=
  ssa_binary ops W ops_writes V 254 main_v1 main_v170 main_v171 _ _ _ _ rfl

theorem e_main_c_35 (V : Valuation τ sig (Elt F)) :
    after ops V (Proc.devRef .tc main_c_35) = (constantI S_ 32 50000#32) :=
  ssa_nullary ops W ops_writes V 255 main_c_35 _ _ rfl

theorem e_main_v172 (V : Valuation τ sig (Elt F)) :
    after ops V (Proc.devRef .tc main_v172) = (broadcastInDim S800000 ![] bcast_S_S800000 : (⟨S_, .i32⟩ : BufTy).Contents (Elt F) → (⟨S800000, .i32⟩ : BufTy).Contents (Elt F)) (after ops V (Proc.devRef .tc main_c_35)) :=
  ssa_unary ops W ops_writes V 256 main_c_35 main_v172 _ _ _ rfl

theorem e_main_v173 (V : Valuation τ sig (Elt F)) :
    after ops V (Proc.devRef .tc main_v173) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v172)) :=
  ssa_binary ops W ops_writes V 257 main_v1 main_v172 main_v173 _ _ _ _ rfl

theorem e_main_v174 (V : Valuation τ sig (Elt F)) :
    after ops V (Proc.devRef .tc main_v174) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v171)) (after ops V (Proc.devRef .tc main_v173)) (after ops V (Proc.devRef .tc main_v1)) :=
  ssa_ternary ops W ops_writes V 258 main_v171 main_v173 main_v1 main_v174 _ _ _ _ _ rfl

theorem e_main_v175 (V : Valuation τ sig (Elt F)) :
    after ops V (Proc.devRef .tc main_v175) = (broadcastInDim S800000x1 ![0] bcast_S800000_S800000x1_0 : (⟨S800000, .i32⟩ : BufTy).Contents (Elt F) → (⟨S800000x1, .i32⟩ : BufTy).Contents (Elt F)) (after ops V (Proc.devRef .tc main_v174)) :=
  ssa_unary ops W ops_writes V 259 main_v174 main_v175 _ _ _ rfl

theorem e_main_v176 (V : Valuation τ sig (Elt F)) :
    after ops V (Proc.devRef .tc main_v176) = (Host.gather gather_S50000x64_S800000x1_S800000x64_1_0_n_n_0_1_164 (after ops V (Proc.devRef .tc main_v153)) (after ops V (Proc.devRef .tc main_v175)) : (⟨S800000x64, .f32⟩ : BufTy).Contents (Elt F)) :=
  ssa_binary ops W ops_writes V 260 main_v153 main_v175 main_v176 _ _ _ _ rfl

theorem e_main_v177 (V : Valuation τ sig (Elt F)) :
    after ops V (Proc.devRef .tc main_v177) = (broadcastInDim S800000x64 ![0, 1] bcast_S800000x1_S800000x64_0_1 : (⟨S800000x1, .f32⟩ : BufTy).Contents (Elt F) → (⟨S800000x64, .f32⟩ : BufTy).Contents (Elt F)) (after ops V (Proc.devRef .tc main_v169)) :=
  ssa_unary ops W ops_writes V 261 main_v169 main_v177 _ _ _ rfl

theorem e_main_v178 (V : Valuation τ sig (Elt F)) :
    after ops V (Proc.devRef .tc main_v178) = (mulf : (⟨S800000x64, .f32⟩ : BufTy).Contents (Elt F) → (⟨S800000x64, .f32⟩ : BufTy).Contents (Elt F) → (⟨S800000x64, .f32⟩ : BufTy).Contents (Elt F)) (after ops V (Proc.devRef .tc main_v176)) (after ops V (Proc.devRef .tc main_v177)) :=
  ssa_binary ops W ops_writes V 262 main_v176 main_v177 main_v178 _ _ _ _ rfl

theorem e_main_cst_36 (V : Valuation τ sig (Elt F)) :
    after ops V (Proc.devRef .tc main_cst_36) = (constant S_ .f32 0x00000000#32) :=
  ssa_nullary ops W ops_writes V 263 main_cst_36 _ _ rfl

theorem e_main_v179 (V : Valuation τ sig (Elt F)) :
    after ops V (Proc.devRef .tc main_v179) = (broadcastInDim S50000x64 ![] bcast_S_S50000x64 : (⟨S_, .f32⟩ : BufTy).Contents (Elt F) → (⟨S50000x64, .f32⟩ : BufTy).Contents (Elt F)) (after ops V (Proc.devRef .tc main_cst_36)) :=
  ssa_unary ops W ops_writes V 264 main_cst_36 main_v179 _ _ _ rfl

theorem e_main_v180 (V : Valuation τ sig (Elt F)) :
    after ops V (Proc.devRef .tc main_v180) = (broadcastInDim S800000x1 ![0] bcast_S800000_S800000x1_0 : (⟨S800000, .i32⟩ : BufTy).Contents (Elt F) → (⟨S800000x1, .i32⟩ : BufTy).Contents (Elt F)) (after ops V (Proc.devRef .tc main_v3)) :=
  ssa_unary ops W ops_writes V 265 main_v3 main_v180 _ _ _ rfl

theorem e_main_v181 (V : Valuation τ sig (Elt F)) :
    after ops V (Proc.devRef .tc main_v181) = (Host.scatterAdd scatter_S50000x64_S800000x1_S800000x64_1_0_0_1 (after ops V (Proc.devRef .tc main_v179)) (after ops V (Proc.devRef .tc main_v180)) (after ops V (Proc.devRef .tc main_v178)) : (⟨S50000x64, .f32⟩ : BufTy).Contents (Elt F)) :=
  ssa_ternary ops W ops_writes V 266 main_v179 main_v180 main_v178 main_v181 _ _ _ _ _ rfl

theorem e_main_v182 (V : Valuation τ sig (Elt F)) :
    after ops V (Proc.devRef .tc main_v182) = (mulf : (⟨S50000, .f32⟩ : BufTy).Contents (Elt F) → (⟨S50000, .f32⟩ : BufTy).Contents (Elt F) → (⟨S50000, .f32⟩ : BufTy).Contents (Elt F)) (after ops V (Proc.devRef .tc main_v10)) (after ops V (Proc.devRef .tc main_v10)) :=
  ssa_binary ops W ops_writes V 267 main_v10 main_v10 main_v182 _ _ _ _ rfl

theorem e_main_v183 (V : Valuation τ sig (Elt F)) :
    after ops V (Proc.devRef .tc main_v183) = (broadcastInDim S50000x1 ![0] bcast_S50000_S50000x1_0 : (⟨S50000, .f32⟩ : BufTy).Contents (Elt F) → (⟨S50000x1, .f32⟩ : BufTy).Contents (Elt F)) (after ops V (Proc.devRef .tc main_v182)) :=
  ssa_unary ops W ops_writes V 268 main_v182 main_v183 _ _ _ rfl

theorem e_main_v184 (V : Valuation τ sig (Elt F)) :
    after ops V (Proc.devRef .tc main_v184) = (broadcastInDim S50000x64 ![0, 1] bcast_S50000x1_S50000x64_0_1 : (⟨S50000x1, .f32⟩ : BufTy).Contents (Elt F) → (⟨S50000x64, .f32⟩ : BufTy).Contents (Elt F)) (after ops V (Proc.devRef .tc main_v183)) :=
  ssa_unary ops W ops_writes V 269 main_v183 main_v184 _ _ _ rfl

theorem e_main_v185 (V : Valuation τ sig (Elt F)) :
    after ops V (Proc.devRef .tc main_v185) = (mulf : (⟨S50000x64, .f32⟩ : BufTy).Contents (Elt F) → (⟨S50000x64, .f32⟩ : BufTy).Contents (Elt F) → (⟨S50000x64, .f32⟩ : BufTy).Contents (Elt F)) (after ops V (Proc.devRef .tc main_v153)) (after ops V (Proc.devRef .tc main_v184)) :=
  ssa_binary ops W ops_writes V 270 main_v153 main_v184 main_v185 _ _ _ _ rfl

theorem e_main_v186 (V : Valuation τ sig (Elt F)) :
    after ops V (Proc.devRef .tc main_v186) = (addf : (⟨S50000x64, .f32⟩ : BufTy).Contents (Elt F) → (⟨S50000x64, .f32⟩ : BufTy).Contents (Elt F) → (⟨S50000x64, .f32⟩ : BufTy).Contents (Elt F)) (after ops V (Proc.devRef .tc main_v181)) (after ops V (Proc.devRef .tc main_v185)) :=
  ssa_binary ops W ops_writes V 271 main_v181 main_v185 main_v186 _ _ _ _ rfl

end Cert.ReferenceIdeal.Hand

end
-- ==== Proof.Br1.lean ====
import proofs.«126291_j72541997629772_2_alg».proof.Proof.BrDefs
import proofs.«126291_j72541997629772_2_alg».proof.Proof.KiFinal
import proofs.«126291_j72541997629772_2_alg».proof.Proof.RefSsa
import Idealize.ShloMosaic.Lib.Pipeline.Value
import Idealize.ShloMosaic.Lib.ValueIdx
import Idealize.ShloMosaic.Lib.ValueLayout

noncomputable section

namespace Cert.Bridge

open Idealize.ShloMosaic Idealize.ShloMosaic.TcCoe Idealize.ShloMosaic.ValueIdx Idealize.SL.Sem

theorem shapeCast_a_a1_apply {α : Type} {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_one, Shape.rowMajor_val_two]
    show r.val = r.val * 1 + u.val
    omega)

theorem broadcastInDim_a_a1_apply {α : Type} {n : ℕ} (x : (⟨1, ![n]⟩ : Shape).Idx → α)
    (h : (⟨1, ![n]⟩ : Shape).BroadcastsInDim ⟨2, ![n, 1]⟩ ![0]) (r : Fin n) (u : Fin 1) :
    broadcastInDim ⟨2, ![n, 1]⟩ ![0] h x (ix2 r u) = x (ix1 r) := by
  refine broadcastInDim_apply ![0] h x (ix2 r u) (ix1 r) fun a => ?_
  match a with
  | ⟨0, _⟩ =>
    show r.val = if n = 1 then 0 else r.val
    split
    · have := r.isLt; omega
    · rfl

def asColumn {α : Type} {n : ℕ} (x : (⟨1, ![n]⟩ : Shape).Idx → α) : (⟨2, ![n, 1]⟩ : Shape).Idx → α := fun j => x (ix1 (j 0))

theorem shapeCast_eq_asColumn {α : Type} {n : ℕ} (x : (⟨1, ![n]⟩ : Shape).Idx → α) (h : (⟨1, ![n]⟩ : Shape).ShapeCasts ⟨2, ![n, 1]⟩) :
    shapeCast ⟨2, ![n, 1]⟩ x h = asColumn x := by
  funext j
  obtain ⟨r, u, rfl⟩ : ∃ (r : Fin n) (u : Fin 1), j = ix2 r u := ⟨j 0, j 1, eq_ix2 j⟩
  exact shapeCast_a_a1_apply x h r u

theorem broadcastInDim_eq_asColumn {α : Type} {n : ℕ} (x : (⟨1, ![n]⟩ : Shape).Idx → α)
    (h : (⟨1, ![n]⟩ : Shape).BroadcastsInDim ⟨2, ![n, 1]⟩ ![0]) :
    broadcastInDim ⟨2, ![n, 1]⟩ ![0] h x = asColumn x := by
  funext j
  obtain ⟨r, u, rfl⟩ : ∃ (r : Fin n) (u : Fin 1), j = ix2 r u := ⟨j 0, j 1, eq_ix2 j⟩
  exact broadcastInDim_a_a1_apply x h r u

abbrev EdgeIx : Type := (⟨1, ![800000]⟩ : Shape).Idx → BitVec 32
abbrev EdgeIxCol : Type := (⟨2, ![800000, 1]⟩ : Shape).Idx → BitVec 32
abbrev NodeVec : Type := (⟨1, ![50000]⟩ : Shape).Idx → EReal
def ixColumn (x : EdgeIx) : EdgeIxCol :=
  broadcastInDim Cert.KernelIdeal.S800000x1 ![0] Cert.KernelIdeal.Gen.bcast_S800000_S800000x1_0 x

def wrapIx (x : EdgeIx) : EdgeIxCol :=
  ixColumn (select (cmpi .slt x (broadcastInDim Cert.KernelIdeal.S800000 ![] Cert.KernelIdeal.Gen.bcast_S_S800000 (constantI Cert.KernelIdeal.S_ 32 0#32)))
    (addi x (broadcastInDim Cert.KernelIdeal.S800000 ![] Cert.KernelIdeal.Gen.bcast_S_S800000 (constantI Cert.KernelIdeal.S_ 32 50000#32))) x)

def invRootDeg (dst : EdgeIx) : NodeVec :=
  Host.rsqrt (F := Ideal) (φ := .f32) (addf (F := Ideal) (φ := .f32)
    (Host.scatterAdd (F := Ideal) (φ := .f32) Cert.KernelIdeal.scatter_S50000_S800000x1_S800000_n_0_0_1
      (broadcastInDim Cert.KernelIdeal.S50000 ![] Cert.KernelIdeal.Gen.bcast_S_S50000 (constant (F := Ideal) Cert.KernelIdeal.S_ .f32 0x00000000#32))
      (ixColumn dst)
      (broadcastInDim Cert.KernelIdeal.S800000 ![] Cert.KernelIdeal.Gen.bcast_S_S800000 (constant (F := Ideal) Cert.KernelIdeal.S_ .f32 0x3F800000#32)))
    (broadcastInDim Cert.KernelIdeal.S50000 ![] Cert.KernelIdeal.Gen.bcast_S_S50000 (constant (F := Ideal) Cert.KernelIdeal.S_ .f32 0x3F800000#32)))

def sqColumn (d : NodeVec) : (⟨2, ![50000, 1]⟩ : Shape).Idx → EReal := asColumn (mulf (F := Ideal) (φ := .f32) d d)

def edgeCoef (d : NodeVec) (src dst : EdgeIx) : (⟨2, ![800000, 1]⟩ : Shape).Idx → EReal :=
  asColumn (mulf (F := Ideal) (φ := .f32)
    (Host.gather Cert.KernelIdeal.gather_S50000_S800000x1_S800000_n_0_n_n_0_1_1 d (wrapIx src))
    (Host.gather Cert.KernelIdeal.gather_S50000_S800000x1_S800000_n_0_n_n_0_1_1 d (wrapIx dst)))

variable (m : KMem) (m' : RMem) (c : Dev Cert.KernelIdeal.nD)

theorem K_ixColumn_v41 : K m c Cert.KernelIdeal.main_v41 = ixColumn (K m c Cert.KernelIdeal.main_v3) := by
  simp only [K]
  rw [Cert.KernelIdeal.Hand.fin_main_v41 m c]
  rfl

theorem K_ixColumn_v65 : K m c Cert.KernelIdeal.main_v65 = ixColumn (K m c Cert.KernelIdeal.main_v3) := by
  simp only [K]
  rw [Cert.KernelIdeal.Hand.fin_main_v65 m c]
  rfl

theorem K_ixColumn_v90 : K m c Cert.KernelIdeal.main_v90 = ixColumn (K m c Cert.KernelIdeal.main_v3) := by
  simp only [K]
  rw [Cert.KernelIdeal.Hand.fin_main_v90 m c]
  rfl

theorem K_wrap_v18 : K m c Cert.KernelIdeal.main_v18 = wrapIx (K m c Cert.KernelIdeal.main_v1) := by
  simp only [K]
  rw [Cert.KernelIdeal.Hand.fin_main_v18 m c, Cert.KernelIdeal.Hand.fin_main_v17 m c, Cert.KernelIdeal.Hand.fin_main_v14 m c, Cert.KernelIdeal.Hand.fin_main_v16 m c, Cert.KernelIdeal.Hand.fin_main_v13 m c, Cert.KernelIdeal.Hand.fin_main_v15 m c, Cert.KernelIdeal.Hand.fin_main_c m c, Cert.KernelIdeal.Hand.fin_main_c_2 m c]
  rfl

theorem K_wrap_v25 : K m c Cert.KernelIdeal.main_v25 = wrapIx (K m c Cert.KernelIdeal.main_v3) := by
  simp only [K]
  rw [Cert.KernelIdeal.Hand.fin_main_v25 m c, Cert.KernelIdeal.Hand.fin_main_v24 m c, Cert.KernelIdeal.Hand.fin_main_v21 m c, Cert.KernelIdeal.Hand.fin_main_v23 m c, Cert.KernelIdeal.Hand.fin_main_v20 m c, Cert.KernelIdeal.Hand.fin_main_v22 m c, Cert.KernelIdeal.Hand.fin_main_c_3 m c, Cert.KernelIdeal.Hand.fin_main_c_4 m c]
  rfl

theorem K_wrap_v35 : K m c Cert.KernelIdeal.main_v35 = wrapIx (K m c Cert.KernelIdeal.main_v1) := by
  simp only [K]
  rw [Cert.KernelIdeal.Hand.fin_main_v35 m c, Cert.KernelIdeal.Hand.fin_main_v34 m c, Cert.KernelIdeal.Hand.fin_main_v31 m c, Cert.KernelIdeal.Hand.fin_main_v33 m c, Cert.KernelIdeal.Hand.fin_main_v30 m c, Cert.KernelIdeal.Hand.fin_main_v32 m c, Cert.KernelIdeal.Hand.fin_main_c_5 m c, Cert.KernelIdeal.Hand.fin_main_c_6 m c]
  rfl

theorem K_wrap_v59 : K m c Cert.KernelIdeal.main_v59 = wrapIx (K m c Cert.KernelIdeal.main_v1) := by
  simp only [K]
  rw [Cert.KernelIdeal.Hand.fin_main_v59 m c, Cert.KernelIdeal.Hand.fin_main_v58 m c, Cert.KernelIdeal.Hand.fin_main_v55 m c, Cert.KernelIdeal.Hand.fin_main_v57 m c, Cert.KernelIdeal.Hand.fin_main_v54 m c, Cert.KernelIdeal.Hand.fin_main_v56 m c, Cert.KernelIdeal.Hand.fin_main_c_10 m c, Cert.KernelIdeal.Hand.fin_main_c_11 m c]
  rfl

theorem K_wrap_v84 : K m c Cert.KernelIdeal.main_v84 = wrapIx (K m c Cert.KernelIdeal.main_v1) := by
  simp only [K]
  rw [Cert.KernelIdeal.Hand.fin_main_v84 m c, Cert.KernelIdeal.Hand.fin_main_v83 m c, Cert.KernelIdeal.Hand.fin_main_v80 m c, Cert.KernelIdeal.Hand.fin_main_v82 m c, Cert.KernelIdeal.Hand.fin_main_v79 m c, Cert.KernelIdeal.Hand.fin_main_v81 m c, Cert.KernelIdeal.Hand.fin_main_c_15 m c, Cert.KernelIdeal.Hand.fin_main_c_16 m c]
  rfl

theorem K_invRootDeg : K m c Cert.KernelIdeal.main_v10 = invRootDeg (K m c Cert.KernelIdeal.main_v3) := by
  simp only [K]
  rw [Cert.KernelIdeal.Hand.fin_main_v10 m c, Cert.KernelIdeal.Hand.fin_main_v9 m c, Cert.KernelIdeal.Hand.fin_main_v7 m c, Cert.KernelIdeal.Hand.fin_main_v8 m c, Cert.KernelIdeal.Hand.fin_main_v6 m c, Cert.KernelIdeal.Hand.fin_main_v5 m c, Cert.KernelIdeal.Hand.fin_main_v4 m c, Cert.KernelIdeal.Hand.fin_main_cst m c, Cert.KernelIdeal.Hand.fin_main_cst_0 m c, Cert.KernelIdeal.Hand.fin_main_cst_1 m c]
  rfl

theorem K_sqColumn : K m c Cert.KernelIdeal.main_v12 = sqColumn (K m c Cert.KernelIdeal.main_v10) := by
  simp only [K]
  rw [Cert.KernelIdeal.Hand.fin_main_v12 m c, Cert.KernelIdeal.Hand.fin_main_v11 m c]
  unfold sqColumn
  exact shapeCast_eq_asColumn _ _

theorem K_edgeCoef : K m c Cert.KernelIdeal.main_v28 = edgeCoef (K m c Cert.KernelIdeal.main_v10) (K m c Cert.KernelIdeal.main_v1) (K m c Cert.KernelIdeal.main_v3) := by
  have hs := K_wrap_v18 m c
  have hd := K_wrap_v25 m c
  simp only [K] at hs hd ⊢
  rw [Cert.KernelIdeal.Hand.fin_main_v28 m c, Cert.KernelIdeal.Hand.fin_main_v27 m c, Cert.KernelIdeal.Hand.fin_main_v19 m c, Cert.KernelIdeal.Hand.fin_main_v26 m c, hs, hd]
  unfold edgeCoef
  exact shapeCast_eq_asColumn _ _

theorem R_ixColumn_v38 : R m' c Cert.ReferenceIdeal.main_v38 = ixColumn (R m' c Cert.ReferenceIdeal.main_v3) := by
  simp only [R]
  rw [Cert.ReferenceIdeal.Hand.e_main_v38]
  rfl

theorem R_ixColumn_v92 : R m' c Cert.ReferenceIdeal.main_v92 = ixColumn (R m' c Cert.ReferenceIdeal.main_v3) := by
  simp only [R]
  rw [Cert.ReferenceIdeal.Hand.e_main_v92]
  rfl

theorem R_ixColumn_v146 : R m' c Cert.ReferenceIdeal.main_v146 = ixColumn (R m' c Cert.ReferenceIdeal.main_v3) := by
  simp only [R]
  rw [Cert.ReferenceIdeal.Hand.e_main_v146]
  rfl

theorem R_ixColumn_v180 : R m' c Cert.ReferenceIdeal.main_v180 = ixColumn (R m' c Cert.ReferenceIdeal.main_v3) := by
  simp only [R]
  rw [Cert.ReferenceIdeal.Hand.e_main_v180]
  rfl

theorem R_wrap_v17 : R m' c Cert.ReferenceIdeal.main_v17 = wrapIx (R m' c Cert.ReferenceIdeal.main_v1) := by
  simp only [R]
  rw [Cert.ReferenceIdeal.Hand.e_main_v17, Cert.ReferenceIdeal.Hand.e_main_v16, Cert.ReferenceIdeal.Hand.e_main_v13, Cert.ReferenceIdeal.Hand.e_main_v15, Cert.ReferenceIdeal.Hand.e_main_v12, Cert.ReferenceIdeal.Hand.e_main_v14, Cert.ReferenceIdeal.Hand.e_main_c, Cert.ReferenceIdeal.Hand.e_main_c_2]
  rfl

theorem R_wrap_v24 : R m' c Cert.ReferenceIdeal.main_v24 = wrapIx (R m' c Cert.ReferenceIdeal.main_v3) := by
  simp only [R]
  rw [Cert.ReferenceIdeal.Hand.e_main_v24, Cert.ReferenceIdeal.Hand.e_main_v23, Cert.ReferenceIdeal.Hand.e_main_v20, Cert.ReferenceIdeal.Hand.e_main_v22, Cert.ReferenceIdeal.Hand.e_main_v19, Cert.ReferenceIdeal.Hand.e_main_v21, Cert.ReferenceIdeal.Hand.e_main_c_3, Cert.ReferenceIdeal.Hand.e_main_c_4]
  rfl

theorem R_wrap_v33 : R m' c Cert.ReferenceIdeal.main_v33 = wrapIx (R m' c Cert.ReferenceIdeal.main_v1) := by
  simp only [R]
  rw [Cert.ReferenceIdeal.Hand.e_main_v33, Cert.ReferenceIdeal.Hand.e_main_v32, Cert.ReferenceIdeal.Hand.e_main_v29, Cert.ReferenceIdeal.Hand.e_main_v31, Cert.ReferenceIdeal.Hand.e_main_v28, Cert.ReferenceIdeal.Hand.e_main_v30, Cert.ReferenceIdeal.Hand.e_main_c_5, Cert.ReferenceIdeal.Hand.e_main_c_6]
  rfl

theorem R_wrap_v71 : R m' c Cert.ReferenceIdeal.main_v71 = wrapIx (R m' c Cert.ReferenceIdeal.main_v1) := by
  simp only [R]
  rw [Cert.ReferenceIdeal.Hand.e_main_v71, Cert.ReferenceIdeal.Hand.e_main_v70, Cert.ReferenceIdeal.Hand.e_main_v67, Cert.ReferenceIdeal.Hand.e_main_v69, Cert.ReferenceIdeal.Hand.e_main_v66, Cert.ReferenceIdeal.Hand.e_main_v68, Cert.ReferenceIdeal.Hand.e_main_c_12, Cert.ReferenceIdeal.Hand.e_main_c_13]
  rfl

theorem R_wrap_v78 : R m' c Cert.ReferenceIdeal.main_v78 = wrapIx (R m' c Cert.ReferenceIdeal.main_v3) := by
  simp only [R]
  rw [Cert.ReferenceIdeal.Hand.e_main_v78, Cert.ReferenceIdeal.Hand.e_main_v77, Cert.ReferenceIdeal.Hand.e_main_v74, Cert.ReferenceIdeal.Hand.e_main_v76, Cert.ReferenceIdeal.Hand.e_main_v73, Cert.ReferenceIdeal.Hand.e_main_v75, Cert.ReferenceIdeal.Hand.e_main_c_14, Cert.ReferenceIdeal.Hand.e_main_c_15]
  rfl

theorem R_wrap_v87 : R m' c Cert.ReferenceIdeal.main_v87 = wrapIx (R m' c Cert.ReferenceIdeal.main_v1) := by
  simp only [R]
  rw [Cert.ReferenceIdeal.Hand.e_main_v87, Cert.ReferenceIdeal.Hand.e_main_v86, Cert.ReferenceIdeal.Hand.e_main_v83, Cert.ReferenceIdeal.Hand.e_main_v85, Cert.ReferenceIdeal.Hand.e_main_v82, Cert.ReferenceIdeal.Hand.e_main_v84, Cert.ReferenceIdeal.Hand.e_main_c_16, Cert.ReferenceIdeal.Hand.e_main_c_17]
  rfl

theorem R_wrap_v125 : R m' c Cert.ReferenceIdeal.main_v125 = wrapIx (R m' c Cert.ReferenceIdeal.main_v1) := by
  simp only [R]
  rw [Cert.ReferenceIdeal.Hand.e_main_v125, Cert.ReferenceIdeal.Hand.e_main_v124, Cert.ReferenceIdeal.Hand.e_main_v121, Cert.ReferenceIdeal.Hand.e_main_v123, Cert.ReferenceIdeal.Hand.e_main_v120, Cert.ReferenceIdeal.Hand.e_main_v122, Cert.ReferenceIdeal.Hand.e_main_c_23, Cert.ReferenceIdeal.Hand.e_main_c_24]
  rfl

theorem R_wrap_v132 : R m' c Cert.ReferenceIdeal.main_v132 = wrapIx (R m' c Cert.ReferenceIdeal.main_v3) := by
  simp only [R]
  rw [Cert.ReferenceIdeal.Hand.e_main_v132, Cert.ReferenceIdeal.Hand.e_main_v131, Cert.ReferenceIdeal.Hand.e_main_v128, Cert.ReferenceIdeal.Hand.e_main_v130, Cert.ReferenceIdeal.Hand.e_main_v127, Cert.ReferenceIdeal.Hand.e_main_v129, Cert.ReferenceIdeal.Hand.e_main_c_25, Cert.ReferenceIdeal.Hand.e_main_c_26]
  rfl

theorem R_wrap_v141 : R m' c Cert.ReferenceIdeal.main_v141 = wrapIx (R m' c Cert.ReferenceIdeal.main_v1) := by
  simp only [R]
  rw [Cert.ReferenceIdeal.Hand.e_main_v141, Cert.ReferenceIdeal.Hand.e_main_v140, Cert.ReferenceIdeal.Hand.e_main_v137, Cert.ReferenceIdeal.Hand.e_main_v139, Cert.ReferenceIdeal.Hand.e_main_v136, Cert.ReferenceIdeal.Hand.e_main_v138, Cert.ReferenceIdeal.Hand.e_main_c_27, Cert.ReferenceIdeal.Hand.e_main_c_28]
  rfl

theorem R_wrap_v159 : R m' c Cert.ReferenceIdeal.main_v159 = wrapIx (R m' c Cert.ReferenceIdeal.main_v1) := by
  simp only [R]
  rw [Cert.ReferenceIdeal.Hand.e_main_v159, Cert.ReferenceIdeal.Hand.e_main_v158, Cert.ReferenceIdeal.Hand.e_main_v155, Cert.ReferenceIdeal.Hand.e_main_v157, Cert.ReferenceIdeal.Hand.e_main_v154, Cert.ReferenceIdeal.Hand.e_main_v156, Cert.ReferenceIdeal.Hand.e_main_c_30, Cert.ReferenceIdeal.Hand.e_main_c_31]
  rfl

theorem R_wrap_v166 : R m' c Cert.ReferenceIdeal.main_v166 = wrapIx (R m' c Cert.ReferenceIdeal.main_v3) := by
  simp only [R]
  rw [Cert.ReferenceIdeal.Hand.e_main_v166, Cert.ReferenceIdeal.Hand.e_main_v165, Cert.ReferenceIdeal.Hand.e_main_v162, Cert.ReferenceIdeal.Hand.e_main_v164, Cert.ReferenceIdeal.Hand.e_main_v161, Cert.ReferenceIdeal.Hand.e_main_v163, Cert.ReferenceIdeal.Hand.e_main_c_32, Cert.ReferenceIdeal.Hand.e_main_c_33]
  rfl

theorem R_wrap_v175 : R m' c Cert.ReferenceIdeal.main_v175 = wrapIx (R m' c Cert.ReferenceIdeal.main_v1) := by
  simp only [R]
  rw [Cert.ReferenceIdeal.Hand.e_main_v175, Cert.ReferenceIdeal.Hand.e_main_v174, Cert.ReferenceIdeal.Hand.e_main_v171, Cert.ReferenceIdeal.Hand.e_main_v173, Cert.ReferenceIdeal.Hand.e_main_v170, Cert.ReferenceIdeal.Hand.e_main_v172, Cert.ReferenceIdeal.Hand.e_main_c_34, Cert.ReferenceIdeal.Hand.e_main_c_35]
  rfl

theorem R_invRootDeg : R m' c Cert.ReferenceIdeal.main_v10 = invRootDeg (R m' c Cert.ReferenceIdeal.main_v3) := by
  simp only [R]
  rw [Cert.ReferenceIdeal.Hand.e_main_v10, Cert.ReferenceIdeal.Hand.e_main_v9, Cert.ReferenceIdeal.Hand.e_main_v7, Cert.ReferenceIdeal.Hand.e_main_v8, Cert.ReferenceIdeal.Hand.e_main_v6, Cert.ReferenceIdeal.Hand.e_main_v5, Cert.ReferenceIdeal.Hand.e_main_v4, Cert.ReferenceIdeal.Hand.e_main_cst, Cert.ReferenceIdeal.Hand.e_main_cst_0, Cert.ReferenceIdeal.Hand.e_main_cst_1]
  rfl

theorem R_sqColumn_v41 : R m' c Cert.ReferenceIdeal.main_v41 = sqColumn (R m' c Cert.ReferenceIdeal.main_v10) := by
  simp only [R]
  rw [Cert.ReferenceIdeal.Hand.e_main_v41, Cert.ReferenceIdeal.Hand.e_main_v40]
  unfold sqColumn
  exact broadcastInDim_eq_asColumn _ _

theorem R_sqColumn_v95 : R m' c Cert.ReferenceIdeal.main_v95 = sqColumn (R m' c Cert.ReferenceIdeal.main_v10) := by
  simp only [R]
  rw [Cert.ReferenceIdeal.Hand.e_main_v95, Cert.ReferenceIdeal.Hand.e_main_v94]
  unfold sqColumn
  exact broadcastInDim_eq_asColumn _ _

theorem R_sqColumn_v149 : R m' c Cert.ReferenceIdeal.main_v149 = sqColumn (R m' c Cert.ReferenceIdeal.main_v10) := by
  simp only [R]
  rw [Cert.ReferenceIdeal.Hand.e_main_v149, Cert.ReferenceIdeal.Hand.e_main_v148]
  unfold sqColumn
  exact broadcastInDim_eq_asColumn _ _

theorem R_sqColumn_v183 : R m' c Cert.ReferenceIdeal.main_v183 = sqColumn (R m' c Cert.ReferenceIdeal.main_v10) := by
  simp only [R]
  rw [Cert.ReferenceIdeal.Hand.e_main_v183, Cert.ReferenceIdeal.Hand.e_main_v182]
  unfold sqColumn
  exact broadcastInDim_eq_asColumn _ _

theorem R_edgeCoef_v27 : R m' c Cert.ReferenceIdeal.main_v27 = edgeCoef (R m' c Cert.ReferenceIdeal.main_v10) (R m' c Cert.ReferenceIdeal.main_v1) (R m' c Cert.ReferenceIdeal.main_v3) := by
  have hs := R_wrap_v17 m' c
  have hd := R_wrap_v24 m' c
  simp only [R] at hs hd ⊢
  rw [Cert.ReferenceIdeal.Hand.e_main_v27, Cert.ReferenceIdeal.Hand.e_main_v26, Cert.ReferenceIdeal.Hand.e_main_v18, Cert.ReferenceIdeal.Hand.e_main_v25, hs, hd]
  unfold edgeCoef
  exact broadcastInDim_eq_asColumn _ _

theorem R_edgeCoef_v81 : R m' c Cert.ReferenceIdeal.main_v81 = edgeCoef (R m' c Cert.ReferenceIdeal.main_v10) (R m' c Cert.ReferenceIdeal.main_v1) (R m' c Cert.ReferenceIdeal.main_v3) := by
  have hs := R_wrap_v71 m' c
  have hd := R_wrap_v78 m' c
  simp only [R] at hs hd ⊢
  rw [Cert.ReferenceIdeal.Hand.e_main_v81, Cert.ReferenceIdeal.Hand.e_main_v80, Cert.ReferenceIdeal.Hand.e_main_v72, Cert.ReferenceIdeal.Hand.e_main_v79, hs, hd]
  unfold edgeCoef
  exact broadcastInDim_eq_asColumn _ _

theorem R_edgeCoef_v135 : R m' c Cert.ReferenceIdeal.main_v135 = edgeCoef (R m' c Cert.ReferenceIdeal.main_v10) (R m' c Cert.ReferenceIdeal.main_v1) (R m' c Cert.ReferenceIdeal.main_v3) := by
  have hs := R_wrap_v125 m' c
  have hd := R_wrap_v132 m' c
  simp only [R] at hs hd ⊢
  rw [Cert.ReferenceIdeal.Hand.e_main_v135, Cert.ReferenceIdeal.Hand.e_main_v134, Cert.ReferenceIdeal.Hand.e_main_v126, Cert.ReferenceIdeal.Hand.e_main_v133, hs, hd]
  unfold edgeCoef
  exact broadcastInDim_eq_asColumn _ _

theorem R_edgeCoef_v169 : R m' c Cert.ReferenceIdeal.main_v169 = edgeCoef (R m' c Cert.ReferenceIdeal.main_v10) (R m' c Cert.ReferenceIdeal.main_v1) (R m' c Cert.ReferenceIdeal.main_v3) := by
  have hs := R_wrap_v159 m' c
  have hd := R_wrap_v166 m' c
  simp only [R] at hs hd ⊢
  rw [Cert.ReferenceIdeal.Hand.e_main_v169, Cert.ReferenceIdeal.Hand.e_main_v168, Cert.ReferenceIdeal.Hand.e_main_v160, Cert.ReferenceIdeal.Hand.e_main_v167, hs, hd]
  unfold edgeCoef
  exact broadcastInDim_eq_asColumn _ _

theorem src (h1 : K m c Cert.KernelIdeal.main_arg1 = R m' c Cert.ReferenceIdeal.main_arg1) : K m c Cert.KernelIdeal.main_v1 = R m' c Cert.ReferenceIdeal.main_v1 := by
  simp only [K, R] at h1 ⊢
  rw [Cert.KernelIdeal.Hand.fin_main_v1 m c, Cert.KernelIdeal.Hand.fin_main_v0 m c, Cert.ReferenceIdeal.Hand.e_main_v1, Cert.ReferenceIdeal.Hand.e_main_v0, h1]
  rfl

theorem dst (h1 : K m c Cert.KernelIdeal.main_arg1 = R m' c Cert.ReferenceIdeal.main_arg1) : K m c Cert.KernelIdeal.main_v3 = R m' c Cert.ReferenceIdeal.main_v3 := by
  simp only [K, R] at h1 ⊢
  rw [Cert.KernelIdeal.Hand.fin_main_v3 m c, Cert.KernelIdeal.Hand.fin_main_v2 m c, Cert.ReferenceIdeal.Hand.e_main_v3, Cert.ReferenceIdeal.Hand.e_main_v2, h1]
  rfl

theorem dinv (hdst : K m c Cert.KernelIdeal.main_v3 = R m' c Cert.ReferenceIdeal.main_v3) : K m c Cert.KernelIdeal.main_v10 = R m' c Cert.ReferenceIdeal.main_v10 := by
  rw [K_invRootDeg m c, R_invRootDeg m' c, hdst]

theorem d2 (hdinv : K m c Cert.KernelIdeal.main_v10 = R m' c Cert.ReferenceIdeal.main_v10) : K m c Cert.KernelIdeal.main_v12 = R m' c Cert.ReferenceIdeal.main_v41 := by
  rw [K_sqColumn m c, R_sqColumn_v41 m' c, hdinv]

theorem d2_v95 : R m' c Cert.ReferenceIdeal.main_v95 = R m' c Cert.ReferenceIdeal.main_v41 := by rw [R_sqColumn_v95 m' c, R_sqColumn_v41 m' c]
theorem d2_v149 : R m' c Cert.ReferenceIdeal.main_v149 = R m' c Cert.ReferenceIdeal.main_v41 := by rw [R_sqColumn_v149 m' c, R_sqColumn_v41 m' c]
theorem d2_v183 : R m' c Cert.ReferenceIdeal.main_v183 = R m' c Cert.ReferenceIdeal.main_v41 := by rw [R_sqColumn_v183 m' c, R_sqColumn_v41 m' c]

theorem coef (hdinv : K m c Cert.KernelIdeal.main_v10 = R m' c Cert.ReferenceIdeal.main_v10) (hsrc : K m c Cert.KernelIdeal.main_v1 = R m' c Cert.ReferenceIdeal.main_v1) (hdst : K m c Cert.KernelIdeal.main_v3 = R m' c Cert.ReferenceIdeal.main_v3) :
    K m c Cert.KernelIdeal.main_v28 = R m' c Cert.ReferenceIdeal.main_v27 := by
  rw [K_edgeCoef m c, R_edgeCoef_v27 m' c, hdinv, hsrc, hdst]

theorem coef_v81 : R m' c Cert.ReferenceIdeal.main_v81 = R m' c Cert.ReferenceIdeal.main_v27 := by rw [R_edgeCoef_v81 m' c, R_edgeCoef_v27 m' c]
theorem coef_v135 : R m' c Cert.ReferenceIdeal.main_v135 = R m' c Cert.ReferenceIdeal.main_v27 := by rw [R_edgeCoef_v135 m' c, R_edgeCoef_v27 m' c]
theorem coef_v169 : R m' c Cert.ReferenceIdeal.main_v169 = R m' c Cert.ReferenceIdeal.main_v27 := by rw [R_edgeCoef_v169 m' c, R_edgeCoef_v27 m' c]

theorem srcIx_v35 (hsrc : K m c Cert.KernelIdeal.main_v1 = R m' c Cert.ReferenceIdeal.main_v1) : K m c Cert.KernelIdeal.main_v35 = R m' c Cert.ReferenceIdeal.main_v33 := by
  rw [K_wrap_v35 m c, R_wrap_v33 m' c, hsrc]
theorem srcIx_v59 (hsrc : K m c Cert.KernelIdeal.main_v1 = R m' c Cert.ReferenceIdeal.main_v1) : K m c Cert.KernelIdeal.main_v59 = R m' c Cert.ReferenceIdeal.main_v87 := by
  rw [K_wrap_v59 m c, R_wrap_v87 m' c, hsrc]
theorem srcIx_v84 (hsrc : K m c Cert.KernelIdeal.main_v1 = R m' c Cert.ReferenceIdeal.main_v1) : K m c Cert.KernelIdeal.main_v84 = R m' c Cert.ReferenceIdeal.main_v141 := by
  rw [K_wrap_v84 m c, R_wrap_v141 m' c, hsrc]
theorem srcIx_v175 : R m' c Cert.ReferenceIdeal.main_v175 = R m' c Cert.ReferenceIdeal.main_v141 := by rw [R_wrap_v175 m' c, R_wrap_v141 m' c]

theorem dstIx_v41 (hdst : K m c Cert.KernelIdeal.main_v3 = R m' c Cert.ReferenceIdeal.main_v3) : K m c Cert.KernelIdeal.main_v41 = R m' c Cert.ReferenceIdeal.main_v38 := by
  rw [K_ixColumn_v41 m c, R_ixColumn_v38 m' c, hdst]
theorem dstIx_v65 (hdst : K m c Cert.KernelIdeal.main_v3 = R m' c Cert.ReferenceIdeal.main_v3) : K m c Cert.KernelIdeal.main_v65 = R m' c Cert.ReferenceIdeal.main_v92 := by
  rw [K_ixColumn_v65 m c, R_ixColumn_v92 m' c, hdst]
theorem dstIx_v90 (hdst : K m c Cert.KernelIdeal.main_v3 = R m' c Cert.ReferenceIdeal.main_v3) : K m c Cert.KernelIdeal.main_v90 = R m' c Cert.ReferenceIdeal.main_v146 := by
  rw [K_ixColumn_v90 m c, R_ixColumn_v146 m' c, hdst]
theorem dstIx_v180 : R m' c Cert.ReferenceIdeal.main_v180 = R m' c Cert.ReferenceIdeal.main_v146 := by rw [R_ixColumn_v180 m' c, R_ixColumn_v146 m' c]

end Cert.Bridge

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev NodeMat : Type := (⟨2, ![50000, 128]⟩ : Shape).Idx → EReal

abbrev Weight : Type := (⟨2, ![128, 128]⟩ : Shape).Idx → EReal

abbrev NodeCol : Type := (⟨2, ![50000, 1]⟩ : Shape).Idx → EReal

abbrev FeatRow : Type := (⟨2, ![1, 128]⟩ : Shape).Idx → EReal

abbrev zeroE : EReal := Ideal.ofBits .f32 0x00000000#32
abbrev epsE : EReal := Ideal.ofBits .f32 0x3727C5AC#32

def matProd (h : NodeMat) (W : Weight) : NodeMat :=
  fun i => ∑ k : Fin 128, h (ix2 (i 0) k) * W (ix2 k (i 1))

def selfPlusMsg (m : NodeMat) (d2 : NodeCol) (msg : NodeMat) : NodeMat :=
  fun i => m i * d2 (ix2 (i 0) 0) + msg i

def colSum (x : NodeMat) : FeatRow :=
  fun j => ∑ r : Fin 50000, x (ix2 r (j 1))

def colSumSq (x : NodeMat) : FeatRow :=
  fun j => ∑ r : Fin 50000, x (ix2 r (j 1)) * x (ix2 r (j 1))

def normRelu (x : NodeMat) (gamma beta mean var : FeatRow) : NodeMat :=
  fun i => max (((x i - mean (ix2 0 (i 1))) * Ideal.rsqrt (max (var (ix2 0 (i 1))) zeroE + epsE)) * gamma (ix2 0 (i 1))
    + beta (ix2 0 (i 1))) zeroE

end Cert.Spec

end
-- ==== Proof.KiVal0.lean ====
import proofs.«126291_j72541997629772_2_alg».proof.Proof.KiReg0
import proofs.«126291_j72541997629772_2_alg».proof.Proof.Spec
import Idealize.ShloMosaic.Lib.ValueIdx
import Idealize.ShloMosaic.PureOps.Ideal.Laws
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

theorem dotL0_0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬ (0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem dotL0_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single rfl j k

theorem dotR0_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single rfl j k

theorem dotR0_1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬ (1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

theorem pay0_apply (x0 : FVec Ideal S2000x128 .f32) (x1 : FVec Ideal S128x128 .f32) (p : Fin 2000) (q : Fin 128) :
    k0_pay1 (F := Ideal) x0 x1 (ix2 p q) = ∑ k : Fin 128, x0 (ix2 p k) * x1 (ix2 k q) := by
  unfold k0_pay1
  try simp only [shapeCast_self]
  show FloatOps.matmul dot_S2000x128_S128x128_S2000x128_1_0_0_1_n_n none
    (truncf .bf16 x0 bitsLt_bf16_f32) (truncf .bf16 x1 bitsLt_bf16_f32) (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 p q)
      ((contrEquiv1 dot_S2000x128_S128x128_S2000x128_1_0_0_1_n_n 128 rfl rfl).symm k) = ix2 p k := by
    funext a; apply Fin.ext
    match a with
    | ⟨0, _⟩ => exact dotL0_0 _ _
    | ⟨1, _⟩ => exact (dotL0_1 _ _).trans hk
  have hr : dot_S2000x128_S128x128_S2000x128_1_0_0_1_n_n.rhsIdx (ix2 p q)
      ((contrEquiv1 dot_S2000x128_S128x128_S2000x128_1_0_0_1_n_n 128 rfl rfl).symm k) = ix2 k q := by
    funext a; apply Fin.ext
    match a with
    | ⟨0, _⟩ => exact (dotR0_0 _ _).trans hk
    | ⟨1, _⟩ => exact dotR0_1 _ _
  rw [hl, hr]
  rfl

section
variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 1000000 in

theorem flushed0_2_eq (c : Dev nD) (t : Fin cfg0.N) :
    (dat0 (F := Ideal) V c).flushed 2 t = ((cfg0.win 2).blk t).view.read (Elt Ideal)
      (Cert.Spec.matProd (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S2000x128) hz0, View.ld_unit_zero (S := S128x128) hz0]
  obtain ⟨e0, e1, e2, e3, e4, e5⟩ := idx_facts0 t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
    = Cert.Spec.matProd (V c (Pipeline.arrRef spec0 0)) (V c (Pipeline.arrRef spec0 1)) (((cfg0.win 2).blk t).view.emb (ix2 p q))
  rw [pay0_apply]
  unfold Cert.Spec.matProd
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have a0 : (iblk0 V c 0 t : FVec Ideal S2000x128 .f32) (ix2 p k)
      = (V c (Pipeline.arrRef spec0 0) : S50000x128.Idx → EReal) (ix2 ((((cfg0.win 2).blk t).view.emb (ix2 p q)) 0) k) := by
    exact congrArg (V c (Pipeline.arrRef spec0 0) : S50000x128.Idx → EReal) h0
  have a1 : (iblk0 V c 1 t : FVec Ideal S128x128 .f32) (ix2 k q)
      = (V c (Pipeline.arrRef spec0 1) : S128x128.Idx → EReal) (ix2 k ((((cfg0.win 2).blk t).view.emb (ix2 p q)) 1)) := by
    exact congrArg (V c (Pipeline.arrRef spec0 1) : S128x128.Idx → EReal) h1
  rw [a0, a1]

theorem mem_blk0_2 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole (Pipeline.arrRef spec0 2)).slice (win0_2.rect t)).set ↔ _
  rw [View.set_slice_whole, Rect.mem_set_unit]
  exact Iff.rfl

theorem blkcover0_2 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e0, e1, e2, e3, e4, e5⟩ := idx_facts0 t
  have ht : t.val = (i 0).val / 2000 := rfl
  refine ⟨t, flush0_2 t, ?_⟩
  rw [mem_blk0_2]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

theorem final0_2 (c : Dev nD) :
    (dat0 (F := Ideal) V c).arrAt 2 cfg0.N = Cert.Spec.matProd (V c (Pipeline.arrRef spec0 0)) (V c (Pipeline.arrRef spec0 1)) :=
  (dat0 (F := Ideal) V c).arrAt_eq_of_cover 2 (Cert.Spec.matProd (V c (Pipeline.arrRef spec0 0)) (V c (Pipeline.arrRef spec0 1)))
    (fun t _ => flushed0_2_eq V c t) (blkcover0_2)

end

end Cert.KernelIdeal.Hand
-- ==== Proof.AlgBlock.lean ====
import Mathlib.Algebra.BigOperators.Fin
import Mathlib.Algebra.BigOperators.Group.Finset.Basic
import Mathlib.Data.Fintype.BigOperators

namespace Cert.Alg

open Finset

def blockRow (p : Fin 25 × Fin 2000) : Fin 50000 := ⟨2000 * p.1.val + p.2.val, by omega⟩

theorem blockRow_bijective : Function.Bijective blockRow := by
  constructor
  · rintro ⟨a, b⟩ ⟨a', b'⟩ h
    have h' : 2000 * a.val + b.val = 2000 * a'.val + b'.val := congrArg Fin.val h
    have ha : a = a' := Fin.ext (by omega)
    have hb : b = b' := Fin.ext (by omega)
    rw [ha, hb]
  · intro R
    refine ⟨(⟨R.val / 2000, by omega⟩, ⟨R.val % 2000, by omega⟩), Fin.ext ?_⟩
    show 2000 * (R.val / 2000) + R.val % 2000 = R.val
    omega

theorem sum_blocks {M : Type*} [AddCommMonoid M] (x : Fin 50000 → M) :
    ∑ t : Fin 25, ∑ r : Fin 2000, x ⟨2000 * t.val + r.val, by omega⟩ = ∑ R : Fin 50000, x R := by
  rw [← Fintype.sum_prod_type' (f := fun (t : Fin 25) (r : Fin 2000) => x ⟨2000 * t.val + r.val, by omega⟩)]
  exact Fintype.sum_bijective blockRow blockRow_bijective _ _ (fun p => rfl)

end Cert.Alg
-- ==== Proof.KiPay1.lean ====
import proofs.«126291_j72541997629772_2_alg».proof.Proof.Gen.KernelIdeal.Skeleton
import proofs.«126291_j72541997629772_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand.R1

open Cert.KernelIdeal Cert.KernelIdeal.Gen
open Idealize.ShloMosaic Idealize.ShloMosaic.ValueIdx
open scoped BigOperators

theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_rows {a b : ℕ} (h : (⟨2, ![a, b]⟩ : Shape).Reduces [0] ⟨1, ![b]⟩) (j : Fin b) (k : Fin a) :
    h.lift (ix1 j) k = ix2 k j := by
  funext c
  refine Fin.ext ?_
  show h.liftVal (ix1 j) k.val c = (ix2 k j c).val
  unfold Shape.Reduces.liftVal
  match c with
  | ⟨0, _⟩ => simp
  | ⟨1, _⟩ =>
    simp

theorem multiReduction_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (lift_rows h j k)

theorem pay3_apply (b0 : Vec Ideal S2000x128 .bf16) (b1 : Vec Ideal S2000x1 .f32) (b2 : Vec Ideal S2000x128 .f32)
    (r : Fin 2000) (j : Fin 128) :
    k1_pay3 (F := Ideal) b0 b1 b2 (ix2 r j) = b0 (ix2 r j) * b1 (ix2 r 0) + b2 (ix2 r j) := by
  unfold k1_pay3
  rw [shapeCast_self b0, shapeCast_self b1, shapeCast_self b2]
  exact congrArg (fun x : EReal => b0 (ix2 r j) * x + b2 (ix2 r j)) (broadcastTo_col_apply b1 _ r j)

theorem pay4_apply (b0 : Vec Ideal S2000x128 .bf16) (b1 : Vec Ideal S2000x1 .f32) (b2 : Vec Ideal S2000x128 .f32)
    (s : Vec Ideal S1x128 .f32) (j : Fin 128) :
    k1_pay4 (F := Ideal) b0 b1 b2 s (ix2 0 j) = s (ix2 0 j) + ∑ r : Fin 2000, k1_pay3 (F := Ideal) b0 b1 b2 (ix2 r j) := by
  unfold k1_pay4
  refine (congrFun (shapeCast_self _ _) _).trans ?_
  refine congrArg (fun x : EReal => s (ix2 0 j) + x) ?_
  refine (shapeCast_a_1a_apply _ _ 0 j).trans ?_
  exact multiReduction_rows_apply _ _ _ _ _ j

theorem pay5_apply (b0 : Vec Ideal S2000x128 .bf16) (b1 : Vec Ideal S2000x1 .f32) (b2 : Vec Ideal S2000x128 .f32)
    (s : Vec Ideal S1x128 .f32) (j : Fin 128) :
    k1_pay5 (F := Ideal) b0 b1 b2 s (ix2 0 j)
      = s (ix2 0 j) + ∑ r : Fin 2000, k1_pay3 (F := Ideal) b0 b1 b2 (ix2 r j) * k1_pay3 (F := Ideal) b0 b1 b2 (ix2 r j) := by
  unfold k1_pay5
  refine (congrFun (shapeCast_self _ _) _).trans ?_
  refine congrArg (fun x : EReal => s (ix2 0 j) + x) ?_
  refine (shapeCast_a_1a_apply _ _ 0 j).trans ?_
  exact multiReduction_rows_apply _ _ _ _ _ j

theorem pay1_apply (j : Fin 128) : k1_pay1 (F := Ideal) (ix2 0 j) = Cert.Spec.zeroE := by
  unfold k1_pay1
  rw [shapeCast_self]
  rfl

theorem pay2_apply (j : Fin 128) : k1_pay2 (F := Ideal) (ix2 0 j) = Cert.Spec.zeroE := by
  unfold k1_pay2
  rw [shapeCast_self]
  rfl

end Cert.KernelIdeal.Hand.R1

end
-- ==== Proof.KiVal1Core.lean ====
import proofs.«126291_j72541997629772_2_alg».proof.Proof.Gen.KernelIdeal.Launch
import proofs.«126291_j72541997629772_2_alg».proof.Proof.Gen.KernelIdeal.Skeleton
import proofs.«126291_j72541997629772_2_alg».proof.Proof.Gen.KernelIdeal.Points
import proofs.«126291_j72541997629772_2_alg».proof.Proof.Spec
import proofs.«126291_j72541997629772_2_alg».proof.Proof.AlgBlock
import proofs.«126291_j72541997629772_2_alg».proof.Proof.KiPay1
import Idealize.ShloMosaic.Lib.Pipeline.Value
import Idealize.ShloMosaic.Lib.ValueIdx
import Idealize.ShloMosaic.Lib.ValueLayout
import Idealize.ShloMosaic.PureOps.Ideal.Laws

noncomputable section

namespace Cert.Alg

theorem acc_blocks {M : Type*} [AddCommMonoid M] (x : Fin 50000 → M) (acc : ℕ → M) (h0 : acc 0 = 0)
    (hs : ∀ (n : ℕ) (h : n < 25), acc (n + 1) = acc n + ∑ r : Fin 2000, x ⟨2000 * n + r.val, by omega⟩) :
    acc 25 = ∑ R : Fin 50000, x R := by
  have key : ∀ n : ℕ, n ≤ 25 → acc n = ∑ k ∈ Finset.range n,
      (if h : k < 25 then ∑ r : Fin 2000, x ⟨2000 * k + r.val, by omega⟩ else 0) := by
    intro n
    induction n with
    | zero => intro _; simp [h0]
    | succ n ih =>
      intro hn
      rw [hs n (by omega), ih (by omega), Finset.sum_range_succ, dif_pos (by omega : n < 25)]
  rw [key 25 le_rfl, Finset.sum_range, ← sum_blocks x]
  exact Finset.sum_congr rfl fun t _ => dif_pos t.isLt

end Cert.Alg

namespace Cert.KernelIdeal.Hand.R1

open Cert.KernelIdeal Cert.KernelIdeal.Gen
open Idealize.ShloMosaic Idealize.ShloMosaic.TcCoe Idealize.ShloMosaic.ValueIdx
open Idealize.ShloMosaic.Rounds
open Idealize.ShloMosaic.Pipeline (Dat Cfg Window)
open scoped BigOperators

section Region1
variable (V : (c : Dev nD) → (b : Ref sig .tc) → Buf (Elt Ideal) ((c : Thread nD τ).loc b))

theorem idx1_in : ∀ t : Fin cfg1.N, (win1_0.index t 0 = t.val ∧ win1_0.index t 1 = 0) ∧ (win1_1.index t 0 = t.val ∧ win1_1.index t 1 = 0)
    ∧ (win1_2.index t 0 = t.val ∧ win1_2.index t 1 = 0) :=
  (by decide +kernel : ∀ t : Fin grid1.N, (win1_0.index t 0 = t.val ∧ win1_0.index t 1 = 0) ∧ (win1_1.index t 0 = t.val ∧ win1_1.index t 1 = 0)
    ∧ (win1_2.index t 0 = t.val ∧ win1_2.index t 1 = 0))

theorem row_lt (t : Fin cfg1.N) (r : Fin 2000) : 2000 * t.val + r.val < 50000 := by
  have := t.isLt; have : cfg1.N = 25 := N_1; omega

theorem blk1_0_apply (c : Dev nD) (A : Buf (Elt Ideal) ((c : Thread nD τ).loc (Pipeline.arrRef spec1 0))) (t : Fin cfg1.N) (r : Fin 2000) (j : Fin 128) :
    ((cfg1.win 0).blk t).view.read (Elt Ideal) A (ix2 r j) = A (ix2 (⟨2000 * t.val + r.val, row_lt t r⟩ : Fin 50000) j) := by
  rw [View.read_apply]
  show A _ = A _
  congr 1
  funext a
  apply Fin.ext
  match a with
  | ⟨0, _⟩ => show win1_0.index t 0 * 2000 + 1 * r.val = 2000 * t.val + r.val; rw [(idx1_in t).1.1]; omega
  | ⟨1, _⟩ => show win1_0.index t 1 * 128 + 1 * j.val = j.val; rw [(idx1_in t).1.2]; omega

theorem blk1_1_apply (c : Dev nD) (A : Buf (Elt Ideal) ((c : Thread nD τ).loc (Pipeline.arrRef spec1 1))) (t : Fin cfg1.N) (r : Fin 2000) :
    ((cfg1.win 1).blk t).view.read (Elt Ideal) A (ix2 r (0 : Fin 1)) = A (ix2 (⟨2000 * t.val + r.val, row_lt t r⟩ : Fin 50000) (0 : Fin 1)) := by
  rw [View.read_apply]
  show A _ = A _
  congr 1
  funext a
  apply Fin.ext
  match a with
  | ⟨0, _⟩ => show win1_1.index t 0 * 2000 + 1 * r.val = 2000 * t.val + r.val; rw [(idx1_in t).2.1.1]; omega
  | ⟨1, _⟩ => show win1_1.index t 1 * 1 + 1 * 0 = 0; rw [(idx1_in t).2.1.2]

theorem blk1_2_apply (c : Dev nD) (A : Buf (Elt Ideal) ((c : Thread nD τ).loc (Pipeline.arrRef spec1 2))) (t : Fin cfg1.N) (r : Fin 2000) (j : Fin 128) :
    ((cfg1.win 2).blk t).view.read (Elt Ideal) A (ix2 r j) = A (ix2 (⟨2000 * t.val + r.val, row_lt t r⟩ : Fin 50000) j) := by
  rw [View.read_apply]
  show A _ = A _
  congr 1
  funext a
  apply Fin.ext
  match a with
  | ⟨0, _⟩ => show win1_2.index t 0 * 2000 + 1 * r.val = 2000 * t.val + r.val; rw [(idx1_in t).2.2.1]; omega
  | ⟨1, _⟩ => show win1_2.index t 1 * 128 + 1 * j.val = j.val; rw [(idx1_in t).2.2.2]; omega

theorem idx1_out : ∀ t : Fin cfg1.N, (win1_4.index t 0 = 0 ∧ win1_4.index t 1 = 0) ∧ (win1_5.index t 0 = 0 ∧ win1_5.index t 1 = 0) :=
  (by decide +kernel : ∀ t : Fin grid1.N, (win1_4.index t 0 = 0 ∧ win1_4.index t 1 = 0) ∧ (win1_5.index t 0 = 0 ∧ win1_5.index t 1 = 0))

abbrev t1_last : Fin cfg1.N := ⟨24, by decide⟩

theorem arrAt1_4_of {c : Dev nD} (dat : Dat τ (Elt Ideal) Unit ℕ (UR sig nD τ) ℕ cfg1 c) (X : Vec Ideal S1x128 .f32)
    (h : ∀ t : Fin cfg1.N, t.val = 24 → dat.after 4 t = X) : dat.arrAt 4 cfg1.N = X := by
  have hN : cfg1.N = 25 := N_1
  refine dat.arrAt_eq_of_cover 4 X (fun t hf => ?_) (fun i => ?_)
  · have h24 : t.val = 24 := by have := (flush1_4 t).mp hf; have := t.isLt; omega
    show (cfg1.win 4).cut (grid1.coords t) (dat.after 4 t) = _
    rw [h t h24]
    have hz' : (fun a => win1_4.index t a * (Pipeline.arrRef spec1 4).ty.shape.size a) = fun _ => 0 := funext fun a => by
      match a with
      | ⟨0, _⟩ => show win1_4.index t 0 * 1 = 0; rw [(idx1_out t).1.1]
      | ⟨1, _⟩ => show win1_4.index t 1 * 128 = 0; rw [(idx1_out t).1.2]
    exact (Memref.read_access_unit_zero (Elt Ideal) (Pipeline.arrRef spec1 4) hz' (fun a => by rw [congrFun hz' a]; simp) X).symm
  · refine ⟨t1_last, (flush1_4 t1_last).mpr rfl, ?_⟩
    show i ∈ ((View.whole (Pipeline.arrRef spec1 4)).slice (win1_4.rect t1_last)).set
    rw [View.set_slice_whole, Rect.mem_set_unit]
    intro a
    have h0 : (i 0 : Nat) < 1 := (i 0).isLt
    have h1 : (i 1 : Nat) < 128 := (i 1).isLt
    match a with
    | ⟨0, _⟩ =>
      show win1_4.index t1_last 0 * win1_4.size 0 ≤ (i 0 : Nat) ∧ (i 0 : Nat) < win1_4.index t1_last 0 * win1_4.size 0 + win1_4.xsize (grid1.coords t1_last) 0
      rw [show win1_4.index t1_last 0 * win1_4.size 0 = 0 from by decide +kernel, show win1_4.xsize (grid1.coords t1_last) 0 = 1 from by decide +kernel]; omega
    | ⟨1, _⟩ =>
      show win1_4.index t1_last 1 * win1_4.size 1 ≤ (i 1 : Nat) ∧ (i 1 : Nat) < win1_4.index t1_last 1 * win1_4.size 1 + win1_4.xsize (grid1.coords t1_last) 1
      rw [show win1_4.index t1_last 1 * win1_4.size 1 = 0 from by decide +kernel, show win1_4.xsize (grid1.coords t1_last) 1 = 128 from by decide +kernel]; omega

section Core
variable (c : Dev nD) (A0 : Buf (Elt Ideal) ((c : Thread nD τ).loc (Pipeline.arrRef spec1 0)))
  (A1 : Buf (Elt Ideal) ((c : Thread nD τ).loc (Pipeline.arrRef spec1 1)))
  (A2 : Buf (Elt Ideal) ((c : Thread nD τ).loc (Pipeline.arrRef spec1 2)))

theorem pay3_blk (t : Fin cfg1.N) (r : Fin 2000) (j : Fin 128) :
    k1_pay3 (F := Ideal) (((cfg1.win 0).blk t).view.read (Elt Ideal) A0) (((cfg1.win 1).blk t).view.read (Elt Ideal) A1)
        (((cfg1.win 2).blk t).view.read (Elt Ideal) A2) (ix2 r j)
      = Cert.Spec.selfPlusMsg A0 A1 A2 (ix2 (⟨2000 * t.val + r.val, row_lt t r⟩ : Fin 50000) j) := by
  refine (pay3_apply _ _ _ r j).trans ?_
  rw [blk1_0_apply c A0 t r j, blk1_1_apply c A1 t r, blk1_2_apply c A2 t r j]
  rfl

theorem colSum_of_rec (S : ℕ → Vec Ideal S1x128 .f32) (h0 : S 0 = k1_pay1 (F := Ideal))
    (hs : ∀ (n : ℕ) (h : n < cfg1.N), S (n + 1) = k1_pay4 (F := Ideal) (((cfg1.win 0).blk ⟨n, h⟩).view.read (Elt Ideal) A0)
      (((cfg1.win 1).blk ⟨n, h⟩).view.read (Elt Ideal) A1) (((cfg1.win 2).blk ⟨n, h⟩).view.read (Elt Ideal) A2) (S n)) :
    S 25 = Cert.Spec.colSum (Cert.Spec.selfPlusMsg A0 A1 A2) := by
  have hN : cfg1.N = 25 := N_1
  funext i
  obtain ⟨u, j, rfl⟩ : ∃ (u : Fin 1) (j : Fin 128), i = ix2 u j := ⟨i 0, i 1, eq_ix2 i⟩
  obtain rfl : u = 0 := Subsingleton.elim _ _
  show S 25 (ix2 0 j) = ∑ R : Fin 50000, Cert.Spec.selfPlusMsg A0 A1 A2 (ix2 R j)
  refine Cert.Alg.acc_blocks (fun R => Cert.Spec.selfPlusMsg A0 A1 A2 (ix2 R j)) (fun n => S n (ix2 0 j)) ?_ ?_
  · show S 0 (ix2 0 j) = 0
    rw [h0, pay1_apply]
    exact Ideal.ofBits_zero_f32
  · intro n h
    have h' : n < cfg1.N := by omega
    show S (n + 1) (ix2 0 j) = S n (ix2 0 j) + _
    rw [hs n h']
    refine (pay4_apply _ _ _ (S n) j).trans ?_
    refine congrArg (fun x : EReal => S n (ix2 0 j) + x) ?_
    exact Finset.sum_congr rfl fun r _ => pay3_blk c A0 A1 A2 ⟨n, h'⟩ r j

end Core

section Core2
variable (c : Dev nD) (A0 : Buf (Elt Ideal) ((c : Thread nD τ).loc (Pipeline.arrRef spec1 0)))
  (A1 : Buf (Elt Ideal) ((c : Thread nD τ).loc (Pipeline.arrRef spec1 1)))
  (A2 : Buf (Elt Ideal) ((c : Thread nD τ).loc (Pipeline.arrRef spec1 2)))

theorem colSumSq_of_rec (S : ℕ → Vec Ideal S1x128 .f32) (h0 : S 0 = k1_pay2 (F := Ideal))
    (hs : ∀ (n : ℕ) (h : n < cfg1.N), S (n + 1) = k1_pay5 (F := Ideal) (((cfg1.win 0).blk ⟨n, h⟩).view.read (Elt Ideal) A0)
      (((cfg1.win 1).blk ⟨n, h⟩).view.read (Elt Ideal) A1) (((cfg1.win 2).blk ⟨n, h⟩).view.read (Elt Ideal) A2) (S n)) :
    S 25 = Cert.Spec.colSumSq (Cert.Spec.selfPlusMsg A0 A1 A2) := by
  have hN : cfg1.N = 25 := N_1
  funext i
  obtain ⟨u, j, rfl⟩ : ∃ (u : Fin 1) (j : Fin 128), i = ix2 u j := ⟨i 0, i 1, eq_ix2 i⟩
  obtain rfl : u = 0 := Subsingleton.elim _ _
  show S 25 (ix2 0 j) = ∑ R : Fin 50000, Cert.Spec.selfPlusMsg A0 A1 A2 (ix2 R j) * Cert.Spec.selfPlusMsg A0 A1 A2 (ix2 R j)
  refine Cert.Alg.acc_blocks (fun R => Cert.Spec.selfPlusMsg A0 A1 A2 (ix2 R j) * Cert.Spec.selfPlusMsg A0 A1 A2 (ix2 R j))
    (fun n => S n (ix2 0 j)) ?_ ?_
  · show S 0 (ix2 0 j) = 0
    rw [h0, pay2_apply]
    exact Ideal.ofBits_zero_f32
  · intro n h
    have h' : n < cfg1.N := by omega
    show S (n + 1) (ix2 0 j) = S n (ix2 0 j) + _
    rw [hs n h']
    refine (pay5_apply _ _ _ (S n) j).trans ?_
    refine congrArg (fun x : EReal => S n (ix2 0 j) + x) ?_
    exact Finset.sum_congr rfl fun r _ => by rw [pay3_blk c A0 A1 A2 ⟨n, h'⟩ r j]

end Core2

theorem arrAt1_5_of {c : Dev nD} (dat : Dat τ (Elt Ideal) Unit ℕ (UR sig nD τ) ℕ cfg1 c) (X : Vec Ideal S1x128 .f32)
    (h : ∀ t : Fin cfg1.N, t.val = 24 → dat.after 5 t = X) : dat.arrAt 5 cfg1.N = X := by
  have hN : cfg1.N = 25 := N_1
  refine dat.arrAt_eq_of_cover 5 X (fun t hf => ?_) (fun i => ?_)
  · have h24 : t.val = 24 := by have := (flush1_5 t).mp hf; have := t.isLt; omega
    show (cfg1.win 5).cut (grid1.coords t) (dat.after 5 t) = _
    rw [h t h24]
    have hz' : (fun a => win1_5.index t a * (Pipeline.arrRef spec1 5).ty.shape.size a) = fun _ => 0 := funext fun a => by
      match a with
      | ⟨0, _⟩ => show win1_5.index t 0 * 1 = 0; rw [(idx1_out t).2.1]
      | ⟨1, _⟩ => show win1_5.index t 1 * 128 = 0; rw [(idx1_out t).2.2]
    exact (Memref.read_access_unit_zero (Elt Ideal) (Pipeline.arrRef spec1 5) hz' (fun a => by rw [congrFun hz' a]; simp) X).symm
  · refine ⟨t1_last, (flush1_5 t1_last).mpr rfl, ?_⟩
    show i ∈ ((View.whole (Pipeline.arrRef spec1 5)).slice (win1_5.rect t1_last)).set
    rw [View.set_slice_whole, Rect.mem_set_unit]
    intro a
    have h0 : (i 0 : Nat) < 1 := (i 0).isLt
    have h1 : (i 1 : Nat) < 128 := (i 1).isLt
    match a with
    | ⟨0, _⟩ =>
      show win1_5.index t1_last 0 * win1_5.size 0 ≤ (i 0 : Nat) ∧ (i 0 : Nat) < win1_5.index t1_last 0 * win1_5.size 0 + win1_5.xsize (grid1.coords t1_last) 0
      rw [show win1_5.index t1_last 0 * win1_5.size 0 = 0 from by decide +kernel, show win1_5.xsize (grid1.coords t1_last) 0 = 1 from by decide +kernel]; omega
    | ⟨1, _⟩ =>
      show win1_5.index t1_last 1 * win1_5.size 1 ≤ (i 1 : Nat) ∧ (i 1 : Nat) < win1_5.index t1_last 1 * win1_5.size 1 + win1_5.xsize (grid1.coords t1_last) 1
      rw [show win1_5.index t1_last 1 * win1_5.size 1 = 0 from by decide +kernel, show win1_5.xsize (grid1.coords t1_last) 1 = 128 from by decide +kernel]; omega

end Region1
end Cert.KernelIdeal.Hand.R1
end
-- ==== Proof.KiVal1.lean ====
import proofs.«126291_j72541997629772_2_alg».proof.Proof.KiReg1
import proofs.«126291_j72541997629772_2_alg».proof.Proof.KiVal1Core

noncomputable section

namespace Cert.KernelIdeal.Hand.R1

open Cert.KernelIdeal Cert.KernelIdeal.Gen
open Idealize.ShloMosaic Idealize.ShloMosaic.TcCoe Idealize.ShloMosaic.ValueIdx
open Idealize.ShloMosaic.Rounds
open Idealize.ShloMosaic.Pipeline (Dat Cfg Window)
open scoped BigOperators

theorem idx1_3 : ∀ t : Fin cfg1.N, win1_3.index t 0 = t.val ∧ win1_3.index t 1 = 0 :=
  (by decide +kernel : ∀ t : Fin grid1.N, win1_3.index t 0 = t.val ∧ win1_3.index t 1 = 0)

theorem blk1_3_apply (c : Dev nD) (A : Buf (Elt Ideal) ((c : Thread nD τ).loc (Pipeline.arrRef spec1 3))) (t : Fin cfg1.N) (r : Fin 2000) (j : Fin 128) :
    ((cfg1.win 3).blk t).view.read (Elt Ideal) A (ix2 r j) = A (ix2 (⟨2000 * t.val + r.val, row_lt t r⟩ : Fin 50000) j) := by
  rw [View.read_apply]
  show A _ = A _
  congr 1
  funext a
  apply Fin.ext
  match a with
  | ⟨0, _⟩ => show win1_3.index t 0 * 2000 + 1 * r.val = 2000 * t.val + r.val; rw [(idx1_3 t).1]; omega
  | ⟨1, _⟩ => show win1_3.index t 1 * 128 + 1 * j.val = j.val; rw [(idx1_3 t).2]; omega

theorem mem_blk1_3 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole (Pipeline.arrRef spec1 3)).slice (win1_3.rect t)).set ↔ _
  rw [View.set_slice_whole, Rect.mem_set_unit]
  exact Iff.rfl

theorem covered1_3 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hlt : (i 0).val / 2000 < cfg1.N := by rw [show cfg1.N = 25 from N_1]; omega
  obtain ⟨e30, e31⟩ := idx1_3 ⟨(i 0).val / 2000, hlt⟩
  have e30' : win1_3.index ⟨(i 0).val / 2000, hlt⟩ 0 = (i 0).val / 2000 := e30
  refine ⟨⟨(i 0).val / 2000, hlt⟩, flush1_3 _, ?_⟩
  rw [mem_blk1_3]
  intro a
  match a with
  | ⟨0, _⟩ => show win1_3.index ⟨(i 0).val / 2000, hlt⟩ 0 * 2000 ≤ (i 0).val ∧ (i 0).val < win1_3.index ⟨(i 0).val / 2000, hlt⟩ 0 * 2000 + 2000; omega
  | ⟨1, _⟩ => show win1_3.index ⟨(i 0).val / 2000, hlt⟩ 1 * 128 ≤ (i 1).val ∧ (i 1).val < win1_3.index ⟨(i 0).val / 2000, hlt⟩ 1 * 128 + 128; omega

section Region1
variable (V : (c : Dev nD) → (b : Ref sig .tc) → Buf (Elt Ideal) ((c : Thread nD τ).loc b))

theorem flushed1_3_eq (c : Dev nD) (t : Fin cfg1.N) :
    (dat1 (F := Ideal) V c).flushed 3 t = ((cfg1.win 3).blk t).view.read (Elt Ideal)
      (Cert.Spec.selfPlusMsg (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero hz1]
  simp only [View.ld_unit_zero (S := S2000x128) hz1, View.ld_unit_zero (S := S2000x1) hz1]
  funext i
  obtain ⟨r, j, rfl⟩ : ∃ (r : Fin 2000) (j : Fin 128), i = ix2 r j := ⟨i 0, i 1, eq_ix2 i⟩
  refine Eq.trans ?_ (blk1_3_apply c _ t r j).symm
  exact pay3_blk c (V c (Pipeline.arrRef spec1 0)) (V c (Pipeline.arrRef spec1 1)) (V c (Pipeline.arrRef spec1 2)) t r j

theorem final1_3 (c : Dev nD) : (dat1 (F := Ideal) V c).arrAt 3 cfg1.N
    = Cert.Spec.selfPlusMsg (V c (Pipeline.arrRef spec1 0)) (V c (Pipeline.arrRef spec1 1)) (V c (Pipeline.arrRef spec1 2)) :=
  (dat1 (F := Ideal) V c).arrAt_eq_of_cover 3 _ (fun t _ => flushed1_3_eq V c t) covered1_3

theorem scr1_fst (c : Dev nD) : (scr1 (F := Ideal) V c 25).1
    = Cert.Spec.colSum (Cert.Spec.selfPlusMsg (V c (Pipeline.arrRef spec1 0)) (V c (Pipeline.arrRef spec1 1)) (V c (Pipeline.arrRef spec1 2))) :=
  colSum_of_rec c (V c (Pipeline.arrRef spec1 0)) (V c (Pipeline.arrRef spec1 1)) (V c (Pipeline.arrRef spec1 2))
    (fun n => (scr1 (F := Ideal) V c n).1) rfl (fun n h => congrArg Prod.fst (scr1_succ (F := Ideal) V c ⟨n, h⟩))

theorem scr1_snd (c : Dev nD) : (scr1 (F := Ideal) V c 25).2
    = Cert.Spec.colSumSq (Cert.Spec.selfPlusMsg (V c (Pipeline.arrRef spec1 0)) (V c (Pipeline.arrRef spec1 1)) (V c (Pipeline.arrRef spec1 2))) :=
  colSumSq_of_rec c (V c (Pipeline.arrRef spec1 0)) (V c (Pipeline.arrRef spec1 1)) (V c (Pipeline.arrRef spec1 2))
    (fun n => (scr1 (F := Ideal) V c n).2) rfl (fun n h => congrArg Prod.snd (scr1_succ (F := Ideal) V c ⟨n, h⟩))

theorem final1_4 (c : Dev nD) : (dat1 (F := Ideal) V c).arrAt 4 cfg1.N
    = Cert.Spec.colSum (Cert.Spec.selfPlusMsg (V c (Pipeline.arrRef spec1 0)) (V c (Pipeline.arrRef spec1 1)) (V c (Pipeline.arrRef spec1 2))) := by
  refine (arrAt1_4_of (dat1 (F := Ideal) V c) (scr1 (F := Ideal) V c 25).1 (fun t ht => ?_)).trans (scr1_fst V c)
  rw [after1_4]
  unfold out1_4
  exact View.canon_unit_zero hz1 _ _

theorem final1_5 (c : Dev nD) : (dat1 (F := Ideal) V c).arrAt 5 cfg1.N
    = Cert.Spec.colSumSq (Cert.Spec.selfPlusMsg (V c (Pipeline.arrRef spec1 0)) (V c (Pipeline.arrRef spec1 1)) (V c (Pipeline.arrRef spec1 2))) := by
  refine (arrAt1_5_of (dat1 (F := Ideal) V c) (scr1 (F := Ideal) V c 25).2 (fun t ht => ?_)).trans (scr1_snd V c)
  rw [after1_5]
  unfold out1_5
  exact View.canon_unit_zero hz1 _ _

end Region1

end Cert.KernelIdeal.Hand.R1

end
-- ==== Proof.KiVal2.lean ====
import proofs.«126291_j72541997629772_2_alg».proof.Proof.KiReg2
import proofs.«126291_j72541997629772_2_alg».proof.Proof.Spec
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem rsqrt2_apply {s : Shape} {φ : FTy} (a : FVec Ideal s φ) (i : s.Idx) : rsqrt a i = Ideal.rsqrt (a i) := rfl

theorem bcastRow2_apply {α : Type} (v : S1x128.Idx → α) (p : Fin 2000) (q : Fin 128) :
    broadcastTo S2000x128 v broadcasts_S1x128_S2000x128 (ix2 p q) = v (ix2 0 q) :=
  broadcastTo_apply v _ (ix2 p q) (ix2 0 q) (fun a => by match a with | ⟨0, _⟩ => rfl | ⟨1, _⟩ => rfl)

theorem pay2_apply (x : Vec Ideal S2000x128 .f32) (mu var g b : Vec Ideal S1x128 .f32) (p : Fin 2000) (q : Fin 128) :
    k2_pay1 x mu var g b (ix2 p q)
      = max (((x (ix2 p q) - mu (ix2 0 q)) * Ideal.rsqrt (max (var (ix2 0 q)) Cert.Spec.zeroE + Cert.Spec.epsE)) * g (ix2 0 q)
          + b (ix2 0 q)) Cert.Spec.zeroE := by
  unfold k2_pay1
  simp only [shapeCast_self, maximumf_apply, addf_apply, mulf_apply, subf_apply, rsqrt2_apply, bcastRow2_apply, broadcast_apply]
  rfl

theorem hz2 : (![0, 0] : Fin 2 → Nat) = fun _ => 0 := funext fun a => by fin_cases a <;> rfl

theorem idx_facts2 : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

variable (V : (c : Dev nD) → (b : Ref sig .tc) → Buf (Elt Ideal) ((c : Thread nD τ).loc b))

theorem rows2_blk (c : Dev nD) (t : Fin cfg2.N) (j : S2000x128.Idx) :
    (iblk2 V c 0 t : Vec Ideal S2000x128 .f32) j = (V c (Pipeline.arrRef spec2 0) : S50000x128.Idx → EReal) (((cfg2.win 5).blk t).view.emb j) := by
  obtain ⟨e0, e1, e2, e3, -⟩ := idx_facts2 t
  unfold iblk2
  rw [View.read_apply]
  show V c (Pipeline.arrRef spec2 0) (((cfg2.win 0).blk t).view.emb j) = V c (Pipeline.arrRef spec2 0) (((cfg2.win 5).blk t).view.emb j)
  refine congrArg (V c (Pipeline.arrRef spec2 0)) (funext fun a => Fin.ext ?_)
  match a with
  | ⟨0, _⟩ => show win2_0.index t (0 : Fin 2) * 2000 + 1 * (j 0).val = win2_5.index t (0 : Fin 2) * 2000 + 1 * (j 0).val; rw [e0, e2]
  | ⟨1, _⟩ => show win2_0.index t (1 : Fin 2) * 128 + 1 * (j 1).val = win2_5.index t (1 : Fin 2) * 128 + 1 * (j 1).val; rw [e1, e3]

theorem out2_blk_col (t : Fin cfg2.N) (p : Fin 2000) (q : Fin 128) :
    (((cfg2.win 5).blk t).view.emb (ix2 p q) : S50000x128.Idx) 1 = q := by
  obtain ⟨-, -, -, e3, -⟩ := idx_facts2 t
  apply Fin.ext
  show win2_5.index t (1 : Fin 2) * 128 + 1 * q.val = q.val
  rw [e3]; omega

theorem row2_blk1 (c : Dev nD) (t : Fin cfg2.N) (q : Fin 128) :
    (iblk2 V c 1 t : Vec Ideal S1x128 .f32) (ix2 0 q) = (V c (Pipeline.arrRef spec2 1) : S1x128.Idx → EReal) (ix2 0 q) := by
  obtain ⟨-, -, -, -, e0, e1, -⟩ := idx_facts2 t
  unfold iblk2
  rw [View.read_apply]
  refine congrArg (V c (Pipeline.arrRef spec2 1)) (funext fun a => Fin.ext ?_)
  match a with
  | ⟨0, _⟩ => show win2_1.index t (0 : Fin 2) * 1 + 1 * 0 = 0; rw [e0]
  | ⟨1, _⟩ => show win2_1.index t (1 : Fin 2) * 128 + 1 * q.val = q.val; rw [e1]; omega
theorem row2_blk2 (c : Dev nD) (t : Fin cfg2.N) (q : Fin 128) :
    (iblk2 V c 2 t : Vec Ideal S1x128 .f32) (ix2 0 q) = (V c (Pipeline.arrRef spec2 2) : S1x128.Idx → EReal) (ix2 0 q) := by
  obtain ⟨-, -, -, -, -, -, e0, e1, -⟩ := idx_facts2 t
  unfold iblk2
  rw [View.read_apply]
  refine congrArg (V c (Pipeline.arrRef spec2 2)) (funext fun a => Fin.ext ?_)
  match a with
  | ⟨0, _⟩ => show win2_2.index t (0 : Fin 2) * 1 + 1 * 0 = 0; rw [e0]
  | ⟨1, _⟩ => show win2_2.index t (1 : Fin 2) * 128 + 1 * q.val = q.val; rw [e1]; omega
theorem row2_blk3 (c : Dev nD) (t : Fin cfg2.N) (q : Fin 128) :
    (iblk2 V c 3 t : Vec Ideal S1x128 .f32) (ix2 0 q) = (V c (Pipeline.arrRef spec2 3) : S1x128.Idx → EReal) (ix2 0 q) := by
  obtain ⟨-, -, -, -, -, -, -, -, e0, e1, -⟩ := idx_facts2 t
  unfold iblk2
  rw [View.read_apply]
  refine congrArg (V c (Pipeline.arrRef spec2 3)) (funext fun a => Fin.ext ?_)
  match a with
  | ⟨0, _⟩ => show win2_3.index t (0 : Fin 2) * 1 + 1 * 0 = 0; rw [e0]
  | ⟨1, _⟩ => show win2_3.index t (1 : Fin 2) * 128 + 1 * q.val = q.val; rw [e1]; omega
theorem row2_blk4 (c : Dev nD) (t : Fin cfg2.N) (q : Fin 128) :
    (iblk2 V c 4 t : Vec Ideal S1x128 .f32) (ix2 0 q) = (V c (Pipeline.arrRef spec2 4) : S1x128.Idx → EReal) (ix2 0 q) := by
  obtain ⟨-, -, -, -, -, -, -, -, -, -, e0, e1⟩ := idx_facts2 t
  unfold iblk2
  rw [View.read_apply]
  refine congrArg (V c (Pipeline.arrRef spec2 4)) (funext fun a => Fin.ext ?_)
  match a with
  | ⟨0, _⟩ => show win2_4.index t (0 : Fin 2) * 1 + 1 * 0 = 0; rw [e0]
  | ⟨1, _⟩ => show win2_4.index t (1 : Fin 2) * 128 + 1 * q.val = q.val; rw [e1]; omega

set_option maxHeartbeats 1000000 in

theorem flushed2_5_eq (c : Dev nD) (t : Fin cfg2.N) :
    (dat2 (F := Ideal) V c).flushed 5 t = ((cfg2.win 5).blk t).view.read (Elt Ideal)
      (Cert.Spec.normRelu (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S1x128) hz2]
  funext j
  obtain ⟨p, q, rfl⟩ : ∃ (p : Fin 2000) (q : Fin 128), j = (ix2 p q : S2000x128.Idx) := ⟨j 0, j 1, eq_ix2 (n0 := 2000) (n1 := 128) j⟩

  have hcut : ∀ (X : S2000x128.Idx → EReal) (y : S2000x128.Idx), (cfg2.win 5).cut (grid2.coords t) X y = X y := fun X y => rfl
  have hread : ∀ (G : S50000x128.Idx → EReal) (y : S2000x128.Idx),
      ((cfg2.win 5).blk t).view.read (Elt Ideal) G y = G (((cfg2.win 5).blk t).view.emb y) := fun G y => rfl
  rw [hcut, hread]
  rw [pay2_apply, rows2_blk, row2_blk1, row2_blk2, row2_blk3, row2_blk4]
  unfold Cert.Spec.normRelu
  rw [out2_blk_col]

theorem mem_blk2_5 (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole (Pipeline.arrRef spec2 5)).slice (win2_5.rect t)).set ↔ _
  rw [View.set_slice_whole, Rect.mem_set_unit]
  exact Iff.rfl

theorem covered2_5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, e2, e3, -⟩ := idx_facts2 t
  refine ⟨t, flush2_5 t, ?_⟩
  rw [mem_blk2_5]
  intro a
  match a with
  | ⟨0, _⟩ =>
    show win2_5.index t (0 : Fin 2) * 2000 ≤ (i 0).val ∧ (i 0).val < win2_5.index t (0 : Fin 2) * 2000 + 2000
    rw [e2, ht]; omega
  | ⟨1, _⟩ =>
    show win2_5.index t (1 : Fin 2) * 128 ≤ (i 1).val ∧ (i 1).val < win2_5.index t (1 : Fin 2) * 128 + 128
    rw [e3]; omega

theorem final2_5 (c : Dev nD) :
    (dat2 (F := Ideal) V c).arrAt 5 cfg2.N
      = Cert.Spec.normRelu (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 _ (fun t _ => flushed2_5_eq V c t) covered2_5

end Cert.KernelIdeal.Hand

end
-- ==== Proof.KiVal3.lean ====
import proofs.«126291_j72541997629772_2_alg».proof.Proof.KiReg3
import proofs.«126291_j72541997629772_2_alg».proof.Proof.Spec
import Idealize.ShloMosaic.Lib.ValueIdx
import Idealize.ShloMosaic.PureOps.Ideal.Laws
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

theorem dotL3_0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬ (0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem dotL3_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single rfl j k

theorem dotR3_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single rfl j k

theorem dotR3_1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬ (1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

theorem pay3_apply (x0 : FVec Ideal S2000x128 .f32) (x1 : FVec Ideal S128x128 .f32) (p : Fin 2000) (q : Fin 128) :
    k3_pay1 (F := Ideal) x0 x1 (ix2 p q) = ∑ k : Fin 128, x0 (ix2 p k) * x1 (ix2 k q) := by
  unfold k3_pay1
  try simp only [shapeCast_self]
  show FloatOps.matmul dot_S2000x128_S128x128_S2000x128_1_0_0_1_n_n none
    (truncf .bf16 x0 bitsLt_bf16_f32) (truncf .bf16 x1 bitsLt_bf16_f32) (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 p q)
      ((contrEquiv1 dot_S2000x128_S128x128_S2000x128_1_0_0_1_n_n 128 rfl rfl).symm k) = ix2 p k := by
    funext a; apply Fin.ext
    match a with
    | ⟨0, _⟩ => exact dotL3_0 _ _
    | ⟨1, _⟩ => exact (dotL3_1 _ _).trans hk
  have hr : dot_S2000x128_S128x128_S2000x128_1_0_0_1_n_n.rhsIdx (ix2 p q)
      ((contrEquiv1 dot_S2000x128_S128x128_S2000x128_1_0_0_1_n_n 128 rfl rfl).symm k) = ix2 k q := by
    funext a; apply Fin.ext
    match a with
    | ⟨0, _⟩ => exact (dotR3_0 _ _).trans hk
    | ⟨1, _⟩ => exact dotR3_1 _ _
  rw [hl, hr]
  rfl

section
variable (V : (c : Dev nD) → (b : Ref sig .tc) → Buf (Elt Ideal) ((c : Thread nD τ).loc b))

theorem hz3 : (![0, 0] : Fin 2 → Nat) = fun _ => 0 := funext fun a => by fin_cases a <;> rfl

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 1000000 in

theorem flushed3_2_eq (c : Dev nD) (t : Fin cfg3.N) :
    (dat3 (F := Ideal) V c).flushed 2 t = ((cfg3.win 2).blk t).view.read (Elt Ideal)
      (Cert.Spec.matProd (V c (Pipeline.arrRef spec3 0)) (V c (Pipeline.arrRef spec3 1))) := by
  show (cfg3.win 2).cut (grid3.coords t) ((dat3 V c).after 2 t) = _
  rw [after3_2]
  unfold out3_2
  rw [View.canon_unit_zero hz3]
  simp only [View.ld_unit_zero (S := S2000x128) hz3, View.ld_unit_zero (S := S128x128) hz3]
  obtain ⟨e0, e1, e2, e3, e4, e5⟩ := idx_facts3 t
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (ix2 p q)
    = Cert.Spec.matProd (V c (Pipeline.arrRef spec3 0)) (V c (Pipeline.arrRef spec3 1)) (((cfg3.win 2).blk t).view.emb (ix2 p q))
  rw [pay3_apply]
  unfold Cert.Spec.matProd
  refine Finset.sum_congr rfl fun k _ => ?_
  have h0 : ((cfg3.win 0).blk t).view.emb (ix2 p k) = ix2 ((((cfg3.win 2).blk t).view.emb (ix2 p q)) 0) k := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * k.val = k.val; omega
  have h1 : ((cfg3.win 1).blk t).view.emb (ix2 k q) = ix2 k ((((cfg3.win 2).blk t).view.emb (ix2 p q)) 1) := by
    funext a; apply Fin.ext
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega
  have a0 : (iblk3 V c 0 t : FVec Ideal S2000x128 .f32) (ix2 p k)
      = (V c (Pipeline.arrRef spec3 0) : S50000x128.Idx → EReal) (ix2 ((((cfg3.win 2).blk t).view.emb (ix2 p q)) 0) k) := by
    exact congrArg (V c (Pipeline.arrRef spec3 0) : S50000x128.Idx → EReal) h0
  have a1 : (iblk3 V c 1 t : FVec Ideal S128x128 .f32) (ix2 k q)
      = (V c (Pipeline.arrRef spec3 1) : S128x128.Idx → EReal) (ix2 k ((((cfg3.win 2).blk t).view.emb (ix2 p q)) 1)) := by
    exact congrArg (V c (Pipeline.arrRef spec3 1) : S128x128.Idx → EReal) h1
  rw [a0, a1]

theorem mem_blk3_2 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole (Pipeline.arrRef spec3 2)).slice (win3_2.rect t)).set ↔ _
  rw [View.set_slice_whole, Rect.mem_set_unit]
  exact Iff.rfl

theorem blkcover3_2 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨e0, e1, e2, e3, e4, e5⟩ := idx_facts3 t
  have ht : t.val = (i 0).val / 2000 := rfl
  refine ⟨t, flush3_2 t, ?_⟩
  rw [mem_blk3_2]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

theorem final3_2 (c : Dev nD) :
    (dat3 (F := Ideal) V c).arrAt 2 cfg3.N = Cert.Spec.matProd (V c (Pipeline.arrRef spec3 0)) (V c (Pipeline.arrRef spec3 1)) :=
  (dat3 (F := Ideal) V c).arrAt_eq_of_cover 2 (Cert.Spec.matProd (V c (Pipeline.arrRef spec3 0)) (V c (Pipeline.arrRef spec3 1)))
    (fun t _ => flushed3_2_eq V c t) (blkcover3_2)

end

end Cert.KernelIdeal.Hand
-- ==== Proof.KiPay4.lean ====
import proofs.«126291_j72541997629772_2_alg».proof.Proof.Gen.KernelIdeal.Skeleton
import proofs.«126291_j72541997629772_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand.R4

open Cert.KernelIdeal Cert.KernelIdeal.Gen
open Idealize.ShloMosaic Idealize.ShloMosaic.ValueIdx
open scoped BigOperators

theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_rows {a b : ℕ} (h : (⟨2, ![a, b]⟩ : Shape).Reduces [0] ⟨1, ![b]⟩) (j : Fin b) (k : Fin a) :
    h.lift (ix1 j) k = ix2 k j := by
  funext c
  refine Fin.ext ?_
  show h.liftVal (ix1 j) k.val c = (ix2 k j c).val
  unfold Shape.Reduces.liftVal
  match c with
  | ⟨0, _⟩ => simp
  | ⟨1, _⟩ =>
    simp

theorem multiReduction_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (lift_rows h j k)

theorem pay3_apply (b0 : Vec Ideal S2000x128 .bf16) (b1 : Vec Ideal S2000x1 .f32) (b2 : Vec Ideal S2000x128 .f32)
    (r : Fin 2000) (j : Fin 128) :
    k4_pay3 (F := Ideal) b0 b1 b2 (ix2 r j) = b0 (ix2 r j) * b1 (ix2 r 0) + b2 (ix2 r j) := by
  unfold k4_pay3
  rw [shapeCast_self b0, shapeCast_self b1, shapeCast_self b2]
  exact congrArg (fun x : EReal => b0 (ix2 r j) * x + b2 (ix2 r j)) (broadcastTo_col_apply b1 _ r j)

theorem pay4_apply (b0 : Vec Ideal S2000x128 .bf16) (b1 : Vec Ideal S2000x1 .f32) (b2 : Vec Ideal S2000x128 .f32)
    (s : Vec Ideal S1x128 .f32) (j : Fin 128) :
    k4_pay4 (F := Ideal) b0 b1 b2 s (ix2 0 j) = s (ix2 0 j) + ∑ r : Fin 2000, k4_pay3 (F := Ideal) b0 b1 b2 (ix2 r j) := by
  unfold k4_pay4
  refine (congrFun (shapeCast_self _ _) _).trans ?_
  refine congrArg (fun x : EReal => s (ix2 0 j) + x) ?_
  refine (shapeCast_a_1a_apply _ _ 0 j).trans ?_
  exact multiReduction_rows_apply _ _ _ _ _ j

theorem pay5_apply (b0 : Vec Ideal S2000x128 .bf16) (b1 : Vec Ideal S2000x1 .f32) (b2 : Vec Ideal S2000x128 .f32)
    (s : Vec Ideal S1x128 .f32) (j : Fin 128) :
    k4_pay5 (F := Ideal) b0 b1 b2 s (ix2 0 j)
      = s (ix2 0 j) + ∑ r : Fin 2000, k4_pay3 (F := Ideal) b0 b1 b2 (ix2 r j) * k4_pay3 (F := Ideal) b0 b1 b2 (ix2 r j) := by
  unfold k4_pay5
  refine (congrFun (shapeCast_self _ _) _).trans ?_
  refine congrArg (fun x : EReal => s (ix2 0 j) + x) ?_
  refine (shapeCast_a_1a_apply _ _ 0 j).trans ?_
  exact multiReduction_rows_apply _ _ _ _ _ j

theorem pay1_apply (j : Fin 128) : k4_pay1 (F := Ideal) (ix2 0 j) = Cert.Spec.zeroE := by
  unfold k4_pay1
  rw [shapeCast_self]
  rfl

theorem pay2_apply (j : Fin 128) : k4_pay2 (F := Ideal) (ix2 0 j) = Cert.Spec.zeroE := by
  unfold k4_pay2
  rw [shapeCast_self]
  rfl

end Cert.KernelIdeal.Hand.R4

end
-- ==== Proof.KiVal4Core.lean ====
import proofs.«126291_j72541997629772_2_alg».proof.Proof.Gen.KernelIdeal.Launch
import proofs.«126291_j72541997629772_2_alg».proof.Proof.Gen.KernelIdeal.Skeleton
import proofs.«126291_j72541997629772_2_alg».proof.Proof.Gen.KernelIdeal.Points
import proofs.«126291_j72541997629772_2_alg».proof.Proof.Spec
import proofs.«126291_j72541997629772_2_alg».proof.Proof.AlgBlock
import proofs.«126291_j72541997629772_2_alg».proof.Proof.KiPay4
import Idealize.ShloMosaic.Lib.Pipeline.Value
import Idealize.ShloMosaic.Lib.ValueIdx
import Idealize.ShloMosaic.Lib.ValueLayout
import Idealize.ShloMosaic.PureOps.Ideal.Laws

noncomputable section

namespace Cert.Alg

theorem acc_blocks4 {M : Type*} [AddCommMonoid M] (x : Fin 50000 → M) (acc : ℕ → M) (h0 : acc 0 = 0)
    (hs : ∀ (n : ℕ) (h : n < 25), acc (n + 1) = acc n + ∑ r : Fin 2000, x ⟨2000 * n + r.val, by omega⟩) :
    acc 25 = ∑ R : Fin 50000, x R := by
  have key : ∀ n : ℕ, n ≤ 25 → acc n = ∑ k ∈ Finset.range n,
      (if h : k < 25 then ∑ r : Fin 2000, x ⟨2000 * k + r.val, by omega⟩ else 0) := by
    intro n
    induction n with
    | zero => intro _; simp [h0]
    | succ n ih =>
      intro hn
      rw [hs n (by omega), ih (by omega), Finset.sum_range_succ, dif_pos (by omega : n < 25)]
  rw [key 25 le_rfl, Finset.sum_range, ← sum_blocks x]
  exact Finset.sum_congr rfl fun t _ => dif_pos t.isLt

end Cert.Alg

namespace Cert.KernelIdeal.Hand.R4

open Cert.KernelIdeal Cert.KernelIdeal.Gen
open Idealize.ShloMosaic Idealize.ShloMosaic.TcCoe Idealize.ShloMosaic.ValueIdx
open Idealize.ShloMosaic.Rounds
open Idealize.ShloMosaic.Pipeline (Dat Cfg Window)
open scoped BigOperators

section Region1
variable (V : (c : Dev nD) → (b : Ref sig .tc) → Buf (Elt Ideal) ((c : Thread nD τ).loc b))

theorem idx1_in : ∀ t : Fin cfg4.N, (win4_0.index t 0 = t.val ∧ win4_0.index t 1 = 0) ∧ (win4_1.index t 0 = t.val ∧ win4_1.index t 1 = 0)
    ∧ (win4_2.index t 0 = t.val ∧ win4_2.index t 1 = 0) :=
  (by decide +kernel : ∀ t : Fin grid4.N, (win4_0.index t 0 = t.val ∧ win4_0.index t 1 = 0) ∧ (win4_1.index t 0 = t.val ∧ win4_1.index t 1 = 0)
    ∧ (win4_2.index t 0 = t.val ∧ win4_2.index t 1 = 0))

theorem row_lt (t : Fin cfg4.N) (r : Fin 2000) : 2000 * t.val + r.val < 50000 := by
  have := t.isLt; have : cfg4.N = 25 := N_4; omega

theorem blk4_0_apply (c : Dev nD) (A : Buf (Elt Ideal) ((c : Thread nD τ).loc (Pipeline.arrRef spec4 0))) (t : Fin cfg4.N) (r : Fin 2000) (j : Fin 128) :
    ((cfg4.win 0).blk t).view.read (Elt Ideal) A (ix2 r j) = A (ix2 (⟨2000 * t.val + r.val, row_lt t r⟩ : Fin 50000) j) := by
  rw [View.read_apply]
  show A _ = A _
  congr 1
  funext a
  apply Fin.ext
  match a with
  | ⟨0, _⟩ => show win4_0.index t 0 * 2000 + 1 * r.val = 2000 * t.val + r.val; rw [(idx1_in t).1.1]; omega
  | ⟨1, _⟩ => show win4_0.index t 1 * 128 + 1 * j.val = j.val; rw [(idx1_in t).1.2]; omega

theorem blk4_1_apply (c : Dev nD) (A : Buf (Elt Ideal) ((c : Thread nD τ).loc (Pipeline.arrRef spec4 1))) (t : Fin cfg4.N) (r : Fin 2000) :
    ((cfg4.win 1).blk t).view.read (Elt Ideal) A (ix2 r (0 : Fin 1)) = A (ix2 (⟨2000 * t.val + r.val, row_lt t r⟩ : Fin 50000) (0 : Fin 1)) := by
  rw [View.read_apply]
  show A _ = A _
  congr 1
  funext a
  apply Fin.ext
  match a with
  | ⟨0, _⟩ => show win4_1.index t 0 * 2000 + 1 * r.val = 2000 * t.val + r.val; rw [(idx1_in t).2.1.1]; omega
  | ⟨1, _⟩ => show win4_1.index t 1 * 1 + 1 * 0 = 0; rw [(idx1_in t).2.1.2]

theorem blk4_2_apply (c : Dev nD) (A : Buf (Elt Ideal) ((c : Thread nD τ).loc (Pipeline.arrRef spec4 2))) (t : Fin cfg4.N) (r : Fin 2000) (j : Fin 128) :
    ((cfg4.win 2).blk t).view.read (Elt Ideal) A (ix2 r j) = A (ix2 (⟨2000 * t.val + r.val, row_lt t r⟩ : Fin 50000) j) := by
  rw [View.read_apply]
  show A _ = A _
  congr 1
  funext a
  apply Fin.ext
  match a with
  | ⟨0, _⟩ => show win4_2.index t 0 * 2000 + 1 * r.val = 2000 * t.val + r.val; rw [(idx1_in t).2.2.1]; omega
  | ⟨1, _⟩ => show win4_2.index t 1 * 128 + 1 * j.val = j.val; rw [(idx1_in t).2.2.2]; omega

theorem idx1_out : ∀ t : Fin cfg4.N, (win4_4.index t 0 = 0 ∧ win4_4.index t 1 = 0) ∧ (win4_5.index t 0 = 0 ∧ win4_5.index t 1 = 0) :=
  (by decide +kernel : ∀ t : Fin grid4.N, (win4_4.index t 0 = 0 ∧ win4_4.index t 1 = 0) ∧ (win4_5.index t 0 = 0 ∧ win4_5.index t 1 = 0))

abbrev t1_last : Fin cfg4.N := ⟨24, by decide⟩

theorem arrAt4_4_of {c : Dev nD} (dat : Dat τ (Elt Ideal) Unit ℕ (UR sig nD τ) ℕ cfg4 c) (X : Vec Ideal S1x128 .f32)
    (h : ∀ t : Fin cfg4.N, t.val = 24 → dat.after 4 t = X) : dat.arrAt 4 cfg4.N = X := by
  have hN : cfg4.N = 25 := N_4
  refine dat.arrAt_eq_of_cover 4 X (fun t hf => ?_) (fun i => ?_)
  · have h24 : t.val = 24 := by have := (flush4_4 t).mp hf; have := t.isLt; omega
    show (cfg4.win 4).cut (grid4.coords t) (dat.after 4 t) = _
    rw [h t h24]
    have hz' : (fun a => win4_4.index t a * (Pipeline.arrRef spec4 4).ty.shape.size a) = fun _ => 0 := funext fun a => by
      match a with
      | ⟨0, _⟩ => show win4_4.index t 0 * 1 = 0; rw [(idx1_out t).1.1]
      | ⟨1, _⟩ => show win4_4.index t 1 * 128 = 0; rw [(idx1_out t).1.2]
    exact (Memref.read_access_unit_zero (Elt Ideal) (Pipeline.arrRef spec4 4) hz' (fun a => by rw [congrFun hz' a]; simp) X).symm
  · refine ⟨t1_last, (flush4_4 t1_last).mpr rfl, ?_⟩
    show i ∈ ((View.whole (Pipeline.arrRef spec4 4)).slice (win4_4.rect t1_last)).set
    rw [View.set_slice_whole, Rect.mem_set_unit]
    intro a
    have h0 : (i 0 : Nat) < 1 := (i 0).isLt
    have h1 : (i 1 : Nat) < 128 := (i 1).isLt
    match a with
    | ⟨0, _⟩ =>
      show win4_4.index t1_last 0 * win4_4.size 0 ≤ (i 0 : Nat) ∧ (i 0 : Nat) < win4_4.index t1_last 0 * win4_4.size 0 + win4_4.xsize (grid4.coords t1_last) 0
      rw [show win4_4.index t1_last 0 * win4_4.size 0 = 0 from by decide +kernel, show win4_4.xsize (grid4.coords t1_last) 0 = 1 from by decide +kernel]; omega
    | ⟨1, _⟩ =>
      show win4_4.index t1_last 1 * win4_4.size 1 ≤ (i 1 : Nat) ∧ (i 1 : Nat) < win4_4.index t1_last 1 * win4_4.size 1 + win4_4.xsize (grid4.coords t1_last) 1
      rw [show win4_4.index t1_last 1 * win4_4.size 1 = 0 from by decide +kernel, show win4_4.xsize (grid4.coords t1_last) 1 = 128 from by decide +kernel]; omega

section Core
variable (c : Dev nD) (A0 : Buf (Elt Ideal) ((c : Thread nD τ).loc (Pipeline.arrRef spec4 0)))
  (A1 : Buf (Elt Ideal) ((c : Thread nD τ).loc (Pipeline.arrRef spec4 1)))
  (A2 : Buf (Elt Ideal) ((c : Thread nD τ).loc (Pipeline.arrRef spec4 2)))

theorem pay3_blk (t : Fin cfg4.N) (r : Fin 2000) (j : Fin 128) :
    k4_pay3 (F := Ideal) (((cfg4.win 0).blk t).view.read (Elt Ideal) A0) (((cfg4.win 1).blk t).view.read (Elt Ideal) A1)
        (((cfg4.win 2).blk t).view.read (Elt Ideal) A2) (ix2 r j)
      = Cert.Spec.selfPlusMsg A0 A1 A2 (ix2 (⟨2000 * t.val + r.val, row_lt t r⟩ : Fin 50000) j) := by
  refine (pay3_apply _ _ _ r j).trans ?_
  rw [blk4_0_apply c A0 t r j, blk4_1_apply c A1 t r, blk4_2_apply c A2 t r j]
  rfl

theorem colSum_of_rec (S : ℕ → Vec Ideal S1x128 .f32) (h0 : S 0 = k4_pay1 (F := Ideal))
    (hs : ∀ (n : ℕ) (h : n < cfg4.N), S (n + 1) = k4_pay4 (F := Ideal) (((cfg4.win 0).blk ⟨n, h⟩).view.read (Elt Ideal) A0)
      (((cfg4.win 1).blk ⟨n, h⟩).view.read (Elt Ideal) A1) (((cfg4.win 2).blk ⟨n, h⟩).view.read (Elt Ideal) A2) (S n)) :
    S 25 = Cert.Spec.colSum (Cert.Spec.selfPlusMsg A0 A1 A2) := by
  have hN : cfg4.N = 25 := N_4
  funext i
  obtain ⟨u, j, rfl⟩ : ∃ (u : Fin 1) (j : Fin 128), i = ix2 u j := ⟨i 0, i 1, eq_ix2 i⟩
  obtain rfl : u = 0 := Subsingleton.elim _ _
  show S 25 (ix2 0 j) = ∑ R : Fin 50000, Cert.Spec.selfPlusMsg A0 A1 A2 (ix2 R j)
  refine Cert.Alg.acc_blocks4 (fun R => Cert.Spec.selfPlusMsg A0 A1 A2 (ix2 R j)) (fun n => S n (ix2 0 j)) ?_ ?_
  · show S 0 (ix2 0 j) = 0
    rw [h0, pay1_apply]
    exact Ideal.ofBits_zero_f32
  · intro n h
    have h' : n < cfg4.N := by omega
    show S (n + 1) (ix2 0 j) = S n (ix2 0 j) + _
    rw [hs n h']
    refine (pay4_apply _ _ _ (S n) j).trans ?_
    refine congrArg (fun x : EReal => S n (ix2 0 j) + x) ?_
    exact Finset.sum_congr rfl fun r _ => pay3_blk c A0 A1 A2 ⟨n, h'⟩ r j

end Core

section Core2
variable (c : Dev nD) (A0 : Buf (Elt Ideal) ((c : Thread nD τ).loc (Pipeline.arrRef spec4 0)))
  (A1 : Buf (Elt Ideal) ((c : Thread nD τ).loc (Pipeline.arrRef spec4 1)))
  (A2 : Buf (Elt Ideal) ((c : Thread nD τ).loc (Pipeline.arrRef spec4 2)))

theorem colSumSq_of_rec (S : ℕ → Vec Ideal S1x128 .f32) (h0 : S 0 = k4_pay2 (F := Ideal))
    (hs : ∀ (n : ℕ) (h : n < cfg4.N), S (n + 1) = k4_pay5 (F := Ideal) (((cfg4.win 0).blk ⟨n, h⟩).view.read (Elt Ideal) A0)
      (((cfg4.win 1).blk ⟨n, h⟩).view.read (Elt Ideal) A1) (((cfg4.win 2).blk ⟨n, h⟩).view.read (Elt Ideal) A2) (S n)) :
    S 25 = Cert.Spec.colSumSq (Cert.Spec.selfPlusMsg A0 A1 A2) := by
  have hN : cfg4.N = 25 := N_4
  funext i
  obtain ⟨u, j, rfl⟩ : ∃ (u : Fin 1) (j : Fin 128), i = ix2 u j := ⟨i 0, i 1, eq_ix2 i⟩
  obtain rfl : u = 0 := Subsingleton.elim _ _
  show S 25 (ix2 0 j) = ∑ R : Fin 50000, Cert.Spec.selfPlusMsg A0 A1 A2 (ix2 R j) * Cert.Spec.selfPlusMsg A0 A1 A2 (ix2 R j)
  refine Cert.Alg.acc_blocks4 (fun R => Cert.Spec.selfPlusMsg A0 A1 A2 (ix2 R j) * Cert.Spec.selfPlusMsg A0 A1 A2 (ix2 R j))
    (fun n => S n (ix2 0 j)) ?_ ?_
  · show S 0 (ix2 0 j) = 0
    rw [h0, pay2_apply]
    exact Ideal.ofBits_zero_f32
  · intro n h
    have h' : n < cfg4.N := by omega
    show S (n + 1) (ix2 0 j) = S n (ix2 0 j) + _
    rw [hs n h']
    refine (pay5_apply _ _ _ (S n) j).trans ?_
    refine congrArg (fun x : EReal => S n (ix2 0 j) + x) ?_
    exact Finset.sum_congr rfl fun r _ => by rw [pay3_blk c A0 A1 A2 ⟨n, h'⟩ r j]

end Core2

theorem arrAt4_5_of {c : Dev nD} (dat : Dat τ (Elt Ideal) Unit ℕ (UR sig nD τ) ℕ cfg4 c) (X : Vec Ideal S1x128 .f32)
    (h : ∀ t : Fin cfg4.N, t.val = 24 → dat.after 5 t = X) : dat.arrAt 5 cfg4.N = X := by
  have hN : cfg4.N = 25 := N_4
  refine dat.arrAt_eq_of_cover 5 X (fun t hf => ?_) (fun i => ?_)
  · have h24 : t.val = 24 := by have := (flush4_5 t).mp hf; have := t.isLt; omega
    show (cfg4.win 5).cut (grid4.coords t) (dat.after 5 t) = _
    rw [h t h24]
    have hz' : (fun a => win4_5.index t a * (Pipeline.arrRef spec4 5).ty.shape.size a) = fun _ => 0 := funext fun a => by
      match a with
      | ⟨0, _⟩ => show win4_5.index t 0 * 1 = 0; rw [(idx1_out t).2.1]
      | ⟨1, _⟩ => show win4_5.index t 1 * 128 = 0; rw [(idx1_out t).2.2]
    exact (Memref.read_access_unit_zero (Elt Ideal) (Pipeline.arrRef spec4 5) hz' (fun a => by rw [congrFun hz' a]; simp) X).symm
  · refine ⟨t1_last, (flush4_5 t1_last).mpr rfl, ?_⟩
    show i ∈ ((View.whole (Pipeline.arrRef spec4 5)).slice (win4_5.rect t1_last)).set
    rw [View.set_slice_whole, Rect.mem_set_unit]
    intro a
    have h0 : (i 0 : Nat) < 1 := (i 0).isLt
    have h1 : (i 1 : Nat) < 128 := (i 1).isLt
    match a with
    | ⟨0, _⟩ =>
      show win4_5.index t1_last 0 * win4_5.size 0 ≤ (i 0 : Nat) ∧ (i 0 : Nat) < win4_5.index t1_last 0 * win4_5.size 0 + win4_5.xsize (grid4.coords t1_last) 0
      rw [show win4_5.index t1_last 0 * win4_5.size 0 = 0 from by decide +kernel, show win4_5.xsize (grid4.coords t1_last) 0 = 1 from by decide +kernel]; omega
    | ⟨1, _⟩ =>
      show win4_5.index t1_last 1 * win4_5.size 1 ≤ (i 1 : Nat) ∧ (i 1 : Nat) < win4_5.index t1_last 1 * win4_5.size 1 + win4_5.xsize (grid4.coords t1_last) 1
      rw [show win4_5.index t1_last 1 * win4_5.size 1 = 0 from by decide +kernel, show win4_5.xsize (grid4.coords t1_last) 1 = 128 from by decide +kernel]; omega

end Region1
end Cert.KernelIdeal.Hand.R4
end
-- ==== Proof.KiVal4.lean ====
import proofs.«126291_j72541997629772_2_alg».proof.Proof.KiReg4
import proofs.«126291_j72541997629772_2_alg».proof.Proof.KiVal4Core

noncomputable section

namespace Cert.KernelIdeal.Hand.R4

open Cert.KernelIdeal Cert.KernelIdeal.Gen
open Idealize.ShloMosaic Idealize.ShloMosaic.TcCoe Idealize.ShloMosaic.ValueIdx
open Idealize.ShloMosaic.Rounds
open Idealize.ShloMosaic.Pipeline (Dat Cfg Window)
open scoped BigOperators

theorem idx1_3 : ∀ t : Fin cfg4.N, win4_3.index t 0 = t.val ∧ win4_3.index t 1 = 0 :=
  (by decide +kernel : ∀ t : Fin grid4.N, win4_3.index t 0 = t.val ∧ win4_3.index t 1 = 0)

theorem blk4_3_apply (c : Dev nD) (A : Buf (Elt Ideal) ((c : Thread nD τ).loc (Pipeline.arrRef spec4 3))) (t : Fin cfg4.N) (r : Fin 2000) (j : Fin 128) :
    ((cfg4.win 3).blk t).view.read (Elt Ideal) A (ix2 r j) = A (ix2 (⟨2000 * t.val + r.val, row_lt t r⟩ : Fin 50000) j) := by
  rw [View.read_apply]
  show A _ = A _
  congr 1
  funext a
  apply Fin.ext
  match a with
  | ⟨0, _⟩ => show win4_3.index t 0 * 2000 + 1 * r.val = 2000 * t.val + r.val; rw [(idx1_3 t).1]; omega
  | ⟨1, _⟩ => show win4_3.index t 1 * 128 + 1 * j.val = j.val; rw [(idx1_3 t).2]; omega

theorem mem_blk4_3 (t : Fin cfg4.N) (i : S50000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole (Pipeline.arrRef spec4 3)).slice (win4_3.rect t)).set ↔ _
  rw [View.set_slice_whole, Rect.mem_set_unit]
  exact Iff.rfl

theorem covered4_3 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hlt : (i 0).val / 2000 < cfg4.N := by rw [show cfg4.N = 25 from N_4]; omega
  obtain ⟨e30, e31⟩ := idx1_3 ⟨(i 0).val / 2000, hlt⟩
  have e30' : win4_3.index ⟨(i 0).val / 2000, hlt⟩ 0 = (i 0).val / 2000 := e30
  refine ⟨⟨(i 0).val / 2000, hlt⟩, flush4_3 _, ?_⟩
  rw [mem_blk4_3]
  intro a
  match a with
  | ⟨0, _⟩ => show win4_3.index ⟨(i 0).val / 2000, hlt⟩ 0 * 2000 ≤ (i 0).val ∧ (i 0).val < win4_3.index ⟨(i 0).val / 2000, hlt⟩ 0 * 2000 + 2000; omega
  | ⟨1, _⟩ => show win4_3.index ⟨(i 0).val / 2000, hlt⟩ 1 * 128 ≤ (i 1).val ∧ (i 1).val < win4_3.index ⟨(i 0).val / 2000, hlt⟩ 1 * 128 + 128; omega

section Region1
variable (V : (c : Dev nD) → (b : Ref sig .tc) → Buf (Elt Ideal) ((c : Thread nD τ).loc b))

theorem flushed4_3_eq (c : Dev nD) (t : Fin cfg4.N) :
    (dat4 (F := Ideal) V c).flushed 3 t = ((cfg4.win 3).blk t).view.read (Elt Ideal)
      (Cert.Spec.selfPlusMsg (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold out4_3
  rw [View.canon_unit_zero hz4]
  simp only [View.ld_unit_zero (S := S2000x128) hz4, View.ld_unit_zero (S := S2000x1) hz4]
  funext i
  obtain ⟨r, j, rfl⟩ : ∃ (r : Fin 2000) (j : Fin 128), i = ix2 r j := ⟨i 0, i 1, eq_ix2 i⟩
  refine Eq.trans ?_ (blk4_3_apply c _ t r j).symm
  exact pay3_blk c (V c (Pipeline.arrRef spec4 0)) (V c (Pipeline.arrRef spec4 1)) (V c (Pipeline.arrRef spec4 2)) t r j

theorem final4_3 (c : Dev nD) : (dat4 (F := Ideal) V c).arrAt 3 cfg4.N
    = Cert.Spec.selfPlusMsg (V c (Pipeline.arrRef spec4 0)) (V c (Pipeline.arrRef spec4 1)) (V c (Pipeline.arrRef spec4 2)) :=
  (dat4 (F := Ideal) V c).arrAt_eq_of_cover 3 _ (fun t _ => flushed4_3_eq V c t) covered4_3

theorem scr4_fst (c : Dev nD) : (scr4 (F := Ideal) V c 25).1
    = Cert.Spec.colSum (Cert.Spec.selfPlusMsg (V c (Pipeline.arrRef spec4 0)) (V c (Pipeline.arrRef spec4 1)) (V c (Pipeline.arrRef spec4 2))) :=
  colSum_of_rec c (V c (Pipeline.arrRef spec4 0)) (V c (Pipeline.arrRef spec4 1)) (V c (Pipeline.arrRef spec4 2))
    (fun n => (scr4 (F := Ideal) V c n).1) rfl (fun n h => congrArg Prod.fst (scr4_succ (F := Ideal) V c ⟨n, h⟩))

theorem scr4_snd (c : Dev nD) : (scr4 (F := Ideal) V c 25).2
    = Cert.Spec.colSumSq (Cert.Spec.selfPlusMsg (V c (Pipeline.arrRef spec4 0)) (V c (Pipeline.arrRef spec4 1)) (V c (Pipeline.arrRef spec4 2))) :=
  colSumSq_of_rec c (V c (Pipeline.arrRef spec4 0)) (V c (Pipeline.arrRef spec4 1)) (V c (Pipeline.arrRef spec4 2))
    (fun n => (scr4 (F := Ideal) V c n).2) rfl (fun n h => congrArg Prod.snd (scr4_succ (F := Ideal) V c ⟨n, h⟩))

theorem final4_4 (c : Dev nD) : (dat4 (F := Ideal) V c).arrAt 4 cfg4.N
    = Cert.Spec.colSum (Cert.Spec.selfPlusMsg (V c (Pipeline.arrRef spec4 0)) (V c (Pipeline.arrRef spec4 1)) (V c (Pipeline.arrRef spec4 2))) := by
  refine (arrAt4_4_of (dat4 (F := Ideal) V c) (scr4 (F := Ideal) V c 25).1 (fun t ht => ?_)).trans (scr4_fst V c)
  rw [after4_4]
  unfold out4_4
  exact View.canon_unit_zero hz4 _ _

theorem final4_5 (c : Dev nD) : (dat4 (F := Ideal) V c).arrAt 5 cfg4.N
    = Cert.Spec.colSumSq (Cert.Spec.selfPlusMsg (V c (Pipeline.arrRef spec4 0)) (V c (Pipeline.arrRef spec4 1)) (V c (Pipeline.arrRef spec4 2))) := by
  refine (arrAt4_5_of (dat4 (F := Ideal) V c) (scr4 (F := Ideal) V c 25).2 (fun t ht => ?_)).trans (scr4_snd V c)
  rw [after4_5]
  unfold out4_5
  exact View.canon_unit_zero hz4 _ _

end Region1

end Cert.KernelIdeal.Hand.R4

end
-- ==== Proof.KiVal5.lean ====
import proofs.«126291_j72541997629772_2_alg».proof.Proof.KiReg5
import proofs.«126291_j72541997629772_2_alg».proof.Proof.Spec
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem rsqrt5_apply {s : Shape} {φ : FTy} (a : FVec Ideal s φ) (i : s.Idx) : rsqrt a i = Ideal.rsqrt (a i) := rfl

theorem bcastRow5_apply {α : Type} (v : S1x128.Idx → α) (p : Fin 2000) (q : Fin 128) :
    broadcastTo S2000x128 v broadcasts_S1x128_S2000x128 (ix2 p q) = v (ix2 0 q) :=
  broadcastTo_apply v _ (ix2 p q) (ix2 0 q) (fun a => by match a with | ⟨0, _⟩ => rfl | ⟨1, _⟩ => rfl)

theorem pay5_apply (x : Vec Ideal S2000x128 .f32) (mu var g b : Vec Ideal S1x128 .f32) (p : Fin 2000) (q : Fin 128) :
    k5_pay1 x mu var g b (ix2 p q)
      = max (((x (ix2 p q) - mu (ix2 0 q)) * Ideal.rsqrt (max (var (ix2 0 q)) Cert.Spec.zeroE + Cert.Spec.epsE)) * g (ix2 0 q)
          + b (ix2 0 q)) Cert.Spec.zeroE := by
  unfold k5_pay1
  simp only [shapeCast_self, maximumf_apply, addf_apply, mulf_apply, subf_apply, rsqrt5_apply, bcastRow5_apply, broadcast_apply]
  rfl

theorem hz5 : (![0, 0] : Fin 2 → Nat) = fun _ => 0 := funext fun a => by fin_cases a <;> rfl

theorem idx_facts5 : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

variable (V : (c : Dev nD) → (b : Ref sig .tc) → Buf (Elt Ideal) ((c : Thread nD τ).loc b))

theorem rows5_blk (c : Dev nD) (t : Fin cfg5.N) (j : S2000x128.Idx) :
    (iblk5 V c 0 t : Vec Ideal S2000x128 .f32) j = (V c (Pipeline.arrRef spec5 0) : S50000x128.Idx → EReal) (((cfg5.win 5).blk t).view.emb j) := by
  obtain ⟨e0, e1, e2, e3, -⟩ := idx_facts5 t
  unfold iblk5
  rw [View.read_apply]
  show V c (Pipeline.arrRef spec5 0) (((cfg5.win 0).blk t).view.emb j) = V c (Pipeline.arrRef spec5 0) (((cfg5.win 5).blk t).view.emb j)
  refine congrArg (V c (Pipeline.arrRef spec5 0)) (funext fun a => Fin.ext ?_)
  match a with
  | ⟨0, _⟩ => show win5_0.index t (0 : Fin 2) * 2000 + 1 * (j 0).val = win5_5.index t (0 : Fin 2) * 2000 + 1 * (j 0).val; rw [e0, e2]
  | ⟨1, _⟩ => show win5_0.index t (1 : Fin 2) * 128 + 1 * (j 1).val = win5_5.index t (1 : Fin 2) * 128 + 1 * (j 1).val; rw [e1, e3]

theorem out5_blk_col (t : Fin cfg5.N) (p : Fin 2000) (q : Fin 128) :
    (((cfg5.win 5).blk t).view.emb (ix2 p q) : S50000x128.Idx) 1 = q := by
  obtain ⟨-, -, -, e3, -⟩ := idx_facts5 t
  apply Fin.ext
  show win5_5.index t (1 : Fin 2) * 128 + 1 * q.val = q.val
  rw [e3]; omega

theorem row5_blk1 (c : Dev nD) (t : Fin cfg5.N) (q : Fin 128) :
    (iblk5 V c 1 t : Vec Ideal S1x128 .f32) (ix2 0 q) = (V c (Pipeline.arrRef spec5 1) : S1x128.Idx → EReal) (ix2 0 q) := by
  obtain ⟨-, -, -, -, e0, e1, -⟩ := idx_facts5 t
  unfold iblk5
  rw [View.read_apply]
  refine congrArg (V c (Pipeline.arrRef spec5 1)) (funext fun a => Fin.ext ?_)
  match a with
  | ⟨0, _⟩ => show win5_1.index t (0 : Fin 2) * 1 + 1 * 0 = 0; rw [e0]
  | ⟨1, _⟩ => show win5_1.index t (1 : Fin 2) * 128 + 1 * q.val = q.val; rw [e1]; omega
theorem row5_blk2 (c : Dev nD) (t : Fin cfg5.N) (q : Fin 128) :
    (iblk5 V c 2 t : Vec Ideal S1x128 .f32) (ix2 0 q) = (V c (Pipeline.arrRef spec5 2) : S1x128.Idx → EReal) (ix2 0 q) := by
  obtain ⟨-, -, -, -, -, -, e0, e1, -⟩ := idx_facts5 t
  unfold iblk5
  rw [View.read_apply]
  refine congrArg (V c (Pipeline.arrRef spec5 2)) (funext fun a => Fin.ext ?_)
  match a with
  | ⟨0, _⟩ => show win5_2.index t (0 : Fin 2) * 1 + 1 * 0 = 0; rw [e0]
  | ⟨1, _⟩ => show win5_2.index t (1 : Fin 2) * 128 + 1 * q.val = q.val; rw [e1]; omega
theorem row5_blk3 (c : Dev nD) (t : Fin cfg5.N) (q : Fin 128) :
    (iblk5 V c 3 t : Vec Ideal S1x128 .f32) (ix2 0 q) = (V c (Pipeline.arrRef spec5 3) : S1x128.Idx → EReal) (ix2 0 q) := by
  obtain ⟨-, -, -, -, -, -, -, -, e0, e1, -⟩ := idx_facts5 t
  unfold iblk5
  rw [View.read_apply]
  refine congrArg (V c (Pipeline.arrRef spec5 3)) (funext fun a => Fin.ext ?_)
  match a with
  | ⟨0, _⟩ => show win5_3.index t (0 : Fin 2) * 1 + 1 * 0 = 0; rw [e0]
  | ⟨1, _⟩ => show win5_3.index t (1 : Fin 2) * 128 + 1 * q.val = q.val; rw [e1]; omega
theorem row5_blk4 (c : Dev nD) (t : Fin cfg5.N) (q : Fin 128) :
    (iblk5 V c 4 t : Vec Ideal S1x128 .f32) (ix2 0 q) = (V c (Pipeline.arrRef spec5 4) : S1x128.Idx → EReal) (ix2 0 q) := by
  obtain ⟨-, -, -, -, -, -, -, -, -, -, e0, e1⟩ := idx_facts5 t
  unfold iblk5
  rw [View.read_apply]
  refine congrArg (V c (Pipeline.arrRef spec5 4)) (funext fun a => Fin.ext ?_)
  match a with
  | ⟨0, _⟩ => show win5_4.index t (0 : Fin 2) * 1 + 1 * 0 = 0; rw [e0]
  | ⟨1, _⟩ => show win5_4.index t (1 : Fin 2) * 128 + 1 * q.val = q.val; rw [e1]; omega

set_option maxHeartbeats 1000000 in

theorem flushed5_5_eq (c : Dev nD) (t : Fin cfg5.N) :
    (dat5 (F := Ideal) V c).flushed 5 t = ((cfg5.win 5).blk t).view.read (Elt Ideal)
      (Cert.Spec.normRelu (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero hz5]
  simp only [View.ld_unit_zero (S := S2000x128) hz5, View.ld_unit_zero (S := S1x128) hz5]
  funext j
  obtain ⟨p, q, rfl⟩ : ∃ (p : Fin 2000) (q : Fin 128), j = (ix2 p q : S2000x128.Idx) := ⟨j 0, j 1, eq_ix2 (n0 := 2000) (n1 := 128) j⟩

  have hcut : ∀ (X : S2000x128.Idx → EReal) (y : S2000x128.Idx), (cfg5.win 5).cut (grid5.coords t) X y = X y := fun X y => rfl
  have hread : ∀ (G : S50000x128.Idx → EReal) (y : S2000x128.Idx),
      ((cfg5.win 5).blk t).view.read (Elt Ideal) G y = G (((cfg5.win 5).blk t).view.emb y) := fun G y => rfl
  rw [hcut, hread]
  rw [pay5_apply, rows5_blk, row5_blk1, row5_blk2, row5_blk3, row5_blk4]
  unfold Cert.Spec.normRelu
  rw [out5_blk_col]

theorem mem_blk5_5 (t : Fin cfg5.N) (i : S50000x128.Idx) :
    i ∈ ((cfg5.win 5).blk t).view.set ↔ ∀ a : Fin 2, win5_5.index t a * S2000x128.size a ≤ (i a).val
      ∧ (i a).val < win5_5.index t a * S2000x128.size a + S2000x128.size a := by
  show i ∈ ((View.whole (Pipeline.arrRef spec5 5)).slice (win5_5.rect t)).set ↔ _
  rw [View.set_slice_whole, Rect.mem_set_unit]
  exact Iff.rfl

theorem covered5_5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 25 := N_5
  obtain ⟨t, ht⟩ : ∃ t : Fin cfg5.N, t.val = (i 0).val / 2000 := ⟨⟨(i 0).val / 2000, by rw [hN]; omega⟩, rfl⟩
  obtain ⟨-, -, e2, e3, -⟩ := idx_facts5 t
  refine ⟨t, flush5_5 t, ?_⟩
  rw [mem_blk5_5]
  intro a
  match a with
  | ⟨0, _⟩ =>
    show win5_5.index t (0 : Fin 2) * 2000 ≤ (i 0).val ∧ (i 0).val < win5_5.index t (0 : Fin 2) * 2000 + 2000
    rw [e2, ht]; omega
  | ⟨1, _⟩ =>
    show win5_5.index t (1 : Fin 2) * 128 ≤ (i 1).val ∧ (i 1).val < win5_5.index t (1 : Fin 2) * 128 + 128
    rw [e3]; omega

theorem final5_5 (c : Dev nD) :
    (dat5 (F := Ideal) V c).arrAt 5 cfg5.N
      = Cert.Spec.normRelu (V c (Pipeline.arrRef spec5 0)) (V c (Pipeline.arrRef spec5 1)) (V c (Pipeline.arrRef spec5 2))
          (V c (Pipeline.arrRef spec5 3)) (V c (Pipeline.arrRef spec5 4)) :=
  (dat5 (F := Ideal) V c).arrAt_eq_of_cover 5 _ (fun t _ => flushed5_5_eq V c t) covered5_5

end Cert.KernelIdeal.Hand

end
-- ==== Proof.KiVal6.lean ====
import proofs.«126291_j72541997629772_2_alg».proof.Proof.KiReg6
import proofs.«126291_j72541997629772_2_alg».proof.Proof.Spec
import Idealize.ShloMosaic.Lib.ValueIdx
import Idealize.ShloMosaic.PureOps.Ideal.Laws
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

theorem dotL6_0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬ (0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem dotL6_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single rfl j k

theorem dotR6_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single rfl j k

theorem dotR6_1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬ (1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

theorem pay6_apply (x0 : FVec Ideal S2000x128 .f32) (x1 : FVec Ideal S128x128 .f32) (p : Fin 2000) (q : Fin 128) :
    k6_pay1 (F := Ideal) x0 x1 (ix2 p q) = ∑ k : Fin 128, x0 (ix2 p k) * x1 (ix2 k q) := by
  unfold k6_pay1
  try simp only [shapeCast_self]
  show FloatOps.matmul dot_S2000x128_S128x128_S2000x128_1_0_0_1_n_n none
    (truncf .bf16 x0 bitsLt_bf16_f32) (truncf .bf16 x1 bitsLt_bf16_f32) (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 p q)
      ((contrEquiv1 dot_S2000x128_S128x128_S2000x128_1_0_0_1_n_n 128 rfl rfl).symm k) = ix2 p k := by
    funext a; apply Fin.ext
    match a with
    | ⟨0, _⟩ => exact dotL6_0 _ _
    | ⟨1, _⟩ => exact (dotL6_1 _ _).trans hk
  have hr : dot_S2000x128_S128x128_S2000x128_1_0_0_1_n_n.rhsIdx (ix2 p q)
      ((contrEquiv1 dot_S2000x128_S128x128_S2000x128_1_0_0_1_n_n 128 rfl rfl).symm k) = ix2 k q := by
    funext a; apply Fin.ext
    match a with
    | ⟨0, _⟩ => exact (dotR6_0 _ _).trans hk
    | ⟨1, _⟩ => exact dotR6_1 _ _
  rw [hl, hr]
  rfl

section
variable (V : (c : Dev nD) → (b : Ref sig .tc) → Buf (Elt Ideal) ((c : Thread nD τ).loc b))

theorem hz6 : (![0, 0] : Fin 2 → Nat) = fun _ => 0 := funext fun a => by fin_cases a <;> rfl

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

set_option maxHeartbeats 1000000 in

theorem flushed6_2_eq (c : Dev nD) (t : Fin cfg6.N) :
    (dat6 (F := Ideal) V c).flushed 2 t = ((cfg6.win 2).blk t).view.read (Elt Ideal)
      (Cert.Spec.matProd (V c (Pipeline.arrRef spec6 0)) (V c (Pipeline.arrRef spec6 1))) := by
  show (cfg6.win 2).cut (grid6.coords t) ((dat6 V c).after 2 t) = _
  rw [after6_2]
  unfold out6_2
  rw [View.canon_unit_zero hz6]
  simp only [View.ld_unit_zero (S := S2000x128) hz6, View.ld_unit_zero (S := S128x128) hz6]
  obtain ⟨e0, e1, e2, e3, e4, e5⟩ := idx_facts6 t
  funext j
  obtain ⟨p, q, rfl⟩ : ∃ (p : Fin 2000) (q : Fin 128), j = ix2 p q := ⟨j 0, j 1, eq_ix2 j⟩
  show k6_pay1 (F := Ideal) (iblk6 V c 0 t) (iblk6 V c 1 t) (ix2 p q)
    = Cert.Spec.matProd (V c (Pipeline.arrRef spec6 0)) (V c (Pipeline.arrRef spec6 1)) (((cfg6.win 2).blk t).view.emb (ix2 p q))
  rw [pay6_apply]
  unfold Cert.Spec.matProd
  refine Finset.sum_congr rfl fun k _ => ?_
  have h0 : ((cfg6.win 0).blk t).view.emb (ix2 p k) = ix2 ((((cfg6.win 2).blk t).view.emb (ix2 p q)) 0) k := by
    funext a; apply Fin.ext
    match a with
    | ⟨0, _⟩ => show win6_0.index t (0 : Fin 2) * 2000 + 1 * p.val = win6_2.index t (0 : Fin 2) * 2000 + 1 * p.val; omega
    | ⟨1, _⟩ => show win6_0.index t (1 : Fin 2) * 128 + 1 * k.val = k.val; omega
  have h1 : ((cfg6.win 1).blk t).view.emb (ix2 k q) = ix2 k ((((cfg6.win 2).blk t).view.emb (ix2 p q)) 1) := by
    funext a; apply Fin.ext
    match a with
    | ⟨0, _⟩ => show win6_1.index t (0 : Fin 2) * 128 + 1 * k.val = k.val; omega
    | ⟨1, _⟩ => show win6_1.index t (1 : Fin 2) * 128 + 1 * q.val = win6_2.index t (1 : Fin 2) * 128 + 1 * q.val; omega
  have a0 : (iblk6 V c 0 t : FVec Ideal S2000x128 .f32) (ix2 p k)
      = (V c (Pipeline.arrRef spec6 0) : S50000x128.Idx → EReal) (ix2 ((((cfg6.win 2).blk t).view.emb (ix2 p q)) 0) k) := by
    exact congrArg (V c (Pipeline.arrRef spec6 0) : S50000x128.Idx → EReal) h0
  have a1 : (iblk6 V c 1 t : FVec Ideal S128x128 .f32) (ix2 k q)
      = (V c (Pipeline.arrRef spec6 1) : S128x128.Idx → EReal) (ix2 k ((((cfg6.win 2).blk t).view.emb (ix2 p q)) 1)) := by
    exact congrArg (V c (Pipeline.arrRef spec6 1) : S128x128.Idx → EReal) h1
  rw [a0, a1]

theorem mem_blk6_2 (t : Fin cfg6.N) (i : S50000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole (Pipeline.arrRef spec6 2)).slice (win6_2.rect t)).set ↔ _
  rw [View.set_slice_whole, Rect.mem_set_unit]
  exact Iff.rfl

theorem blkcover6_2 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 25 := N_6
  let t : Fin cfg6.N := ⟨(i 0).val / 2000, by rw [hN]; omega⟩
  obtain ⟨e0, e1, e2, e3, e4, e5⟩ := idx_facts6 t
  have ht : t.val = (i 0).val / 2000 := rfl
  refine ⟨t, flush6_2 t, ?_⟩
  rw [mem_blk6_2]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 128 ≤ (i 1).val ∧ (i 1).val < win6_2.index t (1 : Fin 2) * 128 + 128; omega

theorem final6_2 (c : Dev nD) :
    (dat6 (F := Ideal) V c).arrAt 2 cfg6.N = Cert.Spec.matProd (V c (Pipeline.arrRef spec6 0)) (V c (Pipeline.arrRef spec6 1)) :=
  (dat6 (F := Ideal) V c).arrAt_eq_of_cover 2 (Cert.Spec.matProd (V c (Pipeline.arrRef spec6 0)) (V c (Pipeline.arrRef spec6 1)))
    (fun t _ => flushed6_2_eq V c t) (blkcover6_2)

end

end Cert.KernelIdeal.Hand
-- ==== Proof.KiVal7.lean ====
import proofs.«126291_j72541997629772_2_alg».proof.Proof.KiReg7
import proofs.«126291_j72541997629772_2_alg».proof.Proof.Spec
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay7_apply (x0 : Vec Ideal S2000x128 .bf16) (x1 : Vec Ideal S2000x1 .f32) (x2 : Vec Ideal S2000x128 .f32) (j : S2000x128.Idx) :
    k7_pay1 (F := Ideal) x0 x1 x2 j = (x0 j : EReal) * x1 (ix2 (j 0) (0 : Fin 1)) + x2 j := by
  obtain ⟨p, q, rfl⟩ : ∃ (p : Fin 2000) (q : Fin 128), j = ix2 p q := ⟨j 0, j 1, eq_ix2 j⟩
  show k7_pay1 (F := Ideal) x0 x1 x2 (ix2 p q) = (x0 (ix2 p q) : EReal) * x1 (ix2 p (0 : Fin 1)) + x2 (ix2 p q)
  unfold k7_pay1
  simp only [shapeCast_self]
  rw [addf_apply, mulf_apply, extf_apply, broadcastTo_a1_ab_apply]

theorem zero_offsets7 : (![0, 0] : Fin 2 → Nat) = fun _ => 0 := funext fun a => by fin_cases a <;> rfl

theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

theorem emb7_0 (t : Fin cfg7.N) (j : S2000x128.Idx) : ((cfg7.win 0).blk t).view.emb j = ((cfg7.win 3).blk t).view.emb j := by
  obtain ⟨e00, e01, -, -, -, -, e30, e31⟩ := idx_facts7 t
  funext a; apply Fin.ext
  match a with
  | ⟨0, _⟩ => show win7_0.index t (0 : Fin 2) * 2000 + 1 * (j 0).val = win7_3.index t (0 : Fin 2) * 2000 + 1 * (j 0).val; omega
  | ⟨1, _⟩ => show win7_0.index t (1 : Fin 2) * 128 + 1 * (j 1).val = win7_3.index t (1 : Fin 2) * 128 + 1 * (j 1).val; omega

theorem emb7_2 (t : Fin cfg7.N) (j : S2000x128.Idx) : ((cfg7.win 2).blk t).view.emb j = ((cfg7.win 3).blk t).view.emb j := by
  obtain ⟨-, -, -, -, e20, e21, e30, e31⟩ := idx_facts7 t
  funext a; apply Fin.ext
  match a with
  | ⟨0, _⟩ => show win7_2.index t (0 : Fin 2) * 2000 + 1 * (j 0).val = win7_3.index t (0 : Fin 2) * 2000 + 1 * (j 0).val; omega
  | ⟨1, _⟩ => show win7_2.index t (1 : Fin 2) * 128 + 1 * (j 1).val = win7_3.index t (1 : Fin 2) * 128 + 1 * (j 1).val; omega

theorem emb7_1 (t : Fin cfg7.N) (j : S2000x128.Idx) :
    ((cfg7.win 1).blk t).view.emb (ix2 (j 0) (0 : Fin 1)) = ix2 ((((cfg7.win 3).blk t).view.emb j) 0) (0 : Fin 1) := by
  obtain ⟨-, -, e10, e11, -, -, e30, e31⟩ := idx_facts7 t
  funext a; apply Fin.ext
  match a with
  | ⟨0, _⟩ => show win7_1.index t (0 : Fin 2) * 2000 + 1 * (j 0).val = win7_3.index t (0 : Fin 2) * 2000 + 1 * (j 0).val; omega
  | ⟨1, _⟩ => show win7_1.index t (1 : Fin 2) * 1 + 1 * 0 = 0; omega

section
variable (V : (c : Dev nD) → (b : Ref sig .tc) → Buf (Elt Ideal) ((c : Thread nD τ).loc b))

theorem blk7_0 (c : Dev nD) (t : Fin cfg7.N) (j : S2000x128.Idx) :
    iblk7 V c 0 t j = V c (Pipeline.arrRef spec7 0) (((cfg7.win 3).blk t).view.emb j) :=
  congrArg (V c (Pipeline.arrRef spec7 0)) (emb7_0 t j)

theorem blk7_2 (c : Dev nD) (t : Fin cfg7.N) (j : S2000x128.Idx) :
    iblk7 V c 2 t j = V c (Pipeline.arrRef spec7 2) (((cfg7.win 3).blk t).view.emb j) :=
  congrArg (V c (Pipeline.arrRef spec7 2)) (emb7_2 t j)

theorem blk7_1 (c : Dev nD) (t : Fin cfg7.N) (j : S2000x128.Idx) :
    iblk7 V c 1 t (ix2 (j 0) (0 : Fin 1)) = V c (Pipeline.arrRef spec7 1) (ix2 ((((cfg7.win 3).blk t).view.emb j) 0) (0 : Fin 1)) :=
  congrArg (V c (Pipeline.arrRef spec7 1)) (emb7_1 t j)

theorem flushed7_3_eq (c : Dev nD) (t : Fin cfg7.N) :
    (dat7 (F := Ideal) V c).flushed 3 t = ((cfg7.win 3).blk t).view.read (Elt Ideal)
      (Cert.Spec.selfPlusMsg (V c (Pipeline.arrRef spec7 0)) (V c (Pipeline.arrRef spec7 1)) (V c (Pipeline.arrRef spec7 2))) := by
  show (cfg7.win 3).cut (grid7.coords t) ((dat7 (F := Ideal) V c).after 3 t) = _
  rw [after7_3]
  unfold out7_3
  rw [View.canon_unit_zero zero_offsets7]
  simp only [View.ld_unit_zero (S := S2000x128) zero_offsets7, View.ld_unit_zero (S := S2000x1) zero_offsets7]
  funext j
  show k7_pay1 (F := Ideal) (iblk7 V c 0 t) (iblk7 V c 1 t) (iblk7 V c 2 t) j
    = Cert.Spec.selfPlusMsg (V c (Pipeline.arrRef spec7 0)) (V c (Pipeline.arrRef spec7 1)) (V c (Pipeline.arrRef spec7 2)) (((cfg7.win 3).blk t).view.emb j)
  rw [pay7_apply]
  unfold Cert.Spec.selfPlusMsg
  rw [blk7_0 V c t j, blk7_1 V c t j, blk7_2 V c t j]

theorem mem_blk7_3 (t : Fin cfg7.N) (i : S50000x128.Idx) :
    i ∈ ((cfg7.win 3).blk t).view.set ↔ ∀ a : Fin 2, win7_3.index t a * S2000x128.size a ≤ (i a).val ∧ (i a).val < win7_3.index t a * S2000x128.size a + S2000x128.size a := by
  show i ∈ ((View.whole main_v92).slice (win7_3.rect t)).set ↔ _
  rw [View.set_slice_whole, Rect.mem_set_unit]
  exact Iff.rfl

theorem covered7_3 (i : S50000x128.Idx) :
    ∃ t : Fin cfg7.N, (cfg7.win 3).flush t = true ∧ i ∈ ((cfg7.win 3).blk t).view.set := by
  have hi0 : (i 0).val < 50000 := (i 0).isLt
  have hi1 : (i 1).val < 128 := (i 1).isLt
  have hlt : (i 0).val / 2000 < cfg7.N := by rw [show cfg7.N = 25 from N_7]; omega
  obtain ⟨-, -, -, -, -, -, e30, e31⟩ := idx_facts7 ⟨(i 0).val / 2000, hlt⟩
  have e30' : win7_3.index ⟨(i 0).val / 2000, hlt⟩ (0 : Fin 2) = (i 0).val / 2000 := e30
  refine ⟨⟨(i 0).val / 2000, hlt⟩, flush7_3 _, ?_⟩
  rw [mem_blk7_3]
  intro a
  match a with
  | ⟨0, _⟩ => show win7_3.index ⟨(i 0).val / 2000, hlt⟩ (0 : Fin 2) * 2000 ≤ (i 0).val ∧ (i 0).val < win7_3.index ⟨(i 0).val / 2000, hlt⟩ (0 : Fin 2) * 2000 + 2000; omega
  | ⟨1, _⟩ => show win7_3.index ⟨(i 0).val / 2000, hlt⟩ (1 : Fin 2) * 128 ≤ (i 1).val ∧ (i 1).val < win7_3.index ⟨(i 0).val / 2000, hlt⟩ (1 : Fin 2) * 128 + 128; omega

theorem final7_3 (c : Dev nD) : (dat7 (F := Ideal) V c).arrAt 3 cfg7.N
    = Cert.Spec.selfPlusMsg (V c (Pipeline.arrRef spec7 0)) (V c (Pipeline.arrRef spec7 1)) (V c (Pipeline.arrRef spec7 2)) :=
  (dat7 (F := Ideal) V c).arrAt_eq_of_cover 3 _ (fun t _ => flushed7_3_eq V c t) covered7_3

end

end Cert.KernelIdeal.Hand

end
-- ==== Proof.KiFinalV.lean ====
import proofs.«126291_j72541997629772_2_alg».proof.Proof.KiVal0
import proofs.«126291_j72541997629772_2_alg».proof.Proof.KiVal1
import proofs.«126291_j72541997629772_2_alg».proof.Proof.KiVal2
import proofs.«126291_j72541997629772_2_alg».proof.Proof.KiVal3
import proofs.«126291_j72541997629772_2_alg».proof.Proof.KiVal4
import proofs.«126291_j72541997629772_2_alg».proof.Proof.KiVal5
import proofs.«126291_j72541997629772_2_alg».proof.Proof.KiVal6
import proofs.«126291_j72541997629772_2_alg».proof.Proof.KiVal7
import proofs.«126291_j72541997629772_2_alg».proof.Proof.KiRun

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

theorem fin_main_v29 (c : Dev nD) : B16 m c (Proc.devRef .tc main_v29) = Cert.Spec.matProd (B16 m c (Proc.devRef .tc main_arg0)) (B16 m c (Proc.devRef .tc main_arg2)) := by
  rw [toEnd2 m c main_v29, toEnd1 m c main_arg0, toEnd1 m c main_arg2]
  exact (B2_arr m c 2).trans (final0_2 (Bv1 m) c)
theorem fin_main_v43_0 (c : Dev nD) : B16 m c (Proc.devRef .tc main_v43_0) = Cert.Spec.selfPlusMsg (B16 m c (Proc.devRef .tc main_v29)) (B16 m c (Proc.devRef .tc main_v12)) (B16 m c (Proc.devRef .tc main_v42)) := by
  rw [toEnd4 m c main_v43_0, toEnd3 m c main_v29, toEnd3 m c main_v12, toEnd3 m c main_v42]
  exact (B4_arr m c 3).trans (R1.final1_3 (Bv3 m) c)
theorem fin_main_v43_1 (c : Dev nD) : B16 m c (Proc.devRef .tc main_v43_1) = Cert.Spec.colSum (Cert.Spec.selfPlusMsg (B16 m c (Proc.devRef .tc main_v29)) (B16 m c (Proc.devRef .tc main_v12)) (B16 m c (Proc.devRef .tc main_v42))) := by
  rw [toEnd4 m c main_v43_1, toEnd3 m c main_v29, toEnd3 m c main_v12, toEnd3 m c main_v42]
  exact (B4_arr m c 4).trans (R1.final1_4 (Bv3 m) c)
theorem fin_main_v43_2 (c : Dev nD) : B16 m c (Proc.devRef .tc main_v43_2) = Cert.Spec.colSumSq (Cert.Spec.selfPlusMsg (B16 m c (Proc.devRef .tc main_v29)) (B16 m c (Proc.devRef .tc main_v12)) (B16 m c (Proc.devRef .tc main_v42))) := by
  rw [toEnd4 m c main_v43_2, toEnd3 m c main_v29, toEnd3 m c main_v12, toEnd3 m c main_v42]
  exact (B4_arr m c 5).trans (R1.final1_5 (Bv3 m) c)
theorem fin_main_v52 (c : Dev nD) : B16 m c (Proc.devRef .tc main_v52) = Cert.Spec.normRelu (B16 m c (Proc.devRef .tc main_v43_0)) (B16 m c (Proc.devRef .tc main_v50)) (B16 m c (Proc.devRef .tc main_v51)) (B16 m c (Proc.devRef .tc main_v45)) (B16 m c (Proc.devRef .tc main_v49)) := by
  rw [toEnd6 m c main_v52, toEnd5 m c main_v43_0, toEnd5 m c main_v50, toEnd5 m c main_v51, toEnd5 m c main_v45, toEnd5 m c main_v49]
  exact (B6_arr m c 5).trans (final2_5 (Bv5 m) c)
theorem fin_main_v53 (c : Dev nD) : B16 m c (Proc.devRef .tc main_v53) = Cert.Spec.matProd (B16 m c (Proc.devRef .tc main_v52)) (B16 m c (Proc.devRef .tc main_arg3)) := by
  rw [toEnd7 m c main_v53, toEnd6 m c main_v52, toEnd6 m c main_arg3]
  exact (B7_arr m c 2).trans (final3_2 (Bv6 m) c)
theorem fin_main_v67_0 (c : Dev nD) : B16 m c (Proc.devRef .tc main_v67_0) = Cert.Spec.selfPlusMsg (B16 m c (Proc.devRef .tc main_v53)) (B16 m c (Proc.devRef .tc main_v12)) (B16 m c (Proc.devRef .tc main_v66)) := by
  rw [toEnd9 m c main_v67_0, toEnd8 m c main_v53, toEnd8 m c main_v12, toEnd8 m c main_v66]
  exact (B9_arr m c 3).trans (R4.final4_3 (Bv8 m) c)
theorem fin_main_v67_1 (c : Dev nD) : B16 m c (Proc.devRef .tc main_v67_1) = Cert.Spec.colSum (Cert.Spec.selfPlusMsg (B16 m c (Proc.devRef .tc main_v53)) (B16 m c (Proc.devRef .tc main_v12)) (B16 m c (Proc.devRef .tc main_v66))) := by
  rw [toEnd9 m c main_v67_1, toEnd8 m c main_v53, toEnd8 m c main_v12, toEnd8 m c main_v66]
  exact (B9_arr m c 4).trans (R4.final4_4 (Bv8 m) c)
theorem fin_main_v67_2 (c : Dev nD) : B16 m c (Proc.devRef .tc main_v67_2) = Cert.Spec.colSumSq (Cert.Spec.selfPlusMsg (B16 m c (Proc.devRef .tc main_v53)) (B16 m c (Proc.devRef .tc main_v12)) (B16 m c (Proc.devRef .tc main_v66))) := by
  rw [toEnd9 m c main_v67_2, toEnd8 m c main_v53, toEnd8 m c main_v12, toEnd8 m c main_v66]
  exact (B9_arr m c 5).trans (R4.final4_5 (Bv8 m) c)
theorem fin_main_v76 (c : Dev nD) : B16 m c (Proc.devRef .tc main_v76) = Cert.Spec.normRelu (B16 m c (Proc.devRef .tc main_v67_0)) (B16 m c (Proc.devRef .tc main_v74)) (B16 m c (Proc.devRef .tc main_v75)) (B16 m c (Proc.devRef .tc main_v69)) (B16 m c (Proc.devRef .tc main_v73)) := by
  rw [toEnd11 m c main_v76, toEnd10 m c main_v67_0, toEnd10 m c main_v74, toEnd10 m c main_v75, toEnd10 m c main_v69, toEnd10 m c main_v73]
  exact (B11_arr m c 5).trans (final5_5 (Bv10 m) c)
theorem fin_main_v78 (c : Dev nD) : B16 m c (Proc.devRef .tc main_v78) = Cert.Spec.matProd (B16 m c (Proc.devRef .tc main_v76)) (B16 m c (Proc.devRef .tc main_v77)) := by
  rw [toEnd13 m c main_v78, toEnd12 m c main_v76, toEnd12 m c main_v77]
  exact (B13_arr m c 2).trans (final6_2 (Bv12 m) c)
theorem fin_main_v92 (c : Dev nD) : B16 m c (Proc.devRef .tc main_v92) = Cert.Spec.selfPlusMsg (B16 m c (Proc.devRef .tc main_v78)) (B16 m c (Proc.devRef .tc main_v12)) (B16 m c (Proc.devRef .tc main_v91)) := by
  rw [toEnd15 m c main_v92, toEnd14 m c main_v78, toEnd14 m c main_v12, toEnd14 m c main_v91]
  exact (B15_arr m c 3).trans (final7_3 (Bv14 m) c)

end Cert.KernelIdeal.Hand

end
-- ==== Proof.AlgRows.lean ====
import Idealize.ShloMosaic.PureOps.Ideal
import Idealize.ShloMosaic.PureOps.ShapeOps
import Idealize.ShloMosaic.PureOps.Contract
import Idealize.ShloMosaic.Lib.ValueIdx

noncomputable section

open scoped BigOperators

namespace Cert.Alg

open Idealize.ShloMosaic Idealize.ShloMosaic.ValueIdx

theorem getElem_of_eq_singleton {β : Type} (l : List β) (a : β) (h : l = [a]) (k : Nat) (hk : k < l.length) :
    l[k] = a := by
  subst h
  have hk0 : k = 0 := by simpa using hk
  subst hk0
  rfl

theorem kept_one {n0 n1 : Nat} : (⟨2, ![n0, n1]⟩ : Shape).kept [1] = [0] := by
  show (List.finRange 2).filter (fun a : Fin 2 => a ∉ [1]) = [0]
  decide

theorem kept_zero {n0 n1 : Nat} : (⟨2, ![n0, n1]⟩ : Shape).kept [0] = [1] := by
  show (List.finRange 2).filter (fun a : Fin 2 => a ∉ [0]) = [1]
  decide

section Gather
variable {α : Type} {N C E w : Nat}

def rowOf (N : Nat) (hN : 0 < N) {E w : Nat} (idx : IVec ⟨2, ![E, 1]⟩ w) (e : Fin E) : Fin N :=
  ⟨min (idx (ix2 e 0)).toInt.toNat (N - 1), by omega⟩

variable (d : GatherDims ⟨2, ![N, C]⟩ ⟨2, ![E, 1]⟩ ⟨2, ![E, C]⟩)

theorem gather_siIdx (hoff : d.offsetDims = [1]) (hsim : d.startIndexMap = [0]) (hivd : d.indexVectorDim = 1)
    (y : (⟨2, ![E, C]⟩ : Shape).Idx) (c : Fin d.startIndexMap.length) :
    d.siIdx y c = ix2 (y 0) 0 := by
  have hbd : d.batchDims = [0] := by
    show (⟨2, ![E, C]⟩ : Shape).kept d.offsetDims = [0]
    rw [hoff]; exact kept_one
  have hc : c.val = 0 := by
    have h1 : c.val < d.startIndexMap.length := c.isLt
    have h2 : d.startIndexMap.length = 1 := by rw [hsim]; rfl
    omega
  funext b
  apply Fin.ext
  match b with
  | ⟨0, _⟩ =>
    unfold GatherDims.siIdx
    rw [dif_neg (by rw [hivd]; exact Nat.zero_ne_one)]
    unfold GatherDims.siCoord
    simp only [Fin.val_cast]
    exact congrArg (fun a => (y a).val) (getElem_of_eq_singleton d.batchDims 0 hbd _ _)
  | ⟨1, _⟩ =>
    unfold GatherDims.siIdx
    rw [dif_pos (by rw [hivd])]
    exact hc

theorem gather_operandIdx_zero (hN : 0 < N) (hoff : d.offsetDims = [1]) (hcoll : d.collapsedSliceDims = [0])
    (hob : d.operandBatchingDims = []) (hsim : d.startIndexMap = [0]) (hivd : d.indexVectorDim = 1)
    (idx : IVec ⟨2, ![E, 1]⟩ w) (y : (⟨2, ![E, C]⟩ : Shape).Idx) :
    (d.operandIdx y idx 0).val = (rowOf N hN idx (y 0)).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  show d.start y idx 0 + d.batchCoord y 0 + d.offCoord y 0 = _
  rw [d.batchCoord_eq_zero _ _ hb, d.offCoord_eq_zero _ _ hk]
  simp only [Nat.add_zero]
  unfold GatherDims.start
  rw [dif_pos hm, gather_siIdx d hoff hsim hivd, hsl]
  rfl

theorem gather_operandIdx_one (hoff : d.offsetDims = [1]) (hcoll : d.collapsedSliceDims = [0])
    (hob : d.operandBatchingDims = []) (hsim : d.startIndexMap = [0])
    (idx : IVec ⟨2, ![E, 1]⟩ w) (y : (⟨2, ![E, C]⟩ : Shape).Idx) :
    (d.operandIdx y idx 1).val = (y 1).val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  show d.start y idx 1 + d.batchCoord y 1 + d.offCoord y 1 = _
  rw [d.batchCoord_eq_zero _ _ hb, Nat.add_zero]
  unfold GatherDims.start GatherDims.offCoord
  rw [dif_neg hm, dif_pos hk, Nat.zero_add]
  exact congrArg (fun a => (y a).val) (getElem_of_eq_singleton d.offsetDims 1 hoff _ _)

theorem gather_rows (hN : 0 < N) (hoff : d.offsetDims = [1]) (hcoll : d.collapsedSliceDims = [0])
    (hob : d.operandBatchingDims = []) (hsim : d.startIndexMap = [0]) (hivd : d.indexVectorDim = 1)
    (x : (⟨2, ![N, C]⟩ : Shape).Idx → α) (idx : IVec ⟨2, ![E, 1]⟩ w) (e : Fin E) (j : Fin C) :
    Host.gather d x idx (ix2 e j) = x (ix2 (rowOf N hN idx e) j) := by
  unfold Host.gather
  congr 1
  funext a
  apply Fin.ext
  match a with
  | ⟨0, _⟩ => exact gather_operandIdx_zero d hN hoff hcoll hob hsim hivd idx (ix2 e j)
  | ⟨1, _⟩ => exact gather_operandIdx_one d hoff hcoll hob hsim idx (ix2 e j)

theorem gather_rows_apply (hN : 0 < N) (hoff : d.offsetDims = [1]) (hcoll : d.collapsedSliceDims = [0])
    (hob : d.operandBatchingDims = []) (hsim : d.startIndexMap = [0]) (hivd : d.indexVectorDim = 1)
    (x : (⟨2, ![N, C]⟩ : Shape).Idx → α) (idx : IVec ⟨2, ![E, 1]⟩ w) (y : (⟨2, ![E, C]⟩ : Shape).Idx) :
    Host.gather d x idx y = x (ix2 (rowOf N hN idx (y 0)) (y 1)) := by
  conv_lhs => rw [eq_ix2 y]
  exact gather_rows d hN hoff hcoll hob hsim hivd x idx (y 0) (y 1)

end Gather

section Scatter
variable {N C E w : Nat}

def lands (idx : IVec ⟨2, ![E, 1]⟩ w) (e : Fin E) (r : Fin N) : Prop :=
  (idx (ix2 e 0)).toInt = (r.val : Int)

instance (idx : IVec ⟨2, ![E, 1]⟩ w) (e : Fin E) (r : Fin N) : Decidable (lands idx e r) := by
  unfold lands; infer_instance

variable (d : ScatterDims ⟨2, ![N, C]⟩ ⟨2, ![E, 1]⟩ ⟨2, ![E, C]⟩)

theorem scatter_siIdx (huw : d.updateWindowDims = [1]) (hsd : d.scatterDimsToOperandDims = [0])
    (hivd : d.indexVectorDim = 1) (y : (⟨2, ![E, C]⟩ : Shape).Idx) (c : Fin d.scatterDimsToOperandDims.length) :
    d.siIdx y c = ix2 (y 0) 0 := by
  have hus : d.uScatter = [0] := by
    show (⟨2, ![E, C]⟩ : Shape).kept d.updateWindowDims = [0]
    rw [huw]; exact kept_one
  have hc : c.val = 0 := by
    have h1 : c.val < d.scatterDimsToOperandDims.length := c.isLt
    have h2 : d.scatterDimsToOperandDims.length = 1 := by rw [hsd]; rfl
    omega
  funext b
  apply Fin.ext
  match b with
  | ⟨0, _⟩ =>
    unfold ScatterDims.siIdx
    rw [dif_neg (by rw [hivd]; exact Nat.zero_ne_one)]
    unfold ScatterDims.siCoord
    simp only [Fin.val_cast]
    exact congrArg (fun a => (y a).val) (getElem_of_eq_singleton d.uScatter 0 hus _ _)
  | ⟨1, _⟩ =>
    unfold ScatterDims.siIdx
    rw [dif_pos (by rw [hivd])]
    exact hc

theorem scatter_start_zero (huw : d.updateWindowDims = [1]) (hsd : d.scatterDimsToOperandDims = [0])
    (hivd : d.indexVectorDim = 1) (idx : IVec ⟨2, ![E, 1]⟩ w) (y : (⟨2, ![E, C]⟩ : Shape).Idx) :
    d.start y idx 0 = (idx (ix2 (y 0) 0)).toInt := by
  have hm : (0 : Fin 2) ∈ d.scatterDimsToOperandDims := by rw [hsd]; exact List.mem_singleton.mpr rfl
  unfold ScatterDims.start
  rw [dif_pos hm, scatter_siIdx d huw hsd hivd]
  rfl

theorem scatter_start_one (hsd : d.scatterDimsToOperandDims = [0]) (idx : IVec ⟨2, ![E, 1]⟩ w)
    (y : (⟨2, ![E, C]⟩ : Shape).Idx) : d.start y idx 1 = 0 := by
  have hm : (1 : Fin 2) ∉ d.scatterDimsToOperandDims := by rw [hsd]; simp
  unfold ScatterDims.start
  rw [dif_neg hm]

theorem scatter_window_zero (hiw : d.insertedWindowDims = [0]) (y : (⟨2, ![E, C]⟩ : Shape).Idx) :
    d.window y 0 = 0 := by
  have hk : (0 : Fin 2) ∉ d.sKept := by
    show (0 : Fin 2) ∉ (⟨2, ![N, C]⟩ : Shape).kept d.insertedWindowDims
    rw [hiw, kept_zero]; simp
  unfold ScatterDims.window
  rw [dif_neg hk]

theorem scatter_window_one (huw : d.updateWindowDims = [1]) (hiw : d.insertedWindowDims = [0])
    (y : (⟨2, ![E, C]⟩ : Shape).Idx) : d.window y 1 = (y 1).val := by
  have hk : (1 : Fin 2) ∈ d.sKept := by
    show (1 : Fin 2) ∈ (⟨2, ![N, C]⟩ : Shape).kept d.insertedWindowDims
    rw [hiw, kept_zero]; exact List.mem_singleton.mpr rfl
  unfold ScatterDims.window
  rw [dif_pos hk]
  exact congrArg (fun a => (y a).val) (getElem_of_eq_singleton d.updateWindowDims 1 huw _ _)

theorem scatter_resultIdx?_iff (huw : d.updateWindowDims = [1]) (hiw : d.insertedWindowDims = [0])
    (hsd : d.scatterDimsToOperandDims = [0]) (hivd : d.indexVectorDim = 1) (idx : IVec ⟨2, ![E, 1]⟩ w)
    (e : Fin E) (c : Fin C) (r : Fin N) (j : Fin C) :
    d.resultIdx? (ix2 e c) idx = some (ix2 r j) ↔ lands idx e r ∧ c = j := by
  have h00 : d.start (ix2 e c) idx 0 = (idx (ix2 e 0)).toInt := scatter_start_zero d huw hsd hivd idx _
  have h01 : d.start (ix2 e c) idx 1 = 0 := scatter_start_one d hsd idx _
  have hw0 : d.window (ix2 e c) 0 = 0 := scatter_window_zero d hiw _
  have hw1 : d.window (ix2 e c) 1 = c.val := scatter_window_one d huw hiw _
  have hr := r.isLt
  have hcC := c.isLt
  unfold ScatterDims.resultIdx? lands
  split
  · next h =>
    constructor
    · intro hf
      have hf' := Option.some.inj hf
      have e0 : (d.start (ix2 e c) idx 0 + (d.window (ix2 e c) 0 : Int)).toNat = r.val :=
        congrArg (fun f : (⟨2, ![N, C]⟩ : Shape).Idx => (f 0).val) hf'
      have e1 : (d.start (ix2 e c) idx 1 + (d.window (ix2 e c) 1 : Int)).toNat = j.val :=
        congrArg (fun f : (⟨2, ![N, C]⟩ : Shape).Idx => (f 1).val) hf'
      have p0 := (h 0).1
      rw [h00, hw0] at e0 p0
      rw [h01, hw1] at e1
      refine ⟨?_, Fin.ext ?_⟩
      · omega
      · omega
    · rintro ⟨hl, hcj⟩
      congr 1
      funext a
      apply Fin.ext
      match a with
      | ⟨0, _⟩ =>
        show (d.start (ix2 e c) idx 0 + (d.window (ix2 e c) 0 : Int)).toNat = r.val
        rw [h00, hw0, hl]; omega
      | ⟨1, _⟩ =>
        show (d.start (ix2 e c) idx 1 + (d.window (ix2 e c) 1 : Int)).toNat = j.val
        rw [h01, hw1, hcj]; omega
  · next h =>
    constructor
    · intro hf; exact absurd hf (by simp)
    · rintro ⟨hl, _⟩
      exfalso
      apply h
      intro a
      match a with
      | ⟨0, _⟩ =>
        show 0 ≤ d.start (ix2 e c) idx 0 + (d.window (ix2 e c) 0 : Int) ∧
          d.start (ix2 e c) idx 0 + (d.window (ix2 e c) 0 : Int) < (N : Int)
        rw [h00, hw0, hl]; constructor <;> omega
      | ⟨1, _⟩ =>
        show 0 ≤ d.start (ix2 e c) idx 1 + (d.window (ix2 e c) 1 : Int) ∧
          d.start (ix2 e c) idx 1 + (d.window (ix2 e c) 1 : Int) < (C : Int)
        rw [h01, hw1]; constructor <;> omega

theorem scatterAdd_rows (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w)
    (upd : (⟨2, ![E, C]⟩ : Shape).Idx → EReal) (r : Fin N) (j : Fin C) :
    Ideal.hostScatterAdd d x idx upd (ix2 r j)
      = x (ix2 r j) + ∑ e ∈ Finset.univ.filter (fun e : Fin E => lands idx e r), upd (ix2 e j) := by
  unfold Ideal.hostScatterAdd
  congr 1
  rw [Finset.sum_filter, Finset.sum_filter, sum_idx2]
  refine Finset.sum_congr rfl fun e _ => ?_
  simp only [scatter_resultIdx?_iff d huw hiw hsd hivd]
  by_cases hl : lands idx e r
  · simp only [hl, true_and, if_true]
    rw [Finset.sum_ite_eq']
    simp
  · simp [hl]

end Scatter

section Columns
variable {α : Type} {N C C' E w : Nat}

theorem gather_cols (hN : 0 < N)
    (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (d' : GatherDims ⟨2, ![N, C']⟩ ⟨2, ![E, 1]⟩ ⟨2, ![E, C']⟩)
    (hoff' : d'.offsetDims = [1]) (hcoll' : d'.collapsedSliceDims = [0])
    (hob' : d'.operandBatchingDims = []) (hsim' : d'.startIndexMap = [0]) (hivd' : d'.indexVectorDim = 1)
    (x : (⟨2, ![N, C]⟩ : Shape).Idx → α) (x' : (⟨2, ![N, C']⟩ : Shape).Idx → α) (idx : IVec ⟨2, ![E, 1]⟩ w)
    (j : Fin C) (j' : Fin C') (hx : ∀ r : Fin N, x (ix2 r j) = x' (ix2 r j')) (e : Fin E) :
    Host.gather d x idx (ix2 e j) = Host.gather d' x' idx (ix2 e j') := by
  rw [gather_rows d hN hoff hcoll hob hsim hivd, gather_rows d' hN hoff' hcoll' hob' hsim' hivd']
  exact hx _

theorem scatterAdd_cols
    (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (d' : ScatterDims ⟨2, ![N, C']⟩ ⟨2, ![E, 1]⟩ ⟨2, ![E, C']⟩)
    (huw' : d'.updateWindowDims = [1]) (hiw' : d'.insertedWindowDims = [0])
    (hsd' : d'.scatterDimsToOperandDims = [0]) (hivd' : d'.indexVectorDim = 1)
    (x : (⟨2, ![N, C]⟩ : Shape).Idx → EReal) (x' : (⟨2, ![N, C']⟩ : Shape).Idx → EReal)
    (idx : IVec ⟨2, ![E, 1]⟩ w)
    (upd : (⟨2, ![E, C]⟩ : Shape).Idx → EReal) (upd' : (⟨2, ![E, C']⟩ : Shape).Idx → EReal)
    (r : Fin N) (j : Fin C) (j' : Fin C') (hx : x (ix2 r j) = x' (ix2 r j'))
    (hu : ∀ e : Fin E, upd (ix2 e j) = upd' (ix2 e j')) :
    Ideal.hostScatterAdd d x idx upd (ix2 r j) = Ideal.hostScatterAdd d' x' idx upd' (ix2 r j') := by
  rw [scatterAdd_rows d huw hiw hsd hivd, scatterAdd_rows d' huw' hiw' hsd' hivd', hx]
  congr 1
  exact Finset.sum_congr rfl fun e _ => hu e

end Columns

section HostNames
variable {N C C' E w : Nat} {φ : FTy}

theorem hostScatterAdd_cols
    (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (d' : ScatterDims ⟨2, ![N, C']⟩ ⟨2, ![E, 1]⟩ ⟨2, ![E, C']⟩)
    (huw' : d'.updateWindowDims = [1]) (hiw' : d'.insertedWindowDims = [0])
    (hsd' : d'.scatterDimsToOperandDims = [0]) (hivd' : d'.indexVectorDim = 1)
    (x : FVec Ideal ⟨2, ![N, C]⟩ φ) (x' : FVec Ideal ⟨2, ![N, C']⟩ φ) (idx : IVec ⟨2, ![E, 1]⟩ w)
    (upd : FVec Ideal ⟨2, ![E, C]⟩ φ) (upd' : FVec Ideal ⟨2, ![E, C']⟩ φ)
    (r : Fin N) (j : Fin C) (j' : Fin C') (hx : x (ix2 r j) = x' (ix2 r j'))
    (hu : ∀ e : Fin E, upd (ix2 e j) = upd' (ix2 e j')) :
    Host.scatterAdd d x idx upd (ix2 r j) = Host.scatterAdd d' x' idx upd' (ix2 r j') :=
  scatterAdd_cols d huw hiw hsd hivd d' huw' hiw' hsd' hivd' x x' idx upd upd' r j j' hx hu

end HostNames

end Cert.Alg
end
-- ==== Proof.AlgDot.lean ====
import Idealize.ShloMosaic.PureOps.Ideal.Laws
import Idealize.ShloMosaic.PureOps.Contract
import Idealize.ShloMosaic.Lib.ValueIdx
import Idealize.ShloMosaic.Lib.Pipeline.Value
import proofs.«126291_j72541997629772_2_alg».proof.Proof.Spec

noncomputable section

open scoped BigOperators

namespace Cert.Alg

open Idealize.ShloMosaic Idealize.ShloMosaic.ValueIdx

theorem getElem_of_eq_single {β : Type} (l : List β) (a : β) (h : l = [a]) (k : Nat) (hk : k < l.length) :
    l[k] = a := by
  subst h
  have hk0 : k = 0 := by simpa using hk
  subst hk0
  rfl

section Dot
variable {M K C : Nat} (D : DotDims ⟨2, ![M, K]⟩ ⟨2, ![K, C]⟩ ⟨2, ![M, C]⟩)

theorem dot_contr_rank (hlc : D.lhsContracting = [1]) : D.contr.rank = 1 := by
  rw [D.rank_contr, hlc]; rfl

theorem dot_contr_size (hlc : D.lhsContracting = [1]) :
    D.contr.size ⟨0, by rw [dot_contr_rank D hlc]; exact Nat.one_pos⟩ = K := by
  have hp : 0 < D.lhsContracting.length := by rw [hlc]; exact Nat.one_pos
  refine (D.size_contr 0 hp).trans ?_
  rw [getElem_of_eq_single D.lhsContracting 1 hlc 0 hp]
  rfl

theorem coord_val_congr {n0 n1 : Nat} (j : (⟨2, ![n0, n1]⟩ : Shape).Idx) (p q : Nat) (hp : p < 2) (hq : q < 2)
    (h : p = q) : (j ⟨p, hp⟩).val = (j ⟨q, hq⟩).val := by
  subst h; rfl

theorem dot_lhs_zero (hlb : D.lhsBatch = []) (hln : D.lhsNonContracting = [0])
    (j : (⟨2, ![M, C]⟩ : Shape).Idx) (k : D.contr.Idx) : (D.lhsIdx j k 0).val = (j 0).val := by
  have hb : (0 : Fin 2) ∉ D.lhsBatch := by rw [hlb]; exact List.not_mem_nil
  have hn : (0 : Fin 2) ∈ D.lhsNonContracting := by rw [hln]; exact List.mem_singleton.mpr rfl
  unfold DotDims.lhsIdx
  rw [dif_neg hb, dif_pos hn]
  simp only [Fin.val_cast]
  exact coord_val_congr j _ 0 _ (by decide) (by rw [hlb, hln]; simp)

theorem dot_lhs_one (hlc : D.lhsContracting = [1]) (j : (⟨2, ![M, C]⟩ : Shape).Idx) (k : D.contr.Idx) :
    (D.lhsIdx j k 1).val = (k ⟨0, by rw [dot_contr_rank D hlc]; exact Nat.one_pos⟩).val :=
  D.lhsIdx_val_of_single hlc j k

theorem dot_rhs_zero (hlc : D.lhsContracting = [1]) (hrc : D.rhsContracting = [0])
    (j : (⟨2, ![M, C]⟩ : Shape).Idx) (k : D.contr.Idx) :
    (D.rhsIdx j k 0).val = (k ⟨0, by rw [dot_contr_rank D hlc]; exact Nat.one_pos⟩).val :=
  D.rhsIdx_val_of_single hrc j k

theorem dot_rhs_one (hlb : D.lhsBatch = []) (hln : D.lhsNonContracting = [0]) (hrb : D.rhsBatch = [])
    (hrn : D.rhsNonContracting = [1]) (j : (⟨2, ![M, C]⟩ : Shape).Idx) (k : D.contr.Idx) :
    (D.rhsIdx j k 1).val = (j 1).val := by
  have hb : (1 : Fin 2) ∉ D.rhsBatch := by rw [hrb]; exact List.not_mem_nil
  have hn : (1 : Fin 2) ∈ D.rhsNonContracting := by rw [hrn]; exact List.mem_singleton.mpr rfl
  unfold DotDims.rhsIdx
  rw [dif_neg hb, dif_pos hn]
  simp only [Fin.val_cast]
  exact coord_val_congr j _ 1 _ (by decide) (by rw [hlb, hln, hrn]; simp)

theorem dot_apply (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule) {φ₁ φ₂ : FTy}
    (h : FVec Ideal ⟨2, ![M, K]⟩ φ₁) (W : FVec Ideal ⟨2, ![K, C]⟩ φ₂) (r : Fin M) (j : Fin C) :
    FloatOps.dotGeneral D prec sched h W (ix2 r j) = ∑ k : Fin K, h (ix2 r k) * W (ix2 k j) := by
  rw [Ideal.dotGeneral_apply]
  rw [← Equiv.sum_comp (contrEquiv1 D K (dot_contr_rank D hlc) (dot_contr_size D hlc)).symm]
  refine Finset.sum_congr rfl fun k _ => ?_
  have hk := contrEquiv1_symm_val D K (dot_contr_rank D hlc) (dot_contr_size D hlc) k
  have el : D.lhsIdx (ix2 r j) ((contrEquiv1 D K (dot_contr_rank D hlc) (dot_contr_size D hlc)).symm k) = ix2 r k := by
    funext a
    apply Fin.ext
    match a with
    | ⟨0, _⟩ => exact dot_lhs_zero D hlb hln _ _
    | ⟨1, _⟩ => exact (dot_lhs_one D hlc _ _).trans hk
  have er : D.rhsIdx (ix2 r j) ((contrEquiv1 D K (dot_contr_rank D hlc) (dot_contr_size D hlc)).symm k) = ix2 k j := by
    funext a
    apply Fin.ext
    match a with
    | ⟨0, _⟩ => exact (dot_rhs_zero D hlc hrc _ _).trans hk
    | ⟨1, _⟩ => exact dot_rhs_one D hlb hln hrb hrn _ _
  rw [el, er]

theorem hostDot_apply (hlc : D.lhsContracting = [1]) (hrc : D.rhsContracting = [0]) (hln : D.lhsNonContracting = [0])
    (hrn : D.rhsNonContracting = [1]) (hlb : D.lhsBatch = []) (hrb : D.rhsBatch = [])
    (prec : Option ContractPrecision) {φ₁ φ₂ : FTy}
    (h : FVec Ideal ⟨2, ![M, K]⟩ φ₁) (W : FVec Ideal ⟨2, ![K, C]⟩ φ₂) (r : Fin M) (j : Fin C) :
    Host.dotGeneral D prec h W (ix2 r j) = ∑ k : Fin K, h (ix2 r k) * W (ix2 k j) :=
  dot_apply D hlc hrc hln hrn hlb hrb prec .single h W r j

end Dot

theorem dot_eq_matProd (D : DotDims ⟨2, ![50000, 128]⟩ ⟨2, ![128, 128]⟩ ⟨2, ![50000, 128]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule) {φ₁ φ₂ : FTy}
    (h : FVec Ideal ⟨2, ![50000, 128]⟩ φ₁) (W : FVec Ideal ⟨2, ![128, 128]⟩ φ₂) :
    FloatOps.dotGeneral D prec sched h W = Cert.Spec.matProd h W := by
  funext i
  conv_lhs => rw [eq_ix2 i]
  exact dot_apply D hlc hrc hln hrn hlb hrb prec sched h W (i 0) (i 1)

section DotColumns
variable {M K C C' : Nat}

end DotColumns

section Cat
variable {α : Type} {K C C' T : Nat}

theorem cat_cols_left (hc : Shape.Concatenates [(⟨2, ![K, C]⟩ : Shape), ⟨2, ![K, C']⟩] ⟨2, ![K, T]⟩ 1)
    (A : (⟨2, ![K, C]⟩ : Shape).Idx → α) (B : (⟨2, ![K, C']⟩ : Shape).Idx → α) (k : Fin K) (j : Fin C)
    (hj : j.val < T) :
    concatenate ⟨2, ![K, T]⟩ 1 [⟨⟨2, ![K, C]⟩, A⟩, ⟨⟨2, ![K, C']⟩, B⟩] hc (ix2 k ⟨j.val, hj⟩) = A (ix2 k j) :=
  concatenate_pair_apply_left 1 A B hc _ rfl (ix2 k j) (fun b => by
    match b with
    | ⟨0, _⟩ => rfl
    | ⟨1, _⟩ => rfl)

theorem cat_cols_right (hc : Shape.Concatenates [(⟨2, ![K, C]⟩ : Shape), ⟨2, ![K, C']⟩] ⟨2, ![K, T]⟩ 1)
    (A : (⟨2, ![K, C]⟩ : Shape).Idx → α) (B : (⟨2, ![K, C']⟩ : Shape).Idx → α) (k : Fin K) (j : Fin C')
    (hj : j.val + C < T) :
    concatenate ⟨2, ![K, T]⟩ 1 [⟨⟨2, ![K, C]⟩, A⟩, ⟨⟨2, ![K, C']⟩, B⟩] hc (ix2 k ⟨j.val + C, hj⟩) = B (ix2 k j) :=
  concatenate_pair_apply_right 1 A B hc _ rfl rfl (ix2 k j) (fun b hb => by
    match b with
    | ⟨0, _⟩ => rfl
    | ⟨1, _⟩ => exact absurd rfl hb) rfl

end Cat

section DotCat
variable {M K C C' T : Nat}

end DotCat

end Cert.Alg
end
-- ==== Proof.AlgLayer.lean ====
import proofs.«126291_j72541997629772_2_alg».proof.Proof.AlgRows
import proofs.«126291_j72541997629772_2_alg».proof.Proof.AlgDot
import proofs.«126291_j72541997629772_2_alg».proof.Proof.Spec

noncomputable section

open scoped BigOperators

namespace Cert.Alg

open Idealize.ShloMosaic Idealize.ShloMosaic.ValueIdx

section Records
variable {α : Type} {N C E w : Nat}

theorem gather_dims_irrel (hN : 0 < N)
    (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (d' : GatherDims ⟨2, ![N, C]⟩ ⟨2, ![E, 1]⟩ ⟨2, ![E, C]⟩)
    (hoff' : d'.offsetDims = [1]) (hcoll' : d'.collapsedSliceDims = [0])
    (hob' : d'.operandBatchingDims = []) (hsim' : d'.startIndexMap = [0]) (hivd' : d'.indexVectorDim = 1)
    (x : (⟨2, ![N, C]⟩ : Shape).Idx → α) (idx : IVec ⟨2, ![E, 1]⟩ w) :
    Host.gather d x idx = Host.gather d' x idx := by
  funext y
  rw [gather_rows_apply d hN hoff hcoll hob hsim hivd, gather_rows_apply d' hN hoff' hcoll' hob' hsim' hivd']

theorem scatterAdd_dims_irrel {φ : FTy}
    (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (d' : ScatterDims ⟨2, ![N, C]⟩ ⟨2, ![E, 1]⟩ ⟨2, ![E, C]⟩)
    (huw' : d'.updateWindowDims = [1]) (hiw' : d'.insertedWindowDims = [0])
    (hsd' : d'.scatterDimsToOperandDims = [0]) (hivd' : d'.indexVectorDim = 1)
    (x : FVec Ideal ⟨2, ![N, C]⟩ φ) (idx : IVec ⟨2, ![E, 1]⟩ w) (upd : FVec Ideal ⟨2, ![E, C]⟩ φ) :
    Host.scatterAdd d x idx upd = Host.scatterAdd d' x idx upd := by
  funext y
  rw [eq_ix2 y]
  exact hostScatterAdd_cols d huw hiw hsd hivd d' huw' hiw' hsd' hivd' x x idx upd upd (y 0) (y 1) (y 1) rfl
    (fun _ => rfl)

end Records

section Elementwise
variable {α : Type} {n k : Nat}

theorem bcast_col_apply (h : (⟨2, ![n, 1]⟩ : Shape).BroadcastsInDim ⟨2, ![n, k]⟩ ![0, 1])
    (v : (⟨2, ![n, 1]⟩ : Shape).Idx → α) (i : (⟨2, ![n, k]⟩ : Shape).Idx) :
    broadcastInDim ⟨2, ![n, k]⟩ ![0, 1] h v i = v (ix2 (i 0) 0) := by
  unfold broadcastInDim
  congr 1
  funext a
  apply Fin.ext
  match a with
  | ⟨0, _⟩ =>
    have hi := (i 0).isLt
    split
    · next h1 =>
      change n = 1 at h1
      show (0 : Nat) = (i 0).val
      change (i 0).val < n at hi
      omega
    · rfl
  | ⟨1, _⟩ =>
    split
    · rfl
    · next h1 => exact absurd rfl h1

theorem extf_ideal {s : Shape} {φ ψ : FTy} (a : FVec Ideal s φ) (h : φ.bits < ψ.bits) :
    (extf ψ a h : FVec Ideal s ψ) = a := rfl

end Elementwise

theorem selfPlusMsg_eq (h : (⟨2, ![50000, 1]⟩ : Shape).BroadcastsInDim ⟨2, ![50000, 128]⟩ ![0, 1])
    (mm : FVec Ideal ⟨2, ![50000, 128]⟩ .f32) (d2 : FVec Ideal ⟨2, ![50000, 1]⟩ .f32)
    (msg : FVec Ideal ⟨2, ![50000, 128]⟩ .f32) :
    Cert.Spec.selfPlusMsg mm d2 msg
      = addf msg (mulf mm (broadcastInDim ⟨2, ![50000, 128]⟩ ![0, 1] h d2)) := by
  funext i
  show mm i * d2 (ix2 (i 0) 0) + msg i = msg i + mm i * broadcastInDim ⟨2, ![50000, 128]⟩ ![0, 1] h d2 i
  rw [bcast_col_apply h d2 i, add_comm]

section Layer

abbrev ShNode : Shape := ⟨2, ![50000, 128]⟩
abbrev ShEdge : Shape := ⟨2, ![800000, 128]⟩
abbrev ShEdgeCol : Shape := ⟨2, ![800000, 1]⟩
abbrev ShNodeCol : Shape := ⟨2, ![50000, 1]⟩
abbrev ShScalar : Shape := ⟨0, ![]⟩

theorem mm_path (D : DotDims ShNode ⟨2, ![128, 128]⟩ ShNode)
    (hlc : D.lhsContracting = [1]) (hrc : D.rhsContracting = [0]) (hln : D.lhsNonContracting = [0])
    (hrn : D.rhsNonContracting = [1]) (hlb : D.lhsBatch = []) (hrb : D.rhsBatch = [])
    {k0 kP : Cert.Spec.NodeMat} {kW : Cert.Spec.Weight}
    (eP : kP = Cert.Spec.matProd k0 kW)
    {r0 rP : FVec Ideal ShNode .f32} {rW : FVec Ideal ⟨2, ![128, 128]⟩ .f32}
    (fP : rP = Host.dotGeneral D none r0 rW)
    (hx : k0 = r0) (hW : kW = rW) : kP = rP := by
  subst eP fP hx hW
  exact (dot_eq_matProd D hlc hrc hln hrn hlb hrb none .single _ _).symm

theorem msg_path
    (gK gR : GatherDims ShNode ShEdgeCol ShEdge)
    (hgK1 : gK.offsetDims = [1]) (hgK2 : gK.collapsedSliceDims = [0]) (hgK3 : gK.operandBatchingDims = [])
    (hgK4 : gK.startIndexMap = [0]) (hgK5 : gK.indexVectorDim = 1)
    (hgR1 : gR.offsetDims = [1]) (hgR2 : gR.collapsedSliceDims = [0]) (hgR3 : gR.operandBatchingDims = [])
    (hgR4 : gR.startIndexMap = [0]) (hgR5 : gR.indexVectorDim = 1)
    (sK sR : ScatterDims ShNode ShEdgeCol ShEdge)
    (hsK1 : sK.updateWindowDims = [1]) (hsK2 : sK.insertedWindowDims = [0])
    (hsK3 : sK.scatterDimsToOperandDims = [0]) (hsK4 : sK.indexVectorDim = 1)
    (hsR1 : sR.updateWindowDims = [1]) (hsR2 : sR.insertedWindowDims = [0])
    (hsR3 : sR.scatterDimsToOperandDims = [0]) (hsR4 : sR.indexVectorDim = 1)
    (hlt : FTy.bf16.bits < FTy.f32.bits)
    (hb hb' : ShEdgeCol.BroadcastsInDim ShEdge ![0, 1]) (hz hz' : ShScalar.BroadcastsInDim ShNode ![])
    {kP : FVec Ideal ShNode .bf16} {kSrc kDst : IVec ShEdgeCol 32} {kCoef : FVec Ideal ShEdgeCol .f32}
    {kG : FVec Ideal ShEdge .bf16} {kGw kB kU : FVec Ideal ShEdge .f32} {kz : FVec Ideal ShScalar .f32} {kZ kMsg : FVec Ideal ShNode .f32}
    (eG : kG = Host.gather gK kP kSrc) (eGw : kGw = extf .f32 kG hlt) (eB : kB = broadcastInDim ShEdge ![0, 1] hb kCoef)
    (eU : kU = mulf kGw kB) (ez : kz = constant ShScalar .f32 0x00000000#32) (eZ : kZ = broadcastInDim ShNode ![] hz kz)
    (eMsg : kMsg = Host.scatterAdd sK kZ kDst kU)
    {rP : FVec Ideal ShNode .f32} {rSrc rDst : IVec ShEdgeCol 32} {rCoef : FVec Ideal ShEdgeCol .f32}
    {rG rB rU : FVec Ideal ShEdge .f32} {rz : FVec Ideal ShScalar .f32} {rZ rMsg : FVec Ideal ShNode .f32}
    (fG : rG = Host.gather gR rP rSrc) (fB : rB = broadcastInDim ShEdge ![0, 1] hb' rCoef)
    (fU : rU = mulf rG rB) (fz : rz = constant ShScalar .f32 0x00000000#32) (fZ : rZ = broadcastInDim ShNode ![] hz' rz)
    (fMsg : rMsg = Host.scatterAdd sR rZ rDst rU)
    (hP : (kP : ShNode.Idx → EReal) = rP) (hsrc : kSrc = rSrc) (hdst : kDst = rDst) (hcoef : kCoef = rCoef) :
    kMsg = rMsg := by
  subst eG eGw eB eU ez eZ eMsg fG fB fU fz fZ fMsg hsrc hdst hcoef
  subst hP
  rw [scatterAdd_dims_irrel sK hsK1 hsK2 hsK3 hsK4 sR hsR1 hsR2 hsR3 hsR4, extf_ideal,
    gather_dims_irrel (by decide) gK hgK1 hgK2 hgK3 hgK4 hgK5 gR hgR1 hgR2 hgR3 hgR4 hgR5]

theorem out_path (hb : ShNodeCol.BroadcastsInDim ShNode ![0, 1])
    {kP kMsg kOut : Cert.Spec.NodeMat} {kD2 : Cert.Spec.NodeCol}
    (eOut : kOut = Cert.Spec.selfPlusMsg kP kD2 kMsg)
    {rP rMsg rB rS rOut : FVec Ideal ShNode .f32} {rD2 : FVec Ideal ShNodeCol .f32}
    (fB : rB = broadcastInDim ShNode ![0, 1] hb rD2) (fS : rS = mulf rP rB) (fOut : rOut = addf rMsg rS)
    (hP : kP = rP) (hmsg : kMsg = rMsg) (hd2 : kD2 = rD2) : kOut = rOut := by
  subst eOut fB fS fOut hP hmsg hd2
  exact selfPlusMsg_eq hb _ _ _

end Layer

end Cert.Alg

end
-- ==== Proof.Br2.lean ====
import proofs.«126291_j72541997629772_2_alg».proof.Proof.BrDefs
import proofs.«126291_j72541997629772_2_alg».proof.Proof.KiFinal
import proofs.«126291_j72541997629772_2_alg».proof.Proof.KiFinalV
import proofs.«126291_j72541997629772_2_alg».proof.Proof.RefSsa
import proofs.«126291_j72541997629772_2_alg».proof.Proof.AlgLayer

noncomputable section

namespace Cert.Bridge

open Idealize.ShloMosaic Idealize.ShloMosaic.ValueIdx Cert.Alg

variable (m : KMem) (m' : RMem) (c : Dev Cert.KernelIdeal.nD)

theorem mm1
    (hx : (K m c Cert.KernelIdeal.main_arg0 : Cert.Spec.NodeMat) = R m' c Cert.ReferenceIdeal.main_arg0)
    (hW : (K m c Cert.KernelIdeal.main_arg2 : Cert.Spec.Weight) = R m' c Cert.ReferenceIdeal.main_arg2) :
    (K m c Cert.KernelIdeal.main_v29 : Cert.Spec.NodeMat) = R m' c Cert.ReferenceIdeal.main_v11 :=
  mm_path Cert.ReferenceIdeal.dot_S50000x128_S128x128_S50000x128_1_0_0_1_n_n rfl rfl rfl rfl rfl rfl
    (Cert.KernelIdeal.Hand.fin_main_v29 m c) (Cert.ReferenceIdeal.Hand.e_main_v11 (fun b => m' (c, b))) hx hW

theorem msg1
    (hmm : (K m c Cert.KernelIdeal.main_v29 : Cert.Spec.NodeMat) = R m' c Cert.ReferenceIdeal.main_v11)
    (hsrc : (K m c Cert.KernelIdeal.main_v35 : IVec ShEdgeCol 32) = R m' c Cert.ReferenceIdeal.main_v33)
    (hdst : (K m c Cert.KernelIdeal.main_v41 : IVec ShEdgeCol 32) = R m' c Cert.ReferenceIdeal.main_v38)
    (hcoef : (K m c Cert.KernelIdeal.main_v28 : FVec Ideal ShEdgeCol .f32) = R m' c Cert.ReferenceIdeal.main_v27) :
    (K m c Cert.KernelIdeal.main_v42 : Cert.Spec.NodeMat) = R m' c Cert.ReferenceIdeal.main_v39 :=
  msg_path Cert.KernelIdeal.gather_S50000x128_S800000x1_S800000x128_1_0_n_n_0_1_1128 Cert.ReferenceIdeal.gather_S50000x128_S800000x1_S800000x128_1_0_n_n_0_1_1128 rfl rfl rfl rfl rfl rfl rfl rfl rfl rfl
    Cert.KernelIdeal.scatter_S50000x128_S800000x1_S800000x128_1_0_0_1 Cert.ReferenceIdeal.scatter_S50000x128_S800000x1_S800000x128_1_0_0_1 rfl rfl rfl rfl rfl rfl rfl rfl _ _ _ _ _
    (Cert.KernelIdeal.Hand.fin_main_v36 m c) (Cert.KernelIdeal.Hand.fin_main_v37 m c) (Cert.KernelIdeal.Hand.fin_main_v38 m c) (Cert.KernelIdeal.Hand.fin_main_v39 m c) (Cert.KernelIdeal.Hand.fin_main_cst_7 m c) (Cert.KernelIdeal.Hand.fin_main_v40 m c) (Cert.KernelIdeal.Hand.fin_main_v42 m c)
    (Cert.ReferenceIdeal.Hand.e_main_v34 (fun b => m' (c, b))) (Cert.ReferenceIdeal.Hand.e_main_v35 (fun b => m' (c, b))) (Cert.ReferenceIdeal.Hand.e_main_v36 (fun b => m' (c, b))) (Cert.ReferenceIdeal.Hand.e_main_cst_7 (fun b => m' (c, b))) (Cert.ReferenceIdeal.Hand.e_main_v37 (fun b => m' (c, b))) (Cert.ReferenceIdeal.Hand.e_main_v39 (fun b => m' (c, b)))
    hmm hsrc hdst hcoef

theorem out1
    (hmm : (K m c Cert.KernelIdeal.main_v29 : Cert.Spec.NodeMat) = R m' c Cert.ReferenceIdeal.main_v11)
    (hmsg : (K m c Cert.KernelIdeal.main_v42 : Cert.Spec.NodeMat) = R m' c Cert.ReferenceIdeal.main_v39)
    (hd2 : (K m c Cert.KernelIdeal.main_v12 : Cert.Spec.NodeCol) = R m' c Cert.ReferenceIdeal.main_v41) :
    (K m c Cert.KernelIdeal.main_v43_0 : Cert.Spec.NodeMat) = R m' c Cert.ReferenceIdeal.main_v44 :=
  out_path _ (Cert.KernelIdeal.Hand.fin_main_v43_0 m c) (Cert.ReferenceIdeal.Hand.e_main_v42 (fun b => m' (c, b))) (Cert.ReferenceIdeal.Hand.e_main_v43 (fun b => m' (c, b))) (Cert.ReferenceIdeal.Hand.e_main_v44 (fun b => m' (c, b))) hmm hmsg hd2

theorem mm2
    (hx : (K m c Cert.KernelIdeal.main_v52 : Cert.Spec.NodeMat) = R m' c Cert.ReferenceIdeal.main_v64)
    (hW : (K m c Cert.KernelIdeal.main_arg3 : Cert.Spec.Weight) = R m' c Cert.ReferenceIdeal.main_arg3) :
    (K m c Cert.KernelIdeal.main_v53 : Cert.Spec.NodeMat) = R m' c Cert.ReferenceIdeal.main_v65 :=
  mm_path Cert.ReferenceIdeal.dot_S50000x128_S128x128_S50000x128_1_0_0_1_n_n rfl rfl rfl rfl rfl rfl
    (Cert.KernelIdeal.Hand.fin_main_v53 m c) (Cert.ReferenceIdeal.Hand.e_main_v65 (fun b => m' (c, b))) hx hW

theorem msg2
    (hmm : (K m c Cert.KernelIdeal.main_v53 : Cert.Spec.NodeMat) = R m' c Cert.ReferenceIdeal.main_v65)
    (hsrc : (K m c Cert.KernelIdeal.main_v59 : IVec ShEdgeCol 32) = R m' c Cert.ReferenceIdeal.main_v87)
    (hdst : (K m c Cert.KernelIdeal.main_v65 : IVec ShEdgeCol 32) = R m' c Cert.ReferenceIdeal.main_v92)
    (hcoef : (K m c Cert.KernelIdeal.main_v28 : FVec Ideal ShEdgeCol .f32) = R m' c Cert.ReferenceIdeal.main_v81) :
    (K m c Cert.KernelIdeal.main_v66 : Cert.Spec.NodeMat) = R m' c Cert.ReferenceIdeal.main_v93 :=
  msg_path Cert.KernelIdeal.gather_S50000x128_S800000x1_S800000x128_1_0_n_n_0_1_1128 Cert.ReferenceIdeal.gather_S50000x128_S800000x1_S800000x128_1_0_n_n_0_1_1128 rfl rfl rfl rfl rfl rfl rfl rfl rfl rfl
    Cert.KernelIdeal.scatter_S50000x128_S800000x1_S800000x128_1_0_0_1 Cert.ReferenceIdeal.scatter_S50000x128_S800000x1_S800000x128_1_0_0_1 rfl rfl rfl rfl rfl rfl rfl rfl _ _ _ _ _
    (Cert.KernelIdeal.Hand.fin_main_v60 m c) (Cert.KernelIdeal.Hand.fin_main_v61 m c) (Cert.KernelIdeal.Hand.fin_main_v62 m c) (Cert.KernelIdeal.Hand.fin_main_v63 m c) (Cert.KernelIdeal.Hand.fin_main_cst_12 m c) (Cert.KernelIdeal.Hand.fin_main_v64 m c) (Cert.KernelIdeal.Hand.fin_main_v66 m c)
    (Cert.ReferenceIdeal.Hand.e_main_v88 (fun b => m' (c, b))) (Cert.ReferenceIdeal.Hand.e_main_v89 (fun b => m' (c, b))) (Cert.ReferenceIdeal.Hand.e_main_v90 (fun b => m' (c, b))) (Cert.ReferenceIdeal.Hand.e_main_cst_18 (fun b => m' (c, b))) (Cert.ReferenceIdeal.Hand.e_main_v91 (fun b => m' (c, b))) (Cert.ReferenceIdeal.Hand.e_main_v93 (fun b => m' (c, b)))
    hmm hsrc hdst hcoef

theorem out2
    (hmm : (K m c Cert.KernelIdeal.main_v53 : Cert.Spec.NodeMat) = R m' c Cert.ReferenceIdeal.main_v65)
    (hmsg : (K m c Cert.KernelIdeal.main_v66 : Cert.Spec.NodeMat) = R m' c Cert.ReferenceIdeal.main_v93)
    (hd2 : (K m c Cert.KernelIdeal.main_v12 : Cert.Spec.NodeCol) = R m' c Cert.ReferenceIdeal.main_v95) :
    (K m c Cert.KernelIdeal.main_v67_0 : Cert.Spec.NodeMat) = R m' c Cert.ReferenceIdeal.main_v98 :=
  out_path _ (Cert.KernelIdeal.Hand.fin_main_v67_0 m c) (Cert.ReferenceIdeal.Hand.e_main_v96 (fun b => m' (c, b))) (Cert.ReferenceIdeal.Hand.e_main_v97 (fun b => m' (c, b))) (Cert.ReferenceIdeal.Hand.e_main_v98 (fun b => m' (c, b))) hmm hmsg hd2

end Cert.Bridge

end
-- ==== Proof.AlgFin.lean ====
import Idealize.ShloMosaic.PureOps.Ideal
import Idealize.ShloMosaic.PureOps.Ideal.Laws

noncomputable section

namespace Cert.Alg

open Idealize.ShloMosaic
open scoped BigOperators

def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

theorem isReal_iff {x : EReal} : IsReal x ↔ x ≠ ⊥ ∧ x ≠ ⊤ := by
  constructor
  · intro hx; exact ⟨hx.ne_bot, hx.ne_top⟩
  · rintro ⟨hb, ht⟩
    induction x using EReal.rec with
    | bot => exact absurd rfl hb
    | coe r => exact ⟨r, rfl⟩
    | top => exact absurd rfl ht

protected theorem IsReal.add {x y : EReal} (hx : IsReal x) (hy : IsReal y) : IsReal (x + y) := by
  obtain ⟨a, rfl⟩ := hx; obtain ⟨b, rfl⟩ := hy; exact ⟨a + b, (EReal.coe_add a b).symm⟩

protected theorem IsReal.sub {x y : EReal} (hx : IsReal x) (hy : IsReal y) : IsReal (x - y) := by
  obtain ⟨a, rfl⟩ := hx; obtain ⟨b, rfl⟩ := hy; exact ⟨a - b, (EReal.coe_sub a b).symm⟩

protected theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

protected theorem IsReal.max {x y : EReal} (hx : IsReal x) (hy : IsReal y) : IsReal (max x y) := by
  obtain ⟨a, rfl⟩ := hx; obtain ⟨b, rfl⟩ := hy; exact ⟨max a b, coe_max a b⟩

theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

protected theorem IsReal.sum {ι : Type*} (s : Finset ι) (x : ι → EReal) (hx : ∀ i ∈ s, IsReal (x i)) :
    IsReal (∑ i ∈ s, x i) := by
  classical
  induction s using Finset.induction_on with
  | empty => rw [Finset.sum_empty]; exact IsReal.zero
  | insert a s ha ih =>
    rw [Finset.sum_insert ha]
    exact (hx a (Finset.mem_insert_self a s)).add (ih fun i hi => hx i (Finset.mem_insert_of_mem hi))

theorem IsReal.div_coe {x : EReal} (hx : IsReal x) {y : ℝ} (hy : y ≠ 0) : IsReal (Ideal.div x (y : EReal)) := by
  rw [Ideal.div_coe hy]; exact hx.mul (IsReal.coe _)

theorem rsqrt_coe_pos {r : ℝ} (hr : 0 < r) : Ideal.rsqrt (r : EReal) = (((Real.sqrt r)⁻¹ : ℝ) : EReal) := by
  rw [Ideal.rsqrt_coe, if_neg (not_lt.2 hr.le), if_neg hr.ne']

theorem IsReal.rsqrt_pos {x : EReal} {r : ℝ} (hx : x = (r : EReal)) (hr : 0 < r) : IsReal (Ideal.rsqrt x) := by
  subst hx; exact ⟨_, rsqrt_coe_pos hr⟩

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

theorem isReal_ofBits_zero : IsReal (Ideal.ofBits .f32 0x00000000#32) := ofBits_zero ▸ IsReal.zero

end Cert.Alg

end
-- ==== Proof.AlgVar.lean ====
import proofs.«126291_j72541997629772_2_alg».proof.Proof.AlgFin

noncomputable section

namespace Cert.Alg

open Idealize.ShloMosaic
open scoped BigOperators

theorem real_var_identity {ι : Type*} [Fintype ι] {n : ℝ} (hn : n ≠ 0) (hcard : (Fintype.card ι : ℝ) = n)
    (f : ι → ℝ) {m : ℝ} (hm : m = (∑ r, f r) * (1 / n)) :
    (∑ r, f r * f r) * (1 / n) - m * m = (∑ r, (f r - m) * (f r - m)) * (1 / n) := by
  have hdev : ∀ r, (f r - m) * (f r - m) = f r * f r - 2 * m * f r + m * m := fun r => by ring
  have hexp : (∑ r, (f r - m) * (f r - m)) = (∑ r, f r * f r) - 2 * m * (∑ r, f r) + n * (m * m) := by
    simp_rw [hdev]
    rw [Finset.sum_add_distrib, Finset.sum_sub_distrib, ← Finset.mul_sum, Finset.sum_const, Finset.card_univ,
      nsmul_eq_mul, hcard]
  have hS : (∑ r, f r) = m * n := by rw [hm]; field_simp
  rw [hexp, hS]; field_simp; ring

section Column

variable {ι : Type*} [Fintype ι]

theorem var_core (hcard : Fintype.card ι = 50000) (x : ι → EReal) (hx : ∀ r, IsReal (x r)) :
    ∃ (f : ι → ℝ) (m v : ℝ), (∀ r, x r = (f r : EReal)) ∧ Ideal.div (∑ r, x r) ((50000 : ℝ) : EReal) = (m : EReal) ∧
      0 ≤ v ∧
      Ideal.div (∑ r, x r * x r) ((50000 : ℝ) : EReal) - (m : EReal) * (m : EReal) = (v : EReal) ∧
      Ideal.div (∑ r, (x r - (m : EReal)) * (x r - (m : EReal))) ((50000 : ℝ) : EReal) = (v : EReal) := by
  choose f hf using hx
  obtain rfl : x = fun r => (f r : EReal) := funext hf
  have hc : (50000 : ℝ) ≠ 0 := by norm_num
  have hcard' : (Fintype.card ι : ℝ) = 50000 := by rw [hcard]; norm_num
  refine ⟨f, (∑ r, f r) * (1 / 50000), (∑ r, (f r - (∑ r, f r) * (1 / 50000)) * (f r - (∑ r, f r) * (1 / 50000))) * (1 / 50000),
    fun _ => rfl, ?_, ?_, ?_, ?_⟩
  · rw [Ideal.div_coe hc, coe_sum, ← EReal.coe_mul]
  · exact mul_nonneg (Finset.sum_nonneg fun r _ => mul_self_nonneg _) (by norm_num)
  · simp_rw [← EReal.coe_mul]
    rw [Ideal.div_coe hc, coe_sum, ← EReal.coe_mul, ← EReal.coe_sub, real_var_identity hc hcard' f rfl]
  · simp_rw [← EReal.coe_sub, ← EReal.coe_mul]
    rw [Ideal.div_coe hc, coe_sum, ← EReal.coe_mul]

theorem var_onepass_eq_twopass_of (hcard : Fintype.card ι = 50000) (x : ι → EReal) (hx : ∀ r, IsReal (x r))
    {mean : EReal} (hmean : mean = Ideal.div (∑ r, x r) ((50000 : ℝ) : EReal)) :
    max (Ideal.div (∑ r, x r * x r) ((50000 : ℝ) : EReal) - mean * mean) 0
      = Ideal.div (∑ r, (x r - mean) * (x r - mean)) ((50000 : ℝ) : EReal) := by
  obtain ⟨f, m, v, -, hm, hv, h1, h2⟩ := var_core hcard x hx
  rw [hmean, hm, h1, h2]
  exact max_eq_left (EReal.coe_nonneg.2 hv)

theorem mean_real_of (hcard : Fintype.card ι = 50000) (x : ι → EReal) (hx : ∀ r, IsReal (x r)) :
    IsReal (Ideal.div (∑ r, x r) ((50000 : ℝ) : EReal)) := by
  obtain ⟨f, m, v, -, hm, -⟩ := var_core hcard x hx
  exact ⟨m, hm⟩

end Column

section Fin50000

variable (x : Fin 50000 → EReal) (hx : ∀ r, IsReal (x r))
include hx

theorem mean_real : IsReal (Ideal.div (∑ r, x r) ((50000 : ℝ) : EReal)) :=
  mean_real_of (Fintype.card_fin _) x hx

theorem var_onepass_eq_twopass :
    max (Ideal.div (∑ r, x r * x r) ((50000 : ℝ) : EReal)
        - Ideal.div (∑ r, x r) ((50000 : ℝ) : EReal) * Ideal.div (∑ r, x r) ((50000 : ℝ) : EReal)) 0
      = Ideal.div (∑ r, (x r - Ideal.div (∑ r, x r) ((50000 : ℝ) : EReal))
          * (x r - Ideal.div (∑ r, x r) ((50000 : ℝ) : EReal))) ((50000 : ℝ) : EReal) :=
  var_onepass_eq_twopass_of (Fintype.card_fin _) x hx rfl

end Fin50000

end Cert.Alg

end
-- ==== Proof.AlgNorm.lean ====
import proofs.«126291_j72541997629772_2_alg».proof.Proof.AlgFin

noncomputable section

namespace Cert.Alg

open Idealize.ShloMosaic
open scoped BigOperators

theorem clamp_add_eps_pos {v z e : EReal} {w ε : ℝ} (hv : v = (w : EReal)) (hw : 0 ≤ w) (hz : z = 0)
    (he : e = (ε : EReal)) (hε : 0 < ε) : max v z + e = ((w + ε : ℝ) : EReal) ∧ 0 < w + ε := by
  subst hv hz he
  rw [max_eq_left (EReal.coe_nonneg.2 hw), ← EReal.coe_add]
  exact ⟨rfl, by positivity⟩

theorem rsqrt_clamp_real_of {v z e : EReal} {w ε : ℝ} (hv : v = (w : EReal)) (hw : 0 ≤ w) (hz : z = 0)
    (he : e = (ε : EReal)) (hε : 0 < ε) : IsReal (Ideal.rsqrt (max v z + e)) := by
  obtain ⟨h, hpos⟩ := clamp_add_eps_pos hv hw hz he hε
  exact IsReal.rsqrt_pos h hpos

theorem normRelu_real_of {x mu g b v z e : EReal} (hx : IsReal x) (hmu : IsReal mu) (hg : IsReal g)
    (hb : IsReal b) {w ε : ℝ} (hv : v = (w : EReal)) (hw : 0 ≤ w) (hz : z = 0) (he : e = (ε : EReal))
    (hε : 0 < ε) : IsReal (max ((x - mu) * Ideal.rsqrt (max v z + e) * g + b) z) := by
  have hr := rsqrt_clamp_real_of hv hw hz he hε
  exact ((((hx.sub hmu).mul hr).mul hg).add hb).max (hz ▸ IsReal.zero)

theorem normRelu_real {x mu g b v : EReal} (hx : IsReal x) (hmu : IsReal mu) (hg : IsReal g) (hb : IsReal b)
    {w : ℝ} (hv : v = (w : EReal)) (hw : 0 ≤ w) :
    IsReal (max ((x - mu) * Ideal.rsqrt (max v (Ideal.ofBits .f32 0x00000000#32)
      + Ideal.ofBits .f32 0x3727C5AC#32) * g + b) (Ideal.ofBits .f32 0x00000000#32)) := by
  obtain ⟨ε, hε, he⟩ := ofBits_eps_pos
  exact normRelu_real_of hx hmu hg hb hv hw ofBits_zero he hε

end Cert.Alg

end
-- ==== Proof.AlgReal.lean ====
import proofs.«126291_j72541997629772_2_alg».proof.Proof.AlgFin
import proofs.«126291_j72541997629772_2_alg».proof.Proof.AlgVar
import proofs.«126291_j72541997629772_2_alg».proof.Proof.AlgNorm
import proofs.«126291_j72541997629772_2_alg».proof.Proof.Spec
import Idealize.ShloMosaic.PureOps.ShapeOps
import Idealize.ShloMosaic.PureOps.Contract
import Idealize.ShloMosaic.PureOps.Ideal
import Idealize.ShloMosaic.PureOps.Ideal.Laws
import Idealize.ShloMosaic.Lib.ValueIdx

noncomputable section

namespace Cert.Alg

open Idealize.ShloMosaic Idealize.ShloMosaic.ValueIdx
open scoped BigOperators

def AllReal {s : Shape} (x : s.Idx → EReal) : Prop := ∀ i, IsReal (x i)

def AllPos {s : Shape} (x : s.Idx → EReal) : Prop := ∀ i, ∃ r : ℝ, 0 < r ∧ x i = (r : EReal)

protected theorem AllPos.allReal {s : Shape} {x : s.Idx → EReal} (hx : AllPos x) : AllReal x := fun i => by
  obtain ⟨r, -, h⟩ := hx i; exact ⟨r, h⟩

section Reindex
variable {s t : Shape}

protected theorem AllReal.gather {si : Shape} {w : Nat} {x : s.Idx → EReal} (hx : AllReal x) (d : GatherDims s si t)
    (idx : IVec si w) : AllReal (Host.gather d x idx) := fun _ => hx _

protected theorem AllReal.broadcastInDim {x : s.Idx → EReal} (hx : AllReal x) (dims : Fin s.rank → Fin t.rank)
    (h : s.BroadcastsInDim t dims) : AllReal (broadcastInDim t dims h x) := fun _ => hx _

protected theorem AllReal.shapeCast {x : s.Idx → EReal} (hx : AllReal x) (h : s.ShapeCasts t) :
    AllReal (shapeCast t x h) := fun _ => hx _

protected theorem AllReal.extractStridedSlice {x : s.Idx → EReal} (hx : AllReal x) (off : Fin s.rank → Nat)
    (h : s.Slices off t) : AllReal (extractStridedSlice t off x h) := fun _ => hx _

protected theorem AllReal.concatenate (a : Fin t.rank) (xs : List ((s : Shape) × (s.Idx → EReal)))
    (h : Shape.Concatenates (xs.map (·.1)) t a) (hxs : ∀ p ∈ xs, AllReal p.2) :
    AllReal (concatenate t a xs h) := by
  intro j
  unfold Idealize.ShloMosaic.concatenate
  exact hxs _ (List.getElem_mem _) _

protected theorem AllReal.extf {φ ψ : FTy} {x : FVec Ideal s φ} (hx : AllReal x) (h : φ.bits < ψ.bits) :
    AllReal (extf ψ x h : FVec Ideal s ψ) := fun i => hx i

end Reindex

section Entrywise
variable {s : Shape} {φ : FTy}

protected theorem AllReal.mulf {a b : FVec Ideal s φ} (ha : AllReal a) (hb : AllReal b) : AllReal (mulf a b) :=
  fun i => (ha i).mul (hb i)

protected theorem AllReal.addf {a b : FVec Ideal s φ} (ha : AllReal a) (hb : AllReal b) : AllReal (addf a b) :=
  fun i => (ha i).add (hb i)

protected theorem AllReal.subf {a b : FVec Ideal s φ} (ha : AllReal a) (hb : AllReal b) : AllReal (subf a b) :=
  fun i => (ha i).sub (hb i)

protected theorem AllReal.maximumf {a b : FVec Ideal s φ} (ha : AllReal a) (hb : AllReal b) : AllReal (maximumf a b) :=
  fun i => (ha i).max (hb i)

protected theorem AllPos.hostRsqrt {x : FVec Ideal s φ} (hx : AllPos x) : AllPos (Host.rsqrt x) := fun i => by
  obtain ⟨r, hr, h⟩ := hx i
  refine ⟨(Real.sqrt r)⁻¹, inv_pos.2 (Real.sqrt_pos.2 hr), ?_⟩
  show Ideal.rsqrt (x i) = _
  rw [h, rsqrt_coe_pos hr]

protected theorem AllReal.hostRsqrt {x : FVec Ideal s φ} (hx : AllPos x) : AllReal (Host.rsqrt x) :=
  (AllPos.hostRsqrt hx).allReal

protected theorem AllPos.mulf {a b : FVec Ideal s φ} (ha : AllPos a) (hb : AllPos b) : AllPos (mulf a b) := fun i => by
  obtain ⟨p, hp, h1⟩ := ha i; obtain ⟨q, hq, h2⟩ := hb i
  refine ⟨p * q, mul_pos hp hq, ?_⟩
  show a i * b i = _
  rw [h1, h2, EReal.coe_mul]

protected theorem AllReal.hostDivf {a b : FVec Ideal s φ} (ha : AllReal a) (hb : ∀ i, ∃ y : ℝ, y ≠ 0 ∧ b i = (y : EReal)) :
    AllReal (Host.divf a b) := fun i => by
  obtain ⟨y, hy, h⟩ := hb i
  show IsReal (Ideal.div (a i) (b i))
  rw [h]; exact (ha i).div_coe hy

protected theorem AllReal.hostDivf_const {a b : FVec Ideal s φ} (ha : AllReal a) {y : ℝ} (hy : y ≠ 0)
    (hb : ∀ i, b i = (y : EReal)) : AllReal (Host.divf a b) :=
  ha.hostDivf fun i => ⟨y, hy, hb i⟩

end Entrywise

section Sums

protected theorem AllReal.scatterAdd {s si u : Shape} {φ : FTy} {w : Nat} (d : ScatterDims s si u) {x : FVec Ideal s φ}
    {upd : FVec Ideal u φ} (hx : AllReal x) (hu : AllReal upd) (idx : IVec si w) :
    AllReal (Host.scatterAdd d x idx upd) := fun i => by
  show IsReal (Ideal.hostScatterAdd d x idx upd i)
  unfold Ideal.hostScatterAdd
  exact (hx i).add (IsReal.sum _ _ fun j _ => hu j)

protected theorem AllReal.dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  show IsReal (FloatOps.dotGeneral d prec .single l r j)
  rw [Ideal.dotGeneral_apply]
  exact IsReal.sum _ _ fun k _ => (hl _).mul (hr _)

protected theorem AllReal.reduceAdd {s t u : Shape} {φ : FTy} {axes : List (Fin s.rank)} {x : FVec Ideal s φ}
    {init : u.Idx → Ideal φ} (hx : AllReal x) (hinit : AllReal init) (h : s.ReducesTo axes t) (hu : 0 < u.numel) :
    AllReal (Host.reduceAdd x init h hu) := fun j => by
  show IsReal (Ideal.hostReduceAdd h x (init (Shape.Idx.first hu)) j)
  unfold Ideal.hostReduceAdd
  exact (hinit _).add (IsReal.sum _ _ fun i _ => hx i)

end Sums

section Constants
variable (s : Shape)

protected theorem AllReal.constant_zero : AllReal (constant (F := Ideal) s .f32 0x00000000#32) := fun _ => isReal_ofBits_zero
theorem broadcast_constant_apply {s₀ t : Shape} (dims : Fin s₀.rank → Fin t.rank) (h : s₀.BroadcastsInDim t dims)
    (w : BitVec 32) (j : t.Idx) :
    broadcastInDim t dims h (constant (F := Ideal) s₀ .f32 w) j = Ideal.ofBits .f32 w := rfl

end Constants

section Degree

theorem degree_ge_one_of {s si u : Shape} {φ : FTy} {w : Nat} (d : ScatterDims s si u) {x o : FVec Ideal s φ}
    {upd : FVec Ideal u φ} (idx : IVec si w) (hx : ∀ i, x i = ((0 : ℝ) : EReal))
    (hu : ∀ j, upd j = ((1 : ℝ) : EReal)) (ho : ∀ i, o i = ((1 : ℝ) : EReal)) (i : s.Idx) :
    ∃ r : ℝ, 1 ≤ r ∧ addf (Host.scatterAdd d x idx upd) o i = (r : EReal) := by
  show ∃ r : ℝ, 1 ≤ r ∧ Ideal.hostScatterAdd d x idx upd i + o i = (r : EReal)
  unfold Ideal.hostScatterAdd
  rw [hx i, ho i, Finset.sum_congr rfl (fun j _ => hu j), coe_sum, ← EReal.coe_add, ← EReal.coe_add]
  refine ⟨_, ?_, rfl⟩
  have : (0 : ℝ) ≤ ∑ _j ∈ Finset.univ.filter (fun j => d.resultIdx? j idx = some i), (1 : ℝ) :=
    Finset.sum_nonneg fun _ _ => zero_le_one
  linarith

theorem degree_ge_one {s si u s₀ s₁ s₂ : Shape} {w : Nat} (d : ScatterDims s si u) (idx : IVec si w)
    (d₀ : Fin s₀.rank → Fin s.rank) (h₀ : s₀.BroadcastsInDim s d₀)
    (d₁ : Fin s₁.rank → Fin u.rank) (h₁ : s₁.BroadcastsInDim u d₁)
    (d₂ : Fin s₂.rank → Fin s.rank) (h₂ : s₂.BroadcastsInDim s d₂) (i : s.Idx) :
    ∃ r : ℝ, 1 ≤ r ∧
      addf (Host.scatterAdd d (broadcastInDim s d₀ h₀ (constant (F := Ideal) s₀ .f32 0x00000000#32)) idx
          (broadcastInDim u d₁ h₁ (constant (F := Ideal) s₁ .f32 0x3F800000#32)))
        (broadcastInDim s d₂ h₂ (constant (F := Ideal) s₂ .f32 0x3F800000#32)) i = (r : EReal) :=
  degree_ge_one_of d idx (fun _ => by rw [broadcast_constant_apply, ofBits_zero, EReal.coe_zero])
    (fun _ => by rw [broadcast_constant_apply, ofBits_one]) (fun _ => by rw [broadcast_constant_apply, ofBits_one]) i

theorem degree_allPos {s si u s₀ s₁ s₂ : Shape} {w : Nat} (d : ScatterDims s si u) (idx : IVec si w)
    (d₀ : Fin s₀.rank → Fin s.rank) (h₀ : s₀.BroadcastsInDim s d₀)
    (d₁ : Fin s₁.rank → Fin u.rank) (h₁ : s₁.BroadcastsInDim u d₁)
    (d₂ : Fin s₂.rank → Fin s.rank) (h₂ : s₂.BroadcastsInDim s d₂) :
    AllPos (addf (Host.scatterAdd d (broadcastInDim s d₀ h₀ (constant (F := Ideal) s₀ .f32 0x00000000#32)) idx
          (broadcastInDim u d₁ h₁ (constant (F := Ideal) s₁ .f32 0x3F800000#32)))
        (broadcastInDim s d₂ h₂ (constant (F := Ideal) s₂ .f32 0x3F800000#32))) := fun i => by
  obtain ⟨r, hr, h⟩ := degree_ge_one d idx d₀ h₀ d₁ h₁ d₂ h₂ i
  exact ⟨r, by linarith, h⟩

end Degree

section SpecFns
open Cert.Spec

protected theorem AllReal.matProd {h : NodeMat} {W : Weight} (hh : AllReal h) (hW : AllReal W) : AllReal (matProd h W) :=
  fun _ => IsReal.sum _ _ fun _ _ => (hh _).mul (hW _)

protected theorem AllReal.selfPlusMsg {m msg : NodeMat} {d2 : NodeCol} (hm : AllReal m) (hd : AllReal d2)
    (hmsg : AllReal msg) : AllReal (selfPlusMsg m d2 msg) :=
  fun i => ((hm i).mul (hd _)).add (hmsg i)

protected theorem AllReal.colSum {x : NodeMat} (hx : AllReal x) : AllReal (colSum x) :=
  fun _ => IsReal.sum _ _ fun _ _ => hx _

protected theorem AllReal.colSumSq {x : NodeMat} (hx : AllReal x) : AllReal (colSumSq x) :=
  fun _ => IsReal.sum _ _ fun _ _ => (hx _).mul (hx _)

protected theorem AllReal.normRelu {x : NodeMat} {gamma beta mean var : FeatRow} (hx : AllReal x) (hg : AllReal gamma)
    (hb : AllReal beta) (hmu : AllReal mean) (hv : ∀ j, ∃ w : ℝ, 0 ≤ w ∧ var j = (w : EReal)) :
    AllReal (normRelu x gamma beta mean var) := fun i => by
  obtain ⟨w, hw, h⟩ := hv (ix2 0 (i 1))
  exact normRelu_real (hx i) (hmu _) (hg _) (hb _) h hw

end SpecFns

end Cert.Alg

end
-- ==== Proof.AlgBn.lean ====
import proofs.«126291_j72541997629772_2_alg».proof.Proof.AlgFin
import proofs.«126291_j72541997629772_2_alg».proof.Proof.AlgVar
import proofs.«126291_j72541997629772_2_alg».proof.Proof.AlgNorm
import proofs.«126291_j72541997629772_2_alg».proof.Proof.AlgReal
import proofs.«126291_j72541997629772_2_alg».proof.Proof.Spec
import Idealize.ShloMosaic.PureOps.ShapeOps
import Idealize.ShloMosaic.PureOps.Contract
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

namespace Cert.Alg

open Idealize.ShloMosaic Idealize.ShloMosaic.ValueIdx
open scoped BigOperators

abbrev SN : Shape := ⟨2, ![50000, 128]⟩
abbrev SRow : Shape := ⟨2, ![1, 128]⟩
abbrev SF : Shape := ⟨1, ![128]⟩
abbrev S0 : Shape := ⟨0, ![]⟩

section Reads
variable {α : Type}

theorem bcast_row_apply (h : SF.BroadcastsInDim SRow ![1]) (x : SF.Idx → α) (k : Fin 1) (j : Fin 128) :
    broadcastInDim SRow ![1] h x (ix2 k j) = x (ix1 j) :=
  broadcastInDim_apply _ h x _ _ fun a => match a with | ⟨0, _⟩ => rfl

theorem bcast_full_apply (h : SRow.BroadcastsInDim SN ![0, 1]) (x : SRow.Idx → α) (r : Fin 50000) (j : Fin 128) :
    broadcastInDim SN ![0, 1] h x (ix2 r j) = x (ix2 0 j) :=
  broadcastInDim_apply _ h x _ _ fun a => match a with | ⟨0, _⟩ => rfl | ⟨1, _⟩ => rfl

theorem cast_row_apply (h : SF.ShapeCasts SRow) (x : SF.Idx → α) (j : Fin 128) :
    shapeCast SRow x h (ix2 0 j) = x (ix1 j) :=
  shapeCast_apply x h _ _ (by rw [Shape.rowMajor_val_one, Shape.rowMajor_val_two]; show j.val = 0 * 128 + j.val; omega)

theorem reduce_rows_apply (h' : SN.ReducesTo [0] SF) (hu : 0 < S0.numel) (x : FVec Ideal SN .f32)
    (init : S0.Idx → Ideal .f32) (j : Fin 128) :
    Host.reduceAdd x init h' hu (ix1 j) = init ix0 + ∑ r : Fin 50000, x (ix2 r j) := by
  have h : SN.Reduces [0] SF := by decide
  refine (hostReduceAdd_apply x init h' hu (ix1 j)).trans ?_
  refine (Ideal.hostReduceAdd_single h' h x _ (ix1 j)).trans ?_
  refine congrArg₂ (· + ·) (congrArg init (Subsingleton.elim _ _)) ?_
  refine Finset.sum_congr rfl fun r _ => congrArg x ?_
  funext a
  match a with
  | ⟨0, _⟩ => rfl
  | ⟨1, _⟩ => rfl

end Reads

structure BnAgree (kmean kvar : FVec Ideal SRow .f32) (rmean rvar : FVec Ideal SF .f32) (kout rout : FVec Ideal SN .f32) :
    Prop where
  mean : ∀ j : Fin 128, kmean (ix2 0 j) = rmean (ix1 j)
  var : ∀ j : Fin 128, max (kvar (ix2 0 j)) Cert.Spec.zeroE = rvar (ix1 j)
  out : kout = rout
  var_nonneg : ∀ j : SRow.Idx, ∃ w : ℝ, 0 ≤ w ∧ kvar j = (w : EReal)
  mean_real : AllReal kmean

theorem sitofp_zero : ((((0#32 : BitVec 32).toInt : ℤ) : ℝ) : EReal) = 0 := by
  rw [BitVec.toInt_zero, Int.cast_zero, EReal.coe_zero]

theorem cmp_count_pos : Ideal.cmp .ogt (Ideal.ofBits .f32 0x47435000#32 - ((((0#32 : BitVec 32).toInt : ℤ) : ℝ) : EReal))
    (Ideal.ofBits .f32 0x00000000#32) = 1#1 := by
  rw [sitofp_zero, sub_zero, ofBits_zero, ofBits_50000]
  have : (0 : EReal) < ((50000 : ℝ) : EReal) := by exact_mod_cast (by norm_num : (0 : ℝ) < 50000)
  simp [Ideal.cmp, this]

section Column
variable (x : Fin 50000 → EReal) (hx : ∀ r, IsReal (x r))
include hx

theorem col_mean_words :
    Ideal.div (∑ r, x r) (Ideal.ofBits .f32 0x47435000#32)
      = Ideal.div (Ideal.ofBits .f32 0x00000000#32 + ∑ r, x r) (Ideal.ofBits .f32 0x47435000#32) := by
  rw [ofBits_zero, zero_add]

theorem col_var_words :
    max (Ideal.div (∑ r, x r * x r) (Ideal.ofBits .f32 0x47435000#32)
        - Ideal.div (∑ r, x r) (Ideal.ofBits .f32 0x47435000#32) * Ideal.div (∑ r, x r) (Ideal.ofBits .f32 0x47435000#32))
      (Ideal.ofBits .f32 0x00000000#32)
    = Ideal.div (Ideal.ofBits .f32 0x00000000#32 + ∑ r,
          (x r - Ideal.div (Ideal.ofBits .f32 0x00000000#32 + ∑ r, x r) (Ideal.ofBits .f32 0x47435000#32))
          * (x r - Ideal.div (Ideal.ofBits .f32 0x00000000#32 + ∑ r, x r) (Ideal.ofBits .f32 0x47435000#32)))
        (Ideal.ofBits .f32 0x47435000#32 - ((((0#32 : BitVec 32).toInt : ℤ) : ℝ) : EReal)) := by
  rw [sitofp_zero, ofBits_zero, ofBits_50000]
  simp only [zero_add, sub_zero]
  exact var_onepass_eq_twopass x hx

theorem col_var_nonneg :
    ∃ w : ℝ, 0 ≤ w ∧ Ideal.div (∑ r, x r * x r) (Ideal.ofBits .f32 0x47435000#32)
        - Ideal.div (∑ r, x r) (Ideal.ofBits .f32 0x47435000#32) * Ideal.div (∑ r, x r) (Ideal.ofBits .f32 0x47435000#32)
      = (w : EReal) := by
  obtain ⟨f, m, v, -, hm, hv, h1, -⟩ := var_core (Fintype.card_fin _) x hx
  rw [ofBits_50000, hm]
  exact ⟨v, hv, h1⟩

theorem col_mean_real : IsReal (Ideal.div (∑ r, x r) (Ideal.ofBits .f32 0x47435000#32)) := by
  rw [ofBits_50000]; exact mean_real x hx

end Column

section Layer

variable

  {hred : SN.ReducesTo [0] SF} {hu : 0 < S0.numel}
  {b0F : S0.BroadcastsInDim SF (![] : Fin 0 → Fin SF.rank)} {bFR : SF.BroadcastsInDim SRow (![1] : Fin 1 → Fin SRow.rank)}
  {b0R : S0.BroadcastsInDim SRow (![] : Fin 0 → Fin SRow.rank)}
  {bRN : SRow.BroadcastsInDim SN (![0, 1] : Fin 2 → Fin SN.rank)}
  {b0N : S0.BroadcastsInDim SN (![] : Fin 0 → Fin SN.rank)}
  {kb0R : S0.BroadcastsInDim SRow (![] : Fin 0 → Fin SRow.rank)} {khsc : SF.ShapeCasts SRow}

theorem bn_layer
    {X : FVec Ideal SN .f32} (hX : AllReal X)
    {ks1 ks2 k44 kmean k46 k47 k48 kvar kg kb : FVec Ideal SRow .f32} {kc8 kc9 : FVec Ideal S0 .f32}
    {kga kbe : FVec Ideal SF .f32} {kout : FVec Ideal SN .f32}
    (f_s1 : ks1 = Cert.Spec.colSum X) (f_s2 : ks2 = Cert.Spec.colSumSq X)
    (f_c8 : kc8 = constant S0 .f32 0x47435000#32) (f_44 : k44 = broadcastInDim SRow ![] kb0R kc8)
    (f_mean : kmean = Host.divf ks1 k44)
    (f_c9 : kc9 = constant S0 .f32 0x47435000#32) (f_46 : k46 = broadcastInDim SRow ![] kb0R kc9)
    (f_47 : k47 = Host.divf ks2 k46) (f_48 : k48 = mulf kmean kmean) (f_var : kvar = subf k47 k48)
    (f_g : kg = shapeCast SRow kga khsc) (f_b : kb = shapeCast SRow kbe khsc)
    (f_out : kout = Cert.Spec.normRelu X kg kb kmean kvar)
    {Y : FVec Ideal SN .f32} (hXY : X = Y) {rga rbe : FVec Ideal SF .f32} (hg : kga = rga) (hb : kbe = rbe)
    {rc8 rc9 rc11 a_cst a_cst0 a_cst1 a_cst2 a_cst3 a_cst4 a7 a8 w0 b_cst : FVec Ideal S0 .f32} {rc10 : IVec S0 32}
    {a12 : IVec S0 1}
    {r45 r46 r47 a0 a9 a10 a11 w1 r48 r52 r53 r54 : FVec Ideal SF .f32}
    {a1 a2 a3 r49 r55 r58 r61 : FVec Ideal SRow .f32}
    {a4 a5 a6 r50 r51 r56 r57 r59 r60 r62 r63 b0 r64 : FVec Ideal SN .f32}
    (e_c8 : rc8 = constant S0 .f32 0x00000000#32) (e45 : r45 = Host.reduceAdd Y rc8 hred hu)
    (e_c9 : rc9 = constant S0 .f32 0x47435000#32) (e46 : r46 = broadcastInDim SF ![] b0F rc9)
    (e47 : r47 = Host.divf r45 r46) (e_c10 : rc10 = constantI S0 32 0#32)
    (ea_cst : a_cst = constant S0 .f32 0x00000000#32) (ea0 : a0 = Host.reduceAdd Y a_cst hred hu)
    (ea1 : a1 = broadcastInDim SRow ![1] bFR a0) (ea_cst0 : a_cst0 = constant S0 .f32 0x47435000#32)
    (ea2 : a2 = broadcastInDim SRow ![] b0R a_cst0) (ea3 : a3 = Host.divf a1 a2)
    (ea4 : a4 = broadcastInDim SN ![0, 1] bRN a3) (ea5 : a5 = subf Y a4) (ea6 : a6 = mulf a5 a5)
    (ea7 : a7 = sitofp (F := Ideal) .f32 rc10) (ea_cst1 : a_cst1 = constant S0 .f32 0x47435000#32)
    (ea8 : a8 = subf a_cst1 a7) (ea_cst2 : a_cst2 = constant S0 .f32 0x00000000#32)
    (ea9 : a9 = Host.reduceAdd a6 a_cst2 hred hu) (ea10 : a10 = broadcastInDim SF ![] b0F a8)
    (ea11 : a11 = Host.divf a9 a10) (ea_cst3 : a_cst3 = constant S0 .f32 0x00000000#32)
    (ea12 : a12 = cmpf (F := Ideal) .ogt a8 a_cst3) (ea_cst4 : a_cst4 = constant S0 .f32 0x7FC00000#32)
    (ew0 : w0 = id a_cst4) (ew1 : w1 = broadcastInDim SF ![] b0F w0)
    (e48 : r48 = select (broadcastInDim SF ![] b0F a12) a11 w1)
    (e49 : r49 = broadcastInDim SRow ![1] bFR r47) (e50 : r50 = broadcastInDim SN ![0, 1] bRN r49)
    (e51 : r51 = subf Y r50) (e_c11 : rc11 = constant S0 .f32 0x3727C5AC#32)
    (e52 : r52 = broadcastInDim SF ![] b0F rc11) (e53 : r53 = addf r48 r52) (e54 : r54 = Host.rsqrt r53)
    (e55 : r55 = broadcastInDim SRow ![1] bFR r54) (e56 : r56 = broadcastInDim SN ![0, 1] bRN r55)
    (e57 : r57 = mulf r51 r56) (e58 : r58 = broadcastInDim SRow ![1] bFR rga)
    (e59 : r59 = broadcastInDim SN ![0, 1] bRN r58) (e60 : r60 = mulf r57 r59)
    (e61 : r61 = broadcastInDim SRow ![1] bFR rbe) (e62 : r62 = broadcastInDim SN ![0, 1] bRN r61)
    (e63 : r63 = addf r60 r62) (eb_cst : b_cst = constant S0 .f32 0x00000000#32)
    (eb0 : b0 = broadcastInDim SN ![] b0N b_cst) (e64 : r64 = maximumf r63 b0) :
    BnAgree kmean kvar r47 r48 kout r64 := by
  subst hXY hg hb

  have hcol : ∀ j : Fin 128, ∀ r, IsReal (X (ix2 r j)) := fun j r => hX _

  have kmean_j : ∀ j : Fin 128, kmean (ix2 0 j)
      = Ideal.div (∑ r : Fin 50000, X (ix2 r j)) (Ideal.ofBits .f32 0x47435000#32) := fun j => by
    subst f_mean f_s1 f_44 f_c8; rfl
  have kvar_j : ∀ j : Fin 128, kvar (ix2 0 j)
      = Ideal.div (∑ r : Fin 50000, X (ix2 r j) * X (ix2 r j)) (Ideal.ofBits .f32 0x47435000#32)
        - Ideal.div (∑ r : Fin 50000, X (ix2 r j)) (Ideal.ofBits .f32 0x47435000#32)
          * Ideal.div (∑ r : Fin 50000, X (ix2 r j)) (Ideal.ofBits .f32 0x47435000#32) := fun j => by
    subst f_var f_48 f_47 f_46 f_c9 f_s2 f_mean f_s1 f_44 f_c8; rfl

  have r45_j : ∀ j : Fin 128, r45 (ix1 j) = Ideal.ofBits .f32 0x00000000#32 + ∑ r : Fin 50000, X (ix2 r j) := fun j => by
    subst e45 e_c8; exact reduce_rows_apply hred hu X _ j
  have r47_j : ∀ j : Fin 128, r47 (ix1 j)
      = Ideal.div (Ideal.ofBits .f32 0x00000000#32 + ∑ r : Fin 50000, X (ix2 r j)) (Ideal.ofBits .f32 0x47435000#32) :=
    fun j => by
      subst e47 e46 e_c9
      show Ideal.div (r45 (ix1 j)) _ = _
      rw [r45_j j]; rfl

  have a3_j : ∀ j : Fin 128, a3 (ix2 0 j)
      = Ideal.div (Ideal.ofBits .f32 0x00000000#32 + ∑ r : Fin 50000, X (ix2 r j)) (Ideal.ofBits .f32 0x47435000#32) :=
    fun j => by
      subst ea3 ea2 ea_cst0 ea1
      show Ideal.div (broadcastInDim SRow ![1] bFR a0 (ix2 0 j)) _ = _
      rw [bcast_row_apply bFR a0 0 j]
      subst ea0 ea_cst
      rw [reduce_rows_apply hred hu X _ j]; rfl
  have a6_j : ∀ (j : Fin 128) (r : Fin 50000), a6 (ix2 r j) = (X (ix2 r j) - a3 (ix2 0 j)) * (X (ix2 r j) - a3 (ix2 0 j)) :=
    fun j r => by
      subst ea6 ea5 ea4
      show (X (ix2 r j) - broadcastInDim SN ![0, 1] bRN a3 (ix2 r j)) * (X (ix2 r j) - broadcastInDim SN ![0, 1] bRN a3 (ix2 r j)) = _
      rw [bcast_full_apply bRN a3 r j]
  have a8_0 : a8 ix0 = Ideal.ofBits .f32 0x47435000#32 - ((((0#32 : BitVec 32).toInt : ℤ) : ℝ) : EReal) := by
    subst ea8 ea_cst1 ea7 e_c10; rfl
  have a11_j : ∀ j : Fin 128, a11 (ix1 j)
      = Ideal.div (Ideal.ofBits .f32 0x00000000#32 + ∑ r : Fin 50000, (X (ix2 r j) - a3 (ix2 0 j)) * (X (ix2 r j) - a3 (ix2 0 j)))
          (a8 ix0) := fun j => by
    subst ea11 ea10 ea9 ea_cst2
    show Ideal.div (Host.reduceAdd a6 _ hred hu (ix1 j)) (broadcastInDim SF ![] b0F a8 (ix1 j)) = _
    rw [reduce_rows_apply hred hu a6 _ j, broadcastInDim_scalar_apply b0F a8 (ix1 j)]
    rw [Finset.sum_congr rfl fun r _ => a6_j j r]; rfl
  have a12_0 : a12 ix0 = 1#1 := by
    subst ea12 ea_cst3
    show Ideal.cmp .ogt (a8 ix0) (Ideal.ofBits .f32 0x00000000#32) = 1#1
    rw [a8_0]; exact cmp_count_pos
  have r48_j : ∀ j : Fin 128, r48 (ix1 j) = a11 (ix1 j) := fun j => by
    subst e48
    show Scalar.select (broadcastInDim SF ![] b0F a12 (ix1 j)) (a11 (ix1 j)) (w1 (ix1 j)) = _
    rw [broadcastInDim_scalar_apply b0F a12 (ix1 j), a12_0, select_one]

  have hmean : ∀ j : Fin 128, kmean (ix2 0 j) = r47 (ix1 j) := fun j => by
    rw [kmean_j j, r47_j j]; exact col_mean_words _ (hcol j)
  have hvar : ∀ j : Fin 128, max (kvar (ix2 0 j)) Cert.Spec.zeroE = r48 (ix1 j) := fun j => by
    rw [r48_j j, a11_j j, a8_0, a3_j j, kvar_j j]
    exact col_var_words _ (hcol j)
  refine ⟨hmean, hvar, ?_, ?_, ?_⟩
  ·
    funext i
    obtain ⟨r, j, rfl⟩ : ∃ (r : Fin 50000) (j : Fin 128), i = ix2 r j := ⟨i 0, i 1, eq_ix2 i⟩
    have hL : kout (ix2 r j) = max (((X (ix2 r j) - kmean (ix2 0 j))
        * Ideal.rsqrt (max (kvar (ix2 0 j)) Cert.Spec.zeroE + Cert.Spec.epsE)) * kg (ix2 0 j) + kb (ix2 0 j)) Cert.Spec.zeroE := by
      subst f_out; rfl
    have hkg : kg (ix2 0 j) = kga (ix1 j) := by subst f_g; exact cast_row_apply khsc kga j
    have hkb : kb (ix2 0 j) = kbe (ix1 j) := by subst f_b; exact cast_row_apply khsc kbe j
    have h50 : r50 (ix2 r j) = r47 (ix1 j) := by
      subst e50 e49; rw [bcast_full_apply bRN _ r j, bcast_row_apply bFR r47 0 j]
    have h56 : r56 (ix2 r j) = Ideal.rsqrt (r48 (ix1 j) + Cert.Spec.epsE) := by
      subst e56 e55; rw [bcast_full_apply bRN _ r j, bcast_row_apply bFR r54 0 j]
      subst e54 e53 e52 e_c11; rfl
    have h59 : r59 (ix2 r j) = kga (ix1 j) := by
      subst e59 e58; rw [bcast_full_apply bRN _ r j, bcast_row_apply bFR kga 0 j]
    have h62 : r62 (ix2 r j) = kbe (ix1 j) := by
      subst e62 e61; rw [bcast_full_apply bRN _ r j, bcast_row_apply bFR kbe 0 j]
    have hR : r64 (ix2 r j) = max ((((X (ix2 r j) - r50 (ix2 r j)) * r56 (ix2 r j)) * r59 (ix2 r j)) + r62 (ix2 r j))
        Cert.Spec.zeroE := by
      subst e64 eb0 eb_cst e63 e60 e57 e51; rfl
    rw [hL, hR, h50, h56, h59, h62, hkg, hkb, hmean j, hvar j]
  ·
    intro i
    obtain ⟨k, j, rfl⟩ : ∃ (k : Fin 1) (j : Fin 128), i = ix2 k j := ⟨i 0, i 1, eq_ix2 i⟩
    obtain rfl : k = 0 := Subsingleton.elim _ _
    rw [kvar_j j]
    exact col_var_nonneg _ (hcol j)
  · intro i
    obtain ⟨k, j, rfl⟩ : ∃ (k : Fin 1) (j : Fin 128), i = ix2 k j := ⟨i 0, i 1, eq_ix2 i⟩
    obtain rfl : k = 0 := Subsingleton.elim _ _
    rw [kmean_j j]
    exact col_mean_real _ (hcol j)

end Layer

end Cert.Alg

end
-- ==== Proof.Br3.lean ====
import proofs.«126291_j72541997629772_2_alg».proof.Proof.BrDefs
import proofs.«126291_j72541997629772_2_alg».proof.Proof.KiFinal
import proofs.«126291_j72541997629772_2_alg».proof.Proof.KiFinalV
import proofs.«126291_j72541997629772_2_alg».proof.Proof.RefSsa
import proofs.«126291_j72541997629772_2_alg».proof.Proof.AlgBn

noncomputable section

namespace Cert.Bridge

open Idealize.ShloMosaic Idealize.ShloMosaic.TcCoe Idealize.ShloMosaic.ValueIdx

variable (m : KMem) (m' : RMem) (c : Dev Cert.KernelIdeal.nD)

theorem layer1
    (hx : K m c Cert.KernelIdeal.main_v43_0 = R m' c Cert.ReferenceIdeal.main_v44)
    (hreal : Cert.Alg.AllReal (K m c Cert.KernelIdeal.main_v43_0))
    (hg : K m c Cert.KernelIdeal.main_arg6 = R m' c Cert.ReferenceIdeal.main_arg6)
    (hb : K m c Cert.KernelIdeal.main_arg7 = R m' c Cert.ReferenceIdeal.main_arg7) :
    Cert.Alg.BnAgree (K m c Cert.KernelIdeal.main_v45) (K m c Cert.KernelIdeal.main_v49)
      (R m' c Cert.ReferenceIdeal.main_v47) (R m' c Cert.ReferenceIdeal.main_v48)
      (K m c Cert.KernelIdeal.main_v52) (R m' c Cert.ReferenceIdeal.main_v64) :=
  Cert.Alg.bn_layer hreal
    (f_s1 := (Cert.KernelIdeal.Hand.fin_main_v43_1 m c).trans (congrArg Cert.Spec.colSum (Cert.KernelIdeal.Hand.fin_main_v43_0 m c).symm))
    (f_s2 := (Cert.KernelIdeal.Hand.fin_main_v43_2 m c).trans (congrArg Cert.Spec.colSumSq (Cert.KernelIdeal.Hand.fin_main_v43_0 m c).symm))
    (f_c8 := Cert.KernelIdeal.Hand.fin_main_cst_8 m c) (f_44 := Cert.KernelIdeal.Hand.fin_main_v44 m c) (f_mean := Cert.KernelIdeal.Hand.fin_main_v45 m c)
    (f_c9 := Cert.KernelIdeal.Hand.fin_main_cst_9 m c) (f_46 := Cert.KernelIdeal.Hand.fin_main_v46 m c) (f_47 := Cert.KernelIdeal.Hand.fin_main_v47 m c)
    (f_48 := Cert.KernelIdeal.Hand.fin_main_v48 m c) (f_var := Cert.KernelIdeal.Hand.fin_main_v49 m c)
    (f_g := Cert.KernelIdeal.Hand.fin_main_v50 m c) (f_b := Cert.KernelIdeal.Hand.fin_main_v51 m c)
    (f_out := Cert.KernelIdeal.Hand.fin_main_v52 m c)
    (hXY := hx) (hg := hg) (hb := hb)
    (e_c8 := Cert.ReferenceIdeal.Hand.e_main_cst_8 (fun b => m' (c, b))) (e45 := Cert.ReferenceIdeal.Hand.e_main_v45 (fun b => m' (c, b)))
    (e_c9 := Cert.ReferenceIdeal.Hand.e_main_cst_9 (fun b => m' (c, b))) (e46 := Cert.ReferenceIdeal.Hand.e_main_v46 (fun b => m' (c, b))) (e47 := Cert.ReferenceIdeal.Hand.e_main_v47 (fun b => m' (c, b)))
    (e_c10 := Cert.ReferenceIdeal.Hand.e_main_c_10 (fun b => m' (c, b)))
    (ea_cst := Cert.ReferenceIdeal.Hand.e_main_call0_cst (fun b => m' (c, b))) (ea0 := Cert.ReferenceIdeal.Hand.e_main_call0_v0 (fun b => m' (c, b))) (ea1 := Cert.ReferenceIdeal.Hand.e_main_call0_v1 (fun b => m' (c, b)))
    (ea_cst0 := Cert.ReferenceIdeal.Hand.e_main_call0_cst_0 (fun b => m' (c, b))) (ea2 := Cert.ReferenceIdeal.Hand.e_main_call0_v2 (fun b => m' (c, b))) (ea3 := Cert.ReferenceIdeal.Hand.e_main_call0_v3 (fun b => m' (c, b)))
    (ea4 := Cert.ReferenceIdeal.Hand.e_main_call0_v4 (fun b => m' (c, b))) (ea5 := Cert.ReferenceIdeal.Hand.e_main_call0_v5 (fun b => m' (c, b))) (ea6 := Cert.ReferenceIdeal.Hand.e_main_call0_v6 (fun b => m' (c, b)))
    (ea7 := Cert.ReferenceIdeal.Hand.e_main_call0_v7 (fun b => m' (c, b))) (ea_cst1 := Cert.ReferenceIdeal.Hand.e_main_call0_cst_1 (fun b => m' (c, b))) (ea8 := Cert.ReferenceIdeal.Hand.e_main_call0_v8 (fun b => m' (c, b)))
    (ea_cst2 := Cert.ReferenceIdeal.Hand.e_main_call0_cst_2 (fun b => m' (c, b))) (ea9 := Cert.ReferenceIdeal.Hand.e_main_call0_v9 (fun b => m' (c, b))) (ea10 := Cert.ReferenceIdeal.Hand.e_main_call0_v10 (fun b => m' (c, b)))
    (ea11 := Cert.ReferenceIdeal.Hand.e_main_call0_v11 (fun b => m' (c, b))) (ea_cst3 := Cert.ReferenceIdeal.Hand.e_main_call0_cst_3 (fun b => m' (c, b))) (ea12 := Cert.ReferenceIdeal.Hand.e_main_call0_v12 (fun b => m' (c, b)))
    (ea_cst4 := Cert.ReferenceIdeal.Hand.e_main_call0_cst_4 (fun b => m' (c, b))) (ew0 := Cert.ReferenceIdeal.Hand.e_main_call0_call0_v0 (fun b => m' (c, b))) (ew1 := Cert.ReferenceIdeal.Hand.e_main_call0_call0_v1 (fun b => m' (c, b)))
    (e48 := Cert.ReferenceIdeal.Hand.e_main_v48 (fun b => m' (c, b)))
    (e49 := Cert.ReferenceIdeal.Hand.e_main_v49 (fun b => m' (c, b))) (e50 := Cert.ReferenceIdeal.Hand.e_main_v50 (fun b => m' (c, b))) (e51 := Cert.ReferenceIdeal.Hand.e_main_v51 (fun b => m' (c, b)))
    (e_c11 := Cert.ReferenceIdeal.Hand.e_main_cst_11 (fun b => m' (c, b))) (e52 := Cert.ReferenceIdeal.Hand.e_main_v52 (fun b => m' (c, b))) (e53 := Cert.ReferenceIdeal.Hand.e_main_v53 (fun b => m' (c, b))) (e54 := Cert.ReferenceIdeal.Hand.e_main_v54 (fun b => m' (c, b)))
    (e55 := Cert.ReferenceIdeal.Hand.e_main_v55 (fun b => m' (c, b))) (e56 := Cert.ReferenceIdeal.Hand.e_main_v56 (fun b => m' (c, b))) (e57 := Cert.ReferenceIdeal.Hand.e_main_v57 (fun b => m' (c, b)))
    (e58 := Cert.ReferenceIdeal.Hand.e_main_v58 (fun b => m' (c, b))) (e59 := Cert.ReferenceIdeal.Hand.e_main_v59 (fun b => m' (c, b))) (e60 := Cert.ReferenceIdeal.Hand.e_main_v60 (fun b => m' (c, b)))
    (e61 := Cert.ReferenceIdeal.Hand.e_main_v61 (fun b => m' (c, b))) (e62 := Cert.ReferenceIdeal.Hand.e_main_v62 (fun b => m' (c, b))) (e63 := Cert.ReferenceIdeal.Hand.e_main_v63 (fun b => m' (c, b)))
    (eb_cst := Cert.ReferenceIdeal.Hand.e_main_call1_cst (fun b => m' (c, b))) (eb0 := Cert.ReferenceIdeal.Hand.e_main_call1_v0 (fun b => m' (c, b))) (e64 := Cert.ReferenceIdeal.Hand.e_main_v64 (fun b => m' (c, b)))

theorem bn1 (hx : K m c Cert.KernelIdeal.main_v43_0 = R m' c Cert.ReferenceIdeal.main_v44)
    (hreal : Cert.Alg.AllReal (K m c Cert.KernelIdeal.main_v43_0))
    (hg : K m c Cert.KernelIdeal.main_arg6 = R m' c Cert.ReferenceIdeal.main_arg6)
    (hb : K m c Cert.KernelIdeal.main_arg7 = R m' c Cert.ReferenceIdeal.main_arg7) :
    K m c Cert.KernelIdeal.main_v52 = R m' c Cert.ReferenceIdeal.main_v64 :=
  (layer1 m m' c hx hreal hg hb).out

theorem layer2
    (hx : K m c Cert.KernelIdeal.main_v67_0 = R m' c Cert.ReferenceIdeal.main_v98)
    (hreal : Cert.Alg.AllReal (K m c Cert.KernelIdeal.main_v67_0))
    (hg : K m c Cert.KernelIdeal.main_arg8 = R m' c Cert.ReferenceIdeal.main_arg8)
    (hb : K m c Cert.KernelIdeal.main_arg9 = R m' c Cert.ReferenceIdeal.main_arg9) :
    Cert.Alg.BnAgree (K m c Cert.KernelIdeal.main_v69) (K m c Cert.KernelIdeal.main_v73)
      (R m' c Cert.ReferenceIdeal.main_v101) (R m' c Cert.ReferenceIdeal.main_v102)
      (K m c Cert.KernelIdeal.main_v76) (R m' c Cert.ReferenceIdeal.main_v118) :=
  Cert.Alg.bn_layer hreal
    (f_s1 := (Cert.KernelIdeal.Hand.fin_main_v67_1 m c).trans (congrArg Cert.Spec.colSum (Cert.KernelIdeal.Hand.fin_main_v67_0 m c).symm))
    (f_s2 := (Cert.KernelIdeal.Hand.fin_main_v67_2 m c).trans (congrArg Cert.Spec.colSumSq (Cert.KernelIdeal.Hand.fin_main_v67_0 m c).symm))
    (f_c8 := Cert.KernelIdeal.Hand.fin_main_cst_13 m c) (f_44 := Cert.KernelIdeal.Hand.fin_main_v68 m c) (f_mean := Cert.KernelIdeal.Hand.fin_main_v69 m c)
    (f_c9 := Cert.KernelIdeal.Hand.fin_main_cst_14 m c) (f_46 := Cert.KernelIdeal.Hand.fin_main_v70 m c) (f_47 := Cert.KernelIdeal.Hand.fin_main_v71 m c)
    (f_48 := Cert.KernelIdeal.Hand.fin_main_v72 m c) (f_var := Cert.KernelIdeal.Hand.fin_main_v73 m c)
    (f_g := Cert.KernelIdeal.Hand.fin_main_v74 m c) (f_b := Cert.KernelIdeal.Hand.fin_main_v75 m c)
    (f_out := Cert.KernelIdeal.Hand.fin_main_v76 m c)
    (hXY := hx) (hg := hg) (hb := hb)
    (e_c8 := Cert.ReferenceIdeal.Hand.e_main_cst_19 (fun b => m' (c, b))) (e45 := Cert.ReferenceIdeal.Hand.e_main_v99 (fun b => m' (c, b)))
    (e_c9 := Cert.ReferenceIdeal.Hand.e_main_cst_20 (fun b => m' (c, b))) (e46 := Cert.ReferenceIdeal.Hand.e_main_v100 (fun b => m' (c, b))) (e47 := Cert.ReferenceIdeal.Hand.e_main_v101 (fun b => m' (c, b)))
    (e_c10 := Cert.ReferenceIdeal.Hand.e_main_c_21 (fun b => m' (c, b)))
    (ea_cst := Cert.ReferenceIdeal.Hand.e_main_call2_cst (fun b => m' (c, b))) (ea0 := Cert.ReferenceIdeal.Hand.e_main_call2_v0 (fun b => m' (c, b))) (ea1 := Cert.ReferenceIdeal.Hand.e_main_call2_v1 (fun b => m' (c, b)))
    (ea_cst0 := Cert.ReferenceIdeal.Hand.e_main_call2_cst_0 (fun b => m' (c, b))) (ea2 := Cert.ReferenceIdeal.Hand.e_main_call2_v2 (fun b => m' (c, b))) (ea3 := Cert.ReferenceIdeal.Hand.e_main_call2_v3 (fun b => m' (c, b)))
    (ea4 := Cert.ReferenceIdeal.Hand.e_main_call2_v4 (fun b => m' (c, b))) (ea5 := Cert.ReferenceIdeal.Hand.e_main_call2_v5 (fun b => m' (c, b))) (ea6 := Cert.ReferenceIdeal.Hand.e_main_call2_v6 (fun b => m' (c, b)))
    (ea7 := Cert.ReferenceIdeal.Hand.e_main_call2_v7 (fun b => m' (c, b))) (ea_cst1 := Cert.ReferenceIdeal.Hand.e_main_call2_cst_1 (fun b => m' (c, b))) (ea8 := Cert.ReferenceIdeal.Hand.e_main_call2_v8 (fun b => m' (c, b)))
    (ea_cst2 := Cert.ReferenceIdeal.Hand.e_main_call2_cst_2 (fun b => m' (c, b))) (ea9 := Cert.ReferenceIdeal.Hand.e_main_call2_v9 (fun b => m' (c, b))) (ea10 := Cert.ReferenceIdeal.Hand.e_main_call2_v10 (fun b => m' (c, b)))
    (ea11 := Cert.ReferenceIdeal.Hand.e_main_call2_v11 (fun b => m' (c, b))) (ea_cst3 := Cert.ReferenceIdeal.Hand.e_main_call2_cst_3 (fun b => m' (c, b))) (ea12 := Cert.ReferenceIdeal.Hand.e_main_call2_v12 (fun b => m' (c, b)))
    (ea_cst4 := Cert.ReferenceIdeal.Hand.e_main_call2_cst_4 (fun b => m' (c, b))) (ew0 := Cert.ReferenceIdeal.Hand.e_main_call2_call0_v0 (fun b => m' (c, b))) (ew1 := Cert.ReferenceIdeal.Hand.e_main_call2_call0_v1 (fun b => m' (c, b)))
    (e48 := Cert.ReferenceIdeal.Hand.e_main_v102 (fun b => m' (c, b)))
    (e49 := Cert.ReferenceIdeal.Hand.e_main_v103 (fun b => m' (c, b))) (e50 := Cert.ReferenceIdeal.Hand.e_main_v104 (fun b => m' (c, b))) (e51 := Cert.ReferenceIdeal.Hand.e_main_v105 (fun b => m' (c, b)))
    (e_c11 := Cert.ReferenceIdeal.Hand.e_main_cst_22 (fun b => m' (c, b))) (e52 := Cert.ReferenceIdeal.Hand.e_main_v106 (fun b => m' (c, b))) (e53 := Cert.ReferenceIdeal.Hand.e_main_v107 (fun b => m' (c, b))) (e54 := Cert.ReferenceIdeal.Hand.e_main_v108 (fun b => m' (c, b)))
    (e55 := Cert.ReferenceIdeal.Hand.e_main_v109 (fun b => m' (c, b))) (e56 := Cert.ReferenceIdeal.Hand.e_main_v110 (fun b => m' (c, b))) (e57 := Cert.ReferenceIdeal.Hand.e_main_v111 (fun b => m' (c, b)))
    (e58 := Cert.ReferenceIdeal.Hand.e_main_v112 (fun b => m' (c, b))) (e59 := Cert.ReferenceIdeal.Hand.e_main_v113 (fun b => m' (c, b))) (e60 := Cert.ReferenceIdeal.Hand.e_main_v114 (fun b => m' (c, b)))
    (e61 := Cert.ReferenceIdeal.Hand.e_main_v115 (fun b => m' (c, b))) (e62 := Cert.ReferenceIdeal.Hand.e_main_v116 (fun b => m' (c, b))) (e63 := Cert.ReferenceIdeal.Hand.e_main_v117 (fun b => m' (c, b)))
    (eb_cst := Cert.ReferenceIdeal.Hand.e_main_call3_cst (fun b => m' (c, b))) (eb0 := Cert.ReferenceIdeal.Hand.e_main_call3_v0 (fun b => m' (c, b))) (e64 := Cert.ReferenceIdeal.Hand.e_main_v118 (fun b => m' (c, b)))

theorem bn2 (hx : K m c Cert.KernelIdeal.main_v67_0 = R m' c Cert.ReferenceIdeal.main_v98)
    (hreal : Cert.Alg.AllReal (K m c Cert.KernelIdeal.main_v67_0))
    (hg : K m c Cert.KernelIdeal.main_arg8 = R m' c Cert.ReferenceIdeal.main_arg8)
    (hb : K m c Cert.KernelIdeal.main_arg9 = R m' c Cert.ReferenceIdeal.main_arg9) :
    K m c Cert.KernelIdeal.main_v76 = R m' c Cert.ReferenceIdeal.main_v118 :=
  (layer2 m m' c hx hreal hg hb).out

end Cert.Bridge

end
-- ==== Proof.PreReal.lean ====
import proofs.«126291_j72541997629772_2_alg».proof.Pre_finite_inputs
import proofs.«126291_j72541997629772_2_alg».proof.Proof.Gen.Pre_finite_inputs
import proofs.«126291_j72541997629772_2_alg».proof.Proof.AlgFin
import Idealize.ShloMosaic.Lib.ReduceAll
import Idealize.ShloMosaic.Lib.ValueIdx

noncomputable section

namespace Cert.Pre

open Idealize.ShloMosaic Idealize.ShloMosaic.ValueIdx
open Cert.Pre_finite_inputs (S50000x128 S2x800000 S128x128 S128x64 S128 S_)

theorem subsingleton_scalarIdx : Subsingleton S_.Idx := ⟨fun a b => funext fun d => d.elim0⟩

theorem ofBits_inf : Ideal.ofBits .f32 0x7F800000#32 = (⊤ : EReal) := by
  simp [Ideal.ofBits, Ideal.ieee]

theorem isReal_of_abs_lt_inf (x : EReal)
    (h : Ideal.cmp .olt (max x (-x)) (Ideal.ofBits .f32 0x7F800000#32) = 1#1) : Cert.Alg.IsReal x := by
  rw [ofBits_inf] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  rw [Cert.Alg.isReal_iff]
  constructor
  · rintro rfl
    exact absurd hlt (by simp)
  · rintro rfl
    exact absurd hlt (by simp)

theorem andi_apply {s : Shape} {w : Nat} (x y : IVec s w) (i : s.Idx) : andi x y i = IntOp.andi (x i) (y i) := rfl

theorem real_of_all {s : Shape} {axes : List (Fin s.rank)} (a : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf a) (broadcastInDim s ![] hb (constant (F := Ideal) S_ .f32 0x7F800000#32)))
      init hr hu ix0 = 1#1) (i : s.Idx) : Cert.Alg.IsReal (a i) := by
  haveI := subsingleton_scalarIdx
  have hi := Host.reduce_andi_all _ init hr hu ix0 e i
  exact isReal_of_abs_lt_inf (a i) hi

theorem real_of_pre [Cert.Pre_finite_inputs.Facts]
    (a0 : FVec Ideal S50000x128 .f32) (a1 : IVec S2x800000 32) (a2 a3 : FVec Ideal S128x128 .f32)
    (a4 a5 : FVec Ideal S128x64 .f32) (a6 a7 a8 a9 : FVec Ideal S128 .f32)
    (h : Cert.Pre_finite_inputs.fn (F := Ideal) a0 a1 a2 a3 a4 a5 a6 a7 a8 a9 = fun _ => 1#1) :
    (∀ i, Cert.Alg.IsReal (a0 i)) ∧ (∀ i, Cert.Alg.IsReal (a2 i)) ∧ (∀ i, Cert.Alg.IsReal (a3 i))
      ∧ (∀ i, Cert.Alg.IsReal (a4 i)) ∧ (∀ i, Cert.Alg.IsReal (a5 i)) ∧ (∀ i, Cert.Alg.IsReal (a6 i))
      ∧ (∀ i, Cert.Alg.IsReal (a7 i)) ∧ (∀ i, Cert.Alg.IsReal (a8 i)) ∧ (∀ i, Cert.Alg.IsReal (a9 i)) := by
  have h0 := congrFun h ix0
  dsimp only [Cert.Pre_finite_inputs.fn, Cert.Pre_finite_inputs.fn_part1, Cert.Pre_finite_inputs.fn_part2] at h0
  simp only [andi_apply, IntOp.andi_eq_one] at h0
  obtain ⟨⟨⟨⟨⟨⟨⟨⟨e0, e2⟩, e3⟩, e4⟩, e5⟩, e6⟩, e7⟩, e8⟩, e9⟩ := h0
  exact ⟨real_of_all a0 _ _ _ _ e0, real_of_all a2 _ _ _ _ e2, real_of_all a3 _ _ _ _ e3, real_of_all a4 _ _ _ _ e4,
    real_of_all a5 _ _ _ _ e5, real_of_all a6 _ _ _ _ e6, real_of_all a7 _ _ _ _ e7, real_of_all a8 _ _ _ _ e8,
    real_of_all a9 _ _ _ _ e9⟩

end Cert.Pre

end
-- ==== Proof.Br4.lean ====
import proofs.«126291_j72541997629772_2_alg».proof.Proof.BrDefs
import proofs.«126291_j72541997629772_2_alg».proof.Proof.KiFinal
import proofs.«126291_j72541997629772_2_alg».proof.Proof.KiFinalV
import proofs.«126291_j72541997629772_2_alg».proof.Proof.AlgReal
import proofs.«126291_j72541997629772_2_alg».proof.Proof.AlgVar
import proofs.«126291_j72541997629772_2_alg».proof.Proof.PreReal
import proofs.«126291_j72541997629772_2_alg».proof.Defs

noncomputable section

namespace Cert.Bridge

open Idealize.ShloMosaic Idealize.ShloMosaic.ValueIdx
open Cert.Alg
open Cert.KernelIdeal.Hand
open scoped BigOperators

theorem allReal_of_eq {s : Shape} {x y : s.Idx → EReal} (h : x = y) (hy : AllReal y) : AllReal x := h ▸ hy

theorem allPos_of_eq {s : Shape} {x y : s.Idx → EReal} (h : x = y) (hy : AllPos y) : AllPos x := h ▸ hy

theorem allReal_reshape {s t : Shape} {x : s.Idx → EReal} (hx : AllReal x) (h : s.ShapeCasts t) {y : t.Idx → EReal}
    (e : y = fun i => shapeCast t x h i) : AllReal y := e ▸ fun i => hx _

theorem bcast_50000 {s₀ t : Shape} (dims : Fin s₀.rank → Fin t.rank) (h : s₀.BroadcastsInDim t dims) (j : t.Idx) :
    broadcastInDim t dims h (constant (F := Ideal) s₀ .f32 0x47435000#32) j = ((50000 : ℝ) : EReal) := by
  rw [broadcast_constant_apply, ofBits_50000]

theorem var_row_nonneg (X : Cert.Spec.NodeMat) (hX : AllReal X)
    (s1 s2 d1 d2 mean q msq var : FVec Ideal (⟨2, ![1, 128]⟩ : Shape) .f32)
    (hs1 : s1 = Cert.Spec.colSum X) (hs2 : s2 = Cert.Spec.colSumSq X)
    (hd1 : ∀ i, d1 i = ((50000 : ℝ) : EReal)) (hd2 : ∀ i, d2 i = ((50000 : ℝ) : EReal))
    (hmean : mean = Host.divf s1 d1) (hq : q = Host.divf s2 d2) (hmsq : msq = mulf mean mean) (hvar : var = subf q msq)
    (j : Fin 128) : ∃ w : ℝ, 0 ≤ w ∧ var (ix2 0 j) = (w : EReal) := by
  obtain ⟨f, mm, v, -, hm, hv, h1, -⟩ :=
    Cert.Alg.var_core (ι := Fin 50000) (Fintype.card_fin _) (fun r => X (ix2 r j)) (fun r => hX _)
  refine ⟨v, hv, ?_⟩
  subst hvar hmsq hq hmean hs1 hs2
  show Ideal.div (Cert.Spec.colSumSq X (ix2 0 j)) (d2 (ix2 0 j))
      - Ideal.div (Cert.Spec.colSum X (ix2 0 j)) (d1 (ix2 0 j)) * Ideal.div (Cert.Spec.colSum X (ix2 0 j)) (d1 (ix2 0 j)) = _
  rw [hd1, hd2]
  show Ideal.div (∑ r : Fin 50000, X (ix2 r j) * X (ix2 r j)) _
      - Ideal.div (∑ r : Fin 50000, X (ix2 r j)) _ * Ideal.div (∑ r : Fin 50000, X (ix2 r j)) _ = _
  rw [hm]; exact h1

variable (m : KMem) (c : Dev Cert.KernelIdeal.nD)

theorem real_args (hpre : Cert.Pre_KernelIdeal m) :
    AllReal (K m c Cert.KernelIdeal.main_arg0) ∧ AllReal (K m c Cert.KernelIdeal.main_arg2)
      ∧ AllReal (K m c Cert.KernelIdeal.main_arg3) ∧ AllReal (K m c Cert.KernelIdeal.main_arg4)
      ∧ AllReal (K m c Cert.KernelIdeal.main_arg5) ∧ AllReal (K m c Cert.KernelIdeal.main_arg6)
      ∧ AllReal (K m c Cert.KernelIdeal.main_arg7) ∧ AllReal (K m c Cert.KernelIdeal.main_arg8)
      ∧ AllReal (K m c Cert.KernelIdeal.main_arg9) := by
  have h := Cert.Pre.real_of_pre _ _ _ _ _ _ _ _ _ _ (hpre c)
  rw [K_arg0, K_arg2, K_arg3, K_arg4, K_arg5, K_arg6, K_arg7, K_arg8, K_arg9]
  exact h

theorem pos_v9 : AllPos (K m c Cert.KernelIdeal.main_v9) := by
  have e := fin_main_v9 m c
  rw [fin_main_v7 m c, fin_main_v8 m c, fin_main_v5 m c, fin_main_v4 m c, fin_main_cst m c, fin_main_cst_0 m c,
    fin_main_cst_1 m c] at e
  exact allPos_of_eq e (degree_allPos _ _ _ _ _ _ _ _)

theorem pos_v10 : AllPos (K m c Cert.KernelIdeal.main_v10) :=
  allPos_of_eq (fin_main_v10 m c) (Cert.Alg.AllPos.hostRsqrt (pos_v9 m c))

theorem pos_v11 : AllPos (K m c Cert.KernelIdeal.main_v11) :=
  allPos_of_eq (fin_main_v11 m c) (Cert.Alg.AllPos.mulf (pos_v10 m c) (pos_v10 m c))

theorem real_v12 : AllReal (K m c Cert.KernelIdeal.main_v12) :=
  allReal_reshape (Cert.Alg.AllPos.allReal (pos_v11 m c)) _ (fin_main_v12 m c)

theorem real_v19 : AllReal (K m c Cert.KernelIdeal.main_v19) :=
  allReal_of_eq (fin_main_v19 m c) (Cert.Alg.AllReal.gather (Cert.Alg.AllPos.allReal (pos_v10 m c)) _ _)

theorem real_v26 : AllReal (K m c Cert.KernelIdeal.main_v26) :=
  allReal_of_eq (fin_main_v26 m c) (Cert.Alg.AllReal.gather (Cert.Alg.AllPos.allReal (pos_v10 m c)) _ _)

theorem real_v27 : AllReal (K m c Cert.KernelIdeal.main_v27) :=
  allReal_of_eq (fin_main_v27 m c) (Cert.Alg.AllReal.mulf (real_v19 m c) (real_v26 m c))

theorem real_v28 : AllReal (K m c Cert.KernelIdeal.main_v28) :=
  allReal_reshape (real_v27 m c) _ (fin_main_v28 m c)

theorem real_v38 : AllReal (K m c Cert.KernelIdeal.main_v38) :=
  allReal_of_eq (fin_main_v38 m c) (Cert.Alg.AllReal.broadcastInDim (real_v28 m c) _ _)

theorem real_v62 : AllReal (K m c Cert.KernelIdeal.main_v62) :=
  allReal_of_eq (fin_main_v62 m c) (Cert.Alg.AllReal.broadcastInDim (real_v28 m c) _ _)

section Layer1
variable (hpre : Cert.Pre_KernelIdeal m)
include hpre

theorem real_v29 : AllReal (K m c Cert.KernelIdeal.main_v29) :=
  allReal_of_eq (fin_main_v29 m c) (Cert.Alg.AllReal.matProd (real_args m c hpre).1 (real_args m c hpre).2.1)

theorem real_v36 : AllReal (K m c Cert.KernelIdeal.main_v36) :=
  allReal_of_eq (fin_main_v36 m c) (Cert.Alg.AllReal.gather (real_v29 m c hpre) _ _)

theorem real_v37 : AllReal (K m c Cert.KernelIdeal.main_v37) :=
  allReal_of_eq (fin_main_v37 m c) (Cert.Alg.AllReal.extf (real_v36 m c hpre) _)

theorem real_v39 : AllReal (K m c Cert.KernelIdeal.main_v39) :=
  allReal_of_eq (fin_main_v39 m c) (Cert.Alg.AllReal.mulf (real_v37 m c hpre) (real_v38 m c))

omit hpre in
theorem real_v40 : AllReal (K m c Cert.KernelIdeal.main_v40) := by
  have e := fin_main_v40 m c
  rw [fin_main_cst_7 m c] at e
  exact allReal_of_eq e (Cert.Alg.AllReal.broadcastInDim (Cert.Alg.AllReal.constant_zero _) _ _)

theorem real_v42 : AllReal (K m c Cert.KernelIdeal.main_v42) :=
  allReal_of_eq (fin_main_v42 m c) (Cert.Alg.AllReal.scatterAdd _ (real_v40 m c) (real_v39 m c hpre) _)

theorem real1 : AllReal (K m c Cert.KernelIdeal.main_v43_0) :=
  allReal_of_eq (fin_main_v43_0 m c)
    (Cert.Alg.AllReal.selfPlusMsg (real_v29 m c hpre) (real_v12 m c) (real_v42 m c hpre))

theorem real_v43_1 : AllReal (K m c Cert.KernelIdeal.main_v43_1) := by
  have e := fin_main_v43_1 m c
  rw [← fin_main_v43_0 m c] at e
  exact allReal_of_eq e (Cert.Alg.AllReal.colSum (real1 m c hpre))

omit hpre in
theorem v44_eq (i) : K m c Cert.KernelIdeal.main_v44 i = ((50000 : ℝ) : EReal) := by
  have e := fin_main_v44 m c
  rw [fin_main_cst_8 m c] at e
  rw [show K m c Cert.KernelIdeal.main_v44 = _ from e]
  exact bcast_50000 _ _ i

omit hpre in
theorem v46_eq (i) : K m c Cert.KernelIdeal.main_v46 i = ((50000 : ℝ) : EReal) := by
  have e := fin_main_v46 m c
  rw [fin_main_cst_9 m c] at e
  rw [show K m c Cert.KernelIdeal.main_v46 = _ from e]
  exact bcast_50000 _ _ i

theorem real_v45 : AllReal (K m c Cert.KernelIdeal.main_v45) :=
  allReal_of_eq (fin_main_v45 m c)
    (Cert.Alg.AllReal.hostDivf_const (real_v43_1 m c hpre) (by norm_num : (50000 : ℝ) ≠ 0) (v44_eq m c))

theorem nonneg1 (j : Fin 128) : ∃ w : ℝ, 0 ≤ w ∧ K m c Cert.KernelIdeal.main_v49 (ix2 0 j) = (w : EReal) := by
  have e1 := fin_main_v43_1 m c
  rw [← fin_main_v43_0 m c] at e1
  have e2 := fin_main_v43_2 m c
  rw [← fin_main_v43_0 m c] at e2
  exact var_row_nonneg (K m c Cert.KernelIdeal.main_v43_0) (real1 m c hpre) _ _ _ _ _ _ _ _ e1 e2 (v44_eq m c) (v46_eq m c)
    (fin_main_v45 m c) (fin_main_v47 m c) (fin_main_v48 m c) (fin_main_v49 m c) j

theorem real_v50 : AllReal (K m c Cert.KernelIdeal.main_v50) :=
  allReal_reshape (real_args m c hpre).2.2.2.2.2.1 _ (fin_main_v50 m c)

theorem real_v51 : AllReal (K m c Cert.KernelIdeal.main_v51) :=
  allReal_reshape (real_args m c hpre).2.2.2.2.2.2.1 _ (fin_main_v51 m c)

theorem real_v52 : AllReal (K m c Cert.KernelIdeal.main_v52) :=
  allReal_of_eq (fin_main_v52 m c)
    (Cert.Alg.AllReal.normRelu (real1 m c hpre) (real_v50 m c hpre) (real_v51 m c hpre) (real_v45 m c hpre) fun j => by
      obtain ⟨u, q, rfl⟩ : ∃ (u : Fin 1) (q : Fin 128), j = ix2 u q := ⟨j 0, j 1, eq_ix2 j⟩
      obtain rfl : u = 0 := Subsingleton.elim _ _
      exact nonneg1 m c hpre q)

theorem real_v53 : AllReal (K m c Cert.KernelIdeal.main_v53) :=
  allReal_of_eq (fin_main_v53 m c) (Cert.Alg.AllReal.matProd (real_v52 m c hpre) (real_args m c hpre).2.2.1)

theorem real_v60 : AllReal (K m c Cert.KernelIdeal.main_v60) :=
  allReal_of_eq (fin_main_v60 m c) (Cert.Alg.AllReal.gather (real_v53 m c hpre) _ _)

theorem real_v61 : AllReal (K m c Cert.KernelIdeal.main_v61) :=
  allReal_of_eq (fin_main_v61 m c) (Cert.Alg.AllReal.extf (real_v60 m c hpre) _)

theorem real_v63 : AllReal (K m c Cert.KernelIdeal.main_v63) :=
  allReal_of_eq (fin_main_v63 m c) (Cert.Alg.AllReal.mulf (real_v61 m c hpre) (real_v62 m c))

omit hpre in
theorem real_v64 : AllReal (K m c Cert.KernelIdeal.main_v64) := by
  have e := fin_main_v64 m c
  rw [fin_main_cst_12 m c] at e
  exact allReal_of_eq e (Cert.Alg.AllReal.broadcastInDim (Cert.Alg.AllReal.constant_zero _) _ _)

theorem real_v66 : AllReal (K m c Cert.KernelIdeal.main_v66) :=
  allReal_of_eq (fin_main_v66 m c) (Cert.Alg.AllReal.scatterAdd _ (real_v64 m c) (real_v63 m c hpre) _)

theorem real2 : AllReal (K m c Cert.KernelIdeal.main_v67_0) :=
  allReal_of_eq (fin_main_v67_0 m c)
    (Cert.Alg.AllReal.selfPlusMsg (real_v53 m c hpre) (real_v12 m c) (real_v66 m c hpre))

end Layer1
end Cert.Bridge
end
-- ==== Proof.Br5.lean ====
import proofs.«126291_j72541997629772_2_alg».proof.Proof.BrDefs
import proofs.«126291_j72541997629772_2_alg».proof.Proof.KiFinal
import proofs.«126291_j72541997629772_2_alg».proof.Proof.KiFinalV
import proofs.«126291_j72541997629772_2_alg».proof.Proof.RefSsa
import proofs.«126291_j72541997629772_2_alg».proof.Proof.Spec
import proofs.«126291_j72541997629772_2_alg».proof.Proof.AlgDot
import proofs.«126291_j72541997629772_2_alg».proof.Proof.AlgRows
import Idealize.ShloMosaic.Lib.Pipeline.Value
import Idealize.ShloMosaic.Lib.ValueIdx

noncomputable section

open scoped BigOperators

namespace Cert.Bridge

open Idealize.ShloMosaic Idealize.ShloMosaic.TcCoe Idealize.SL.Sem Idealize.ShloMosaic.ValueIdx Cert.Alg

theorem bcastCol_apply {α : Type} {n m : Nat}
    (h : (⟨2, ![n, 1]⟩ : Shape).BroadcastsInDim ⟨2, ![n, m]⟩ (![0, 1] : Fin 2 → Fin 2))
    (v : (⟨2, ![n, 1]⟩ : Shape).Idx → α) (p : Fin n) (q : Fin m) :
    broadcastInDim ⟨2, ![n, m]⟩ ![0, 1] h v (ix2 p q) = v (ix2 p 0) :=
  broadcastInDim_apply _ h v (ix2 p q) (ix2 p 0) (fun a => by
    match a with
    | ⟨0, _⟩ =>
      show p.val = if n = 1 then 0 else p.val
      have hp := p.isLt
      split
      · omega
      · rfl
    | ⟨1, _⟩ => rfl)

section Rows

variable
    (gK : GatherDims ⟨2, ![50000, 128]⟩ ⟨2, ![800000, 1]⟩ ⟨2, ![800000, 128]⟩)
    (hg1 : gK.offsetDims = [1]) (hg2 : gK.collapsedSliceDims = [0]) (hg3 : gK.operandBatchingDims = [])
    (hg4 : gK.startIndexMap = [0]) (hg5 : gK.indexVectorDim = 1)
    (gR : GatherDims ⟨2, ![50000, 64]⟩ ⟨2, ![800000, 1]⟩ ⟨2, ![800000, 64]⟩)
    (hg1' : gR.offsetDims = [1]) (hg2' : gR.collapsedSliceDims = [0]) (hg3' : gR.operandBatchingDims = [])
    (hg4' : gR.startIndexMap = [0]) (hg5' : gR.indexVectorDim = 1)
    (sK : ScatterDims ⟨2, ![50000, 128]⟩ ⟨2, ![800000, 1]⟩ ⟨2, ![800000, 128]⟩)
    (hs1 : sK.updateWindowDims = [1]) (hs2 : sK.insertedWindowDims = [0])
    (hs3 : sK.scatterDimsToOperandDims = [0]) (hs4 : sK.indexVectorDim = 1)
    (sR : ScatterDims ⟨2, ![50000, 64]⟩ ⟨2, ![800000, 1]⟩ ⟨2, ![800000, 64]⟩)
    (hs1' : sR.updateWindowDims = [1]) (hs2' : sR.insertedWindowDims = [0])
    (hs3' : sR.scatterDimsToOperandDims = [0]) (hs4' : sR.indexVectorDim = 1)
    (hbK : (⟨2, ![800000, 1]⟩ : Shape).BroadcastsInDim ⟨2, ![800000, 128]⟩ (![0, 1] : Fin 2 → Fin 2))
    (hbR : (⟨2, ![800000, 1]⟩ : Shape).BroadcastsInDim ⟨2, ![800000, 64]⟩ (![0, 1] : Fin 2 → Fin 2))
    (hzK : (⟨0, ![]⟩ : Shape).BroadcastsInDim ⟨2, ![50000, 128]⟩ (![] : Fin 0 → Fin 2))
    (hzR : (⟨0, ![]⟩ : Shape).BroadcastsInDim ⟨2, ![50000, 64]⟩ (![] : Fin 0 → Fin 2))
    (hbd : (⟨2, ![50000, 1]⟩ : Shape).BroadcastsInDim ⟨2, ![50000, 64]⟩ (![0, 1] : Fin 2 → Fin 2))
    (hlt : FTy.bits .bf16 < FTy.bits .f32)

include hg1 hg2 hg3 hg4 hg5 hg1' hg2' hg3' hg4' hg5' hs1 hs2 hs3 hs4 hs1' hs2' hs3' hs4'

theorem msg_col (M : FVec Ideal ⟨2, ![50000, 128]⟩ .bf16) (P : FVec Ideal ⟨2, ![50000, 64]⟩ .f32)
    (src dst : IVec ⟨2, ![800000, 1]⟩ 32) (coef : FVec Ideal ⟨2, ![800000, 1]⟩ .f32)
    (jt : Fin 128) (j : Fin 64) (hcol : ∀ r' : Fin 50000, M (ix2 r' jt) = P (ix2 r' j)) (r : Fin 50000) :
    Host.scatterAdd sK (broadcastInDim ⟨2, ![50000, 128]⟩ ![] hzK (constant (F := Ideal) ⟨0, ![]⟩ .f32 0x00000000#32)) dst
        (mulf (extf .f32 (Host.gather gK M src) hlt) (broadcastInDim ⟨2, ![800000, 128]⟩ ![0, 1] hbK coef)) (ix2 r jt)
      = Host.scatterAdd sR (broadcastInDim ⟨2, ![50000, 64]⟩ ![] hzR (constant (F := Ideal) ⟨0, ![]⟩ .f32 0x00000000#32)) dst
        (mulf (Host.gather gR P src) (broadcastInDim ⟨2, ![800000, 64]⟩ ![0, 1] hbR coef)) (ix2 r j) := by
  refine hostScatterAdd_cols sK hs1 hs2 hs3 hs4 sR hs1' hs2' hs3' hs4' _ _ dst _ _ r jt j rfl (fun e => ?_)
  rw [mulf_apply, mulf_apply, extf_apply, bcastCol_apply, bcastCol_apply]
  rw [gather_cols (by decide) gK hg1 hg2 hg3 hg4 hg5 gR hg1' hg2' hg3' hg4' hg5' M P src jt j hcol e]

theorem head_col (M : FVec Ideal ⟨2, ![50000, 128]⟩ .bf16) (P : FVec Ideal ⟨2, ![50000, 64]⟩ .f32)
    (src dst : IVec ⟨2, ![800000, 1]⟩ 32) (coef : FVec Ideal ⟨2, ![800000, 1]⟩ .f32)
    (d2 : FVec Ideal ⟨2, ![50000, 1]⟩ .f32)
    (jt : Fin 128) (j : Fin 64) (hcol : ∀ r' : Fin 50000, M (ix2 r' jt) = P (ix2 r' j)) (r : Fin 50000) :
    Cert.Spec.selfPlusMsg M d2
        (Host.scatterAdd sK (broadcastInDim ⟨2, ![50000, 128]⟩ ![] hzK (constant (F := Ideal) ⟨0, ![]⟩ .f32 0x00000000#32)) dst
          (mulf (extf .f32 (Host.gather gK M src) hlt) (broadcastInDim ⟨2, ![800000, 128]⟩ ![0, 1] hbK coef))) (ix2 r jt)
      = addf
        (Host.scatterAdd sR (broadcastInDim ⟨2, ![50000, 64]⟩ ![] hzR (constant (F := Ideal) ⟨0, ![]⟩ .f32 0x00000000#32)) dst
          (mulf (Host.gather gR P src) (broadcastInDim ⟨2, ![800000, 64]⟩ ![0, 1] hbR coef)))
        (mulf P (broadcastInDim ⟨2, ![50000, 64]⟩ ![0, 1] hbd d2)) (ix2 r j) := by
  rw [addf_apply, mulf_apply, bcastCol_apply,
    ← msg_col gK hg1 hg2 hg3 hg4 hg5 gR hg1' hg2' hg3' hg4' hg5' sK hs1 hs2 hs3 hs4 sR hs1' hs2' hs3' hs4' hbK hbR hzK hzR hlt
      M P src dst coef jt j hcol r, ← hcol r]
  exact add_comm _ _

end Rows

section Dot

variable
    (dR : DotDims ⟨2, ![50000, 128]⟩ ⟨2, ![128, 64]⟩ ⟨2, ![50000, 64]⟩)
    (hd1 : dR.lhsContracting = [1]) (hd2 : dR.rhsContracting = [0]) (hd3 : dR.lhsNonContracting = [0])
    (hd4 : dR.rhsNonContracting = [1]) (hd5 : dR.lhsBatch = []) (hd6 : dR.rhsBatch = [])

include hd1 hd2 hd3 hd4 hd5 hd6

theorem wide_col_lo (hc : Shape.Concatenates [(⟨2, ![128, 64]⟩ : Shape), ⟨2, ![128, 64]⟩] ⟨2, ![128, 128]⟩ 1)
    (x : FVec Ideal ⟨2, ![50000, 128]⟩ .f32) (A B : FVec Ideal ⟨2, ![128, 64]⟩ .f32) (r : Fin 50000) (j : Fin 64) :
    Cert.Spec.matProd x (concatenate ⟨2, ![128, 128]⟩ 1 [⟨⟨2, ![128, 64]⟩, A⟩, ⟨⟨2, ![128, 64]⟩, B⟩] hc) (ix2 r ⟨j.val, by omega⟩)
      = Host.dotGeneral dR none x A (ix2 r j) := by
  rw [hostDot_apply dR hd1 hd2 hd3 hd4 hd5 hd6]
  show ∑ k : Fin 128, x (ix2 r k) * _ = _
  exact Finset.sum_congr rfl fun k _ => by rw [cat_cols_left hc A B k j (by omega)]

theorem wide_col_hi (hc : Shape.Concatenates [(⟨2, ![128, 64]⟩ : Shape), ⟨2, ![128, 64]⟩] ⟨2, ![128, 128]⟩ 1)
    (x : FVec Ideal ⟨2, ![50000, 128]⟩ .f32) (A B : FVec Ideal ⟨2, ![128, 64]⟩ .f32) (r : Fin 50000) (j : Fin 64) :
    Cert.Spec.matProd x (concatenate ⟨2, ![128, 128]⟩ 1 [⟨⟨2, ![128, 64]⟩, A⟩, ⟨⟨2, ![128, 64]⟩, B⟩] hc) (ix2 r ⟨j.val + 64, by omega⟩)
      = Host.dotGeneral dR none x B (ix2 r j) := by
  rw [hostDot_apply dR hd1 hd2 hd3 hd4 hd5 hd6]
  show ∑ k : Fin 128, x (ix2 r k) * _ = _
  exact Finset.sum_congr rfl fun k _ => by rw [cat_cols_right hc A B k j (by omega)]

end Dot

section Full

variable
    (dR : DotDims ⟨2, ![50000, 128]⟩ ⟨2, ![128, 64]⟩ ⟨2, ![50000, 64]⟩)
    (hd1 : dR.lhsContracting = [1]) (hd2 : dR.rhsContracting = [0]) (hd3 : dR.lhsNonContracting = [0])
    (hd4 : dR.rhsNonContracting = [1]) (hd5 : dR.lhsBatch = []) (hd6 : dR.rhsBatch = [])
    (gK : GatherDims ⟨2, ![50000, 128]⟩ ⟨2, ![800000, 1]⟩ ⟨2, ![800000, 128]⟩)
    (hg1 : gK.offsetDims = [1]) (hg2 : gK.collapsedSliceDims = [0]) (hg3 : gK.operandBatchingDims = [])
    (hg4 : gK.startIndexMap = [0]) (hg5 : gK.indexVectorDim = 1)
    (gR : GatherDims ⟨2, ![50000, 64]⟩ ⟨2, ![800000, 1]⟩ ⟨2, ![800000, 64]⟩)
    (hg1' : gR.offsetDims = [1]) (hg2' : gR.collapsedSliceDims = [0]) (hg3' : gR.operandBatchingDims = [])
    (hg4' : gR.startIndexMap = [0]) (hg5' : gR.indexVectorDim = 1)
    (sK : ScatterDims ⟨2, ![50000, 128]⟩ ⟨2, ![800000, 1]⟩ ⟨2, ![800000, 128]⟩)
    (hs1 : sK.updateWindowDims = [1]) (hs2 : sK.insertedWindowDims = [0])
    (hs3 : sK.scatterDimsToOperandDims = [0]) (hs4 : sK.indexVectorDim = 1)
    (sR : ScatterDims ⟨2, ![50000, 64]⟩ ⟨2, ![800000, 1]⟩ ⟨2, ![800000, 64]⟩)
    (hs1' : sR.updateWindowDims = [1]) (hs2' : sR.insertedWindowDims = [0])
    (hs3' : sR.scatterDimsToOperandDims = [0]) (hs4' : sR.indexVectorDim = 1)
    (hbK : (⟨2, ![800000, 1]⟩ : Shape).BroadcastsInDim ⟨2, ![800000, 128]⟩ (![0, 1] : Fin 2 → Fin 2))
    (hbR : (⟨2, ![800000, 1]⟩ : Shape).BroadcastsInDim ⟨2, ![800000, 64]⟩ (![0, 1] : Fin 2 → Fin 2))
    (hzK : (⟨0, ![]⟩ : Shape).BroadcastsInDim ⟨2, ![50000, 128]⟩ (![] : Fin 0 → Fin 2))
    (hzR : (⟨0, ![]⟩ : Shape).BroadcastsInDim ⟨2, ![50000, 64]⟩ (![] : Fin 0 → Fin 2))
    (hbd : (⟨2, ![50000, 1]⟩ : Shape).BroadcastsInDim ⟨2, ![50000, 64]⟩ (![0, 1] : Fin 2 → Fin 2))
    (hlt : FTy.bits .bf16 < FTy.bits .f32)
    (hc : Shape.Concatenates [(⟨2, ![128, 64]⟩ : Shape), ⟨2, ![128, 64]⟩] ⟨2, ![128, 128]⟩ 1)

include hd1 hd2 hd3 hd4 hd5 hd6 hg1 hg2 hg3 hg4 hg5 hg1' hg2' hg3' hg4' hg5' hs1 hs2 hs3 hs4 hs1' hs2' hs3' hs4'

theorem head_lo (hsl : (⟨2, ![50000, 128]⟩ : Shape).Slices (![0, 0] : Fin 2 → Nat) ⟨2, ![50000, 64]⟩)
    (x : FVec Ideal ⟨2, ![50000, 128]⟩ .f32) (A B : FVec Ideal ⟨2, ![128, 64]⟩ .f32)
    (src dst : IVec ⟨2, ![800000, 1]⟩ 32) (coef : FVec Ideal ⟨2, ![800000, 1]⟩ .f32)
    (d2 : FVec Ideal ⟨2, ![50000, 1]⟩ .f32) :
    extractStridedSlice ⟨2, ![50000, 64]⟩ ![0, 0]
        (Cert.Spec.selfPlusMsg
          (Cert.Spec.matProd x (concatenate ⟨2, ![128, 128]⟩ 1 [⟨⟨2, ![128, 64]⟩, A⟩, ⟨⟨2, ![128, 64]⟩, B⟩] hc)) d2
          (Host.scatterAdd sK (broadcastInDim ⟨2, ![50000, 128]⟩ ![] hzK (constant (F := Ideal) ⟨0, ![]⟩ .f32 0x00000000#32)) dst
            (mulf (extf .f32 (Host.gather gK
                (Cert.Spec.matProd x (concatenate ⟨2, ![128, 128]⟩ 1 [⟨⟨2, ![128, 64]⟩, A⟩, ⟨⟨2, ![128, 64]⟩, B⟩] hc) :
                  FVec Ideal ⟨2, ![50000, 128]⟩ .bf16) src) hlt)
              (broadcastInDim ⟨2, ![800000, 128]⟩ ![0, 1] hbK coef)))) hsl
      = addf
        (Host.scatterAdd sR (broadcastInDim ⟨2, ![50000, 64]⟩ ![] hzR (constant (F := Ideal) ⟨0, ![]⟩ .f32 0x00000000#32)) dst
          (mulf (Host.gather gR (Host.dotGeneral dR none x A) src) (broadcastInDim ⟨2, ![800000, 64]⟩ ![0, 1] hbR coef)))
        (mulf (Host.dotGeneral dR none x A) (broadcastInDim ⟨2, ![50000, 64]⟩ ![0, 1] hbd d2)) := by
  funext i
  obtain ⟨r, j, rfl⟩ : ∃ (r : Fin 50000) (j : Fin 64), i = ix2 r j := ⟨i 0, i 1, eq_ix2 i⟩
  rw [extractStridedSlice_apply _ _ hsl (ix2 r j) (ix2 r ⟨j.val, by omega⟩) (fun a => by
    match a with
    | ⟨0, _⟩ => exact (Nat.zero_add _).symm
    | ⟨1, _⟩ => exact (Nat.zero_add _).symm)]
  exact head_col gK hg1 hg2 hg3 hg4 hg5 gR hg1' hg2' hg3' hg4' hg5' sK hs1 hs2 hs3 hs4 sR hs1' hs2' hs3' hs4'
    hbK hbR hzK hzR hbd hlt _ _ src dst coef d2 ⟨j.val, by omega⟩ j
    (fun r' => wide_col_lo dR hd1 hd2 hd3 hd4 hd5 hd6 hc x A B r' j) r

theorem head_hi (hsl : (⟨2, ![50000, 128]⟩ : Shape).Slices (![0, 64] : Fin 2 → Nat) ⟨2, ![50000, 64]⟩)
    (x : FVec Ideal ⟨2, ![50000, 128]⟩ .f32) (A B : FVec Ideal ⟨2, ![128, 64]⟩ .f32)
    (src dst : IVec ⟨2, ![800000, 1]⟩ 32) (coef : FVec Ideal ⟨2, ![800000, 1]⟩ .f32)
    (d2 : FVec Ideal ⟨2, ![50000, 1]⟩ .f32) :
    extractStridedSlice ⟨2, ![50000, 64]⟩ ![0, 64]
        (Cert.Spec.selfPlusMsg
          (Cert.Spec.matProd x (concatenate ⟨2, ![128, 128]⟩ 1 [⟨⟨2, ![128, 64]⟩, A⟩, ⟨⟨2, ![128, 64]⟩, B⟩] hc)) d2
          (Host.scatterAdd sK (broadcastInDim ⟨2, ![50000, 128]⟩ ![] hzK (constant (F := Ideal) ⟨0, ![]⟩ .f32 0x00000000#32)) dst
            (mulf (extf .f32 (Host.gather gK
                (Cert.Spec.matProd x (concatenate ⟨2, ![128, 128]⟩ 1 [⟨⟨2, ![128, 64]⟩, A⟩, ⟨⟨2, ![128, 64]⟩, B⟩] hc) :
                  FVec Ideal ⟨2, ![50000, 128]⟩ .bf16) src) hlt)
              (broadcastInDim ⟨2, ![800000, 128]⟩ ![0, 1] hbK coef)))) hsl
      = addf
        (Host.scatterAdd sR (broadcastInDim ⟨2, ![50000, 64]⟩ ![] hzR (constant (F := Ideal) ⟨0, ![]⟩ .f32 0x00000000#32)) dst
          (mulf (Host.gather gR (Host.dotGeneral dR none x B) src) (broadcastInDim ⟨2, ![800000, 64]⟩ ![0, 1] hbR coef)))
        (mulf (Host.dotGeneral dR none x B) (broadcastInDim ⟨2, ![50000, 64]⟩ ![0, 1] hbd d2)) := by
  funext i
  obtain ⟨r, j, rfl⟩ : ∃ (r : Fin 50000) (j : Fin 64), i = ix2 r j := ⟨i 0, i 1, eq_ix2 i⟩
  rw [extractStridedSlice_apply _ _ hsl (ix2 r j) (ix2 r ⟨j.val + 64, by omega⟩) (fun a => by
    match a with
    | ⟨0, _⟩ => exact (Nat.zero_add _).symm
    | ⟨1, _⟩ => exact Nat.add_comm _ _)]
  exact head_col gK hg1 hg2 hg3 hg4 hg5 gR hg1' hg2' hg3' hg4' hg5' sK hs1 hs2 hs3 hs4 sR hs1' hs2' hs3' hs4'
    hbK hbR hzK hzR hbd hlt _ _ src dst coef d2 ⟨j.val + 64, by omega⟩ j
    (fun r' => wide_col_hi dR hd1 hd2 hd3 hd4 hd5 hd6 hc x A B r' j) r

end Full

section Programs

variable (m : KMem) (m' : RMem) (c : Dev Cert.KernelIdeal.nD)

theorem mean_head
    (hh : K m c Cert.KernelIdeal.main_v76 = R m' c Cert.ReferenceIdeal.main_v118)
    (h4 : K m c Cert.KernelIdeal.main_arg4 = R m' c Cert.ReferenceIdeal.main_arg4)
    (h5 : K m c Cert.KernelIdeal.main_arg5 = R m' c Cert.ReferenceIdeal.main_arg5)
    (hsrc : K m c Cert.KernelIdeal.main_v84 = R m' c Cert.ReferenceIdeal.main_v141)
    (hdst : K m c Cert.KernelIdeal.main_v90 = R m' c Cert.ReferenceIdeal.main_v146)
    (hcoef : K m c Cert.KernelIdeal.main_v28 = R m' c Cert.ReferenceIdeal.main_v135)
    (hd2 : K m c Cert.KernelIdeal.main_v12 = R m' c Cert.ReferenceIdeal.main_v149) :
    K m c Cert.KernelIdeal.main_v93 = R m' c Cert.ReferenceIdeal.main_v152 := by
  dsimp only [K, R] at hh h4 h5 hsrc hdst hcoef hd2 ⊢
  rw [Cert.KernelIdeal.Hand.fin_main_v93 m c, Cert.KernelIdeal.Hand.fin_main_v92 m c, Cert.KernelIdeal.Hand.fin_main_v91 m c, Cert.KernelIdeal.Hand.fin_main_v89 m c, Cert.KernelIdeal.Hand.fin_main_cst_17 m c, Cert.KernelIdeal.Hand.fin_main_v88 m c, Cert.KernelIdeal.Hand.fin_main_v86 m c, Cert.KernelIdeal.Hand.fin_main_v85 m c, Cert.KernelIdeal.Hand.fin_main_v87 m c, Cert.KernelIdeal.Hand.fin_main_v78 m c, Cert.KernelIdeal.Hand.fin_main_v77 m c]
  rw [Cert.ReferenceIdeal.Hand.e_main_v152, Cert.ReferenceIdeal.Hand.e_main_v147, Cert.ReferenceIdeal.Hand.e_main_v145, Cert.ReferenceIdeal.Hand.e_main_cst_29, Cert.ReferenceIdeal.Hand.e_main_v144, Cert.ReferenceIdeal.Hand.e_main_v142, Cert.ReferenceIdeal.Hand.e_main_v143, Cert.ReferenceIdeal.Hand.e_main_v151, Cert.ReferenceIdeal.Hand.e_main_v150, Cert.ReferenceIdeal.Hand.e_main_v119]
  rw [hh, h4, h5, hsrc, hdst, hcoef, hd2]
  exact head_lo Cert.ReferenceIdeal.dot_S50000x128_S128x64_S50000x64_1_0_0_1_n_n rfl rfl rfl rfl rfl rfl
    Cert.KernelIdeal.gather_S50000x128_S800000x1_S800000x128_1_0_n_n_0_1_1128 rfl rfl rfl rfl rfl
    Cert.ReferenceIdeal.gather_S50000x64_S800000x1_S800000x64_1_0_n_n_0_1_164 rfl rfl rfl rfl rfl
    Cert.KernelIdeal.scatter_S50000x128_S800000x1_S800000x128_1_0_0_1 rfl rfl rfl rfl
    Cert.ReferenceIdeal.scatter_S50000x64_S800000x1_S800000x64_1_0_0_1 rfl rfl rfl rfl
    _ _ _ _ _ _ _ _ _ _ _ _ _ _ _

theorem logstd_head
    (hh : K m c Cert.KernelIdeal.main_v76 = R m' c Cert.ReferenceIdeal.main_v118)
    (h4 : K m c Cert.KernelIdeal.main_arg4 = R m' c Cert.ReferenceIdeal.main_arg4)
    (h5 : K m c Cert.KernelIdeal.main_arg5 = R m' c Cert.ReferenceIdeal.main_arg5)
    (hsrc : K m c Cert.KernelIdeal.main_v84 = R m' c Cert.ReferenceIdeal.main_v141)
    (hdst : K m c Cert.KernelIdeal.main_v90 = R m' c Cert.ReferenceIdeal.main_v146)
    (hcoef : K m c Cert.KernelIdeal.main_v28 = R m' c Cert.ReferenceIdeal.main_v135)
    (hd2 : K m c Cert.KernelIdeal.main_v12 = R m' c Cert.ReferenceIdeal.main_v149)
    (hsrc' : R m' c Cert.ReferenceIdeal.main_v175 = R m' c Cert.ReferenceIdeal.main_v141)
    (hdst' : R m' c Cert.ReferenceIdeal.main_v180 = R m' c Cert.ReferenceIdeal.main_v146)
    (hcoef' : R m' c Cert.ReferenceIdeal.main_v169 = R m' c Cert.ReferenceIdeal.main_v135)
    (hd2' : R m' c Cert.ReferenceIdeal.main_v183 = R m' c Cert.ReferenceIdeal.main_v149) :
    K m c Cert.KernelIdeal.main_v94 = R m' c Cert.ReferenceIdeal.main_v186 := by
  dsimp only [K, R] at hh h4 h5 hsrc hdst hcoef hd2 hsrc' hdst' hcoef' hd2' ⊢
  rw [Cert.KernelIdeal.Hand.fin_main_v94 m c, Cert.KernelIdeal.Hand.fin_main_v92 m c, Cert.KernelIdeal.Hand.fin_main_v91 m c, Cert.KernelIdeal.Hand.fin_main_v89 m c, Cert.KernelIdeal.Hand.fin_main_cst_17 m c, Cert.KernelIdeal.Hand.fin_main_v88 m c, Cert.KernelIdeal.Hand.fin_main_v86 m c, Cert.KernelIdeal.Hand.fin_main_v85 m c, Cert.KernelIdeal.Hand.fin_main_v87 m c, Cert.KernelIdeal.Hand.fin_main_v78 m c, Cert.KernelIdeal.Hand.fin_main_v77 m c]
  rw [Cert.ReferenceIdeal.Hand.e_main_v186, Cert.ReferenceIdeal.Hand.e_main_v181, Cert.ReferenceIdeal.Hand.e_main_v179, Cert.ReferenceIdeal.Hand.e_main_cst_36, Cert.ReferenceIdeal.Hand.e_main_v178, Cert.ReferenceIdeal.Hand.e_main_v176, Cert.ReferenceIdeal.Hand.e_main_v177, Cert.ReferenceIdeal.Hand.e_main_v185, Cert.ReferenceIdeal.Hand.e_main_v184, Cert.ReferenceIdeal.Hand.e_main_v153]
  rw [hsrc', hdst', hcoef', hd2']
  rw [hh, h4, h5, hsrc, hdst, hcoef, hd2]
  exact head_hi Cert.ReferenceIdeal.dot_S50000x128_S128x64_S50000x64_1_0_0_1_n_n rfl rfl rfl rfl rfl rfl
    Cert.KernelIdeal.gather_S50000x128_S800000x1_S800000x128_1_0_n_n_0_1_1128 rfl rfl rfl rfl rfl
    Cert.ReferenceIdeal.gather_S50000x64_S800000x1_S800000x64_1_0_n_n_0_1_164 rfl rfl rfl rfl rfl
    Cert.KernelIdeal.scatter_S50000x128_S800000x1_S800000x128_1_0_0_1 rfl rfl rfl rfl
    Cert.ReferenceIdeal.scatter_S50000x64_S800000x1_S800000x64_1_0_0_1 rfl rfl rfl rfl
    _ _ _ _ _ _ _ _ _ _ _ _ _ _ _

end Programs

end Cert.Bridge

end
-- ==== Proof.BrMain.lean ====
import proofs.«126291_j72541997629772_2_alg».proof.Proof.BrDefs
import proofs.«126291_j72541997629772_2_alg».proof.Defs
import proofs.«126291_j72541997629772_2_alg».proof.Proof.Gen.Pre_finite_inputs
import proofs.«126291_j72541997629772_2_alg».proof.Proof.Br1
import proofs.«126291_j72541997629772_2_alg».proof.Proof.Br2
import proofs.«126291_j72541997629772_2_alg».proof.Proof.Br3
import proofs.«126291_j72541997629772_2_alg».proof.Proof.Br4
import proofs.«126291_j72541997629772_2_alg».proof.Proof.Br5

noncomputable section

namespace Cert.Bridge

open Idealize.ShloMosaic Idealize.ShloMosaic.TcCoe Idealize.SL.Sem

def Agree (m : KMem) (m' : RMem) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

section
variable (m : KMem) (m' : RMem) (c : Dev Cert.KernelIdeal.nD)

theorem arg0_eq (hagree : Agree m m') : K m c Cert.KernelIdeal.main_arg0 = R m' c Cert.ReferenceIdeal.main_arg0 :=
  (K_arg0 m c).trans (((hagree c).1).symm.trans (R_arg0 m' c).symm)

theorem arg1_eq (hagree : Agree m m') : K m c Cert.KernelIdeal.main_arg1 = R m' c Cert.ReferenceIdeal.main_arg1 :=
  (K_arg1 m c).trans (((hagree c).2.1).symm.trans (R_arg1 m' c).symm)

theorem arg2_eq (hagree : Agree m m') : K m c Cert.KernelIdeal.main_arg2 = R m' c Cert.ReferenceIdeal.main_arg2 :=
  (K_arg2 m c).trans (((hagree c).2.2.1).symm.trans (R_arg2 m' c).symm)

theorem arg3_eq (hagree : Agree m m') : K m c Cert.KernelIdeal.main_arg3 = R m' c Cert.ReferenceIdeal.main_arg3 :=
  (K_arg3 m c).trans (((hagree c).2.2.2.1).symm.trans (R_arg3 m' c).symm)

theorem arg4_eq (hagree : Agree m m') : K m c Cert.KernelIdeal.main_arg4 = R m' c Cert.ReferenceIdeal.main_arg4 :=
  (K_arg4 m c).trans (((hagree c).2.2.2.2.1).symm.trans (R_arg4 m' c).symm)

theorem arg5_eq (hagree : Agree m m') : K m c Cert.KernelIdeal.main_arg5 = R m' c Cert.ReferenceIdeal.main_arg5 :=
  (K_arg5 m c).trans (((hagree c).2.2.2.2.2.1).symm.trans (R_arg5 m' c).symm)

theorem arg6_eq (hagree : Agree m m') : K m c Cert.KernelIdeal.main_arg6 = R m' c Cert.ReferenceIdeal.main_arg6 :=
  (K_arg6 m c).trans (((hagree c).2.2.2.2.2.2.1).symm.trans (R_arg6 m' c).symm)

theorem arg7_eq (hagree : Agree m m') : K m c Cert.KernelIdeal.main_arg7 = R m' c Cert.ReferenceIdeal.main_arg7 :=
  (K_arg7 m c).trans (((hagree c).2.2.2.2.2.2.2.1).symm.trans (R_arg7 m' c).symm)

theorem arg8_eq (hagree : Agree m m') : K m c Cert.KernelIdeal.main_arg8 = R m' c Cert.ReferenceIdeal.main_arg8 :=
  (K_arg8 m c).trans (((hagree c).2.2.2.2.2.2.2.2.1).symm.trans (R_arg8 m' c).symm)

theorem arg9_eq (hagree : Agree m m') : K m c Cert.KernelIdeal.main_arg9 = R m' c Cert.ReferenceIdeal.main_arg9 :=
  (K_arg9 m c).trans (((hagree c).2.2.2.2.2.2.2.2.2).symm.trans (R_arg9 m' c).symm)

end

theorem heads (m : KMem) (m' : RMem) (hpre : Cert.Pre_KernelIdeal m) (hagree : Agree m m') (c : Dev Cert.KernelIdeal.nD) :
    R m' c Cert.ReferenceIdeal.main_v152 = K m c Cert.KernelIdeal.main_v93
    ∧ R m' c Cert.ReferenceIdeal.main_v186 = K m c Cert.KernelIdeal.main_v94 := by

  have hsrc := src m m' c (arg1_eq m m' c hagree)
  have hdst := dst m m' c (arg1_eq m m' c hagree)
  have hdinv := dinv m m' c hdst
  have hd2 := d2 m m' c hdinv
  have hcoef := coef m m' c hdinv hsrc hdst

  have hmm1 := mm1 m m' c (arg0_eq m m' c hagree) (arg2_eq m m' c hagree)
  have hmsg1 := msg1 m m' c hmm1 (srcIx_v35 m m' c hsrc) (dstIx_v41 m m' c hdst) hcoef
  have hout1 := out1 m m' c hmm1 hmsg1 hd2
  have hbn1 := bn1 m m' c hout1 (real1 m c hpre) (arg6_eq m m' c hagree) (arg7_eq m m' c hagree)

  have hmm2 := mm2 m m' c hbn1 (arg3_eq m m' c hagree)
  have hmsg2 := msg2 m m' c hmm2 (srcIx_v59 m m' c hsrc) (dstIx_v65 m m' c hdst) (hcoef.trans (coef_v81 m' c).symm)
  have hout2 := out2 m m' c hmm2 hmsg2 (hd2.trans (d2_v95 m' c).symm)
  have hbn2 := bn2 m m' c hout2 (real2 m c hpre) (arg8_eq m m' c hagree) (arg9_eq m m' c hagree)

  have hc135 := hcoef.trans (coef_v135 m' c).symm
  have hd149 := hd2.trans (d2_v149 m' c).symm
  refine ⟨(mean_head m m' c hbn2 (arg4_eq m m' c hagree) (arg5_eq m m' c hagree) (srcIx_v84 m m' c hsrc) (dstIx_v90 m m' c hdst) hc135 hd149).symm, ?_⟩
  exact (logstd_head m m' c hbn2 (arg4_eq m m' c hagree) (arg5_eq m m' c hagree) (srcIx_v84 m m' c hsrc) (dstIx_v90 m m' c hdst) hc135 hd149
    (srcIx_v175 m' c) (dstIx_v180 m' c) ((coef_v169 m' c).trans (coef_v135 m' c).symm) ((d2_v183 m' c).trans (d2_v149 m' c).symm)).symm

end Cert.Bridge

end
-- ==== Proof.Claims.lean ====
import proofs.«126291_j72541997629772_2_alg».proof.Defs
import proofs.«126291_j72541997629772_2_alg».proof.Proof.Gen.Pre_finite_inputs
import proofs.«126291_j72541997629772_2_alg».proof.Proof.Gen.Kernel
import proofs.«126291_j72541997629772_2_alg».proof.Proof.KiRun
import proofs.«126291_j72541997629772_2_alg».proof.Proof.RefRun
import proofs.«126291_j72541997629772_2_alg».proof.Proof.BrMain

noncomputable section

namespace Cert.Proof.Claims

open Idealize.ShloMosaic Idealize.ShloMosaic.TcCoe Idealize.SL.Sem

open Lean Elab Tactic in

elab "exact_unfolding " t:term : tactic => withMainContext do
  (← getMainGoal).assign (← instantiateMVars (← elabTerm t none))
  replaceMainGoal []

theorem frame_k : Cert.frame_Kernel := by
  intro m ρ _
  exact_unfolding Cert.KernelIdeal.Hand.frame (F := Bits) m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun r h c =>
    ⟨(h c Cert.ReferenceIdeal.main_arg0).trans (Cert.Bridge.R_arg0 m c),
      (h c Cert.ReferenceIdeal.main_arg1).trans (Cert.Bridge.R_arg1 m c),
      (h c Cert.ReferenceIdeal.main_arg2).trans (Cert.Bridge.R_arg2 m c),
      (h c Cert.ReferenceIdeal.main_arg3).trans (Cert.Bridge.R_arg3 m c),
      (h c Cert.ReferenceIdeal.main_arg4).trans (Cert.Bridge.R_arg4 m c),
      (h c Cert.ReferenceIdeal.main_arg5).trans (Cert.Bridge.R_arg5 m c),
      (h c Cert.ReferenceIdeal.main_arg6).trans (Cert.Bridge.R_arg6 m c),
      (h c Cert.ReferenceIdeal.main_arg7).trans (Cert.Bridge.R_arg7 m c),
      (h c Cert.ReferenceIdeal.main_arg8).trans (Cert.Bridge.R_arg8 m c),
      (h c Cert.ReferenceIdeal.main_arg9).trans (Cert.Bridge.R_arg9 m c)⟩)
    (Cert.ReferenceIdeal.Hand.run (F := Ideal) m ρ)

theorem preserves : Cert.preserves_Kernel_KernelIdeal := trivial

theorem algebraic : Cert.algebraic_KernelIdeal_ReferenceIdeal := by
  intro m ρ m' ρ' hpre hagree
  refine ⟨fun c => Cert.Bridge.K m c Cert.KernelIdeal.main_v93, fun c => Cert.Bridge.K m c Cert.KernelIdeal.main_v94, ?_, ?_⟩
  · refine (θ_run Cert.KernelIdeal.defs _ _).mono (fun r h c => ?_) (Cert.KernelIdeal.Hand.run (F := Ideal) m ρ)
    have hb : ∀ (b : Ref Cert.KernelIdeal.sig .tc), ¬ (Proc.devRef .tc b : DevRef Cert.KernelIdeal.τ Cert.KernelIdeal.sig).isScoped →
        r.2.mem ((c.tc : Thread Cert.KernelIdeal.nD Cert.KernelIdeal.τ).loc b) = Cert.Bridge.K m c b :=
      fun b hs => h c (Proc.devRef .tc b) (Cert.KernelIdeal.Hand.mem_uc b hs)
    exact ⟨hb Cert.KernelIdeal.main_v93 (by decide), hb Cert.KernelIdeal.main_v94 (by decide),
      (hb Cert.KernelIdeal.main_arg0 (by decide)).trans (Cert.Bridge.K_arg0 m c),
      (hb Cert.KernelIdeal.main_arg1 (by decide)).trans (Cert.Bridge.K_arg1 m c),
      (hb Cert.KernelIdeal.main_arg2 (by decide)).trans (Cert.Bridge.K_arg2 m c),
      (hb Cert.KernelIdeal.main_arg3 (by decide)).trans (Cert.Bridge.K_arg3 m c),
      (hb Cert.KernelIdeal.main_arg4 (by decide)).trans (Cert.Bridge.K_arg4 m c),
      (hb Cert.KernelIdeal.main_arg5 (by decide)).trans (Cert.Bridge.K_arg5 m c),
      (hb Cert.KernelIdeal.main_arg6 (by decide)).trans (Cert.Bridge.K_arg6 m c),
      (hb Cert.KernelIdeal.main_arg7 (by decide)).trans (Cert.Bridge.K_arg7 m c),
      (hb Cert.KernelIdeal.main_arg8 (by decide)).trans (Cert.Bridge.K_arg8 m c),
      (hb Cert.KernelIdeal.main_arg9 (by decide)).trans (Cert.Bridge.K_arg9 m c)⟩
  · refine (θ_run Cert.ReferenceIdeal.defs _ _).mono (fun r h c => ?_) (Cert.ReferenceIdeal.Hand.run (F := Ideal) m' ρ')
    obtain ⟨h0, h1⟩ := Cert.Bridge.heads m m' hpre hagree c
    exact ⟨(h c Cert.ReferenceIdeal.main_v152).trans h0, (h c Cert.ReferenceIdeal.main_v186).trans h1,
      (h c Cert.ReferenceIdeal.main_arg0).trans (Cert.Bridge.R_arg0 m' c),
      (h c Cert.ReferenceIdeal.main_arg1).trans (Cert.Bridge.R_arg1 m' c),
      (h c Cert.ReferenceIdeal.main_arg2).trans (Cert.Bridge.R_arg2 m' c),
      (h c Cert.ReferenceIdeal.main_arg3).trans (Cert.Bridge.R_arg3 m' c),
      (h c Cert.ReferenceIdeal.main_arg4).trans (Cert.Bridge.R_arg4 m' c),
      (h c Cert.ReferenceIdeal.main_arg5).trans (Cert.Bridge.R_arg5 m' c),
      (h c Cert.ReferenceIdeal.main_arg6).trans (Cert.Bridge.R_arg6 m' c),
      (h c Cert.ReferenceIdeal.main_arg7).trans (Cert.Bridge.R_arg7 m' c),
      (h c Cert.ReferenceIdeal.main_arg8).trans (Cert.Bridge.R_arg8 m' c),
      (h c Cert.ReferenceIdeal.main_arg9).trans (Cert.Bridge.R_arg9 m' c)⟩

end Cert.Proof.Claims

end
-- ==== Proof.lean ====
/- A two-layer graph-convolution encoder with two heads: the row-blocked program against the plain one, equal on the
   extended reals when the inputs are finite. -/
import proofs.«126291_j72541997629772_2_alg».proof.Defs
import proofs.«126291_j72541997629772_2_alg».proof.Proof.Gen.Kernel
import proofs.«126291_j72541997629772_2_alg».proof.Proof.Gen.KernelIdeal
import proofs.«126291_j72541997629772_2_alg».proof.Proof.Gen.ReferenceIdeal
import proofs.«126291_j72541997629772_2_alg».proof.Proof.Gen.Pre_finite_inputs
import proofs.«126291_j72541997629772_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
